-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 4096]⟩ ⟨2, ![1024, 4096]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x4096 : Shape := ⟨2, ![1024, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .f32) (main_arg1 : FVec F S1024x4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Pre_finite_inputs_ReferenceIdeal.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x1024 .f32) (main_arg1 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S1024x1024 : Shape := ⟨2, ![1024, 1024]⟩
abbrev S1024x4096 : Shape := ⟨2, ![1024, 4096]⟩
abbrev S256x4096 : Shape := ⟨2, ![256, 4096]⟩
abbrev S8x3x256x128 : Shape := ⟨4, ![8, 3, 256, 128]⟩
abbrev S_ : Shape := ⟨0, ![]⟩
abbrev S8x3 : Shape := ⟨2, ![8, 3]⟩
abbrev S8 : Shape := ⟨1, ![8]⟩
abbrev S1024x256 : Shape := ⟨2, ![1024, 256]⟩
abbrev S256x1024 : Shape := ⟨2, ![256, 1024]⟩
abbrev S1x1 : Shape := ⟨2, ![1, 1]⟩
abbrev S1x1x256x128 : Shape := ⟨4, ![1, 1, 256, 128]⟩
abbrev S256x128 : Shape := ⟨2, ![256, 128]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S256x4096, .f32⟩
  | .local _ .vmem, ⟨0, _⟩ => ⟨S256x4096, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x3x256x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v39 : BitVec 32 := Scalar.muli v2 c8_i32_21
  let v40 : BitVec 32 := Scalar.addi c0_i32_22 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v41 : BitVec 32 := Scalar.muli v5 c4_i32_23
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v25 : BitVec 32 := Scalar.subi v8 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_24 : BitVec 32 := 1#32
  let v43 : BitVec 32 := Scalar.muli v35 c1_i32_24
  let v44 : BitVec 32 := Scalar.addi v42 v43
  v44.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v45 : BitVec 32 := Scalar.muli v2 c8_i32_26
  let v46 : BitVec 32 := Scalar.addi c0_i32_27 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v47 : BitVec 32 := Scalar.muli v5 c4_i32_28
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_29 : BitVec 32 := 1#32
  let v49 : BitVec 32 := Scalar.muli v24 c1_i32_29
  let v50 : BitVec 32 := Scalar.addi v48 v49
  v50.toNat
def k0_dev3 (d0 : Dev nD) : Nat :=
  let c0_i32_32 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_31 : BitVec 32 := 8#32
  let v51 : BitVec 32 := Scalar.muli v36 c8_i32_31
  let v52 : BitVec 32 := Scalar.addi c0_i32_32 v51
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v53 : BitVec 32 := Scalar.muli v5 c4_i32_33
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v55 : BitVec 32 := Scalar.muli v8 c1_i32_34
  let v56 : BitVec 32 := Scalar.addi v54 v55
  v56.toNat
def k0_dev4 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v57 : BitVec 32 := Scalar.muli v2 c8_i32_36
  let v58 : BitVec 32 := Scalar.addi c0_i32_37 v57
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_38 : BitVec 32 := 4#32
  let v59 : BitVec 32 := Scalar.muli v37 c4_i32_38
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v61 : BitVec 32 := Scalar.muli v8 c1_i32_39
  let v62 : BitVec 32 := Scalar.addi v60 v61
  v62.toNat
def k0_off1 (d0 : Dev nD) : Fin 2 → Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c2_i32_2 v5
  let v10 : BitVec 32 := Scalar.addi v2 v9
  let c1024_i32 : BitVec 32 := 1024#32
  let v63 : BitVec 32 := Scalar.muli v10 c1024_i32
  ![0, v63.toNat]
def k0_off2 (d0 : Dev nD) (c1_i32_42 : BitVec 32) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.subi v8 c1_i32_42
  let c4_i32_43 : BitVec 32 := 4#32
  let c0_i32_44 : BitVec 32 := 0#32
  let v67 : BitVec 1 := Scalar.cmpi .eq c4_i32_43 c0_i32_44
  let c1_i32_45 : BitVec 32 := 1#32
  let v68 : BitVec 32 := Scalar.select v67 c1_i32_45 c4_i32_43
  let v69 : BitVec 32 := Scalar.remsi v66 v68
  let c0_i32_47 : BitVec 32 := 0#32
  let v71 : BitVec 1 := Scalar.cmpi .slt v69 c0_i32_47
  let c0_i32_48 : BitVec 32 := 0#32
  let v72 : BitVec 1 := Scalar.cmpi .slt v68 c0_i32_48
  let v73 : BitVec 1 := Scalar.xori v71 v72
  let c0_i32_46 : BitVec 32 := 0#32
  let v70 : BitVec 1 := Scalar.cmpi .ne v69 c0_i32_46
  let v74 : BitVec 1 := Scalar.andi v73 v70
  let v75 : BitVec 32 := Scalar.addi v69 v68
  let v76 : BitVec 32 := Scalar.select v74 v75 v69
  let c256_i32 : BitVec 32 := 256#32
  let v77 : BitVec 32 := Scalar.muli v76 c256_i32
  let v78 : Index := Scalar.indexCast v77
  ![0, v78.toNat]
def k0_off3 (d0 : Dev nD) (c1_i32_42 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.subi v8 c1_i32_42
  let c4_i32_43 : BitVec 32 := 4#32
  let c0_i32_44 : BitVec 32 := 0#32
  let v67 : BitVec 1 := Scalar.cmpi .eq c4_i32_43 c0_i32_44
  let c1_i32_45 : BitVec 32 := 1#32
  let v68 : BitVec 32 := Scalar.select v67 c1_i32_45 c4_i32_43
  let v69 : BitVec 32 := Scalar.remsi v66 v68
  let c0_i32_47 : BitVec 32 := 0#32
  let v71 : BitVec 1 := Scalar.cmpi .slt v69 c0_i32_47
  let c0_i32_48 : BitVec 32 := 0#32
  let v72 : BitVec 1 := Scalar.cmpi .slt v68 c0_i32_48
  let v73 : BitVec 1 := Scalar.xori v71 v72
  let c0_i32_46 : BitVec 32 := 0#32
  let v70 : BitVec 1 := Scalar.cmpi .ne v69 c0_i32_46
  let v74 : BitVec 1 := Scalar.andi v73 v70
  let v75 : BitVec 32 := Scalar.addi v69 v68
  let v76 : BitVec 32 := Scalar.select v74 v75 v69
  let c256_i32_51 : BitVec 32 := 256#32
  let v82 : BitVec 32 := Scalar.muli v76 c256_i32_51
  let v83 : Index := Scalar.indexCast v82
  let c0_52 : Index := 0#32
  ![v83.toNat, 0]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v87 : BitVec 32 := Scalar.subi v8 c1_i32_54
  let c4_i32_55 : BitVec 32 := 4#32
  let c0_i32_56 : BitVec 32 := 0#32
  let v88 : BitVec 1 := Scalar.cmpi .eq c4_i32_55 c0_i32_56
  let c1_i32_57 : BitVec 32 := 1#32
  let v89 : BitVec 32 := Scalar.select v88 c1_i32_57 c4_i32_55
  let v90 : BitVec 32 := Scalar.remsi v87 v89
  let c0_i32_59 : BitVec 32 := 0#32
  let v92 : BitVec 1 := Scalar.cmpi .slt v90 c0_i32_59
  let c0_i32_60 : BitVec 32 := 0#32
  let v93 : BitVec 1 := Scalar.cmpi .slt v89 c0_i32_60
  let v94 : BitVec 1 := Scalar.xori v92 v93
  let c0_i32_58 : BitVec 32 := 0#32
  let v91 : BitVec 1 := Scalar.cmpi .ne v90 c0_i32_58
  let v95 : BitVec 1 := Scalar.andi v94 v91
  let v96 : BitVec 32 := Scalar.addi v90 v89
  let v97 : BitVec 32 := Scalar.select v95 v96 v90
  let c256_i32_61 : BitVec 32 := 256#32
  let v98 : BitVec 32 := Scalar.muli v97 c256_i32_61
  let c0_i32_74 : BitVec 32 := 0#32
  ![v98.toNat, 0]
def k0_dev5 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v99 : BitVec 32 := Scalar.muli v2 c8_i32_68
  let v100 : BitVec 32 := Scalar.addi c0_i32_69 v99
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v101 : BitVec 32 := Scalar.muli v5 c4_i32_70
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_71 : BitVec 32 := 1#32
  let v103 : BitVec 32 := Scalar.muli v24 c1_i32_71
  let v104 : BitVec 32 := Scalar.addi v102 v103
  v104.toNat
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v112 : BitVec 32 := Scalar.subi v8 c1_i32_75
  let c4_i32_76 : BitVec 32 := 4#32
  let c0_i32_77 : BitVec 32 := 0#32
  let v113 : BitVec 1 := Scalar.cmpi .eq c4_i32_76 c0_i32_77
  let c1_i32_78 : BitVec 32 := 1#32
  let v114 : BitVec 32 := Scalar.select v113 c1_i32_78 c4_i32_76
  let v115 : BitVec 32 := Scalar.remsi v112 v114
  let c0_i32_80 : BitVec 32 := 0#32
  let v117 : BitVec 1 := Scalar.cmpi .slt v115 c0_i32_80
  let c0_i32_81 : BitVec 32 := 0#32
  let v118 : BitVec 1 := Scalar.cmpi .slt v114 c0_i32_81
  let v119 : BitVec 1 := Scalar.xori v117 v118
  let c0_i32_79 : BitVec 32 := 0#32
  let v116 : BitVec 1 := Scalar.cmpi .ne v115 c0_i32_79
  let v120 : BitVec 1 := Scalar.andi v119 v116
  let v121 : BitVec 32 := Scalar.addi v115 v114
  let v122 : BitVec 32 := Scalar.select v120 v121 v115
  let c256_i32_82 : BitVec 32 := 256#32
  let v123 : BitVec 32 := Scalar.muli v122 c256_i32_82
  let c128_i32 : BitVec 32 := 128#32
  ![v123.toNat, 128]
def k0_dev6 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v124 : BitVec 32 := Scalar.muli v2 c8_i32_89
  let v125 : BitVec 32 := Scalar.addi c0_i32_90 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v126 : BitVec 32 := Scalar.muli v5 c4_i32_91
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_92 : BitVec 32 := 1#32
  let v128 : BitVec 32 := Scalar.muli v24 c1_i32_92
  let v129 : BitVec 32 := Scalar.addi v127 v128
  v129.toNat
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v137 : BitVec 32 := Scalar.subi v8 c1_i32_95
  let c4_i32_96 : BitVec 32 := 4#32
  let c0_i32_97 : BitVec 32 := 0#32
  let v138 : BitVec 1 := Scalar.cmpi .eq c4_i32_96 c0_i32_97
  let c1_i32_98 : BitVec 32 := 1#32
  let v139 : BitVec 32 := Scalar.select v138 c1_i32_98 c4_i32_96
  let v140 : BitVec 32 := Scalar.remsi v137 v139
  let c0_i32_100 : BitVec 32 := 0#32
  let v142 : BitVec 1 := Scalar.cmpi .slt v140 c0_i32_100
  let c0_i32_101 : BitVec 32 := 0#32
  let v143 : BitVec 1 := Scalar.cmpi .slt v139 c0_i32_101
  let v144 : BitVec 1 := Scalar.xori v142 v143
  let c0_i32_99 : BitVec 32 := 0#32
  let v141 : BitVec 1 := Scalar.cmpi .ne v140 c0_i32_99
  let v145 : BitVec 1 := Scalar.andi v144 v141
  let v146 : BitVec 32 := Scalar.addi v140 v139
  let v147 : BitVec 32 := Scalar.select v145 v146 v140
  let c256_i32_102 : BitVec 32 := 256#32
  let v148 : BitVec 32 := Scalar.muli v147 c256_i32_102
  let c256_i32_115 : BitVec 32 := 256#32
  ![v148.toNat, 256]
def k0_dev7 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v149 : BitVec 32 := Scalar.muli v2 c8_i32_109
  let v150 : BitVec 32 := Scalar.addi c0_i32_110 v149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v151 : BitVec 32 := Scalar.muli v5 c4_i32_111
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_112 : BitVec 32 := 1#32
  let v153 : BitVec 32 := Scalar.muli v24 c1_i32_112
  let v154 : BitVec 32 := Scalar.addi v152 v153
  v154.toNat
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v162 : BitVec 32 := Scalar.subi v8 c1_i32_116
  let c4_i32_117 : BitVec 32 := 4#32
  let c0_i32_118 : BitVec 32 := 0#32
  let v163 : BitVec 1 := Scalar.cmpi .eq c4_i32_117 c0_i32_118
  let c1_i32_119 : BitVec 32 := 1#32
  let v164 : BitVec 32 := Scalar.select v163 c1_i32_119 c4_i32_117
  let v165 : BitVec 32 := Scalar.remsi v162 v164
  let c0_i32_121 : BitVec 32 := 0#32
  let v167 : BitVec 1 := Scalar.cmpi .slt v165 c0_i32_121
  let c0_i32_122 : BitVec 32 := 0#32
  let v168 : BitVec 1 := Scalar.cmpi .slt v164 c0_i32_122
  let v169 : BitVec 1 := Scalar.xori v167 v168
  let c0_i32_120 : BitVec 32 := 0#32
  let v166 : BitVec 1 := Scalar.cmpi .ne v165 c0_i32_120
  let v170 : BitVec 1 := Scalar.andi v169 v166
  let v171 : BitVec 32 := Scalar.addi v165 v164
  let v172 : BitVec 32 := Scalar.select v170 v171 v165
  let c256_i32_123 : BitVec 32 := 256#32
  let v173 : BitVec 32 := Scalar.muli v172 c256_i32_123
  let c384_i32 : BitVec 32 := 384#32
  ![v173.toNat, 384]
def k0_dev8 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v174 : BitVec 32 := Scalar.muli v2 c8_i32_129
  let v175 : BitVec 32 := Scalar.addi c0_i32_130 v174
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v176 : BitVec 32 := Scalar.muli v5 c4_i32_131
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_132 : BitVec 32 := 1#32
  let v178 : BitVec 32 := Scalar.muli v24 c1_i32_132
  let v179 : BitVec 32 := Scalar.addi v177 v178
  v179.toNat
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v187 : BitVec 32 := Scalar.subi v8 c1_i32_135
  let c4_i32_136 : BitVec 32 := 4#32
  let c0_i32_137 : BitVec 32 := 0#32
  let v188 : BitVec 1 := Scalar.cmpi .eq c4_i32_136 c0_i32_137
  let c1_i32_138 : BitVec 32 := 1#32
  let v189 : BitVec 32 := Scalar.select v188 c1_i32_138 c4_i32_136
  let v190 : BitVec 32 := Scalar.remsi v187 v189
  let c0_i32_140 : BitVec 32 := 0#32
  let v192 : BitVec 1 := Scalar.cmpi .slt v190 c0_i32_140
  let c0_i32_141 : BitVec 32 := 0#32
  let v193 : BitVec 1 := Scalar.cmpi .slt v189 c0_i32_141
  let v194 : BitVec 1 := Scalar.xori v192 v193
  let c0_i32_139 : BitVec 32 := 0#32
  let v191 : BitVec 1 := Scalar.cmpi .ne v190 c0_i32_139
  let v195 : BitVec 1 := Scalar.andi v194 v191
  let v196 : BitVec 32 := Scalar.addi v190 v189
  let v197 : BitVec 32 := Scalar.select v195 v196 v190
  let c256_i32_142 : BitVec 32 := 256#32
  let v198 : BitVec 32 := Scalar.muli v197 c256_i32_142
  let c512_i32 : BitVec 32 := 512#32
  ![v198.toNat, 512]
def k0_dev9 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v199 : BitVec 32 := Scalar.muli v2 c8_i32_149
  let v200 : BitVec 32 := Scalar.addi c0_i32_150 v199
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v201 : BitVec 32 := Scalar.muli v5 c4_i32_151
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_152 : BitVec 32 := 1#32
  let v203 : BitVec 32 := Scalar.muli v24 c1_i32_152
  let v204 : BitVec 32 := Scalar.addi v202 v203
  v204.toNat
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v212 : BitVec 32 := Scalar.subi v8 c1_i32_155
  let c4_i32_156 : BitVec 32 := 4#32
  let c0_i32_157 : BitVec 32 := 0#32
  let v213 : BitVec 1 := Scalar.cmpi .eq c4_i32_156 c0_i32_157
  let c1_i32_158 : BitVec 32 := 1#32
  let v214 : BitVec 32 := Scalar.select v213 c1_i32_158 c4_i32_156
  let v215 : BitVec 32 := Scalar.remsi v212 v214
  let c0_i32_160 : BitVec 32 := 0#32
  let v217 : BitVec 1 := Scalar.cmpi .slt v215 c0_i32_160
  let c0_i32_161 : BitVec 32 := 0#32
  let v218 : BitVec 1 := Scalar.cmpi .slt v214 c0_i32_161
  let v219 : BitVec 1 := Scalar.xori v217 v218
  let c0_i32_159 : BitVec 32 := 0#32
  let v216 : BitVec 1 := Scalar.cmpi .ne v215 c0_i32_159
  let v220 : BitVec 1 := Scalar.andi v219 v216
  let v221 : BitVec 32 := Scalar.addi v215 v214
  let v222 : BitVec 32 := Scalar.select v220 v221 v215
  let c256_i32_162 : BitVec 32 := 256#32
  let v223 : BitVec 32 := Scalar.muli v222 c256_i32_162
  let c640_i32 : BitVec 32 := 640#32
  ![v223.toNat, 640]
def k0_dev10 (d0 : Dev nD) : Nat :=
  let c0_i32_169 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_168 : BitVec 32 := 8#32
  let v224 : BitVec 32 := Scalar.muli v2 c8_i32_168
  let v225 : BitVec 32 := Scalar.addi c0_i32_169 v224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_170 : BitVec 32 := 4#32
  let v226 : BitVec 32 := Scalar.muli v5 c4_i32_170
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_171 : BitVec 32 := 1#32
  let v228 : BitVec 32 := Scalar.muli v24 c1_i32_171
  let v229 : BitVec 32 := Scalar.addi v227 v228
  v229.toNat
def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v237 : BitVec 32 := Scalar.subi v8 c1_i32_174
  let c4_i32_175 : BitVec 32 := 4#32
  let c0_i32_176 : BitVec 32 := 0#32
  let v238 : BitVec 1 := Scalar.cmpi .eq c4_i32_175 c0_i32_176
  let c1_i32_177 : BitVec 32 := 1#32
  let v239 : BitVec 32 := Scalar.select v238 c1_i32_177 c4_i32_175
  let v240 : BitVec 32 := Scalar.remsi v237 v239
  let c0_i32_179 : BitVec 32 := 0#32
  let v242 : BitVec 1 := Scalar.cmpi .slt v240 c0_i32_179
  let c0_i32_180 : BitVec 32 := 0#32
  let v243 : BitVec 1 := Scalar.cmpi .slt v239 c0_i32_180
  let v244 : BitVec 1 := Scalar.xori v242 v243
  let c0_i32_178 : BitVec 32 := 0#32
  let v241 : BitVec 1 := Scalar.cmpi .ne v240 c0_i32_178
  let v245 : BitVec 1 := Scalar.andi v244 v241
  let v246 : BitVec 32 := Scalar.addi v240 v239
  let v247 : BitVec 32 := Scalar.select v245 v246 v240
  let c256_i32_181 : BitVec 32 := 256#32
  let v248 : BitVec 32 := Scalar.muli v247 c256_i32_181
  let c768_i32 : BitVec 32 := 768#32
  ![v248.toNat, 768]
def k0_dev11 (d0 : Dev nD) : Nat :=
  let c0_i32_188 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_187 : BitVec 32 := 8#32
  let v249 : BitVec 32 := Scalar.muli v2 c8_i32_187
  let v250 : BitVec 32 := Scalar.addi c0_i32_188 v249
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_189 : BitVec 32 := 4#32
  let v251 : BitVec 32 := Scalar.muli v5 c4_i32_189
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_190 : BitVec 32 := 1#32
  let v253 : BitVec 32 := Scalar.muli v24 c1_i32_190
  let v254 : BitVec 32 := Scalar.addi v252 v253
  v254.toNat
def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v262 : BitVec 32 := Scalar.subi v8 c1_i32_193
  let c4_i32_194 : BitVec 32 := 4#32
  let c0_i32_195 : BitVec 32 := 0#32
  let v263 : BitVec 1 := Scalar.cmpi .eq c4_i32_194 c0_i32_195
  let c1_i32_196 : BitVec 32 := 1#32
  let v264 : BitVec 32 := Scalar.select v263 c1_i32_196 c4_i32_194
  let v265 : BitVec 32 := Scalar.remsi v262 v264
  let c0_i32_198 : BitVec 32 := 0#32
  let v267 : BitVec 1 := Scalar.cmpi .slt v265 c0_i32_198
  let c0_i32_199 : BitVec 32 := 0#32
  let v268 : BitVec 1 := Scalar.cmpi .slt v264 c0_i32_199
  let v269 : BitVec 1 := Scalar.xori v267 v268
  let c0_i32_197 : BitVec 32 := 0#32
  let v266 : BitVec 1 := Scalar.cmpi .ne v265 c0_i32_197
  let v270 : BitVec 1 := Scalar.andi v269 v266
  let v271 : BitVec 32 := Scalar.addi v265 v264
  let v272 : BitVec 32 := Scalar.select v270 v271 v265
  let c256_i32_200 : BitVec 32 := 256#32
  let v273 : BitVec 32 := Scalar.muli v272 c256_i32_200
  let c896_i32 : BitVec 32 := 896#32
  ![v273.toNat, 896]
def k0_dev12 (d0 : Dev nD) : Nat :=
  let c0_i32_207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_206 : BitVec 32 := 8#32
  let v274 : BitVec 32 := Scalar.muli v2 c8_i32_206
  let v275 : BitVec 32 := Scalar.addi c0_i32_207 v274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_208 : BitVec 32 := 4#32
  let v276 : BitVec 32 := Scalar.muli v5 c4_i32_208
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_209 : BitVec 32 := 1#32
  let v278 : BitVec 32 := Scalar.muli v24 c1_i32_209
  let v279 : BitVec 32 := Scalar.addi v277 v278
  v279.toNat
def k0_off12 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_289 : BitVec 32 := 256#32
  let v380 : BitVec 32 := Scalar.muli v361 c256_i32_289
  let v381 : Index := Scalar.indexCast v380
  let c0_290 : Index := 0#32
  ![v381.toNat, 0]
def k0_dev13 (d0 : Dev nD) : Nat :=
  let c0_i32_304 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_303 : BitVec 32 := 8#32
  let v387 : BitVec 32 := Scalar.muli v2 c8_i32_303
  let v388 : BitVec 32 := Scalar.addi c0_i32_304 v387
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_305 : BitVec 32 := 4#32
  let v389 : BitVec 32 := Scalar.muli v5 c4_i32_305
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_306 : BitVec 32 := 1#32
  let v391 : BitVec 32 := Scalar.muli v24 c1_i32_306
  let v392 : BitVec 32 := Scalar.addi v390 v391
  v392.toNat
def k0_off13 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_337 : BitVec 32 := 256#32
  let v419 : BitVec 32 := Scalar.muli v361 c256_i32_337
  let v420 : Index := Scalar.indexCast v419
  let c128 : Index := 128#32
  ![v420.toNat, 128]
def k0_dev14 (d0 : Dev nD) : Nat :=
  let c0_i32_351 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_350 : BitVec 32 := 8#32
  let v426 : BitVec 32 := Scalar.muli v2 c8_i32_350
  let v427 : BitVec 32 := Scalar.addi c0_i32_351 v426
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_352 : BitVec 32 := 4#32
  let v428 : BitVec 32 := Scalar.muli v5 c4_i32_352
  let v429 : BitVec 32 := Scalar.addi v427 v428
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_353 : BitVec 32 := 1#32
  let v430 : BitVec 32 := Scalar.muli v24 c1_i32_353
  let v431 : BitVec 32 := Scalar.addi v429 v430
  v431.toNat
def k0_off14 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_384 : BitVec 32 := 256#32
  let v458 : BitVec 32 := Scalar.muli v361 c256_i32_384
  let v459 : Index := Scalar.indexCast v458
  let c256 : Index := 256#32
  ![v459.toNat, 256]
def k0_dev15 (d0 : Dev nD) : Nat :=
  let c0_i32_398 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_397 : BitVec 32 := 8#32
  let v465 : BitVec 32 := Scalar.muli v2 c8_i32_397
  let v466 : BitVec 32 := Scalar.addi c0_i32_398 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_399 : BitVec 32 := 4#32
  let v467 : BitVec 32 := Scalar.muli v5 c4_i32_399
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_400 : BitVec 32 := 1#32
  let v469 : BitVec 32 := Scalar.muli v24 c1_i32_400
  let v470 : BitVec 32 := Scalar.addi v468 v469
  v470.toNat
def k0_off15 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_431 : BitVec 32 := 256#32
  let v497 : BitVec 32 := Scalar.muli v361 c256_i32_431
  let v498 : Index := Scalar.indexCast v497
  let c384 : Index := 384#32
  ![v498.toNat, 384]
def k0_dev16 (d0 : Dev nD) : Nat :=
  let c0_i32_445 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_444 : BitVec 32 := 8#32
  let v504 : BitVec 32 := Scalar.muli v2 c8_i32_444
  let v505 : BitVec 32 := Scalar.addi c0_i32_445 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_446 : BitVec 32 := 4#32
  let v506 : BitVec 32 := Scalar.muli v5 c4_i32_446
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_447 : BitVec 32 := 1#32
  let v508 : BitVec 32 := Scalar.muli v24 c1_i32_447
  let v509 : BitVec 32 := Scalar.addi v507 v508
  v509.toNat
def k0_off16 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_478 : BitVec 32 := 256#32
  let v536 : BitVec 32 := Scalar.muli v361 c256_i32_478
  let v537 : Index := Scalar.indexCast v536
  let c512 : Index := 512#32
  ![v537.toNat, 512]
def k0_dev17 (d0 : Dev nD) : Nat :=
  let c0_i32_492 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_491 : BitVec 32 := 8#32
  let v543 : BitVec 32 := Scalar.muli v2 c8_i32_491
  let v544 : BitVec 32 := Scalar.addi c0_i32_492 v543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_493 : BitVec 32 := 4#32
  let v545 : BitVec 32 := Scalar.muli v5 c4_i32_493
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_494 : BitVec 32 := 1#32
  let v547 : BitVec 32 := Scalar.muli v24 c1_i32_494
  let v548 : BitVec 32 := Scalar.addi v546 v547
  v548.toNat
def k0_off17 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_525 : BitVec 32 := 256#32
  let v575 : BitVec 32 := Scalar.muli v361 c256_i32_525
  let v576 : Index := Scalar.indexCast v575
  let c640 : Index := 640#32
  ![v576.toNat, 640]
def k0_dev18 (d0 : Dev nD) : Nat :=
  let c0_i32_539 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_538 : BitVec 32 := 8#32
  let v582 : BitVec 32 := Scalar.muli v2 c8_i32_538
  let v583 : BitVec 32 := Scalar.addi c0_i32_539 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_540 : BitVec 32 := 4#32
  let v584 : BitVec 32 := Scalar.muli v5 c4_i32_540
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_541 : BitVec 32 := 1#32
  let v586 : BitVec 32 := Scalar.muli v24 c1_i32_541
  let v587 : BitVec 32 := Scalar.addi v585 v586
  v587.toNat
def k0_off18 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_572 : BitVec 32 := 256#32
  let v614 : BitVec 32 := Scalar.muli v361 c256_i32_572
  let v615 : Index := Scalar.indexCast v614
  let c768 : Index := 768#32
  ![v615.toNat, 768]
def k0_dev19 (d0 : Dev nD) : Nat :=
  let c0_i32_586 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_585 : BitVec 32 := 8#32
  let v621 : BitVec 32 := Scalar.muli v2 c8_i32_585
  let v622 : BitVec 32 := Scalar.addi c0_i32_586 v621
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_587 : BitVec 32 := 4#32
  let v623 : BitVec 32 := Scalar.muli v5 c4_i32_587
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_588 : BitVec 32 := 1#32
  let v625 : BitVec 32 := Scalar.muli v24 c1_i32_588
  let v626 : BitVec 32 := Scalar.addi v624 v625
  v626.toNat
def k0_off19 (d0 : Dev nD) (c1_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v350 : BitVec 32 := Scalar.subi v8 c1_i32_254
  let c1_i32_255 : BitVec 32 := 1#32
  let v351 : BitVec 32 := Scalar.subi v350 c1_i32_255
  let c4_i32_256 : BitVec 32 := 4#32
  let c0_i32_257 : BitVec 32 := 0#32
  let v352 : BitVec 1 := Scalar.cmpi .eq c4_i32_256 c0_i32_257
  let c1_i32_258 : BitVec 32 := 1#32
  let v353 : BitVec 32 := Scalar.select v352 c1_i32_258 c4_i32_256
  let v354 : BitVec 32 := Scalar.remsi v351 v353
  let c0_i32_260 : BitVec 32 := 0#32
  let v356 : BitVec 1 := Scalar.cmpi .slt v354 c0_i32_260
  let c0_i32_261 : BitVec 32 := 0#32
  let v357 : BitVec 1 := Scalar.cmpi .slt v353 c0_i32_261
  let v358 : BitVec 1 := Scalar.xori v356 v357
  let c0_i32_259 : BitVec 32 := 0#32
  let v355 : BitVec 1 := Scalar.cmpi .ne v354 c0_i32_259
  let v359 : BitVec 1 := Scalar.andi v358 v355
  let v360 : BitVec 32 := Scalar.addi v354 v353
  let v361 : BitVec 32 := Scalar.select v359 v360 v354
  let c256_i32_619 : BitVec 32 := 256#32
  let v653 : BitVec 32 := Scalar.muli v361 c256_i32_619
  let v654 : Index := Scalar.indexCast v653
  let c896 : Index := 896#32
  ![v654.toNat, 896]
def k0_dev20 (d0 : Dev nD) : Nat :=
  let c0_i32_633 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_632 : BitVec 32 := 8#32
  let v660 : BitVec 32 := Scalar.muli v2 c8_i32_632
  let v661 : BitVec 32 := Scalar.addi c0_i32_633 v660
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_634 : BitVec 32 := 4#32
  let v662 : BitVec 32 := Scalar.muli v5 c4_i32_634
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_635 : BitVec 32 := 1#32
  let v664 : BitVec 32 := Scalar.muli v24 c1_i32_635
  let v665 : BitVec 32 := Scalar.addi v663 v664
  v665.toNat
def k0_dev21 (d0 : Dev nD) : Nat :=
  let c0_i32_696 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_695 : BitVec 32 := 8#32
  let v713 : BitVec 32 := Scalar.muli v2 c8_i32_695
  let v714 : BitVec 32 := Scalar.addi c0_i32_696 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_697 : BitVec 32 := 4#32
  let v715 : BitVec 32 := Scalar.muli v5 c4_i32_697
  let v716 : BitVec 32 := Scalar.addi v714 v715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_698 : BitVec 32 := 1#32
  let v717 : BitVec 32 := Scalar.muli v24 c1_i32_698
  let v718 : BitVec 32 := Scalar.addi v716 v717
  v718.toNat
def k0_dev22 (d0 : Dev nD) : Nat :=
  let c0_i32_751 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_750 : BitVec 32 := 8#32
  let v754 : BitVec 32 := Scalar.muli v2 c8_i32_750
  let v755 : BitVec 32 := Scalar.addi c0_i32_751 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_752 : BitVec 32 := 4#32
  let v756 : BitVec 32 := Scalar.muli v5 c4_i32_752
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_753 : BitVec 32 := 1#32
  let v758 : BitVec 32 := Scalar.muli v24 c1_i32_753
  let v759 : BitVec 32 := Scalar.addi v757 v758
  v759.toNat
def k0_dev23 (d0 : Dev nD) : Nat :=
  let c0_i32_806 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_805 : BitVec 32 := 8#32
  let v795 : BitVec 32 := Scalar.muli v2 c8_i32_805
  let v796 : BitVec 32 := Scalar.addi c0_i32_806 v795
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_807 : BitVec 32 := 4#32
  let v797 : BitVec 32 := Scalar.muli v5 c4_i32_807
  let v798 : BitVec 32 := Scalar.addi v796 v797
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_808 : BitVec 32 := 1#32
  let v799 : BitVec 32 := Scalar.muli v24 c1_i32_808
  let v800 : BitVec 32 := Scalar.addi v798 v799
  v800.toNat
def k0_dev24 (d0 : Dev nD) : Nat :=
  let c0_i32_861 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_860 : BitVec 32 := 8#32
  let v836 : BitVec 32 := Scalar.muli v2 c8_i32_860
  let v837 : BitVec 32 := Scalar.addi c0_i32_861 v836
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_862 : BitVec 32 := 4#32
  let v838 : BitVec 32 := Scalar.muli v5 c4_i32_862
  let v839 : BitVec 32 := Scalar.addi v837 v838
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_863 : BitVec 32 := 1#32
  let v840 : BitVec 32 := Scalar.muli v24 c1_i32_863
  let v841 : BitVec 32 := Scalar.addi v839 v840
  v841.toNat
def k0_dev25 (d0 : Dev nD) : Nat :=
  let c0_i32_916 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_915 : BitVec 32 := 8#32
  let v877 : BitVec 32 := Scalar.muli v2 c8_i32_915
  let v878 : BitVec 32 := Scalar.addi c0_i32_916 v877
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_917 : BitVec 32 := 4#32
  let v879 : BitVec 32 := Scalar.muli v5 c4_i32_917
  let v880 : BitVec 32 := Scalar.addi v878 v879
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_918 : BitVec 32 := 1#32
  let v881 : BitVec 32 := Scalar.muli v24 c1_i32_918
  let v882 : BitVec 32 := Scalar.addi v880 v881
  v882.toNat
def k0_dev26 (d0 : Dev nD) : Nat :=
  let c0_i32_971 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_970 : BitVec 32 := 8#32
  let v918 : BitVec 32 := Scalar.muli v2 c8_i32_970
  let v919 : BitVec 32 := Scalar.addi c0_i32_971 v918
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_972 : BitVec 32 := 4#32
  let v920 : BitVec 32 := Scalar.muli v5 c4_i32_972
  let v921 : BitVec 32 := Scalar.addi v919 v920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_973 : BitVec 32 := 1#32
  let v922 : BitVec 32 := Scalar.muli v24 c1_i32_973
  let v923 : BitVec 32 := Scalar.addi v921 v922
  v923.toNat
def k0_dev27 (d0 : Dev nD) : Nat :=
  let c0_i32_1026 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1025 : BitVec 32 := 8#32
  let v959 : BitVec 32 := Scalar.muli v2 c8_i32_1025
  let v960 : BitVec 32 := Scalar.addi c0_i32_1026 v959
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1027 : BitVec 32 := 4#32
  let v961 : BitVec 32 := Scalar.muli v5 c4_i32_1027
  let v962 : BitVec 32 := Scalar.addi v960 v961
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_1028 : BitVec 32 := 1#32
  let v963 : BitVec 32 := Scalar.muli v24 c1_i32_1028
  let v964 : BitVec 32 := Scalar.addi v962 v963
  v964.toNat
def k0_dev28 (d0 : Dev nD) : Nat :=
  let c0_i32_1081 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1080 : BitVec 32 := 8#32
  let v1000 : BitVec 32 := Scalar.muli v2 c8_i32_1080
  let v1001 : BitVec 32 := Scalar.addi c0_i32_1081 v1000
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1082 : BitVec 32 := 4#32
  let v1002 : BitVec 32 := Scalar.muli v5 c4_i32_1082
  let v1003 : BitVec 32 := Scalar.addi v1001 v1002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.addi v8 c1_i32_5
  let c4_i32_6 : BitVec 32 := 4#32
  let c0_i32 : BitVec 32 := 0#32
  let v15 : BitVec 1 := Scalar.cmpi .eq c4_i32_6 c0_i32
  let c1_i32_7 : BitVec 32 := 1#32
  let v16 : BitVec 32 := Scalar.select v15 c1_i32_7 c4_i32_6
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_1083 : BitVec 32 := 1#32
  let v1004 : BitVec 32 := Scalar.muli v24 c1_i32_1083
  let v1005 : BitVec 32 := Scalar.addi v1003 v1004
  v1005.toNat
def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1124 : BitVec 32 := 256#32
  let v1037 : BitVec 32 := Scalar.muli v8 c256_i32_1124
  let v1038 : Index := Scalar.indexCast v1037
  let c0_1125 : Index := 0#32
  ![v1038.toNat, 0]
def k0_off21 (d0 : Dev nD) (c0_i32_1119 : BitVec 32) : Fin 2 → Nat :=
  let c0_1126 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c2_i32_2 v5
  let v10 : BitVec 32 := Scalar.addi v2 v9
  let c1024_i32_1088 : BitVec 32 := 1024#32
  let v1014 : BitVec 32 := Scalar.muli v10 c1024_i32_1088
  let v1034 : BitVec 32 := Scalar.addi v1014 c0_i32_1119
  let v1041 : Index := Scalar.indexCast v1034
  ![0, v1041.toNat]
def k0_off22 (d0 : Dev nD) (c0_i32_1119 : BitVec 32) : Fin 2 → Nat :=
  let c0_i32_1133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.muli c2_i32_2 v5
  let v10 : BitVec 32 := Scalar.addi v2 v9
  let c1024_i32_1088 : BitVec 32 := 1024#32
  let v1014 : BitVec 32 := Scalar.muli v10 c1024_i32_1088
  let v1034 : BitVec 32 := Scalar.addi v1014 c0_i32_1119
  ![0, v1034.toNat]
def k0_dev29 (d0 : Dev nD) : Nat :=
  let c0_i32_1130 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1129 : BitVec 32 := 8#32
  let v1043 : BitVec 32 := Scalar.muli v36 c8_i32_1129
  let v1044 : BitVec 32 := Scalar.addi c0_i32_1130 v1043
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1131 : BitVec 32 := 4#32
  let v1045 : BitVec 32 := Scalar.muli v5 c4_i32_1131
  let v1046 : BitVec 32 := Scalar.addi v1044 v1045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1132 : BitVec 32 := 1#32
  let v1047 : BitVec 32 := Scalar.muli v8 c1_i32_1132
  let v1048 : BitVec 32 := Scalar.addi v1046 v1047
  v1048.toNat
def k0_dev30 (d0 : Dev nD) : Nat :=
  let c0_i32_1138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1137 : BitVec 32 := 8#32
  let v1055 : BitVec 32 := Scalar.muli v2 c8_i32_1137
  let v1056 : BitVec 32 := Scalar.addi c0_i32_1138 v1055
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1139 : BitVec 32 := 4#32
  let v1057 : BitVec 32 := Scalar.muli v37 c4_i32_1139
  let v1058 : BitVec 32 := Scalar.addi v1056 v1057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1140 : BitVec 32 := 1#32
  let v1059 : BitVec 32 := Scalar.muli v8 c1_i32_1140
  let v1060 : BitVec 32 := Scalar.addi v1058 v1059
  v1060.toNat
def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1177 : BitVec 32 := 256#32
  let v1088 : BitVec 32 := Scalar.muli v8 c256_i32_1177
  let v1089 : Index := Scalar.indexCast v1088
  let c128_1178 : Index := 128#32
  ![v1089.toNat, 128]
def k0_dev31 (d0 : Dev nD) : Nat :=
  let c0_i32_1183 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1182 : BitVec 32 := 8#32
  let v1094 : BitVec 32 := Scalar.muli v36 c8_i32_1182
  let v1095 : BitVec 32 := Scalar.addi c0_i32_1183 v1094
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1184 : BitVec 32 := 4#32
  let v1096 : BitVec 32 := Scalar.muli v5 c4_i32_1184
  let v1097 : BitVec 32 := Scalar.addi v1095 v1096
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1185 : BitVec 32 := 1#32
  let v1098 : BitVec 32 := Scalar.muli v8 c1_i32_1185
  let v1099 : BitVec 32 := Scalar.addi v1097 v1098
  v1099.toNat
def k0_dev32 (d0 : Dev nD) : Nat :=
  let c0_i32_1191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1190 : BitVec 32 := 8#32
  let v1106 : BitVec 32 := Scalar.muli v2 c8_i32_1190
  let v1107 : BitVec 32 := Scalar.addi c0_i32_1191 v1106
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1192 : BitVec 32 := 4#32
  let v1108 : BitVec 32 := Scalar.muli v37 c4_i32_1192
  let v1109 : BitVec 32 := Scalar.addi v1107 v1108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1193 : BitVec 32 := 1#32
  let v1110 : BitVec 32 := Scalar.muli v8 c1_i32_1193
  let v1111 : BitVec 32 := Scalar.addi v1109 v1110
  v1111.toNat
def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1230 : BitVec 32 := 256#32
  let v1139 : BitVec 32 := Scalar.muli v8 c256_i32_1230
  let v1140 : Index := Scalar.indexCast v1139
  let c256_1231 : Index := 256#32
  ![v1140.toNat, 256]
def k0_dev33 (d0 : Dev nD) : Nat :=
  let c0_i32_1236 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1235 : BitVec 32 := 8#32
  let v1145 : BitVec 32 := Scalar.muli v36 c8_i32_1235
  let v1146 : BitVec 32 := Scalar.addi c0_i32_1236 v1145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1237 : BitVec 32 := 4#32
  let v1147 : BitVec 32 := Scalar.muli v5 c4_i32_1237
  let v1148 : BitVec 32 := Scalar.addi v1146 v1147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1238 : BitVec 32 := 1#32
  let v1149 : BitVec 32 := Scalar.muli v8 c1_i32_1238
  let v1150 : BitVec 32 := Scalar.addi v1148 v1149
  v1150.toNat
def k0_dev34 (d0 : Dev nD) : Nat :=
  let c0_i32_1244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1243 : BitVec 32 := 8#32
  let v1157 : BitVec 32 := Scalar.muli v2 c8_i32_1243
  let v1158 : BitVec 32 := Scalar.addi c0_i32_1244 v1157
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1245 : BitVec 32 := 4#32
  let v1159 : BitVec 32 := Scalar.muli v37 c4_i32_1245
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1246 : BitVec 32 := 1#32
  let v1161 : BitVec 32 := Scalar.muli v8 c1_i32_1246
  let v1162 : BitVec 32 := Scalar.addi v1160 v1161
  v1162.toNat
def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1283 : BitVec 32 := 256#32
  let v1190 : BitVec 32 := Scalar.muli v8 c256_i32_1283
  let v1191 : Index := Scalar.indexCast v1190
  let c384_1284 : Index := 384#32
  ![v1191.toNat, 384]
def k0_dev35 (d0 : Dev nD) : Nat :=
  let c0_i32_1289 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1288 : BitVec 32 := 8#32
  let v1196 : BitVec 32 := Scalar.muli v36 c8_i32_1288
  let v1197 : BitVec 32 := Scalar.addi c0_i32_1289 v1196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1290 : BitVec 32 := 4#32
  let v1198 : BitVec 32 := Scalar.muli v5 c4_i32_1290
  let v1199 : BitVec 32 := Scalar.addi v1197 v1198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1291 : BitVec 32 := 1#32
  let v1200 : BitVec 32 := Scalar.muli v8 c1_i32_1291
  let v1201 : BitVec 32 := Scalar.addi v1199 v1200
  v1201.toNat
def k0_dev36 (d0 : Dev nD) : Nat :=
  let c0_i32_1297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1296 : BitVec 32 := 8#32
  let v1208 : BitVec 32 := Scalar.muli v2 c8_i32_1296
  let v1209 : BitVec 32 := Scalar.addi c0_i32_1297 v1208
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1298 : BitVec 32 := 4#32
  let v1210 : BitVec 32 := Scalar.muli v37 c4_i32_1298
  let v1211 : BitVec 32 := Scalar.addi v1209 v1210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1299 : BitVec 32 := 1#32
  let v1212 : BitVec 32 := Scalar.muli v8 c1_i32_1299
  let v1213 : BitVec 32 := Scalar.addi v1211 v1212
  v1213.toNat
def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1336 : BitVec 32 := 256#32
  let v1241 : BitVec 32 := Scalar.muli v8 c256_i32_1336
  let v1242 : Index := Scalar.indexCast v1241
  let c512_1337 : Index := 512#32
  ![v1242.toNat, 512]
def k0_dev37 (d0 : Dev nD) : Nat :=
  let c0_i32_1342 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1341 : BitVec 32 := 8#32
  let v1247 : BitVec 32 := Scalar.muli v36 c8_i32_1341
  let v1248 : BitVec 32 := Scalar.addi c0_i32_1342 v1247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1343 : BitVec 32 := 4#32
  let v1249 : BitVec 32 := Scalar.muli v5 c4_i32_1343
  let v1250 : BitVec 32 := Scalar.addi v1248 v1249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1251 : BitVec 32 := Scalar.muli v8 c1_i32_1344
  let v1252 : BitVec 32 := Scalar.addi v1250 v1251
  v1252.toNat
def k0_dev38 (d0 : Dev nD) : Nat :=
  let c0_i32_1350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1349 : BitVec 32 := 8#32
  let v1259 : BitVec 32 := Scalar.muli v2 c8_i32_1349
  let v1260 : BitVec 32 := Scalar.addi c0_i32_1350 v1259
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1351 : BitVec 32 := 4#32
  let v1261 : BitVec 32 := Scalar.muli v37 c4_i32_1351
  let v1262 : BitVec 32 := Scalar.addi v1260 v1261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1352 : BitVec 32 := 1#32
  let v1263 : BitVec 32 := Scalar.muli v8 c1_i32_1352
  let v1264 : BitVec 32 := Scalar.addi v1262 v1263
  v1264.toNat
def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1389 : BitVec 32 := 256#32
  let v1292 : BitVec 32 := Scalar.muli v8 c256_i32_1389
  let v1293 : Index := Scalar.indexCast v1292
  let c640_1390 : Index := 640#32
  ![v1293.toNat, 640]
def k0_dev39 (d0 : Dev nD) : Nat :=
  let c0_i32_1395 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1394 : BitVec 32 := 8#32
  let v1298 : BitVec 32 := Scalar.muli v36 c8_i32_1394
  let v1299 : BitVec 32 := Scalar.addi c0_i32_1395 v1298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1396 : BitVec 32 := 4#32
  let v1300 : BitVec 32 := Scalar.muli v5 c4_i32_1396
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1397 : BitVec 32 := 1#32
  let v1302 : BitVec 32 := Scalar.muli v8 c1_i32_1397
  let v1303 : BitVec 32 := Scalar.addi v1301 v1302
  v1303.toNat
def k0_dev40 (d0 : Dev nD) : Nat :=
  let c0_i32_1403 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1402 : BitVec 32 := 8#32
  let v1310 : BitVec 32 := Scalar.muli v2 c8_i32_1402
  let v1311 : BitVec 32 := Scalar.addi c0_i32_1403 v1310
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1404 : BitVec 32 := 4#32
  let v1312 : BitVec 32 := Scalar.muli v37 c4_i32_1404
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1405 : BitVec 32 := 1#32
  let v1314 : BitVec 32 := Scalar.muli v8 c1_i32_1405
  let v1315 : BitVec 32 := Scalar.addi v1313 v1314
  v1315.toNat
def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1442 : BitVec 32 := 256#32
  let v1343 : BitVec 32 := Scalar.muli v8 c256_i32_1442
  let v1344 : Index := Scalar.indexCast v1343
  let c768_1443 : Index := 768#32
  ![v1344.toNat, 768]
def k0_dev41 (d0 : Dev nD) : Nat :=
  let c0_i32_1448 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1447 : BitVec 32 := 8#32
  let v1349 : BitVec 32 := Scalar.muli v36 c8_i32_1447
  let v1350 : BitVec 32 := Scalar.addi c0_i32_1448 v1349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1449 : BitVec 32 := 4#32
  let v1351 : BitVec 32 := Scalar.muli v5 c4_i32_1449
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1450 : BitVec 32 := 1#32
  let v1353 : BitVec 32 := Scalar.muli v8 c1_i32_1450
  let v1354 : BitVec 32 := Scalar.addi v1352 v1353
  v1354.toNat
def k0_dev42 (d0 : Dev nD) : Nat :=
  let c0_i32_1456 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1455 : BitVec 32 := 8#32
  let v1361 : BitVec 32 := Scalar.muli v2 c8_i32_1455
  let v1362 : BitVec 32 := Scalar.addi c0_i32_1456 v1361
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1457 : BitVec 32 := 4#32
  let v1363 : BitVec 32 := Scalar.muli v37 c4_i32_1457
  let v1364 : BitVec 32 := Scalar.addi v1362 v1363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1458 : BitVec 32 := 1#32
  let v1365 : BitVec 32 := Scalar.muli v8 c1_i32_1458
  let v1366 : BitVec 32 := Scalar.addi v1364 v1365
  v1366.toNat
def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_1495 : BitVec 32 := 256#32
  let v1394 : BitVec 32 := Scalar.muli v8 c256_i32_1495
  let v1395 : Index := Scalar.indexCast v1394
  let c896_1496 : Index := 896#32
  ![v1395.toNat, 896]
def k0_dev43 (d0 : Dev nD) : Nat :=
  let c0_i32_1501 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_18 v2
  let c8_i32_1500 : BitVec 32 := 8#32
  let v1400 : BitVec 32 := Scalar.muli v36 c8_i32_1500
  let v1401 : BitVec 32 := Scalar.addi c0_i32_1501 v1400
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1502 : BitVec 32 := 4#32
  let v1402 : BitVec 32 := Scalar.muli v5 c4_i32_1502
  let v1403 : BitVec 32 := Scalar.addi v1401 v1402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1503 : BitVec 32 := 1#32
  let v1404 : BitVec 32 := Scalar.muli v8 c1_i32_1503
  let v1405 : BitVec 32 := Scalar.addi v1403 v1404
  v1405.toNat
def k0_dev44 (d0 : Dev nD) : Nat :=
  let c0_i32_1509 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1508 : BitVec 32 := 8#32
  let v1412 : BitVec 32 := Scalar.muli v2 c8_i32_1508
  let v1413 : BitVec 32 := Scalar.addi c0_i32_1509 v1412
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1510 : BitVec 32 := 4#32
  let v1414 : BitVec 32 := Scalar.muli v37 c4_i32_1510
  let v1415 : BitVec 32 := Scalar.addi v1413 v1414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1511 : BitVec 32 := 1#32
  let v1416 : BitVec 32 := Scalar.muli v8 c1_i32_1511
  let v1417 : BitVec 32 := Scalar.addi v1415 v1416
  v1417.toNat
def k0_off30 (d0 : Dev nD) (c0_i32_1522 : BitVec 32) : Fin 2 → Nat :=
  let c0_i32_1529 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c2_i32_4 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.muli c2_i32_4 v5
  let v13 : BitVec 32 := Scalar.addi v11 v12
  let c1024_i32_1089 : BitVec 32 := 1024#32
  let v1015 : BitVec 32 := Scalar.muli v13 c1024_i32_1089
  let v1434 : BitVec 32 := Scalar.addi v1015 c0_i32_1522
  ![0, v1434.toNat]
def k0_dev45 (d0 : Dev nD) : Nat :=
  let c0_i32_1526 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1525 : BitVec 32 := 8#32
  let v1435 : BitVec 32 := Scalar.muli v2 c8_i32_1525
  let v1436 : BitVec 32 := Scalar.addi c0_i32_1526 v1435
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1527 : BitVec 32 := 4#32
  let v1437 : BitVec 32 := Scalar.muli v37 c4_i32_1527
  let v1438 : BitVec 32 := Scalar.addi v1436 v1437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1528 : BitVec 32 := 1#32
  let v1439 : BitVec 32 := Scalar.muli v8 c1_i32_1528
  let v1440 : BitVec 32 := Scalar.addi v1438 v1439
  v1440.toNat
def k0_dev46 (d0 : Dev nD) : Nat :=
  let c0_i32_1543 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1542 : BitVec 32 := 8#32
  let v1458 : BitVec 32 := Scalar.muli v2 c8_i32_1542
  let v1459 : BitVec 32 := Scalar.addi c0_i32_1543 v1458
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1544 : BitVec 32 := 4#32
  let v1460 : BitVec 32 := Scalar.muli v37 c4_i32_1544
  let v1461 : BitVec 32 := Scalar.addi v1459 v1460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1545 : BitVec 32 := 1#32
  let v1462 : BitVec 32 := Scalar.muli v8 c1_i32_1545
  let v1463 : BitVec 32 := Scalar.addi v1461 v1462
  v1463.toNat
def k0_dev47 (d0 : Dev nD) : Nat :=
  let c0_i32_1560 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1559 : BitVec 32 := 8#32
  let v1481 : BitVec 32 := Scalar.muli v2 c8_i32_1559
  let v1482 : BitVec 32 := Scalar.addi c0_i32_1560 v1481
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1561 : BitVec 32 := 4#32
  let v1483 : BitVec 32 := Scalar.muli v37 c4_i32_1561
  let v1484 : BitVec 32 := Scalar.addi v1482 v1483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1562 : BitVec 32 := 1#32
  let v1485 : BitVec 32 := Scalar.muli v8 c1_i32_1562
  let v1486 : BitVec 32 := Scalar.addi v1484 v1485
  v1486.toNat
def k0_dev48 (d0 : Dev nD) : Nat :=
  let c0_i32_1577 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1576 : BitVec 32 := 8#32
  let v1504 : BitVec 32 := Scalar.muli v2 c8_i32_1576
  let v1505 : BitVec 32 := Scalar.addi c0_i32_1577 v1504
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1578 : BitVec 32 := 4#32
  let v1506 : BitVec 32 := Scalar.muli v37 c4_i32_1578
  let v1507 : BitVec 32 := Scalar.addi v1505 v1506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1579 : BitVec 32 := 1#32
  let v1508 : BitVec 32 := Scalar.muli v8 c1_i32_1579
  let v1509 : BitVec 32 := Scalar.addi v1507 v1508
  v1509.toNat
def k0_dev49 (d0 : Dev nD) : Nat :=
  let c0_i32_1594 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1593 : BitVec 32 := 8#32
  let v1527 : BitVec 32 := Scalar.muli v2 c8_i32_1593
  let v1528 : BitVec 32 := Scalar.addi c0_i32_1594 v1527
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1595 : BitVec 32 := 4#32
  let v1529 : BitVec 32 := Scalar.muli v37 c4_i32_1595
  let v1530 : BitVec 32 := Scalar.addi v1528 v1529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1596 : BitVec 32 := 1#32
  let v1531 : BitVec 32 := Scalar.muli v8 c1_i32_1596
  let v1532 : BitVec 32 := Scalar.addi v1530 v1531
  v1532.toNat
def k0_dev50 (d0 : Dev nD) : Nat :=
  let c0_i32_1611 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1610 : BitVec 32 := 8#32
  let v1550 : BitVec 32 := Scalar.muli v2 c8_i32_1610
  let v1551 : BitVec 32 := Scalar.addi c0_i32_1611 v1550
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1612 : BitVec 32 := 4#32
  let v1552 : BitVec 32 := Scalar.muli v37 c4_i32_1612
  let v1553 : BitVec 32 := Scalar.addi v1551 v1552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1613 : BitVec 32 := 1#32
  let v1554 : BitVec 32 := Scalar.muli v8 c1_i32_1613
  let v1555 : BitVec 32 := Scalar.addi v1553 v1554
  v1555.toNat
def k0_dev51 (d0 : Dev nD) : Nat :=
  let c0_i32_1628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1627 : BitVec 32 := 8#32
  let v1573 : BitVec 32 := Scalar.muli v2 c8_i32_1627
  let v1574 : BitVec 32 := Scalar.addi c0_i32_1628 v1573
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1629 : BitVec 32 := 4#32
  let v1575 : BitVec 32 := Scalar.muli v37 c4_i32_1629
  let v1576 : BitVec 32 := Scalar.addi v1574 v1575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1630 : BitVec 32 := 1#32
  let v1577 : BitVec 32 := Scalar.muli v8 c1_i32_1630
  let v1578 : BitVec 32 := Scalar.addi v1576 v1577
  v1578.toNat
def k0_dev52 (d0 : Dev nD) : Nat :=
  let c0_i32_1645 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1644 : BitVec 32 := 8#32
  let v1596 : BitVec 32 := Scalar.muli v2 c8_i32_1644
  let v1597 : BitVec 32 := Scalar.addi c0_i32_1645 v1596
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c4_i32_1646 : BitVec 32 := 4#32
  let v1598 : BitVec 32 := Scalar.muli v37 c4_i32_1646
  let v1599 : BitVec 32 := Scalar.addi v1597 v1598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1647 : BitVec 32 := 1#32
  let v1600 : BitVec 32 := Scalar.muli v8 c1_i32_1647
  let v1601 : BitVec 32 := Scalar.addi v1599 v1600
  v1601.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  h_S1024x256 : 0 < S1024x256.numel
  inb_S1024x1024_S1024x1024_0_0 : ∀ a, (![0, 0] : Fin 2 → Nat) a + S1024x1024.size a ≤ S1024x1024.size a
  h_S1024x1024 : 0 < S1024x1024.numel
  h_S256x1024 : 0 < S256x1024.numel
  shapeCasts_S256x1024_S256x1024 : S256x1024.ShapeCasts S256x1024
  hamt_4 : (4#32 : BitVec 32).msb = false
  inb_S8x3_S1x1_0_0 : ∀ a, (![0, 0] : Fin 2 → Nat) a + S1x1.size a ≤ S8x3.size a
  squeezes_S1x1_S_ : S1x1.Squeezes S_
  inb_S8x3x256x128_S1x1x256x128_0_0_0_0 : ∀ a, (![0, 0, 0, 0] : Fin 4 → Nat) a + S1x1x256x128.size a ≤ S8x3x256x128.size a
  squeezes_S1x1x256x128_S256x128 : S1x1x256x128.Squeezes S256x128
  inb_S8x3_S1x1_1_0 : ∀ a, (![1, 0] : Fin 2 → Nat) a + S1x1.size a ≤ S8x3.size a
  inb_S8x3x256x128_S1x1x256x128_1_0_0_0 : ∀ a, (![1, 0, 0, 0] : Fin 4 → Nat) a + S1x1x256x128.size a ≤ S8x3x256x128.size a
  inb_S8x3_S1x1_2_0 : ∀ a, (![2, 0] : Fin 2 → Nat) a + S1x1.size a ≤ S8x3.size a
  inb_S8x3x256x128_S1x1x256x128_2_0_0_0 : ∀ a, (![2, 0, 0, 0] : Fin 4 → Nat) a + S1x1x256x128.size a ≤ S8x3x256x128.size a
  inb_S8x3_S1x1_3_0 : ∀ a, (![3, 0] : Fin 2 → Nat) a + S1x1.size a ≤ S8x3.size a
  inb_S8x3x256x128_S1x1x256x128_3_0_0_0 : ∀ a, (![3, 0, 0, 0] : Fin 4 → Nat) a + S1x1x256x128.size a ≤ S8x3x256x128.size a
  inb_S8x3_S1x1_4_0 : ∀ a, (![4, 0] : Fin 2 → Nat) a + S1x1.size a ≤ S8x3.size a
  inb_S8x3x256x128_S1x1x256x128_4_0_0_0 : ∀ a, (![4, 0, 0, 0] : Fin 4 → Nat) a + S1x1x256x128.size a ≤ S8x3x256x128.size a
  inb_S8x3_S1x1_5_0 : ∀ a, (![5, 0] : Fin 2 → Nat) a + S1x1.size a ≤ S8x3.size a
  inb_S8x3x256x128_S1x1x256x128_5_0_0_0 : ∀ a, (![5, 0, 0, 0] : Fin 4 → Nat) a + S1x1x256x128.size a ≤ S8x3x256x128.size a
  inb_S8x3_S1x1_6_0 : ∀ a, (![6, 0] : Fin 2 → Nat) a + S1x1.size a ≤ S8x3.size a
  inb_S8x3x256x128_S1x1x256x128_6_0_0_0 : ∀ a, (![6, 0, 0, 0] : Fin 4 → Nat) a + S1x1x256x128.size a ≤ S8x3x256x128.size a
  inb_S8x3_S1x1_7_0 : ∀ a, (![7, 0] : Fin 2 → Nat) a + S1x1.size a ≤ S8x3.size a
  inb_S8x3x256x128_S1x1x256x128_7_0_0_0 : ∀ a, (![7, 0, 0, 0] : Fin 4 → Nat) a + S1x1x256x128.size a ≤ S8x3x256x128.size a
  h_S1x1x256x128 : 0 < S1x1x256x128.numel
  shapeCasts_S1x1x256x128_S256x128 : S1x1x256x128.ShapeCasts S256x128
  h_S256x128 : 0 < S256x128.numel
  shapeCasts_S256x128_S1x1x256x128 : S256x128.ShapeCasts S1x1x256x128
  inb_S8x3_S1x1_0_1 : ∀ a, (![0, 1] : Fin 2 → Nat) a + S1x1.size a ≤ S8x3.size a
  inb_S8x3x256x128_S1x1x256x128_0_1_0_0 : ∀ a, (![0, 1, 0, 0] : Fin 4 → Nat) a + S1x1x256x128.size a ≤ S8x3x256x128.size a
  inb_S8x3_S1x1_1_1 : ∀ a, (![1, 1] : Fin 2 → Nat) a + S1x1.size a ≤ S8x3.size a
  inb_S8x3x256x128_S1x1x256x128_1_1_0_0 : ∀ a, (![1, 1, 0, 0] : Fin 4 → Nat) a + S1x1x256x128.size a ≤ S8x3x256x128.size a
  inb_S8x3_S1x1_2_1 : ∀ a, (![2, 1] : Fin 2 → Nat) a + S1x1.size a ≤ S8x3.size a
  inb_S8x3x256x128_S1x1x256x128_2_1_0_0 : ∀ a, (![2, 1, 0, 0] : Fin 4 → Nat) a + S1x1x256x128.size a ≤ S8x3x256x128.size a
  inb_S8x3_S1x1_3_1 : ∀ a, (![3, 1] : Fin 2 → Nat) a + S1x1.size a ≤ S8x3.size a
  inb_S8x3x256x128_S1x1x256x128_3_1_0_0 : ∀ a, (![3, 1, 0, 0] : Fin 4 → Nat) a + S1x1x256x128.size a ≤ S8x3x256x128.size a
  inb_S8x3_S1x1_4_1 : ∀ a, (![4, 1] : Fin 2 → Nat) a + S1x1.size a ≤ S8x3.size a
  inb_S8x3x256x128_S1x1x256x128_4_1_0_0 : ∀ a, (![4, 1, 0, 0] : Fin 4 → Nat) a + S1x1x256x128.size a ≤ S8x3x256x128.size a
  inb_S8x3_S1x1_5_1 : ∀ a, (![5, 1] : Fin 2 → Nat) a + S1x1.size a ≤ S8x3.size a
  inb_S8x3x256x128_S1x1x256x128_5_1_0_0 : ∀ a, (![5, 1, 0, 0] : Fin 4 → Nat) a + S1x1x256x128.size a ≤ S8x3x256x128.size a
  inb_S8x3_S1x1_6_1 : ∀ a, (![6, 1] : Fin 2 → Nat) a + S1x1.size a ≤ S8x3.size a
  inb_S8x3x256x128_S1x1x256x128_6_1_0_0 : ∀ a, (![6, 1, 0, 0] : Fin 4 → Nat) a + S1x1x256x128.size a ≤ S8x3x256x128.size a
  inb_S8x3_S1x1_7_1 : ∀ a, (![7, 1] : Fin 2 → Nat) a + S1x1.size a ≤ S8x3.size a
  inb_S8x3x256x128_S1x1x256x128_7_1_0_0 : ∀ a, (![7, 1, 0, 0] : Fin 4 → Nat) a + S1x1x256x128.size a ≤ S8x3x256x128.size a
  inb_S8x3_S1x1_0_2 : ∀ a, (![0, 2] : Fin 2 → Nat) a + S1x1.size a ≤ S8x3.size a
  inb_S8x3x256x128_S1x1x256x128_0_2_0_0 : ∀ a, (![0, 2, 0, 0] : Fin 4 → Nat) a + S1x1x256x128.size a ≤ S8x3x256x128.size a
  inb_S8x3_S1x1_1_2 : ∀ a, (![1, 2] : Fin 2 → Nat) a + S1x1.size a ≤ S8x3.size a
  inb_S8x3x256x128_S1x1x256x128_1_2_0_0 : ∀ a, (![1, 2, 0, 0] : Fin 4 → Nat) a + S1x1x256x128.size a ≤ S8x3x256x128.size a
  inb_S8x3_S1x1_2_2 : ∀ a, (![2, 2] : Fin 2 → Nat) a + S1x1.size a ≤ S8x3.size a
  inb_S8x3x256x128_S1x1x256x128_2_2_0_0 : ∀ a, (![2, 2, 0, 0] : Fin 4 → Nat) a + S1x1x256x128.size a ≤ S8x3x256x128.size a
  inb_S8x3_S1x1_3_2 : ∀ a, (![3, 2] : Fin 2 → Nat) a + S1x1.size a ≤ S8x3.size a
  inb_S8x3x256x128_S1x1x256x128_3_2_0_0 : ∀ a, (![3, 2, 0, 0] : Fin 4 → Nat) a + S1x1x256x128.size a ≤ S8x3x256x128.size a
  inb_S8x3_S1x1_4_2 : ∀ a, (![4, 2] : Fin 2 → Nat) a + S1x1.size a ≤ S8x3.size a
  inb_S8x3x256x128_S1x1x256x128_4_2_0_0 : ∀ a, (![4, 2, 0, 0] : Fin 4 → Nat) a + S1x1x256x128.size a ≤ S8x3x256x128.size a
  inb_S8x3_S1x1_5_2 : ∀ a, (![5, 2] : Fin 2 → Nat) a + S1x1.size a ≤ S8x3.size a
  inb_S8x3x256x128_S1x1x256x128_5_2_0_0 : ∀ a, (![5, 2, 0, 0] : Fin 4 → Nat) a + S1x1x256x128.size a ≤ S8x3x256x128.size a
  inb_S8x3_S1x1_6_2 : ∀ a, (![6, 2] : Fin 2 → Nat) a + S1x1.size a ≤ S8x3.size a
  inb_S8x3x256x128_S1x1x256x128_6_2_0_0 : ∀ a, (![6, 2, 0, 0] : Fin 4 → Nat) a + S1x1x256x128.size a ≤ S8x3x256x128.size a
  inb_S8x3_S1x1_7_2 : ∀ a, (![7, 2] : Fin 2 → Nat) a + S1x1.size a ≤ S8x3.size a
  inb_S8x3x256x128_S1x1x256x128_7_2_0_0 : ∀ a, (![7, 2, 0, 0] : Fin 4 → Nat) a + S1x1x256x128.size a ≤ S8x3x256x128.size a
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  dot_S1024x256_S1024x1024_S256x1024_0_0_1_1_n_n_wf : DotDims.WF S1024x256 S1024x1024 S256x1024 [0] [0] [1] [1] [] []
  hcc0_scratch4 : 1 + S_.numel ≤ 99
  hcc0_scratch5 : 2 + S_.numel ≤ 99
  hcc0_scratch6 : 3 + S8x3.numel ≤ 99
  hcc0_scratch7 : 27 + S8x3.numel ≤ 99
  hcc0_scratch8 : 51 + S8.numel ≤ 99
  hcc0_scratch9 : 59 + S8.numel ≤ 99
  hcc0_scratch10 : 67 + S8.numel ≤ 99
  hcc0_scratch11 : 75 + S8.numel ≤ 99
  hcc0_scratch12 : 83 + S8.numel ≤ 99
  hcc0_scratch13 : 91 + S8.numel ≤ 99
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ a, (k0_off1 d0) a + S1024x1024.size a ≤ S1024x4096.size a
  k0_off2_inb : ∀ d0 : Dev nD, ∀ (r : Fin 4), ∀ a, (k0_off2 d0 (BitVec.ofNat 32 (1 + r.val))) a + S1024x256.size a ≤ S1024x1024.size a
  k0_off3_inb : ∀ d0 : Dev nD, ∀ (r : Fin 4), ∀ a, (k0_off3 d0 (BitVec.ofNat 32 (1 + r.val))) a + S256x1024.size a ≤ S1024x1024.size a
  k0_off4_inb : ∀ d0 : Dev nD, ∀ a, (k0_off4 d0) a + S256x128.size a ≤ S1024x1024.size a
  k0_dev5_lt : ∀ d0 : Dev nD, (k0_dev5 d0) < nD
  k0_off5_inb : ∀ d0 : Dev nD, ∀ a, (k0_off5 d0) a + S256x128.size a ≤ S1024x1024.size a
  k0_dev6_lt : ∀ d0 : Dev nD, (k0_dev6 d0) < nD
  k0_off6_inb : ∀ d0 : Dev nD, ∀ a, (k0_off6 d0) a + S256x128.size a ≤ S1024x1024.size a
  k0_dev7_lt : ∀ d0 : Dev nD, (k0_dev7 d0) < nD
  k0_off7_inb : ∀ d0 : Dev nD, ∀ a, (k0_off7 d0) a + S256x128.size a ≤ S1024x1024.size a
  k0_dev8_lt : ∀ d0 : Dev nD, (k0_dev8 d0) < nD
  k0_off8_inb : ∀ d0 : Dev nD, ∀ a, (k0_off8 d0) a + S256x128.size a ≤ S1024x1024.size a
  k0_dev9_lt : ∀ d0 : Dev nD, (k0_dev9 d0) < nD
  k0_off9_inb : ∀ d0 : Dev nD, ∀ a, (k0_off9 d0) a + S256x128.size a ≤ S1024x1024.size a
  k0_dev10_lt : ∀ d0 : Dev nD, (k0_dev10 d0) < nD
  k0_off10_inb : ∀ d0 : Dev nD, ∀ a, (k0_off10 d0) a + S256x128.size a ≤ S1024x1024.size a
  k0_dev11_lt : ∀ d0 : Dev nD, (k0_dev11 d0) < nD
  k0_off11_inb : ∀ d0 : Dev nD, ∀ a, (k0_off11 d0) a + S256x128.size a ≤ S1024x1024.size a
  k0_dev12_lt : ∀ d0 : Dev nD, (k0_dev12 d0) < nD
  k0_off12_inb : ∀ d0 : Dev nD, ∀ (r : Fin 2), ∀ a, (k0_off12 d0 (BitVec.ofNat 32 (1 + r.val))) a + S256x128.size a ≤ S1024x1024.size a
  k0_dev13_lt : ∀ d0 : Dev nD, (k0_dev13 d0) < nD
  k0_off13_inb : ∀ d0 : Dev nD, ∀ (r : Fin 2), ∀ a, (k0_off13 d0 (BitVec.ofNat 32 (1 + r.val))) a + S256x128.size a ≤ S1024x1024.size a
  k0_dev14_lt : ∀ d0 : Dev nD, (k0_dev14 d0) < nD
  k0_off14_inb : ∀ d0 : Dev nD, ∀ (r : Fin 2), ∀ a, (k0_off14 d0 (BitVec.ofNat 32 (1 + r.val))) a + S256x128.size a ≤ S1024x1024.size a
  k0_dev15_lt : ∀ d0 : Dev nD, (k0_dev15 d0) < nD
  k0_off15_inb : ∀ d0 : Dev nD, ∀ (r : Fin 2), ∀ a, (k0_off15 d0 (BitVec.ofNat 32 (1 + r.val))) a + S256x128.size a ≤ S1024x1024.size a
  k0_dev16_lt : ∀ d0 : Dev nD, (k0_dev16 d0) < nD
  k0_off16_inb : ∀ d0 : Dev nD, ∀ (r : Fin 2), ∀ a, (k0_off16 d0 (BitVec.ofNat 32 (1 + r.val))) a + S256x128.size a ≤ S1024x1024.size a
  k0_dev17_lt : ∀ d0 : Dev nD, (k0_dev17 d0) < nD
  k0_off17_inb : ∀ d0 : Dev nD, ∀ (r : Fin 2), ∀ a, (k0_off17 d0 (BitVec.ofNat 32 (1 + r.val))) a + S256x128.size a ≤ S1024x1024.size a
  k0_dev18_lt : ∀ d0 : Dev nD, (k0_dev18 d0) < nD
  k0_off18_inb : ∀ d0 : Dev nD, ∀ (r : Fin 2), ∀ a, (k0_off18 d0 (BitVec.ofNat 32 (1 + r.val))) a + S256x128.size a ≤ S1024x1024.size a
  k0_dev19_lt : ∀ d0 : Dev nD, (k0_dev19 d0) < nD
  k0_off19_inb : ∀ d0 : Dev nD, ∀ (r : Fin 2), ∀ a, (k0_off19 d0 (BitVec.ofNat 32 (1 + r.val))) a + S256x128.size a ≤ S1024x1024.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_off20_inb : ∀ d0 : Dev nD, ∀ a, (k0_off20 d0) a + S256x128.size a ≤ S1024x1024.size a
  k0_off21_inb : ∀ d0 : Dev nD, ∀ (r : Fin 8), ∀ a, (k0_off21 d0 (BitVec.ofNat 32 (128 * r.val))) a + S256x128.size a ≤ S256x4096.size a
  k0_off22_inb : ∀ d0 : Dev nD, ∀ (r : Fin 8), ∀ a, (k0_off22 d0 (BitVec.ofNat 32 (128 * r.val))) a + S256x128.size a ≤ S256x4096.size a
  k0_dev29_lt : ∀ d0 : Dev nD, (k0_dev29 d0) < nD
  k0_dev30_lt : ∀ d0 : Dev nD, (k0_dev30 d0) < nD
  k0_off23_inb : ∀ d0 : Dev nD, ∀ a, (k0_off23 d0) a + S256x128.size a ≤ S1024x1024.size a
  k0_dev31_lt : ∀ d0 : Dev nD, (k0_dev31 d0) < nD
  k0_dev32_lt : ∀ d0 : Dev nD, (k0_dev32 d0) < nD
  k0_off24_inb : ∀ d0 : Dev nD, ∀ a, (k0_off24 d0) a + S256x128.size a ≤ S1024x1024.size a
  k0_dev33_lt : ∀ d0 : Dev nD, (k0_dev33 d0) < nD
  k0_dev34_lt : ∀ d0 : Dev nD, (k0_dev34 d0) < nD
  k0_off25_inb : ∀ d0 : Dev nD, ∀ a, (k0_off25 d0) a + S256x128.size a ≤ S1024x1024.size a
  k0_dev35_lt : ∀ d0 : Dev nD, (k0_dev35 d0) < nD
  k0_dev36_lt : ∀ d0 : Dev nD, (k0_dev36 d0) < nD
  k0_off26_inb : ∀ d0 : Dev nD, ∀ a, (k0_off26 d0) a + S256x128.size a ≤ S1024x1024.size a
  k0_dev37_lt : ∀ d0 : Dev nD, (k0_dev37 d0) < nD
  k0_dev38_lt : ∀ d0 : Dev nD, (k0_dev38 d0) < nD
  k0_off27_inb : ∀ d0 : Dev nD, ∀ a, (k0_off27 d0) a + S256x128.size a ≤ S1024x1024.size a
  k0_dev39_lt : ∀ d0 : Dev nD, (k0_dev39 d0) < nD
  k0_dev40_lt : ∀ d0 : Dev nD, (k0_dev40 d0) < nD
  k0_off28_inb : ∀ d0 : Dev nD, ∀ a, (k0_off28 d0) a + S256x128.size a ≤ S1024x1024.size a
  k0_dev41_lt : ∀ d0 : Dev nD, (k0_dev41 d0) < nD
  k0_dev42_lt : ∀ d0 : Dev nD, (k0_dev42 d0) < nD
  k0_off29_inb : ∀ d0 : Dev nD, ∀ a, (k0_off29 d0) a + S256x128.size a ≤ S1024x1024.size a
  k0_dev43_lt : ∀ d0 : Dev nD, (k0_dev43 d0) < nD
  k0_dev44_lt : ∀ d0 : Dev nD, (k0_dev44 d0) < nD
  k0_off30_inb : ∀ d0 : Dev nD, ∀ (r : Fin 8), ∀ a, (k0_off30 d0 (BitVec.ofNat 32 (128 * r.val))) a + S256x128.size a ≤ S256x4096.size a
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  hstage0_0 : ∀ j, (stage0_0 j).IsWhole

variable [Facts₀]

abbrev cc0_scratch4 : DmaSems sig S_ := SemArray.consecutive 1 S_ hcc0_scratch4
abbrev cc0_scratch5 : DmaSems sig S_ := SemArray.consecutive 2 S_ hcc0_scratch5
abbrev cc0_scratch6 : DmaSems sig S8x3 := SemArray.consecutive 3 S8x3 hcc0_scratch6
abbrev cc0_scratch7 : DmaSems sig S8x3 := SemArray.consecutive 27 S8x3 hcc0_scratch7
abbrev cc0_scratch8 : DmaSems sig S8 := SemArray.consecutive 51 S8 hcc0_scratch8
abbrev cc0_scratch9 : DmaSems sig S8 := SemArray.consecutive 59 S8 hcc0_scratch9
abbrev cc0_scratch10 : DmaSems sig S8 := SemArray.consecutive 67 S8 hcc0_scratch10
abbrev cc0_scratch11 : DmaSems sig S8 := SemArray.consecutive 75 S8 hcc0_scratch11
abbrev cc0_scratch12 : DmaSems sig S8 := SemArray.consecutive 83 S8 hcc0_scratch12
abbrev cc0_scratch13 : DmaSems sig S8 := SemArray.consecutive 91 S8 hcc0_scratch13
def dot_S1024x256_S1024x1024_S256x1024_0_0_1_1_n_n : DotDims S1024x256 S1024x1024 S256x1024 where
  lhsContracting := [0]
  rhsContracting := [0]
  lhsNonContracting := [1]
  rhsNonContracting := [1]
  lhsBatch := []
  rhsBatch := []
  wf := dot_S1024x256_S1024x1024_S256x1024_0_0_1_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S4096x1024_S1024x4096_1_0 : S4096x1024.Transposes [1, 0] S1024x4096
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.RefRun.lean ====
/- The reference's run: its two host operations composed, the arguments unchanged. -/
import proofs.«901049_g7700000000001050_dist_rsdw_v7x_xyz2x2x4_z_m1024_d1024_f4096_f32_1_alg».proof.Defs
import proofs.«901049_g7700000000001050_dist_rsdw_v7x_xyz2x2x4_z_m1024_d1024_f4096_f32_1_alg».proof.Proof.Gen.ReferenceIdeal.Run
import proofs.«901049_g7700000000001050_dist_rsdw_v7x_xyz2x2x4_z_m1024_d1024_f4096_f32_1_alg».proof.Proof.Gen.ReferenceIdeal.Read
import proofs.«901049_g7700000000001050_dist_rsdw_v7x_xyz2x2x4_z_m1024_d1024_f4096_f32_1_alg».proof.Proof.Gen.Pre_finite_inputs_ReferenceIdeal

noncomputable section

namespace Cert.Proof.RefClaims

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v1)
          = Cert.ReferenceIdeal.Read.val_main_v1 (F := Ideal)
              (m (((0 : Dev Cert.ReferenceIdeal.nD).tc : Thread Cert.ReferenceIdeal.nD Cert.ReferenceIdeal.τ).loc Cert.ReferenceIdeal.main_arg0))
              (m (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)) :=
  (θ_run Cert.ReferenceIdeal.defs _ _).mono (fun _ h => h 0) (Cert.ReferenceIdeal.Value.run (F := Ideal) m ρ)

end Cert.Proof.RefClaims

end
-- ==== Proof.Mesh.lean ====
/- The sixteen devices as coordinates (x, y, z); the ring neighbours along z and the neighbours across x and y; closed forms, decided over the mesh, of the device ids and offsets the program computes. -/
import proofs.«901049_g7700000000001050_dist_rsdw_v7x_xyz2x2x4_z_m1024_d1024_f4096_f32_1_alg».proof.Proof.Gen.KernelIdeal
import Idealize.ShloMosaic.Lib.Decide
import Mathlib.Logic.Equiv.Defs
import Mathlib.Data.Fin.VecNotation

set_option synthInstance.maxSize 4096
set_option Elab.async false

namespace Cert.KernelIdeal.Mesh

open Idealize.ShloMosaic Cert.KernelIdeal Cert.KernelIdeal.Gen

def zc (c : Dev nD) : Nat := c.val % 4
def yc (c : Dev nD) : Nat := (c.val / 4) % 2
def xc (c : Dev nD) : Nat := c.val / 8
def qc (c : Dev nD) : Nat := xc c + 2 * yc c

theorem zc_lt (c : Dev nD) : zc c < 4 := Nat.mod_lt _ (by decide)
theorem yc_lt (c : Dev nD) : yc c < 2 := Nat.mod_lt _ (by decide)
theorem xc_lt (c : Dev nD) : xc c < 2 := by have h : c.val < 16 := c.isLt; unfold xc; omega
theorem qc_lt (c : Dev nD) : qc c < 4 := by have := xc_lt c; have := yc_lt c; unfold qc; omega

def mk (x y z : Nat) (hx : x < 2) (hy : y < 2) (hz : z < 4) : Dev nD :=
  ⟨8 * x + 4 * y + z, by show 8 * x + 4 * y + z < 16; omega⟩

def right (c : Dev nD) : Dev nD :=
  mk (xc c) (yc c) ((zc c + 1) % 4) (xc_lt c) (yc_lt c) (Nat.mod_lt _ (by decide))
def left (c : Dev nD) : Dev nD :=
  mk (xc c) (yc c) ((zc c + 3) % 4) (xc_lt c) (yc_lt c) (Nat.mod_lt _ (by decide))
def xn (c : Dev nD) : Dev nD :=
  mk (1 - xc c) (yc c) (zc c) (by omega) (yc_lt c) (zc_lt c)
def yn (c : Dev nD) : Dev nD :=
  mk (xc c) (1 - yc c) (zc c) (xc_lt c) (by omega) (zc_lt c)

theorem left_right (c : Dev nD) : left (right c) = c := by revert c; decide
theorem right_left (c : Dev nD) : right (left c) = c := by revert c; decide
theorem xn_xn (c : Dev nD) : xn (xn c) = c := by revert c; decide
theorem yn_yn (c : Dev nD) : yn (yn c) = c := by revert c; decide
theorem qc_left (c : Dev nD) : qc (left c) = qc c := by revert c; decide
theorem qc_xn (c : Dev nD) : qc (xn c) = (1 - xc c) + 2 * yc c := by revert c; decide
def ringEquiv : Dev nD ≃ Dev nD := ⟨right, left, left_right, right_left⟩
def xEquiv : Dev nD ≃ Dev nD := ⟨xn, xn, xn_xn, xn_xn⟩
def yEquiv : Dev nD ≃ Dev nD := ⟨yn, yn, yn_yn, yn_yn⟩

@[simp] theorem ringEquiv_apply (c : Dev nD) : ringEquiv c = right c := rfl
@[simp] theorem ringEquiv_symm_apply (c : Dev nD) : ringEquiv.symm c = left c := rfl
@[simp] theorem xEquiv_apply (c : Dev nD) : xEquiv c = xn c := rfl
@[simp] theorem xEquiv_symm_apply (c : Dev nD) : xEquiv.symm c = xn c := rfl
@[simp] theorem yEquiv_apply (c : Dev nD) : yEquiv c = yn c := rfl
@[simp] theorem yEquiv_symm_apply (c : Dev nD) : yEquiv.symm c = yn c := rfl

theorem dev1_eq (c : Dev nD) : (⟨k0_dev1 c, k0_dev1_lt c⟩ : Dev nD) = left c := by
  revert c; decide +kernel
theorem dev2_eq (c : Dev nD) : (⟨k0_dev2 c, k0_dev2_lt c⟩ : Dev nD) = right c := by
  revert c; decide +kernel
theorem dev3_eq (c : Dev nD) : (⟨k0_dev3 c, k0_dev3_lt c⟩ : Dev nD) = xn c := by
  revert c; decide +kernel
theorem dev4_eq (c : Dev nD) : (⟨k0_dev4 c, k0_dev4_lt c⟩ : Dev nD) = yn c := by
  revert c; decide +kernel
theorem dev5_eq (c : Dev nD) : (⟨k0_dev5 c, k0_dev5_lt c⟩ : Dev nD) = right c := by
  revert c; decide +kernel
theorem dev6_eq (c : Dev nD) : (⟨k0_dev6 c, k0_dev6_lt c⟩ : Dev nD) = right c := by
  revert c; decide +kernel
theorem dev7_eq (c : Dev nD) : (⟨k0_dev7 c, k0_dev7_lt c⟩ : Dev nD) = right c := by
  revert c; decide +kernel
theorem dev8_eq (c : Dev nD) : (⟨k0_dev8 c, k0_dev8_lt c⟩ : Dev nD) = right c := by
  revert c; decide +kernel
theorem dev9_eq (c : Dev nD) : (⟨k0_dev9 c, k0_dev9_lt c⟩ : Dev nD) = right c := by
  revert c; decide +kernel
theorem dev10_eq (c : Dev nD) : (⟨k0_dev10 c, k0_dev10_lt c⟩ : Dev nD) = right c := by
  revert c; decide +kernel
theorem dev11_eq (c : Dev nD) : (⟨k0_dev11 c, k0_dev11_lt c⟩ : Dev nD) = right c := by
  revert c; decide +kernel
theorem dev12_eq (c : Dev nD) : (⟨k0_dev12 c, k0_dev12_lt c⟩ : Dev nD) = right c := by
  revert c; decide +kernel
theorem dev13_eq (c : Dev nD) : (⟨k0_dev13 c, k0_dev13_lt c⟩ : Dev nD) = right c := by
  revert c; decide +kernel
theorem dev14_eq (c : Dev nD) : (⟨k0_dev14 c, k0_dev14_lt c⟩ : Dev nD) = right c := by
  revert c; decide +kernel
theorem dev15_eq (c : Dev nD) : (⟨k0_dev15 c, k0_dev15_lt c⟩ : Dev nD) = right c := by
  revert c; decide +kernel
theorem dev16_eq (c : Dev nD) : (⟨k0_dev16 c, k0_dev16_lt c⟩ : Dev nD) = right c := by
  revert c; decide +kernel
theorem dev17_eq (c : Dev nD) : (⟨k0_dev17 c, k0_dev17_lt c⟩ : Dev nD) = right c := by
  revert c; decide +kernel
theorem dev18_eq (c : Dev nD) : (⟨k0_dev18 c, k0_dev18_lt c⟩ : Dev nD) = right c := by
  revert c; decide +kernel
theorem dev19_eq (c : Dev nD) : (⟨k0_dev19 c, k0_dev19_lt c⟩ : Dev nD) = right c := by
  revert c; decide +kernel
theorem dev20_eq (c : Dev nD) : (⟨k0_dev20 c, k0_dev20_lt c⟩ : Dev nD) = right c := by
  revert c; decide +kernel
theorem dev21_eq (c : Dev nD) : (⟨k0_dev21 c, k0_dev21_lt c⟩ : Dev nD) = right c := by
  revert c; decide +kernel
theorem dev22_eq (c : Dev nD) : (⟨k0_dev22 c, k0_dev22_lt c⟩ : Dev nD) = right c := by
  revert c; decide +kernel
theorem dev23_eq (c : Dev nD) : (⟨k0_dev23 c, k0_dev23_lt c⟩ : Dev nD) = right c := by
  revert c; decide +kernel
theorem dev24_eq (c : Dev nD) : (⟨k0_dev24 c, k0_dev24_lt c⟩ : Dev nD) = right c := by
  revert c; decide +kernel
theorem dev25_eq (c : Dev nD) : (⟨k0_dev25 c, k0_dev25_lt c⟩ : Dev nD) = right c := by
  revert c; decide +kernel
theorem dev26_eq (c : Dev nD) : (⟨k0_dev26 c, k0_dev26_lt c⟩ : Dev nD) = right c := by
  revert c; decide +kernel
theorem dev27_eq (c : Dev nD) : (⟨k0_dev27 c, k0_dev27_lt c⟩ : Dev nD) = right c := by
  revert c; decide +kernel
theorem dev28_eq (c : Dev nD) : (⟨k0_dev28 c, k0_dev28_lt c⟩ : Dev nD) = right c := by
  revert c; decide +kernel
theorem dev29_eq (c : Dev nD) : (⟨k0_dev29 c, k0_dev29_lt c⟩ : Dev nD) = xn c := by
  revert c; decide +kernel
theorem dev30_eq (c : Dev nD) : (⟨k0_dev30 c, k0_dev30_lt c⟩ : Dev nD) = yn c := by
  revert c; decide +kernel
theorem dev31_eq (c : Dev nD) : (⟨k0_dev31 c, k0_dev31_lt c⟩ : Dev nD) = xn c := by
  revert c; decide +kernel
theorem dev32_eq (c : Dev nD) : (⟨k0_dev32 c, k0_dev32_lt c⟩ : Dev nD) = yn c := by
  revert c; decide +kernel
theorem dev33_eq (c : Dev nD) : (⟨k0_dev33 c, k0_dev33_lt c⟩ : Dev nD) = xn c := by
  revert c; decide +kernel
theorem dev34_eq (c : Dev nD) : (⟨k0_dev34 c, k0_dev34_lt c⟩ : Dev nD) = yn c := by
  revert c; decide +kernel
theorem dev35_eq (c : Dev nD) : (⟨k0_dev35 c, k0_dev35_lt c⟩ : Dev nD) = xn c := by
  revert c; decide +kernel
theorem dev36_eq (c : Dev nD) : (⟨k0_dev36 c, k0_dev36_lt c⟩ : Dev nD) = yn c := by
  revert c; decide +kernel
theorem dev37_eq (c : Dev nD) : (⟨k0_dev37 c, k0_dev37_lt c⟩ : Dev nD) = xn c := by
  revert c; decide +kernel
theorem dev38_eq (c : Dev nD) : (⟨k0_dev38 c, k0_dev38_lt c⟩ : Dev nD) = yn c := by
  revert c; decide +kernel
theorem dev39_eq (c : Dev nD) : (⟨k0_dev39 c, k0_dev39_lt c⟩ : Dev nD) = xn c := by
  revert c; decide +kernel
theorem dev40_eq (c : Dev nD) : (⟨k0_dev40 c, k0_dev40_lt c⟩ : Dev nD) = yn c := by
  revert c; decide +kernel
theorem dev41_eq (c : Dev nD) : (⟨k0_dev41 c, k0_dev41_lt c⟩ : Dev nD) = xn c := by
  revert c; decide +kernel
theorem dev42_eq (c : Dev nD) : (⟨k0_dev42 c, k0_dev42_lt c⟩ : Dev nD) = yn c := by
  revert c; decide +kernel
theorem dev43_eq (c : Dev nD) : (⟨k0_dev43 c, k0_dev43_lt c⟩ : Dev nD) = xn c := by
  revert c; decide +kernel
theorem dev44_eq (c : Dev nD) : (⟨k0_dev44 c, k0_dev44_lt c⟩ : Dev nD) = yn c := by
  revert c; decide +kernel
theorem dev45_eq (c : Dev nD) : (⟨k0_dev45 c, k0_dev45_lt c⟩ : Dev nD) = yn c := by
  revert c; decide +kernel
theorem dev46_eq (c : Dev nD) : (⟨k0_dev46 c, k0_dev46_lt c⟩ : Dev nD) = yn c := by
  revert c; decide +kernel
theorem dev47_eq (c : Dev nD) : (⟨k0_dev47 c, k0_dev47_lt c⟩ : Dev nD) = yn c := by
  revert c; decide +kernel
theorem dev48_eq (c : Dev nD) : (⟨k0_dev48 c, k0_dev48_lt c⟩ : Dev nD) = yn c := by
  revert c; decide +kernel
theorem dev49_eq (c : Dev nD) : (⟨k0_dev49 c, k0_dev49_lt c⟩ : Dev nD) = yn c := by
  revert c; decide +kernel
theorem dev50_eq (c : Dev nD) : (⟨k0_dev50 c, k0_dev50_lt c⟩ : Dev nD) = yn c := by
  revert c; decide +kernel
theorem dev51_eq (c : Dev nD) : (⟨k0_dev51 c, k0_dev51_lt c⟩ : Dev nD) = yn c := by
  revert c; decide +kernel
theorem dev52_eq (c : Dev nD) : (⟨k0_dev52 c, k0_dev52_lt c⟩ : Dev nD) = yn c := by
  revert c; decide +kernel

theorem off2_eq : ∀ (c : Dev nD) (r : Fin 4), k0_off2 c (BitVec.ofNat 32 (1 + r.val)) = ![0, 256 * ((c.val % 4 + 4 - (1 + r.val)) % 4)] := by
  decide +kernel
theorem off3_eq : ∀ (c : Dev nD) (r : Fin 4), k0_off3 c (BitVec.ofNat 32 (1 + r.val)) = ![256 * ((c.val % 4 + 4 - (1 + r.val)) % 4), 0] := by
  decide +kernel
theorem off4_eq : ∀ (c : Dev nD), k0_off4 c = ![256 * ((c.val % 4 + 3) % 4), 128 * 0] := by
  decide +kernel
theorem off5_eq : ∀ (c : Dev nD), k0_off5 c = ![256 * ((c.val % 4 + 3) % 4), 128 * 1] := by
  decide +kernel
theorem off6_eq : ∀ (c : Dev nD), k0_off6 c = ![256 * ((c.val % 4 + 3) % 4), 128 * 2] := by
  decide +kernel
theorem off7_eq : ∀ (c : Dev nD), k0_off7 c = ![256 * ((c.val % 4 + 3) % 4), 128 * 3] := by
  decide +kernel
theorem off8_eq : ∀ (c : Dev nD), k0_off8 c = ![256 * ((c.val % 4 + 3) % 4), 128 * 4] := by
  decide +kernel
theorem off9_eq : ∀ (c : Dev nD), k0_off9 c = ![256 * ((c.val % 4 + 3) % 4), 128 * 5] := by
  decide +kernel
theorem off10_eq : ∀ (c : Dev nD), k0_off10 c = ![256 * ((c.val % 4 + 3) % 4), 128 * 6] := by
  decide +kernel
theorem off11_eq : ∀ (c : Dev nD), k0_off11 c = ![256 * ((c.val % 4 + 3) % 4), 128 * 7] := by
  decide +kernel
theorem off12_eq : ∀ (c : Dev nD) (r : Fin 2), k0_off12 c (BitVec.ofNat 32 (1 + r.val)) = ![256 * ((c.val % 4 + 4 - (1 + r.val) - 1) % 4), 128 * 0] := by
  decide +kernel
theorem off13_eq : ∀ (c : Dev nD) (r : Fin 2), k0_off13 c (BitVec.ofNat 32 (1 + r.val)) = ![256 * ((c.val % 4 + 4 - (1 + r.val) - 1) % 4), 128 * 1] := by
  decide +kernel
theorem off14_eq : ∀ (c : Dev nD) (r : Fin 2), k0_off14 c (BitVec.ofNat 32 (1 + r.val)) = ![256 * ((c.val % 4 + 4 - (1 + r.val) - 1) % 4), 128 * 2] := by
  decide +kernel
theorem off15_eq : ∀ (c : Dev nD) (r : Fin 2), k0_off15 c (BitVec.ofNat 32 (1 + r.val)) = ![256 * ((c.val % 4 + 4 - (1 + r.val) - 1) % 4), 128 * 3] := by
  decide +kernel
theorem off16_eq : ∀ (c : Dev nD) (r : Fin 2), k0_off16 c (BitVec.ofNat 32 (1 + r.val)) = ![256 * ((c.val % 4 + 4 - (1 + r.val) - 1) % 4), 128 * 4] := by
  decide +kernel
theorem off17_eq : ∀ (c : Dev nD) (r : Fin 2), k0_off17 c (BitVec.ofNat 32 (1 + r.val)) = ![256 * ((c.val % 4 + 4 - (1 + r.val) - 1) % 4), 128 * 5] := by
  decide +kernel
theorem off18_eq : ∀ (c : Dev nD) (r : Fin 2), k0_off18 c (BitVec.ofNat 32 (1 + r.val)) = ![256 * ((c.val % 4 + 4 - (1 + r.val) - 1) % 4), 128 * 6] := by
  decide +kernel
theorem off19_eq : ∀ (c : Dev nD) (r : Fin 2), k0_off19 c (BitVec.ofNat 32 (1 + r.val)) = ![256 * ((c.val % 4 + 4 - (1 + r.val) - 1) % 4), 128 * 7] := by
  decide +kernel

/-- info: 'Cert.KernelIdeal.Mesh.dev5_eq' depends on axioms: [propext, Quot.sound] -/
#guard_msgs in #print axioms dev5_eq

/-- info: 'Cert.KernelIdeal.Mesh.off12_eq' depends on axioms: [propext, Classical.choice, Quot.sound] -/
#guard_msgs in #print axioms off12_eq

end Cert.KernelIdeal.Mesh
-- ==== Proof.Sched.lean ====
/- The schedule of the semaphore cells: each cell's one round, its duties with their payers and amounts, and the payload a duty hands the cell's owner (the block a copy lands and the value it carries). -/
import proofs.«901049_g7700000000001050_dist_rsdw_v7x_xyz2x2x4_z_m1024_d1024_f4096_f32_1_alg».proof.Proof.Mesh
import proofs.«901049_g7700000000001050_dist_rsdw_v7x_xyz2x2x4_z_m1024_d1024_f4096_f32_1_alg».proof.Proof.Gen.KernelIdeal.Frame
import proofs.«901049_g7700000000001050_dist_rsdw_v7x_xyz2x2x4_z_m1024_d1024_f4096_f32_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic
import Idealize.ShloMosaic.Lib.Transfers

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

abbrev xM : Memref sig .tc .vmem S1024x1024 .f32 := Memref.whole cc0_scratch0
abbrev dyqM : Memref sig .tc .vmem S1024x1024 .f32 := Memref.whole cc0_scratch1
abbrev partM : Memref sig .tc .vmem S1024x1024 .f32 := Memref.whole cc0_scratch2
abbrev commM : Memref sig .tc .vmem S8x3x256x128 .f32 := Memref.whole cc0_scratch3
abbrev outM : Memref sig .tc .vmem S256x4096 .f32 := Memref.whole cc0_stg0_0

abbrev barS : Sem sig := (SemArray.scalar (sig.barrier 0 rfl) : Sems sig S_).sem

def partBlk (off : Fin 2 → ℕ) (h : ∀ a, off a + S256x128.size a ≤ S1024x1024.size a) : Memref sig .tc .vmem S256x128 .f32 :=
  (partM).slice (Rect.unit (s := S1024x1024) off S256x128.size h) (fun _ => rfl)
def outBlk (off : Fin 2 → ℕ) (h : ∀ a, off a + S256x128.size a ≤ S256x4096.size a) : Memref sig .tc .vmem S256x128 .f32 :=
  (outM).slice (Rect.unit (s := S256x4096) off S256x128.size h) (fun _ => rfl)

theorem commSlot_inb (s : Fin 8) (h : Fin 3) : ∀ a, (![s.val, h.val, 0, 0] : Fin 4 → ℕ) a + S1x1x256x128.size a ≤ S8x3x256x128.size a := by
  revert s h; decide
def commSlot (s : Fin 8) (h : Fin 3) : Memref sig .tc .vmem S256x128 .f32 :=
  ((commM).slice (Rect.unit (s := S8x3x256x128) ![s.val, h.val, 0, 0] S1x1x256x128.size (commSlot_inb s h)) (fun _ => rfl)).squeeze S256x128 Facts₀.squeezes_S1x1x256x128_S256x128

theorem sem2_inb (s : Fin 8) (h : Fin 3) : ∀ a, (![s.val, h.val] : Fin 2 → ℕ) a + S1x1.size a ≤ S8x3.size a := by
  revert s h; decide
theorem sem1_inb (s : Fin 8) : ∀ a, (![s.val] : Fin 1 → ℕ) a + S1.size a ≤ S8.size a := by
  revert s; decide

def sem2 (A : DmaSems sig S8x3) (s : Fin 8) (h : Fin 3) : DmaSem sig :=
  ((A.slice (Rect.unit (s := S8x3) ![s.val, h.val] S1x1.size (sem2_inb s h))).squeeze S_ Facts₀.squeezes_S1x1_S_).sem
def sem1 (A : DmaSems sig S8) (s : Fin 8) : DmaSem sig :=
  ((A.slice (Rect.unit (s := S8) ![s.val] S1.size (sem1_inb s))).squeeze S_ Facts₀.squeezes_S1_S_).sem

abbrev rsSend (s : Fin 8) (h : Fin 3) : DmaSem sig := sem2 cc0_scratch6 s h
abbrev rsRecv (s : Fin 8) (h : Fin 3) : DmaSem sig := sem2 cc0_scratch7 s h
abbrev t1Send (s : Fin 8) : DmaSem sig := sem1 cc0_scratch8 s
abbrev t1Recv (s : Fin 8) : DmaSem sig := sem1 cc0_scratch9 s
abbrev t2Send (s : Fin 8) : DmaSem sig := sem1 cc0_scratch10 s
abbrev t2Recv (s : Fin 8) : DmaSem sig := sem1 cc0_scratch11 s
abbrev t3Send (s : Fin 8) : DmaSem sig := sem1 cc0_scratch12 s
abbrev t3Recv (s : Fin 8) : DmaSem sig := sem1 cc0_scratch13 s

inductive Kind where
  | rsS (s : Fin 8) (h : Fin 3) | rsR (s : Fin 8) (h : Fin 3)
  | t1S (s : Fin 8) | t1R (s : Fin 8) | t2S (s : Fin 8) | t2R (s : Fin 8) | t3S (s : Fin 8) | t3R (s : Fin 8)
  | local_
  deriving DecidableEq

def kindOf (j : DmaSem sig) : Kind :=
  if h : 3 ≤ j.val ∧ j.val < 27 then .rsS ⟨(j.val - 3) / 3, by omega⟩ ⟨(j.val - 3) % 3, Nat.mod_lt _ (by decide)⟩
  else if h : 27 ≤ j.val ∧ j.val < 51 then .rsR ⟨(j.val - 27) / 3, by omega⟩ ⟨(j.val - 27) % 3, Nat.mod_lt _ (by decide)⟩
  else if h : 51 ≤ j.val ∧ j.val < 59 then .t1S ⟨j.val - 51, by omega⟩
  else if h : 59 ≤ j.val ∧ j.val < 67 then .t1R ⟨j.val - 59, by omega⟩
  else if h : 67 ≤ j.val ∧ j.val < 75 then .t2S ⟨j.val - 67, by omega⟩
  else if h : 75 ≤ j.val ∧ j.val < 83 then .t2R ⟨j.val - 75, by omega⟩
  else if h : 83 ≤ j.val ∧ j.val < 91 then .t3S ⟨j.val - 83, by omega⟩
  else if h : 91 ≤ j.val ∧ j.val < 99 then .t3R ⟨j.val - 91, by omega⟩
  else .local_

theorem kindOf_rsSend : ∀ (s : Fin 8) (h : Fin 3), kindOf (rsSend s h) = .rsS s h := by decide
theorem kindOf_rsRecv : ∀ (s : Fin 8) (h : Fin 3), kindOf (rsRecv s h) = .rsR s h := by decide
theorem kindOf_t1Send : ∀ s : Fin 8, kindOf (t1Send s) = .t1S s := by decide
theorem kindOf_t1Recv : ∀ s : Fin 8, kindOf (t1Recv s) = .t1R s := by decide
theorem kindOf_t2Send : ∀ s : Fin 8, kindOf (t2Send s) = .t2S s := by decide
theorem kindOf_t2Recv : ∀ s : Fin 8, kindOf (t2Recv s) = .t2R s := by decide
theorem kindOf_t3Send : ∀ s : Fin 8, kindOf (t3Send s) = .t3S s := by decide
theorem kindOf_t3Recv : ∀ s : Fin 8, kindOf (t3Recv s) = .t3R s := by decide

section Contents

def xA (c : Dev nD) : Vec F S1024x1024 .f32 := m ((c : Thread nD τ).loc main_arg0)
def dyA (c : Dev nD) : Vec F S1024x4096 .f32 := m ((c : Thread nD τ).loc main_arg1)

def dyQ (c : Dev nD) : Vec F S1024x1024 .f32 := fun i =>
  dyA m c (ix2 ⟨(i 0).val, ValueIdx.idx2_lt0 i⟩ ⟨1024 * qc c + (i 1).val, by have := ValueIdx.idx2_lt1 i; have := qc_lt c; omega⟩)

def xCols (c : Dev nD) (j : Fin 4) : Vec F S1024x256 .f32 := fun i =>
  xA m c (ix2 ⟨(i 0).val, ValueIdx.idx2_lt0 i⟩ ⟨256 * j.val + (i 1).val, by have := ValueIdx.idx2_lt1 i; have := j.isLt; omega⟩)

def chunkV (c : Dev nD) (j : Fin 4) : Vec F S256x1024 .f32 := k0_pay1 (xCols m c j) (dyQ m c)

def blockV (c : Dev nD) (j : Fin 4) (s : Fin 8) : Vec F S256x128 .f32 := fun i =>
  chunkV m c j (ix2 ⟨(i 0).val, ValueIdx.idx2_lt0 i⟩ ⟨128 * s.val + (i 1).val, by have := ValueIdx.idx2_lt1 i; have := s.isLt; omega⟩)

def rowOf (z k : ℕ) : Fin 4 := ⟨(z + 4 - k % 4) % 4, Nat.mod_lt _ (by decide)⟩

def acc (s : Fin 8) : ℕ → Dev nD → Vec F S256x128 .f32
  | 0, c => blockV m c (rowOf (zc c) 1) s
  | h + 1, c => addf (acc s h (left c)) (blockV m c (rowOf (zc c) (h + 2)) s)

def redV (c : Dev nD) (s : Fin 8) : Vec F S256x128 .f32 := acc m s 3 c

end Contents

def holds (c : Dev nD) {sp : Space} (M : Memref sig .tc sp S256x128 .f32) (q : PosShare TreeShare) (V : Vec F S256x128 .f32) : sProp 𝕄 :=
  iprop(∃ f : Buf (Elt F) (M.view.loc (c : Thread nD τ)), ⌜M.view.read (Elt F) f = V⌝ ∗ (M.view.loc (c : Thread nD τ) ↦[M.view.set]{q} f))

def owned (c : Dev nD) {sp : Space} (M : Memref sig .tc sp S256x128 .f32) : sProp 𝕄 :=
  iprop(∃ f : Buf (Elt F) (M.view.loc (c : Thread nD τ)), (M.view.loc (c : Thread nD τ) ↦[M.view.set]{fullShare} f))

theorem outOff_inb (Q : ℕ) (hQ : Q < 4) (s : Fin 8) : ∀ a, (![0, 1024 * Q + 128 * s.val] : Fin 2 → ℕ) a + S256x128.size a ≤ S256x4096.size a := by
  intro a; have := s.isLt
  match a with
  | ⟨0, _⟩ => show 0 + 256 ≤ 256; omega
  | ⟨1, _⟩ => show 1024 * Q + 128 * s.val + 128 ≤ 4096; omega
def outQ (Q : ℕ) (hQ : Q < 4) (s : Fin 8) : Memref sig .tc .vmem S256x128 .f32 := outBlk ![0, 1024 * Q + 128 * s.val] (outOff_inb Q hQ s)

theorem partOff_inb (j : Fin 4) (s : Fin 8) : ∀ a, (![256 * j.val, 128 * s.val] : Fin 2 → ℕ) a + S256x128.size a ≤ S1024x1024.size a := by
  intro a; have := s.isLt; have := j.isLt
  match a with
  | ⟨0, _⟩ => show 256 * j.val + 256 ≤ 1024; omega
  | ⟨1, _⟩ => show 128 * s.val + 128 ≤ 1024; omega
def partJS (j : Fin 4) (s : Fin 8) : Memref sig .tc .vmem S256x128 .f32 := partBlk ![256 * j.val, 128 * s.val] (partOff_inb j s)

abbrev barCell (c : Dev nD) : GSem nD τ sig := ((c : Thread nD τ), .reg barS)
abbrev dmaCell (c : Dev nD) (j : DmaSem sig) : GSem nD τ sig := ((c : Thread nD τ), .dma j)

abbrev NB : ℕ := (commSlot 0 0).view.dmaCredit
theorem NB_pos : 0 < NB := View.dmaCredit_pos _ (by decide)

def barPay (c : Dev nD) (d : Fin 4) : sProp 𝕄 :=
  if d = 0 then bigSep (Finset.univ : Finset (Fin 8 × Fin 3)) fun sh => owned (right c) (commSlot sh.1 sh.2)
  else if d = 2 then bigSep (Finset.univ : Finset (Fin 8)) fun s => owned (xn c) (outQ (qc c) (qc_lt c) s)
  else if d = 3 then iprop((bigSep (Finset.univ : Finset (Fin 8)) fun s => owned (yn c) (outQ (qc c) (qc_lt c) s))
      ∗ bigSep (Finset.univ : Finset (Fin 8)) fun s => owned (yn c) (outQ (qc (xn c)) (qc_lt (xn c)) s))
  else iprop(emp)

def dmaPay (c : Dev nD) : Kind → sProp 𝕄
  | .rsS s h => if h.val = 0 then holds c (partJS (rowOf (zc c) 1) s) fullShare (acc m s 0 c)
                else holds c (commSlot s ⟨h.val - 1, by have := h.isLt; omega⟩) fullShare (acc m s h.val c)
  | .rsR s h => holds c (commSlot s h) fullShare (acc m s h.val (left c))
  | .t1S s => holds c (outQ (qc c) (qc_lt c) s) fullShare.left (redV m c s)
  | .t2S s => holds c (outQ (qc c) (qc_lt c) s) fullShare.right (redV m c s)
  | .t3S s => holds c (outQ (qc (xn c)) (qc_lt (xn c)) s) fullShare (redV m (xn c) s)
  | .t1R s => holds c (outQ (qc (xn c)) (qc_lt (xn c)) s) fullShare (redV m (xn c) s)
  | .t2R s => holds c (outQ (qc (yn c)) (qc_lt (yn c)) s) fullShare (redV m (yn c) s)
  | .t3R s => holds c (outQ (qc (xn (yn c))) (qc_lt (xn (yn c))) s) fullShare (redV m (xn (yn c)) s)
  | .local_ => iprop(emp)

def Rd : Rounds.Schedule (GSem nD τ sig) (Fin 4) 𝕄 where
  duties g r :=
    if r = 0 ∧ g.1.2 = .tc then
      (match g.2 with
        | .reg s => if s = barS then Finset.univ else ∅
        | .dma j => if kindOf j = .local_ then ∅ else {0})
    else ∅
  unitless _ := False
  amount g _ _ := match g.2 with | .reg _ => 1 | .dma _ => NB
  payload g _ d := match g.2 with
    | .reg _ => barPay g.1.1 d
    | .dma j => dmaPay m g.1.1 (kindOf j)
  amount_pos g _ _ _ := by
    cases g.2 with
    | reg _ => exact Nat.one_pos
    | dma _ => exact NB_pos

end Cert.KernelIdeal.Sched

end
-- ==== Proof.ValueMath.lean ====
/- The algebra of the value claim on the extended reals: a matrix product read at an index, the reference's product split over the four row blocks of the contraction axis, and the ring's cyclic sum as the sum over all four positions. -/
import proofs.«901049_g7700000000001050_dist_rsdw_v7x_xyz2x2x4_z_m1024_d1024_f4096_f32_1_alg».proof.Defs
import proofs.«901049_g7700000000001050_dist_rsdw_v7x_xyz2x2x4_z_m1024_d1024_f4096_f32_1_alg».proof.Proof.Gen.KernelIdeal.Skeleton
import proofs.«901049_g7700000000001050_dist_rsdw_v7x_xyz2x2x4_z_m1024_d1024_f4096_f32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

noncomputable section

open scoped BigOperators

namespace Cert.KernelIdeal.ValueMath

open Idealize.ShloMosaic Idealize.ShloMosaic.ValueIdx Cert.KernelIdeal Cert.KernelIdeal.Gen

abbrev zOf (c : Dev nD) : Fin 4 := ⟨c.val % 4, Nat.mod_lt _ (by decide)⟩

abbrev row (w : Fin 4) (k : Fin 1024) : Fin 4096 := ⟨1024 * w.val + k.val, by omega⟩

abbrev col (z : Fin 4) (i : Fin 256) : Fin 1024 := ⟨256 * z.val + i.val, by omega⟩

abbrev D : DotDims S1024x256 S1024x1024 S256x1024 := dot_S1024x256_S1024x1024_S256x1024_0_0_1_1_n_n

theorem gemm_lhs_0 (i : S256x1024.Idx) (q : D.contr.Idx) : (D.lhsIdx i q 0).val = (q ⟨0, by decide⟩).val :=
  D.lhsIdx_val_of_single rfl i q

theorem gemm_lhs_1 (i : S256x1024.Idx) (q : D.contr.Idx) : (D.lhsIdx i q 1).val = (i 0).val := by
  unfold DotDims.lhsIdx
  rw [dif_neg (show ¬(1 : Fin S1024x256.rank) ∈ D.lhsBatch by decide), dif_pos (show (1 : Fin S1024x256.rank) ∈ D.lhsNonContracting by decide)]
  rfl

theorem gemm_rhs_0 (i : S256x1024.Idx) (q : D.contr.Idx) : (D.rhsIdx i q 0).val = (q ⟨0, by decide⟩).val :=
  D.rhsIdx_val_of_single rfl i q

theorem gemm_rhs_1 (i : S256x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

theorem gemm_apply (a : Vec Ideal S1024x256 .f32) (b : Vec Ideal S1024x1024 .f32) (i : Fin 256) (j : Fin 1024) :
    k0_pay1 (F := Ideal) a b (ix2 i j) = ∑ k : Fin 1024, a (ix2 k i) * b (ix2 k j) := by
  show shapeCast S256x1024 (matmul (F := Ideal) (φ₁ := .f32) (φ₂ := .f32) D none a b
    (constant S256x1024 .f32 0x00000000#32)) shapeCasts_S256x1024_S256x1024 (ix2 i j) = _
  rw [shapeCast_self]
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 i j) ((contrEquiv1 D 1024 rfl rfl).symm k) = ix2 k i := funext fun x => Fin.ext (by
    match x with
    | ⟨0, _⟩ => exact (gemm_lhs_0 _ _).trans hk
    | ⟨1, _⟩ => exact gemm_lhs_1 _ _)
  have er : D.rhsIdx (ix2 i j) ((contrEquiv1 D 1024 rfl rfl).symm k) = ix2 k j := funext fun x => Fin.ext (by
    match x with
    | ⟨0, _⟩ => exact (gemm_rhs_0 _ _).trans hk
    | ⟨1, _⟩ => exact gemm_rhs_1 _ _)
  rw [el, er]

theorem ref_apply (X : (⟨Cert.ReferenceIdeal.S4096x1024, .f32⟩ : BufTy).Contents (Elt Ideal))
    (DY : (⟨Cert.ReferenceIdeal.S4096x4096, .f32⟩ : BufTy).Contents (Elt Ideal)) (i : Fin 1024) (j : Fin 4096) :
    Cert.ReferenceIdeal.Read.val_main_v1 (F := Ideal) X DY (ix2 i j) = ∑ k : Fin 4096, X (ix2 k i) * DY (ix2 k j) := by
  rw [Cert.ReferenceIdeal.Read.val_main_v1_apply]
  refine Finset.sum_congr rfl fun k _ => ?_
  rw [Cert.ReferenceIdeal.Read.val_main_v0_apply]
  have e1 : Cert.ReferenceIdeal.Read.idx_main_v0 (Cert.ReferenceIdeal.Read.lidx_main_v1 (ix2 i j) k) = ix2 k i := by
    funext x; match x with | ⟨0, _⟩ => rfl | ⟨1, _⟩ => rfl
  have e2 : Cert.ReferenceIdeal.Read.ridx_main_v1 (ix2 i j) k = ix2 k j := by
    funext x; match x with | ⟨0, _⟩ => rfl | ⟨1, _⟩ => rfl
  rw [e1, e2]

theorem meshLin_last (n : Nat) : Layout.meshLin [2, 2, 4] n [2] = n % 4 := by
  show (n / 1) % 4 * 1 + 0 = n % 4
  omega

theorem blockX_apply (c : Dev nD) (X : (⟨Cert.ReferenceIdeal.S4096x1024, .f32⟩ : BufTy).Contents (Elt Ideal))
    (k : Fin 1024) (i : Fin 1024) :
    (Layout.blockN ⟨2, ![1024, 1024]⟩ ⟨2, ![4096, 1024]⟩ (Layout.meshBlock [2, 2, 4] ![[2], []] c) X) (ix2 k i)
      = X (ix2 (row (zOf c) k) i) := by
  rw [Layout.blockN_apply]
  refine congrArg X (funext fun x => Fin.ext ?_)
  match x with
  | ⟨0, _⟩ =>
    show Layout.meshLin [2, 2, 4] c.val [2] * 1024 + k.val = 1024 * (c.val % 4) + k.val
    rw [meshLin_last]; omega
  | ⟨1, _⟩ =>
    show 0 * 1024 + i.val = i.val
    omega

theorem blockDY_apply (c : Dev nD) (DY : (⟨Cert.ReferenceIdeal.S4096x4096, .f32⟩ : BufTy).Contents (Elt Ideal))
    (k : Fin 1024) (j : Fin 4096) :
    (Layout.blockN ⟨2, ![1024, 4096]⟩ ⟨2, ![4096, 4096]⟩ (Layout.meshBlock [2, 2, 4] ![[2], []] c) DY) (ix2 k j)
      = DY (ix2 (row (zOf c) k) j) := by
  rw [Layout.blockN_apply]
  refine congrArg DY (funext fun x => Fin.ext ?_)
  match x with
  | ⟨0, _⟩ =>
    show Layout.meshLin [2, 2, 4] c.val [2] * 1024 + k.val = 1024 * (c.val % 4) + k.val
    rw [meshLin_last]; omega
  | ⟨1, _⟩ =>
    show 0 * 4096 + j.val = j.val
    omega

theorem blockV_apply (c : Dev nD) (V : (⟨Cert.ReferenceIdeal.S1024x4096, .f32⟩ : BufTy).Contents (Elt Ideal))
    (i : Fin 256) (j : Fin 4096) :
    (Layout.blockN ⟨2, ![256, 4096]⟩ ⟨2, ![1024, 4096]⟩ (Layout.meshBlock [2, 2, 4] ![[2], []] c) V) (ix2 i j)
      = V (ix2 (col (zOf c) i) j) := by
  rw [Layout.blockN_apply]
  refine congrArg V (funext fun x => Fin.ext ?_)
  match x with
  | ⟨0, _⟩ =>
    show Layout.meshLin [2, 2, 4] c.val [2] * 256 + i.val = 256 * (c.val % 4) + i.val
    rw [meshLin_last]; omega
  | ⟨1, _⟩ =>
    show 0 * 4096 + j.val = j.val
    omega

theorem sum_rows (F : Fin 4096 → EReal) : ∑ k : Fin 4096, F k = ∑ w : Fin 4, ∑ k : Fin 1024, F (row w k) := by
  have h := Equiv.sum_comp (finProdFinEquiv (m := 4) (n := 1024)) F
  rw [Fintype.sum_prod_type] at h
  refine h.symm.trans ?_
  refine Finset.sum_congr rfl fun w _ => Finset.sum_congr rfl fun k _ => congrArg F (Fin.ext ?_)
  show k.val + 1024 * w.val = 1024 * w.val + k.val
  omega

theorem cyc_sum (g : Fin 4 → EReal) (z : Fin 4) :
    ((g (z + 1) + g (z + 2)) + g (z + 3)) + g z = ∑ w, g w := by
  rw [Fin.sum_univ_four]
  match z with
  | ⟨0, _⟩ => show ((g 1 + g 2) + g 3) + g 0 = _; ac_rfl
  | ⟨1, _⟩ => show ((g 2 + g 3) + g 0) + g 1 = _; ac_rfl
  | ⟨2, _⟩ => show ((g 3 + g 0) + g 1) + g 2 = _; ac_rfl
  | ⟨3, _⟩ => show ((g 0 + g 1) + g 2) + g 3 = _; ac_rfl

def part (X : (⟨Cert.ReferenceIdeal.S4096x1024, .f32⟩ : BufTy).Contents (Elt Ideal))
    (DY : (⟨Cert.ReferenceIdeal.S4096x4096, .f32⟩ : BufTy).Contents (Elt Ideal)) (r : Fin 1024) (j : Fin 4096) (w : Fin 4) : EReal :=
  ∑ k : Fin 1024, X (ix2 (row w k) r) * DY (ix2 (row w k) j)

theorem part_of_blocks (X : (⟨Cert.ReferenceIdeal.S4096x1024, .f32⟩ : BufTy).Contents (Elt Ideal))
    (DY : (⟨Cert.ReferenceIdeal.S4096x4096, .f32⟩ : BufTy).Contents (Elt Ideal)) (c : Dev nD) (r : Fin 1024) (j : Fin 4096) :
    (∑ k : Fin 1024,
        (Layout.blockN ⟨2, ![1024, 1024]⟩ ⟨2, ![4096, 1024]⟩ (Layout.meshBlock [2, 2, 4] ![[2], []] c) X) (ix2 k r)
          * (Layout.blockN ⟨2, ![1024, 4096]⟩ ⟨2, ![4096, 4096]⟩ (Layout.meshBlock [2, 2, 4] ![[2], []] c) DY) (ix2 k j))
      = part X DY r j (zOf c) := by
  unfold part
  refine Finset.sum_congr rfl fun k _ => ?_
  rw [blockX_apply, blockDY_apply]

theorem ref_split (X : (⟨Cert.ReferenceIdeal.S4096x1024, .f32⟩ : BufTy).Contents (Elt Ideal))
    (DY : (⟨Cert.ReferenceIdeal.S4096x4096, .f32⟩ : BufTy).Contents (Elt Ideal)) (r : Fin 1024) (j : Fin 4096) :
    Cert.ReferenceIdeal.Read.val_main_v1 (F := Ideal) X DY (ix2 r j) = ∑ w : Fin 4, part X DY r j w := by
  rw [ref_apply, sum_rows fun k => X (ix2 k r) * DY (ix2 k j)]
  rfl

theorem value_combine (X : (⟨Cert.ReferenceIdeal.S4096x1024, .f32⟩ : BufTy).Contents (Elt Ideal))
    (DY : (⟨Cert.ReferenceIdeal.S4096x4096, .f32⟩ : BufTy).Contents (Elt Ideal)) (c : Dev nD) (i : Fin 256) (j : Fin 4096) :
    ((part X DY (col (zOf c) i) j (zOf c + 1) + part X DY (col (zOf c) i) j (zOf c + 2))
        + part X DY (col (zOf c) i) j (zOf c + 3)) + part X DY (col (zOf c) i) j (zOf c)
      = (Layout.blockN ⟨2, ![256, 4096]⟩ ⟨2, ![1024, 4096]⟩ (Layout.meshBlock [2, 2, 4] ![[2], []] c)
          (Cert.ReferenceIdeal.Read.val_main_v1 (F := Ideal) X DY)) (ix2 i j) := by
  rw [blockV_apply, ref_split]
  exact cyc_sum (part X DY (col (zOf c) i) j) (zOf c)

/-- info: 'Cert.KernelIdeal.ValueMath.value_combine' depends on axioms: [propext, Classical.choice, Quot.sound] -/
#guard_msgs in #print axioms value_combine

end Cert.KernelIdeal.ValueMath

end
-- ==== Proof.Value.lean ====
/- The ring's sums at an index: a device ends with its rows of the product of xᵀ with dy, and its x and y neighbours, which hold the same blocks of the arguments, end with the same. -/
import proofs.«901049_g7700000000001050_dist_rsdw_v7x_xyz2x2x4_z_m1024_d1024_f4096_f32_1_alg».proof.Proof.Sched
import proofs.«901049_g7700000000001050_dist_rsdw_v7x_xyz2x2x4_z_m1024_d1024_f4096_f32_1_alg».proof.Proof.ValueMath

noncomputable section

open scoped BigOperators

namespace Cert.KernelIdeal.Value

open Cert.KernelIdeal Cert.KernelIdeal.Gen Cert.KernelIdeal.Mesh Cert.KernelIdeal.ValueMath
open Idealize.ShloMosaic Idealize.ShloMosaic.TcCoe
open Idealize.ShloMosaic.ValueIdx (ix2)

abbrev bcol (s : Fin 8) (jj : Fin 128) : Fin 1024 := ⟨128 * s.val + jj.val, by omega⟩

abbrev ocol (Q : ℕ) (hQ : Q < 4) (s : Fin 8) (jj : Fin 128) : Fin 4096 := ⟨1024 * Q + 128 * s.val + jj.val, by omega⟩

theorem rowOf_own (c : Dev nD) : Sched.rowOf (zc c) 4 = zOf c := by revert c; decide
theorem rowOf_left1 (c : Dev nD) : Sched.rowOf (zc (left c)) 3 = zOf c := by revert c; decide
theorem rowOf_left2 (c : Dev nD) : Sched.rowOf (zc (left (left c))) 2 = zOf c := by revert c; decide
theorem rowOf_left3 (c : Dev nD) : Sched.rowOf (zc (left (left (left c)))) 1 = zOf c := by revert c; decide

theorem zOf_left1 (c : Dev nD) : zOf (left c) = zOf c + 3 := by revert c; decide
theorem zOf_left2 (c : Dev nD) : zOf (left (left c)) = zOf c + 2 := by revert c; decide
theorem zOf_left3 (c : Dev nD) : zOf (left (left (left c))) = zOf c + 1 := by revert c; decide

theorem mb_xn (c : Dev nD) : Layout.meshBlock [2, 2, 4] ![[2], []] (xn c) = Layout.meshBlock [2, 2, 4] ![[2], []] c := by
  revert c; decide
theorem mb_yn (c : Dev nD) : Layout.meshBlock [2, 2, 4] ![[2], []] (yn c) = Layout.meshBlock [2, 2, 4] ![[2], []] c := by
  revert c; decide

section
variable (m : (ℓ : Loc nD τ sig) → Buf (Elt Ideal) ℓ)
variable (X : (⟨Cert.ReferenceIdeal.S4096x1024, .f32⟩ : BufTy).Contents (Elt Ideal))
variable (DY : (⟨Cert.ReferenceIdeal.S4096x4096, .f32⟩ : BufTy).Contents (Elt Ideal))

theorem blockV_part
    (h0 : ∀ c : Dev nD, m ((c : Thread nD τ).loc main_arg0) = Layout.blockN ⟨2, ![1024, 1024]⟩ ⟨2, ![4096, 1024]⟩ (Layout.meshBlock [2, 2, 4] ![[2], []] c) X)
    (h1 : ∀ c : Dev nD, m ((c : Thread nD τ).loc main_arg1) = Layout.blockN ⟨2, ![1024, 4096]⟩ ⟨2, ![4096, 4096]⟩ (Layout.meshBlock [2, 2, 4] ![[2], []] c) DY)
    (c' : Dev nD) (j : Fin 4) (s : Fin 8) (i : Fin 256) (jj : Fin 128) :
    Sched.blockV (F := Ideal) m c' j s (ix2 i jj) = part X DY (col j i) (ocol (qc c') (qc_lt c') s jj) (zOf c') := by
  show k0_pay1 (F := Ideal) (Sched.xCols m c' j) (Sched.dyQ m c') (ix2 i (bcol s jj)) = _
  rw [gemm_apply, ← part_of_blocks X DY c' (col j i) (ocol (qc c') (qc_lt c') s jj), ← h0 c', ← h1 c']
  refine Finset.sum_congr rfl fun k _ => ?_
  have e : (ix2 k ⟨1024 * qc c' + (128 * s.val + jj.val), by have := qc_lt c'; omega⟩ : S1024x4096.Idx)
      = ix2 k (ocol (qc c') (qc_lt c') s jj) := by
    funext d
    match d with
    | ⟨0, _⟩ => rfl
    | ⟨1, _⟩ => exact Fin.ext (by show 1024 * qc c' + (128 * s.val + jj.val) = 1024 * qc c' + 128 * s.val + jj.val; omega)
  show Sched.xA m c' (ix2 k (col j i)) * Sched.dyA m c' (ix2 k ⟨1024 * qc c' + (128 * s.val + jj.val), _⟩) = _
  rw [e]
  rfl

theorem redV_apply
    (h0 : ∀ c : Dev nD, m ((c : Thread nD τ).loc main_arg0) = Layout.blockN ⟨2, ![1024, 1024]⟩ ⟨2, ![4096, 1024]⟩ (Layout.meshBlock [2, 2, 4] ![[2], []] c) X)
    (h1 : ∀ c : Dev nD, m ((c : Thread nD τ).loc main_arg1) = Layout.blockN ⟨2, ![1024, 4096]⟩ ⟨2, ![4096, 4096]⟩ (Layout.meshBlock [2, 2, 4] ![[2], []] c) DY)
    (c : Dev nD) (s : Fin 8) (i : Fin 256) (jj : Fin 128) :
    Sched.redV (F := Ideal) m c s (ix2 i jj)
      = (Layout.blockN ⟨2, ![256, 4096]⟩ ⟨2, ![1024, 4096]⟩ (Layout.meshBlock [2, 2, 4] ![[2], []] c)
          (Cert.ReferenceIdeal.Read.val_main_v1 (F := Ideal) X DY)) (ix2 i (ocol (qc c) (qc_lt c) s jj)) := by
  rw [← value_combine]
  show ((Sched.blockV (F := Ideal) m (left (left (left c))) (Sched.rowOf (zc (left (left (left c)))) 1) s (ix2 i jj)
        + Sched.blockV (F := Ideal) m (left (left c)) (Sched.rowOf (zc (left (left c))) 2) s (ix2 i jj))
        + Sched.blockV (F := Ideal) m (left c) (Sched.rowOf (zc (left c)) 3) s (ix2 i jj))
        + Sched.blockV (F := Ideal) m c (Sched.rowOf (zc c) 4) s (ix2 i jj) = _
  rw [rowOf_left3, rowOf_left2, rowOf_left1, rowOf_own,
    blockV_part m X DY h0 h1 (left (left (left c))), blockV_part m X DY h0 h1 (left (left c)),
    blockV_part m X DY h0 h1 (left c), blockV_part m X DY h0 h1 c]
  simp only [qc_left]
  rw [zOf_left3, zOf_left2, zOf_left1]

theorem redV_xn_apply
    (h0 : ∀ c : Dev nD, m ((c : Thread nD τ).loc main_arg0) = Layout.blockN ⟨2, ![1024, 1024]⟩ ⟨2, ![4096, 1024]⟩ (Layout.meshBlock [2, 2, 4] ![[2], []] c) X)
    (h1 : ∀ c : Dev nD, m ((c : Thread nD τ).loc main_arg1) = Layout.blockN ⟨2, ![1024, 4096]⟩ ⟨2, ![4096, 4096]⟩ (Layout.meshBlock [2, 2, 4] ![[2], []] c) DY)
    (c : Dev nD) (s : Fin 8) (i : Fin 256) (jj : Fin 128) :
    Sched.redV (F := Ideal) m (xn c) s (ix2 i jj)
      = (Layout.blockN ⟨2, ![256, 4096]⟩ ⟨2, ![1024, 4096]⟩ (Layout.meshBlock [2, 2, 4] ![[2], []] c)
          (Cert.ReferenceIdeal.Read.val_main_v1 (F := Ideal) X DY)) (ix2 i (ocol (qc (xn c)) (qc_lt (xn c)) s jj)) := by
  rw [redV_apply m X DY h0 h1 (xn c), mb_xn]

theorem redV_yn_apply
    (h0 : ∀ c : Dev nD, m ((c : Thread nD τ).loc main_arg0) = Layout.blockN ⟨2, ![1024, 1024]⟩ ⟨2, ![4096, 1024]⟩ (Layout.meshBlock [2, 2, 4] ![[2], []] c) X)
    (h1 : ∀ c : Dev nD, m ((c : Thread nD τ).loc main_arg1) = Layout.blockN ⟨2, ![1024, 4096]⟩ ⟨2, ![4096, 4096]⟩ (Layout.meshBlock [2, 2, 4] ![[2], []] c) DY)
    (c : Dev nD) (s : Fin 8) (i : Fin 256) (jj : Fin 128) :
    Sched.redV (F := Ideal) m (yn c) s (ix2 i jj)
      = (Layout.blockN ⟨2, ![256, 4096]⟩ ⟨2, ![1024, 4096]⟩ (Layout.meshBlock [2, 2, 4] ![[2], []] c)
          (Cert.ReferenceIdeal.Read.val_main_v1 (F := Ideal) X DY)) (ix2 i (ocol (qc (yn c)) (qc_lt (yn c)) s jj)) := by
  rw [redV_apply m X DY h0 h1 (yn c), mb_yn]

theorem redV_xn_yn_apply
    (h0 : ∀ c : Dev nD, m ((c : Thread nD τ).loc main_arg0) = Layout.blockN ⟨2, ![1024, 1024]⟩ ⟨2, ![4096, 1024]⟩ (Layout.meshBlock [2, 2, 4] ![[2], []] c) X)
    (h1 : ∀ c : Dev nD, m ((c : Thread nD τ).loc main_arg1) = Layout.blockN ⟨2, ![1024, 4096]⟩ ⟨2, ![4096, 4096]⟩ (Layout.meshBlock [2, 2, 4] ![[2], []] c) DY)
    (c : Dev nD) (s : Fin 8) (i : Fin 256) (jj : Fin 128) :
    Sched.redV (F := Ideal) m (xn (yn c)) s (ix2 i jj)
      = (Layout.blockN ⟨2, ![256, 4096]⟩ ⟨2, ![1024, 4096]⟩ (Layout.meshBlock [2, 2, 4] ![[2], []] c)
          (Cert.ReferenceIdeal.Read.val_main_v1 (F := Ideal) X DY)) (ix2 i (ocol (qc (xn (yn c))) (qc_lt (xn (yn c))) s jj)) := by
  rw [redV_apply m X DY h0 h1 (xn (yn c)), mb_xn, mb_yn]

end

/-- info: 'Cert.KernelIdeal.Value.redV_xn_yn_apply' depends on axioms: [propext, Classical.choice, Quot.sound] -/
#guard_msgs in #print axioms redV_xn_yn_apply

end Cert.KernelIdeal.Value

end
-- ==== Proof.State.lean ====
/- The order in which a device pays what it owes, the levels that keep every wait below what is still owed, the invariant of all cells, and what a device holds at launch. -/
import proofs.«901049_g7700000000001050_dist_rsdw_v7x_xyz2x2x4_z_m1024_d1024_f4096_f32_1_alg».proof.Proof.Sched

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev posAt (c : Dev nD) (x : DmaSem sig) (r : ℕ) : sProp 𝕄 := atPos ER (dmaCell c x) r ∅ 0
abbrev credOf (c : Dev nD) (x : DmaSem sig) : sProp 𝕄 := cred (tallyAt (dmaCell c x) () NB)
abbrev dutyOf (c : Dev nD) (x : DmaSem sig) : sProp 𝕄 := dutyTok ER (dmaCell c x) 0 (0 : Fin 4)
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

omit [FloatOps F] in
theorem bigSepL_append {I : Type} (l₁ l₂ : List I) (Φ : I → sProp 𝕄) :
    bigSepL (l₁ ++ l₂) Φ = BI.sep (bigSepL l₁ Φ) (bigSepL l₂ Φ) := by
  induction l₁ with
  | nil => exact (equiv_iff.mp BI.emp_sep).symm
  | cons i l ih =>
    rw [List.cons_append, bigSepL_cons, ih, bigSepL_cons]
    exact (BI.sep_assoc' (P := Φ i) (Q := bigSepL l Φ) (R := bigSepL l₂ Φ)).antisymm BI.sep_assoc

omit [FloatOps F] in
theorem bigSepL_flatMap {I J : Type} (l : List J) (f : J → List I) (Φ : I → sProp 𝕄) :
    bigSepL (l.flatMap f) Φ = bigSepL l fun a => bigSepL (f a) Φ := by
  induction l with
  | nil => rfl
  | cons a l ih => rw [List.flatMap_cons, bigSepL_append, ih, bigSepL_cons]

def obls (c : Dev nD) : List (GSem nD τ sig × ℕ) :=
  [(barCell (left c), 1), (barCell (right c), 1), (barCell (xn c), 1), (barCell (yn c), 1)]
  ++ (List.finRange 3).flatMap (fun h => (List.finRange 8).map fun s => (dmaCell (right c) (rsRecv s h), NB))
  ++ (List.finRange 8).flatMap (fun s => [(dmaCell (xn c) (t1Recv s), NB), (dmaCell (yn c) (t2Recv s), NB)])
  ++ (List.finRange 8).map (fun s => (dmaCell (yn c) (t3Recv s), NB))

def owedOf : List (GSem nD τ sig × ℕ) → CellTallies nD τ sig Unit
  | [] => 0
  | p :: l => owedOf l + tallyAt p.1 () p.2

def owedAfter (c : Dev nD) (k : ℕ) : CellTallies nD τ sig Unit := owedOf ((obls c).drop k)

def O₀ (c : Dev nD) : CellTallies nD τ sig Unit := owedAfter c 0

def L (g : GSem nD τ sig) : Finset Unit := if g.1.2 = .tc then {()} else ∅

def lvKind : Kind → ℕ
  | .rsR s h => 2 + 8 * h.val + s.val
  | .t1R s => 26 + 2 * s.val
  | .t2R s => 27 + 2 * s.val
  | .t3R s => 42 + s.val
  | _ => 0
def lv (g : GSem nD τ sig) (_ : Unit) : ℕ := match g.2 with
  | .reg _ => 1
  | .dma j => lvKind (kindOf j)

def copySems : List (DmaSem sig) :=
  (List.finRange 8).flatMap fun s => [rsSend s 0, rsSend s 1, rsSend s 2, rsRecv s 0, rsRecv s 1, rsRecv s 2,
    t1Send s, t1Recv s, t2Send s, t2Recv s, t3Send s, t3Recv s]

def allCells : Finset (GSem nD τ sig) :=
  Finset.univ.biUnion fun d : Dev nD => (barCell d :: copySems.map (dmaCell d)).toFinset

def invs (K : GSem nD τ sig → ℕ) : sProp 𝕄 :=
  bigSep allCells fun g => iprop(cellInv ER (Rd m) (K g) g ∗ reached ER g 0)

omit [FloatOps F] in
theorem mem_allCells_bar (d : Dev nD) : barCell d ∈ (allCells : Finset (GSem nD τ sig)) :=
  Finset.mem_biUnion.mpr ⟨d, Finset.mem_univ _, List.mem_toFinset.mpr (List.mem_cons_self ..)⟩
omit [FloatOps F] in
theorem mem_allCells_dma (d : Dev nD) {j : DmaSem sig} (hj : j ∈ copySems) : dmaCell d j ∈ (allCells : Finset (GSem nD τ sig)) :=
  Finset.mem_biUnion.mpr ⟨d, Finset.mem_univ _, List.mem_toFinset.mpr (List.mem_cons_of_mem _ (List.mem_map.mpr ⟨j, hj, rfl⟩))⟩

theorem mem_copySems_rsSend : ∀ (s : Fin 8) (h : Fin 3), rsSend s h ∈ copySems := by decide
theorem mem_copySems_rsRecv : ∀ (s : Fin 8) (h : Fin 3), rsRecv s h ∈ copySems := by decide
theorem mem_copySems_t1Send : ∀ s : Fin 8, t1Send s ∈ copySems := by decide
theorem mem_copySems_t1Recv : ∀ s : Fin 8, t1Recv s ∈ copySems := by decide
theorem mem_copySems_t2Send : ∀ s : Fin 8, t2Send s ∈ copySems := by decide
theorem mem_copySems_t2Recv : ∀ s : Fin 8, t2Recv s ∈ copySems := by decide
theorem mem_copySems_t3Send : ∀ s : Fin 8, t3Send s ∈ copySems := by decide
theorem mem_copySems_t3Recv : ∀ s : Fin 8, t3Recv s ∈ copySems := by decide

theorem invs_at (K : GSem nD τ sig → ℕ) {g : GSem nD τ sig} (h : g ∈ (allCells : Finset (GSem nD τ sig))) :
    invs m K ⊢ iprop(cellInv ER (Rd m) (K g) g ∗ reached ER g 0) :=
  bigSep_elim h

instance invs_persistent (K : GSem nD τ sig → ℕ) : BI.Persistent (invs m K) := by unfold invs; infer_instance

theorem invs_eq (K : GSem nD τ sig → ℕ) :
    invs m K = bigSep allCells fun g => iprop(cellInv ER (Rd m) (K g) g ∗ reached ER g 0) := rfl

attribute [irreducible] invs allCells

def laneGhost (c : Dev nD) (s : Fin 8) : sProp 𝕄 :=
  iprop((posAt c (rsSend s 0) 0
      ∗ posAt c (rsSend s 1) 0
      ∗ posAt c (rsSend s 2) 0
      ∗ posAt c (rsRecv s 0) 0
      ∗ posAt c (rsRecv s 1) 0
      ∗ posAt c (rsRecv s 2) 0
      ∗ posAt c (t1Send s) 0
      ∗ posAt c (t1Recv s) 0
      ∗ posAt c (t2Send s) 0
      ∗ posAt c (t2Recv s) 0
      ∗ posAt c (t3Send s) 0
      ∗ posAt c (t3Recv s) 0)
    ∗ (credOf c (rsRecv s 0)
      ∗ credOf c (rsRecv s 1)
      ∗ credOf c (rsRecv s 2)
      ∗ credOf c (t1Recv s)
      ∗ credOf c (t2Recv s)
      ∗ credOf c (t3Recv s))
    ∗ (dutyOf c (rsSend s 0)
      ∗ dutyOf c (rsSend s 1)
      ∗ dutyOf c (rsSend s 2)
      ∗ dutyOf c (t1Send s)
      ∗ dutyOf c (t2Send s)
      ∗ dutyOf c (t3Send s))
    ∗ (dutyOf (right c) (rsRecv s 0)
      ∗ dutyOf (right c) (rsRecv s 1)
      ∗ dutyOf (right c) (rsRecv s 2)
      ∗ dutyOf (xn c) (t1Recv s)
      ∗ dutyOf (yn c) (t2Recv s)
      ∗ dutyOf (yn c) (t3Recv s)))

def barGhost (c : Dev nD) : sProp 𝕄 :=
  iprop(atPos ER (barCell c) 0 ∅ 0 ∗ cred (tallyAt (barCell c) () 4)
    ∗ dutyTok ER (barCell (left c)) 0 (0 : Fin 4) ∗ dutyTok ER (barCell (right c)) 0 (1 : Fin 4)
    ∗ dutyTok ER (barCell (xn c)) 0 (2 : Fin 4) ∗ dutyTok ER (barCell (yn c)) 0 (3 : Fin 4))

def start (c : Dev nD) : sProp 𝕄 :=
  iprop((∃ K, □ invs m K) ∗ barGhost c ∗ (laneGhost c 0 ∗ laneGhost c 1 ∗ laneGhost c 2 ∗ laneGhost c 3 ∗ laneGhost c 4 ∗ laneGhost c 5 ∗ laneGhost c 6 ∗ laneGhost c 7) ∗ levAts L lv
    ∗ semVal (dmaCell c cc0_scratch4.sem) 0 ∗ semVal (dmaCell c cc0_scratch5.sem) 0)

end Cert.KernelIdeal.Sched

end
-- ==== Proof.Dats.lean ====
/- The proof data of the launch. The result is assembled from four quarters of eight blocks; quarter Q holds the ring's sums formed on the device with coordinates (Q mod 2, Q / 2, z). -/
import proofs.«901049_g7700000000001050_dist_rsdw_v7x_xyz2x2x4_z_m1024_d1024_f4096_f32_1_alg».proof.Proof.State

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def outAssemble (V : Fin 4 → Fin 8 → Vec F S256x128 .f32) : Vec F S256x4096 .f32 := fun i =>
  V ⟨(i 1).val / 1024, by have := ValueIdx.idx2_lt1 i; omega⟩ ⟨(i 1).val % 1024 / 128, by have := ValueIdx.idx2_lt1 i; omega⟩
    (ix2 ⟨(i 0).val, ValueIdx.idx2_lt0 i⟩ ⟨(i 1).val % 128, Nat.mod_lt _ (by decide)⟩)

def devQ (c : Dev nD) (Q : Fin 4) : Dev nD := ⟨8 * (Q.val % 2) + 4 * (Q.val / 2) + zc c, by have := zc_lt c; have := Q.isLt; show _ < 16; omega⟩

theorem devQ_own : ∀ c : Dev nD, devQ c ⟨qc c, qc_lt c⟩ = c := by decide
theorem devQ_xn : ∀ c : Dev nD, devQ c ⟨qc (xn c), qc_lt (xn c)⟩ = xn c := by decide
theorem devQ_yn : ∀ c : Dev nD, devQ c ⟨qc (yn c), qc_lt (yn c)⟩ = yn c := by decide
theorem devQ_xn_yn : ∀ c : Dev nD, devQ c ⟨qc (xn (yn c)), qc_lt (xn (yn c))⟩ = xn (yn c) := by decide

def outFinal (c : Dev nD) : Vec F S256x4096 .f32 := outAssemble fun Q s => redV m (devQ c Q) s

def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (((c : Thread nD τ).loc main_arg0) ↦{fullShare} m ((c : Thread nD τ).loc main_arg0))
    ∗ (((c : Thread nD τ).loc main_arg1) ↦{fullShare} m ((c : Thread nD τ).loc main_arg1)))

def Φ₀ (c : Dev nD) : sProp 𝕄 := iprop(start m c ∗ bufs m c)

def Φ₁ (c : Dev nD) : sProp 𝕄 :=
  iprop(bufs m c ∗ semVal (dmaCell c cc0_scratch4.sem) 0 ∗ semVal (dmaCell c cc0_scratch5.sem) 0
    ∗ bigSepL copySems fun j => semVal (dmaCell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outFinal m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Sched

end
-- ==== Proof.OutValue.lean ====
/- The assembled result of device (x, y, z) is rows [256 z, 256 z + 256) of xᵀ·dy. -/
import proofs.«901049_g7700000000001050_dist_rsdw_v7x_xyz2x2x4_z_m1024_d1024_f4096_f32_1_alg».proof.Proof.Value
import proofs.«901049_g7700000000001050_dist_rsdw_v7x_xyz2x2x4_z_m1024_d1024_f4096_f32_1_alg».proof.Proof.Dats

noncomputable section

namespace Cert.Proof.Final

open Cert.KernelIdeal Cert.KernelIdeal.Gen Cert.KernelIdeal.Mesh Cert.KernelIdeal.Value
open Idealize.ShloMosaic Idealize.ShloMosaic.TcCoe
open Idealize.ShloMosaic.ValueIdx (ix2)

theorem quarter_cases : ∀ (c : Dev nD) (Q : Fin 4),
    Q = ⟨qc c, qc_lt c⟩ ∨ Q = ⟨qc (xn c), qc_lt (xn c)⟩ ∨ Q = ⟨qc (yn c), qc_lt (yn c)⟩
      ∨ Q = ⟨qc (xn (yn c)), qc_lt (xn (yn c))⟩ := by decide

section
variable (m : (ℓ : Loc nD τ sig) → Buf (Elt Ideal) ℓ)
variable (X : (⟨Cert.ReferenceIdeal.S4096x1024, .f32⟩ : BufTy).Contents (Elt Ideal))
variable (DY : (⟨Cert.ReferenceIdeal.S4096x4096, .f32⟩ : BufTy).Contents (Elt Ideal))

theorem redV_devQ_apply
    (h0 : ∀ c : Dev nD, m ((c : Thread nD τ).loc main_arg0) = Layout.blockN ⟨2, ![1024, 1024]⟩ ⟨2, ![4096, 1024]⟩ (Layout.meshBlock [2, 2, 4] ![[2], []] c) X)
    (h1 : ∀ c : Dev nD, m ((c : Thread nD τ).loc main_arg1) = Layout.blockN ⟨2, ![1024, 4096]⟩ ⟨2, ![4096, 4096]⟩ (Layout.meshBlock [2, 2, 4] ![[2], []] c) DY)
    (c : Dev nD) (Q : Fin 4) (s : Fin 8) (i : Fin 256) (jj : Fin 128) :
    Sched.redV (F := Ideal) m (Sched.devQ c Q) s (ix2 i jj)
      = (Layout.blockN ⟨2, ![256, 4096]⟩ ⟨2, ![1024, 4096]⟩ (Layout.meshBlock [2, 2, 4] ![[2], []] c)
          (Cert.ReferenceIdeal.Read.val_main_v1 (F := Ideal) X DY)) (ix2 i (ocol Q.val Q.isLt s jj)) := by
  rcases quarter_cases c Q with h | h | h | h
  · subst h; rw [Sched.devQ_own]; exact redV_apply m X DY h0 h1 c s i jj
  · subst h; rw [Sched.devQ_xn]; exact redV_xn_apply m X DY h0 h1 c s i jj
  · subst h; rw [Sched.devQ_yn]; exact redV_yn_apply m X DY h0 h1 c s i jj
  · subst h; rw [Sched.devQ_xn_yn]; exact redV_xn_yn_apply m X DY h0 h1 c s i jj

theorem out_value
    (h0 : ∀ c : Dev nD, m ((c : Thread nD τ).loc main_arg0) = Layout.blockN ⟨2, ![1024, 1024]⟩ ⟨2, ![4096, 1024]⟩ (Layout.meshBlock [2, 2, 4] ![[2], []] c) X)
    (h1 : ∀ c : Dev nD, m ((c : Thread nD τ).loc main_arg1) = Layout.blockN ⟨2, ![1024, 4096]⟩ ⟨2, ![4096, 4096]⟩ (Layout.meshBlock [2, 2, 4] ![[2], []] c) DY)
    (c : Dev nD) :
    Sched.outFinal (F := Ideal) m c
      = Layout.blockN ⟨2, ![256, 4096]⟩ ⟨2, ![1024, 4096]⟩ (Layout.meshBlock [2, 2, 4] ![[2], []] c)
          (Cert.ReferenceIdeal.Read.val_main_v1 (F := Ideal) X DY) := by
  funext idx
  obtain ⟨i0, i1, rfl⟩ : ∃ (i0 : Fin 256) (i1 : Fin 4096), idx = ix2 i0 i1 := ⟨_, _, ValueIdx.eq_ix2 idx⟩
  have hQ : i1.val / 1024 < 4 := by have := i1.isLt; omega
  have hs : i1.val % 1024 / 128 < 8 := by omega
  have hj : i1.val % 128 < 128 := Nat.mod_lt _ (by decide)
  have e1 : ocol (i1.val / 1024) hQ ⟨i1.val % 1024 / 128, hs⟩ ⟨i1.val % 128, hj⟩ = i1 :=
    Fin.ext (by show 1024 * (i1.val / 1024) + 128 * (i1.val % 1024 / 128) + i1.val % 128 = i1.val; omega)
  show Sched.redV (F := Ideal) m (Sched.devQ c ⟨i1.val / 1024, hQ⟩) ⟨i1.val % 1024 / 128, hs⟩ (ix2 i0 ⟨i1.val % 128, hj⟩) = _
  rw [redV_devQ_apply m X DY h0 h1 c ⟨i1.val / 1024, hQ⟩ ⟨i1.val % 1024 / 128, hs⟩ i0 ⟨i1.val % 128, hj⟩]
  show (Layout.blockN ⟨2, ![256, 4096]⟩ ⟨2, ![1024, 4096]⟩ (Layout.meshBlock [2, 2, 4] ![[2], []] c)
          (Cert.ReferenceIdeal.Read.val_main_v1 (F := Ideal) X DY))
        (ix2 i0 (ocol (i1.val / 1024) hQ ⟨i1.val % 1024 / 128, hs⟩ ⟨i1.val % 128, hj⟩)) = _
  rw [e1]

end

/-- info: 'Cert.Proof.Final.out_value' depends on axioms: [propext, Classical.choice, Quot.sound] -/
#guard_msgs in #print axioms out_value

end Cert.Proof.Final

end
-- ==== Proof.SchedTab.lean ====
/- The schedule read at each kind of cell. -/
import proofs.«901049_g7700000000001050_dist_rsdw_v7x_xyz2x2x4_z_m1024_d1024_f4096_f32_1_alg».proof.Proof.Sched

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

instance holds_storable (c : Dev nD) {sp : Space} (M : Memref sig .tc sp S256x128 .f32) (q : PosShare TreeShare) (V : Vec F S256x128 .f32) :
    BI.Storable (upEmb : UEmb _ 𝕄) (holds c M q V) := by unfold holds; infer_instance

instance owned_storable (c : Dev nD) {sp : Space} (M : Memref sig .tc sp S256x128 .f32) :
    BI.Storable (upEmb : UEmb _ 𝕄) (owned (F := F) c M) := by unfold owned; infer_instance

instance barPay_storable (c : Dev nD) (d : Fin 4) : BI.Storable (upEmb : UEmb _ 𝕄) (barPay (F := F) c d) := by
  unfold barPay
  (repeat' split) <;> infer_instance

instance dmaPay_storable (c : Dev nD) (k : Kind) : BI.Storable (upEmb : UEmb _ 𝕄) (dmaPay m c k) := by
  cases k <;> dsimp only [dmaPay] <;> (try split) <;> infer_instance

instance Rd_payload_storable (g : GSem nD τ sig) (r : ℕ) (d : Fin 4) :
    BI.Storable (upEmb : UEmb _ 𝕄) ((Rd m).payload g r d) := by
  obtain ⟨t, sm⟩ := g
  cases sm with
  | reg s => show BI.Storable upEmb (barPay t.1 d); infer_instance
  | dma j => show BI.Storable upEmb (dmaPay m t.1 (kindOf j)); infer_instance

section Tab
variable (c : Dev nD) (s : Fin 8) (h : Fin 3)

theorem duties_bar : (Rd m).duties (barCell c) 0 = Finset.univ := by
  dsimp only [Rd]; rw [if_pos ⟨rfl, rfl⟩]; exact if_pos rfl

theorem duties_dma (j : DmaSem sig) (hk : kindOf j ≠ .local_) : (Rd m).duties (dmaCell c j) 0 = {0} := by
  dsimp only [Rd]; rw [if_pos ⟨rfl, rfl⟩]; exact if_neg hk

theorem duties_later (g : GSem nD τ sig) : ∀ r, 1 ≤ r → (Rd m).duties g r = ∅ :=
  fun r hr => by dsimp only [Rd]; rw [if_neg fun e => by have := e.1; omega]

theorem amount_bar (r : ℕ) (d : Fin 4) : (Rd m).amount (barCell c) r d = 1 := rfl

theorem amount_dma (j : DmaSem sig) (r : ℕ) (d : Fin 4) : (Rd m).amount (dmaCell c j) r d = NB := rfl

theorem expect_bar : (Rd m).expect (barCell c) 0 = 4 := by
  unfold Schedule.expect Schedule.amountOf
  rw [duties_bar, Finset.sum_congr rfl fun d _ => amount_bar m c 0 d, Finset.sum_const, Finset.card_univ, Fintype.card_fin, smul_eq_mul]

theorem expect_dma (j : DmaSem sig) (hk : kindOf j ≠ .local_) : (Rd m).expect (dmaCell c j) 0 = NB := by
  unfold Schedule.expect Schedule.amountOf; rw [duties_dma m c j hk, Finset.sum_singleton, amount_dma]

theorem payload_bar (d : Fin 4) : (Rd m).payload (barCell c) 0 d = barPay c d := rfl

theorem barPay_zero : barPay (F := F) c 0 = bigSep (Finset.univ : Finset (Fin 8 × Fin 3)) fun sh => owned (right c) (commSlot sh.1 sh.2) := by
  unfold barPay; exact if_pos rfl
theorem barPay_one : barPay (F := F) c 1 = iprop(emp) := by
  unfold barPay; rw [if_neg (by decide), if_neg (by decide), if_neg (by decide)]
theorem barPay_two : barPay (F := F) c 2 = bigSep (Finset.univ : Finset (Fin 8)) fun s => owned (xn c) (outQ (qc c) (qc_lt c) s) := by
  unfold barPay; rw [if_neg (by decide), if_pos rfl]
theorem barPay_three : barPay (F := F) c 3 = iprop((bigSep (Finset.univ : Finset (Fin 8)) fun s => owned (yn c) (outQ (qc c) (qc_lt c) s))
      ∗ bigSep (Finset.univ : Finset (Fin 8)) fun s => owned (yn c) (outQ (qc (xn c)) (qc_lt (xn c)) s)) := by
  unfold barPay; rw [if_neg (by decide), if_neg (by decide), if_pos rfl]

theorem dmaPay_rsS_zero : dmaPay m c (.rsS s 0) = holds c (partJS (rowOf (zc c) 1) s) fullShare (acc m s 0 c) := by
  unfold dmaPay; exact if_pos rfl
theorem dmaPay_rsS_succ (h' : ℕ) (hh : h' + 1 < 3) :
    dmaPay m c (.rsS s ⟨h' + 1, hh⟩) = holds c (commSlot s ⟨h', by omega⟩) fullShare (acc m s (h' + 1) c) := by
  unfold dmaPay; exact if_neg (Nat.succ_ne_zero h')
theorem dmaPay_rsR : dmaPay m c (.rsR s h) = holds c (commSlot s h) fullShare (acc m s h.val (left c)) := rfl
theorem dmaPay_t1S : dmaPay m c (.t1S s) = holds c (outQ (qc c) (qc_lt c) s) fullShare.left (redV m c s) := rfl
theorem dmaPay_t2S : dmaPay m c (.t2S s) = holds c (outQ (qc c) (qc_lt c) s) fullShare.right (redV m c s) := rfl
theorem dmaPay_t3S : dmaPay m c (.t3S s) = holds c (outQ (qc (xn c)) (qc_lt (xn c)) s) fullShare (redV m (xn c) s) := rfl
theorem dmaPay_t1R : dmaPay m c (.t1R s) = holds c (outQ (qc (xn c)) (qc_lt (xn c)) s) fullShare (redV m (xn c) s) := rfl
theorem dmaPay_t2R : dmaPay m c (.t2R s) = holds c (outQ (qc (yn c)) (qc_lt (yn c)) s) fullShare (redV m (yn c) s) := rfl
theorem dmaPay_t3R : dmaPay m c (.t3R s) = holds c (outQ (qc (xn (yn c))) (qc_lt (xn (yn c))) s) fullShare (redV m (xn (yn c)) s) := rfl

theorem rest_bar : bigSep ((Rd m).duties (barCell c) 0 \ ∅) (fun d => (Rd m).payload (barCell c) 0 d)
    = iprop(barPay c 0 ∗ barPay c 1 ∗ barPay c 2 ∗ barPay c 3) := by
  rw [Finset.sdiff_empty, duties_bar, bigSep_univ_eq_bigSepL [0, 1, 2, 3] (by decide) (by decide), bigSepL_cons_cons, bigSepL_cons_cons,
    bigSepL_cons_cons, bigSepL_singleton]
  rfl

theorem rest_bar_blocks : bigSep ((Rd m).duties (barCell c) 0 \ ∅) (fun d => (Rd m).payload (barCell c) 0 d)
    = iprop((bigSep (Finset.univ : Finset (Fin 8 × Fin 3)) fun sh => owned (right c) (commSlot sh.1 sh.2))
      ∗ emp
      ∗ (bigSep (Finset.univ : Finset (Fin 8)) fun s => owned (xn c) (outQ (qc c) (qc_lt c) s))
      ∗ (bigSep (Finset.univ : Finset (Fin 8)) fun s => owned (yn c) (outQ (qc c) (qc_lt c) s))
      ∗ bigSep (Finset.univ : Finset (Fin 8)) fun s => owned (yn c) (outQ (qc (xn c)) (qc_lt (xn c)) s)) := by
  rw [rest_bar, barPay_zero, barPay_one, barPay_two, barPay_three]

end Tab

end Cert.KernelIdeal.Sched

end
-- ==== Proof.StepsWait.lean ====
/- A wait on a cell whose round is paid hands the waiter the round's payload; what a device still owes after each payment; every cell waited on lies below everything still owed. -/
import proofs.«901049_g7700000000001050_dist_rsdw_v7x_xyz2x2x4_z_m1024_d1024_f4096_f32_1_alg».proof.Proof.SchedTab
import proofs.«901049_g7700000000001050_dist_rsdw_v7x_xyz2x2x4_z_m1024_d1024_f4096_f32_1_alg».proof.Proof.State

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem rest_dma (c : Dev nD) (j : DmaSem sig) (hk : kindOf j ≠ .local_) :
    bigSep ((Rd m).duties (dmaCell c j) 0 \ ∅) (fun d => (Rd m).payload (dmaCell c j) 0 d) = dmaPay m c (kindOf j) := by
  rw [Finset.sdiff_empty, duties_dma m c j hk, bigSep_singleton]; rfl

theorem wait_dma (c : Dev nD) (j : DmaSem sig) (hj : j ∈ copySems) (hk : kindOf j ≠ .local_)
    (K : GSem nD τ sig → ℕ) (sem : DmaSem sig) (hsem : sem = j)
    {sp' : Space} {s' : Shape} {e' : EltTy} (src : Memref sig .tc sp' s' e') (dst : Memref sig .tc .vmem S256x128 .f32)
    {hs : src.view.WordExact} {hd : dst.view.WordExact}
    {α : Type} {Q : α → sProp 𝕄} {k : PUnit → Prog (TpuEff nD τ sig (Elt F) Λ₀ .tc) α}
    (O : CellTallies nD τ sig Unit) (W : Waits sig Unit) :
    iprop(invs m K ∗ cred (tallyAt (dmaCell c j) () NB) ∗ owes (c : Thread nD τ) O W
        ∗ MayWait (c : Thread nD τ) (.dma j) () O ∗ atPos ER (dmaCell c j) 0 ∅ 0)
      ⊢ iprop(((owes (c : Thread nD τ) O (insert (SemLoc.dma j, ()) W) ∗ atPos ER (dmaCell c j) 1 ∅ 0 ∗ reached ER (dmaCell c j) 1
              ∗ dmaPay m c (kindOf j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hs hd) k) Q) := by
  subst hsem
  have hamt : dst.view.dmaCredit = NB := rfl
  have key := Rounds.wp_wait_rest_token (defs := defs₀ (F := F)) 𝒱₀ ER (Rd m) (c : Thread nD τ) none (κ := K (dmaCell c sem)) (Q := Q) (k := k)
    (wpE_waitDma2_eq (defs := defs₀ (F := F)) (sem := sem) (src := src) (dst := dst) (hsrc := hs) (hdst := hd) 𝒱₀ (c : Thread nD τ) none Set.univ)
    (Set.mem_univ _) () (O := O) (W := W) (R := 0) (m := 0) (T := ∅)
    (by rw [Nat.zero_add, hamt, expect_dma m c sem hk])
  rw [hamt, rest_dma m c sem hk] at key
  iintro ⟨HI, Hrest⟩
  icases (invs_at m K (mem_allCells_dma c hj)) $$ HI with ⟨Hinv, -⟩
  iapply key
  iframe

theorem close_dma (c : Dev nD) (j : DmaSem sig) (hj : j ∈ copySems) (K : GSem nD τ sig → ℕ) :
    invs m K ⊢ iprop(atPos ER (dmaCell c j) 1 ∅ 0 -∗ |={Set.univ}=> semVal (dmaCell c j) 0) := by
  iintro HI Hat
  icases (invs_at m K (mem_allCells_dma c hj)) $$ HI with ⟨Hinv, -⟩
  iapply (Rounds.cell_close ER (Rd m) (Set.mem_univ (K (dmaCell c j))) (fun h => h) (R := 1) (duties_later m (dmaCell c j)))
  iframe

theorem owedAfter_peel (c : Dev nD) {k : ℕ} {p : GSem nD τ sig × ℕ} (h : (obls c)[k]? = some p) :
    owedAfter c k = owedAfter c (k + 1) + tallyAt p.1 () p.2 := by
  obtain ⟨hk, rfl⟩ := List.getElem?_eq_some_iff.mp h
  unfold owedAfter
  rw [List.drop_eq_getElem_cons hk]
  rfl

theorem obls_length (c : Dev nD) : (obls c).length = 52 := rfl

theorem owedAfter_all (c : Dev nD) : owedAfter c 52 = 0 := by
  unfold owedAfter; rw [List.drop_of_length_le (by rw [obls_length])]; rfl

theorem owedAfter_bar_left (c : Dev nD) : owedAfter c 0 = owedAfter c 1 + tallyAt (barCell (left c)) () 1 :=
  owedAfter_peel c (p := (barCell (left c), 1)) (by rfl)
theorem owedAfter_bar_right (c : Dev nD) : owedAfter c 1 = owedAfter c 2 + tallyAt (barCell (right c)) () 1 :=
  owedAfter_peel c (p := (barCell (right c), 1)) (by rfl)
theorem owedAfter_bar_xn (c : Dev nD) : owedAfter c 2 = owedAfter c 3 + tallyAt (barCell (xn c)) () 1 :=
  owedAfter_peel c (p := (barCell (xn c), 1)) (by rfl)
theorem owedAfter_bar_yn (c : Dev nD) : owedAfter c 3 = owedAfter c 4 + tallyAt (barCell (yn c)) () 1 :=
  owedAfter_peel c (p := (barCell (yn c), 1)) (by rfl)
theorem owedAfter_rs (c : Dev nD) (s : Fin 8) (h : Fin 3) :
    owedAfter c (4 + 8 * h.val + s.val) = owedAfter c (4 + 8 * h.val + s.val + 1) + tallyAt (dmaCell (right c) (rsRecv s h)) () NB :=
  owedAfter_peel c (p := (dmaCell (right c) (rsRecv s h), NB)) (by fin_cases s <;> fin_cases h <;> rfl)
theorem owedAfter_t1 (c : Dev nD) (s : Fin 8) :
    owedAfter c (28 + 2 * s.val) = owedAfter c (28 + 2 * s.val + 1) + tallyAt (dmaCell (xn c) (t1Recv s)) () NB :=
  owedAfter_peel c (p := (dmaCell (xn c) (t1Recv s), NB)) (by fin_cases s <;> rfl)
theorem owedAfter_t2 (c : Dev nD) (s : Fin 8) :
    owedAfter c (29 + 2 * s.val) = owedAfter c (29 + 2 * s.val + 1) + tallyAt (dmaCell (yn c) (t2Recv s)) () NB :=
  owedAfter_peel c (p := (dmaCell (yn c) (t2Recv s), NB)) (by fin_cases s <;> rfl)
theorem owedAfter_t3 (c : Dev nD) (s : Fin 8) :
    owedAfter c (44 + s.val) = owedAfter c (44 + s.val + 1) + tallyAt (dmaCell (yn c) (t3Recv s)) () NB :=
  owedAfter_peel c (p := (dmaCell (yn c) (t3Recv s), NB)) (by fin_cases s <;> rfl)

theorem L_of_tc {g : GSem nD τ sig} (h : g.1.2 = .tc) : L g = {()} := if_pos h

theorem owedOf_pos {l : List (GSem nD τ sig × ℕ)} {g : GSem nD τ sig} {u : Unit} (h : 0 < owedOf l g u) : ∃ p ∈ l, p.1 = g := by
  induction l with
  | nil => exact absurd h (Nat.lt_irrefl 0)
  | cons p l ih =>
    unfold owedOf at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨q, hq, hqg⟩ := ih h
      exact ⟨q, List.mem_cons_of_mem _ hq, hqg⟩

theorem mayWait_of_drop (c : Dev nD) (sm : SemLoc sig) (k : ℕ)
    (h : ∀ p ∈ (obls c).drop k, p.1.1.2 = .tc ∧ lv ((c : Thread nD τ), sm) () < lv p.1 ()) :
    (levAts L lv : sProp 𝕄) ⊢ MayWait (c : Thread nD τ) sm () (owedAfter c k) :=
  MayOwe.of_cut (L := L) (lev := lv) (lv ((c : Thread nD τ), sm) ())
    (fun p hp => by rw [Finset.mem_singleton.mp hp, L_of_tc rfl]; exact Finset.mem_singleton_self _)
    (fun g u hg => by
      obtain ⟨p, hp, rfl⟩ := owedOf_pos hg
      rw [L_of_tc (h p hp).1]; exact Finset.mem_singleton_self _)
    (fun p hp => by rw [Finset.mem_singleton.mp hp])
    (fun g u hg => by
      obtain ⟨p, hp, rfl⟩ := owedOf_pos hg
      exact (h p hp).2)

def lvAt (i : ℕ) : ℕ := if i < 4 then 1 else i - 2

theorem lvAt_mono {i j : ℕ} (h : i ≤ j) : lvAt i ≤ lvAt j := by unfold lvAt; split <;> split <;> omega

theorem obls_at (c : Dev nD) (i : ℕ) (hi : i < 52) :
    ((obls c)[i]'(by rw [obls_length]; exact hi)).1.1.2 = .tc ∧ lv ((obls c)[i]'(by rw [obls_length]; exact hi)).1 () = lvAt i := by
  interval_cases i <;> exact ⟨rfl, rfl⟩

theorem mayWait_at (c : Dev nD) (sm : SemLoc sig) (k : ℕ) (hlv : lv ((c : Thread nD τ), sm) () < lvAt k) :
    (levAts L lv : sProp 𝕄) ⊢ MayWait (c : Thread nD τ) sm () (owedAfter c k) :=
  mayWait_of_drop c sm k fun p hp => by
    obtain ⟨j, hj, rfl⟩ := List.mem_iff_getElem.mp hp
    rw [List.getElem_drop]
    have hlen : k + j < 52 := by rw [List.length_drop, obls_length] at hj; omega
    obtain ⟨h1, h2⟩ := obls_at c (k + j) hlen
    exact ⟨h1, by rw [h2]; exact lt_of_lt_of_le hlv (lvAt_mono (Nat.le_add_right k j))⟩

theorem lvAt_pos (k : ℕ) : 0 < lvAt k := by unfold lvAt; split <;> omega

theorem lvAt_gt {ℓ j : ℕ} (h : ℓ + 2 < j) : ℓ < lvAt j := by unfold lvAt; split <;> omega

theorem mayWait_bar (c : Dev nD) : (levAts L lv : sProp 𝕄) ⊢ MayWait (c : Thread nD τ) (.reg barS) () (owedAfter c 4) :=
  mayWait_at c _ 4 (show 1 < lvAt 4 by decide)

end Cert.KernelIdeal.Sched

end
-- ==== Proof.Launch.lean ====
/- The launch: the cells' tokens dealt to the sixteen devices (each duty token to its payer), what every device owes at launch, and the run of all bodies together. -/
import proofs.«901049_g7700000000001050_dist_rsdw_v7x_xyz2x2x4_z_m1024_d1024_f4096_f32_1_alg».proof.Proof.Dats
import proofs.«901049_g7700000000001050_dist_rsdw_v7x_xyz2x2x4_z_m1024_d1024_f4096_f32_1_alg».proof.Proof.SchedTab
import proofs.«901049_g7700000000001050_dist_rsdw_v7x_xyz2x2x4_z_m1024_d1024_f4096_f32_1_alg».proof.Proof.StepsWait
import proofs.«901049_g7700000000001050_dist_rsdw_v7x_xyz2x2x4_z_m1024_d1024_f4096_f32_1_alg».proof.Proof.Gen.KernelIdeal.Launch
import Idealize.ShloMosaic.Lib.Pipeline.Launch
import Idealize.ShloMosaic.Lib.Pipeline.Kit
import Idealize.ShloMosaic.Lib.SparseCore.Launch
import Idealize.ShloMosaic.Lib.Tactic

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Lists

variable {M : Type} [URA M] {I J : Type}

theorem bigSepL_cons' (i : I) (l : List I) (Φ : I → sProp M) : bigSepL (i :: l) Φ = iprop(Φ i ∗ bigSepL l Φ) := bigSepL_cons i l Φ

theorem bigSepL_map (f : J → I) (l : List J) (Φ : I → sProp M) : bigSepL (l.map f) Φ = bigSepL l fun j => Φ (f j) := by
  induction l with
  | nil => rfl
  | cons i l ih => rw [List.map_cons, bigSepL_cons', bigSepL_cons', ih]

theorem bigSepL_sep (l : List I) (Φ Ψ : I → sProp M) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    refine BI.Entails.antisymm (show _ ⊢ (_ : sProp M) from ?_) (show _ ⊢ (_ : sProp M) from ?_)
    · iintro ⟨⟨H1, H2⟩, H3, H4⟩; iframe
    · iintro ⟨⟨H1, H3⟩, H2, H4⟩; iframe

theorem bigSepL_mono (l : List I) {Φ Ψ : I → sProp M} (h : ∀ i, Φ i ⊢ Ψ i) : bigSepL l Φ ⊢ bigSepL l Ψ := by
  induction l with
  | nil => exact .rfl
  | cons i l ih =>
    rw [bigSepL_cons', bigSepL_cons']
    exact BIClass.sep_mono (h i) ih

theorem bigSepL_congr {l : List I} {Φ Ψ : I → sProp M} (h : ∀ i ∈ l, Φ i = Ψ i) : bigSepL l Φ = bigSepL l Ψ := by
  induction l with
  | nil => rfl
  | cons i l ih => rw [bigSepL_cons', bigSepL_cons', h i (List.mem_cons_self ..), ih fun j hj => h j (List.mem_cons_of_mem _ hj)]

theorem bigSep_bigSepL_comm (S : Finset J) (l : List I) (Φ : J → I → sProp M) :
    bigSep S (fun c => bigSepL l (Φ c)) = bigSepL l fun i => bigSep S fun c => Φ c i := by
  induction l with
  | nil => exact bigSep_emp_const S
  | cons i l ih =>
    rw [bigSepL_cons', ← ih, ← bigSep_sep']
    exact bigSep_congr fun c _ => bigSepL_cons' i l (Φ c)

end Lists

abbrev osem : Fin 98 → SemLoc sig := fun i => .dma ⟨i.val + 1, by have := i.isLt; show i.val + 1 < 99; omega⟩

theorem ownSemFacts : Pipeline.OwnSemFacts cfg0.spec osem := by decide +kernel

theorem share_eq (c : Dev nD) (w : Fin cfg0.W) : (dats m ρ 0 c).share w = fullShare := by unfold Dat.share; split <;> rfl

abbrev semL : List (SemLoc sig) := SemLoc.reg barS :: copySems.map SemLoc.dma
abbrev tokL : List (SemLoc sig × Fin 4) :=
  [(SemLoc.reg barS, 0), (SemLoc.reg barS, 1), (SemLoc.reg barS, 2), (SemLoc.reg barS, 3)] ++ copySems.map fun j => (SemLoc.dma j, (0 : Fin 4))

theorem semL_nodup : semL.Nodup := by decide +kernel
theorem tokL_nodup : tokL.Nodup := by decide +kernel

def cellEmb : Dev nD × SemLoc sig ↪ GSem nD τ sig :=
  ⟨fun x => ((x.1 : Thread nD τ), x.2), fun a b h =>
    Prod.ext (congrArg (fun g : GSem nD τ sig => g.1.1) h) (congrArg (fun g : GSem nD τ sig => g.2) h)⟩
def tokEmb : Dev nD × (SemLoc sig × Fin 4) ↪ GSem nD τ sig × ℕ × Fin 4 :=
  ⟨fun x => (((x.1 : Thread nD τ), x.2.1), 0, x.2.2), fun a b h =>
    Prod.ext (congrArg (fun g : GSem nD τ sig × ℕ × Fin 4 => g.1.1.1) h)
      (Prod.ext (congrArg (fun g : GSem nD τ sig × ℕ × Fin 4 => g.1.2) h) (congrArg (fun g : GSem nD τ sig × ℕ × Fin 4 => g.2.2) h))⟩

def ourToks : Finset (GSem nD τ sig × ℕ × Fin 4) := (Finset.univ ×ˢ tokL.toFinset).map tokEmb

theorem allCells_eq : (allCells : Finset (GSem nD τ sig)) = (Finset.univ ×ˢ semL.toFinset).map cellEmb := by
  refine Finset.ext fun g => ⟨fun hg => ?_, fun hg => ?_⟩
  · unfold allCells at hg
    obtain ⟨d, -, hd⟩ := Finset.mem_biUnion.mp hg
    rcases List.mem_cons.mp (List.mem_toFinset.mp hd) with rfl | hd
    · exact Finset.mem_map.mpr ⟨(d, SemLoc.reg barS), Finset.mem_product.mpr ⟨Finset.mem_univ _, List.mem_toFinset.mpr (List.mem_cons_self ..)⟩, rfl⟩
    · obtain ⟨j, hj, rfl⟩ := List.mem_map.mp hd
      exact Finset.mem_map.mpr ⟨(d, SemLoc.dma j), Finset.mem_product.mpr ⟨Finset.mem_univ _, List.mem_toFinset.mpr (List.mem_cons_of_mem _ (List.mem_map.mpr ⟨j, hj, rfl⟩))⟩, rfl⟩
  · obtain ⟨⟨d, sm⟩, hx, rfl⟩ := Finset.mem_map.mp hg
    rcases List.mem_cons.mp (List.mem_toFinset.mp (Finset.mem_product.mp hx).2) with rfl | hsm
    · exact mem_allCells_bar d
    · obtain ⟨j, hj, rfl⟩ := List.mem_map.mp hsm
      exact mem_allCells_dma d hj

omit [FloatOps F] in
theorem cells_split (Φ : GSem nD τ sig → sProp 𝕄) :
    bigSep allCells Φ = bigSep Finset.univ fun d : Dev nD => bigSep semL.toFinset fun sm => Φ ((d : Thread nD τ), sm) := by
  rw [allCells_eq, bigSep_map, SparseCore.bigSep_product]; rfl
omit [FloatOps F] in
theorem toks_split (Φ : GSem nD τ sig × ℕ × Fin 4 → sProp 𝕄) :
    bigSep ourToks Φ = bigSep Finset.univ fun d : Dev nD => bigSep tokL.toFinset fun x => Φ (((d : Thread nD τ), x.1), 0, x.2) := by
  unfold ourToks; rw [bigSep_map, SparseCore.bigSep_product]; rfl

def u₀ : UU :=
  (initOf (Pipeline.cells cfgs cellOf_inj) (Pipeline.launchToks cfgs cellOf_inj), (initOf allCells ourToks, 1))

def G (c : Dev nD) : sProp 𝕄 :=
  iprop((bigSep semL.toFinset fun sm => roundState ER (Rd m) ((c : Thread nD τ), sm) 0)
    ∗ (bigSep semL.toFinset fun sm => reached ER ((c : Thread nD τ), sm) 0)
    ∗ (bigSep semL.toFinset fun sm => atPos ER ((c : Thread nD τ), sm) 0 ∅ 0)
    ∗ (bigSep tokL.toFinset fun x => dutyTok ER ((c : Thread nD τ), x.1) 0 x.2))

theorem fund_cells : BI.own (ER (initOf allCells ourToks)) ⊢ (|==> bigSep Finset.univ (G m) : sProp 𝕄) := by
  iintro HX
  imod (Rounds.fund ER (Rd m) allCells ourToks) $$ HX with ⟨Hst, Hr, Hat, Htok⟩
  imodintro
  ihave Hst' := (Entails.of_eq (cells_split fun g => roundState ER (Rd m) g 0)) $$ Hst
  ihave Hr' := (Entails.of_eq (cells_split fun g => reached ER g 0)) $$ Hr
  ihave Hat' := (Entails.of_eq (cells_split fun g => atPos ER g 0 ∅ 0)) $$ Hat
  ihave Htok' := (Entails.of_eq (toks_split fun x => dutyTok ER x.1 x.2.1 x.2.2)) $$ Htok
  unfold G; simp only [bigSep_sep']
  isplitl [Hst']; · iexact Hst'
  isplitl [Hr']; · iexact Hr'
  isplitl [Hat']; · iexact Hat'
  iexact Htok'

abbrev osemIdx (j : DmaSem sig) : Fin 98 := ⟨(j.val - 1) % 98, Nat.mod_lt _ (by decide)⟩
abbrev osemL : List (Fin 98) := 0 :: 1 :: copySems.map osemIdx

theorem osem_idx : ∀ j ∈ copySems, osem (osemIdx j) = SemLoc.dma j := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop(semVal (dmaCell c cc0_scratch4.sem) 0 ∗ semVal (dmaCell c cc0_scratch5.sem) 0 ∗ bigSepL copySems fun j => semVal (dmaCell c j) 0) := by
  rw [Pipeline.ownSems0_eq_of_list c osem osemL (by decide +kernel) (by decide +kernel), bigSepL_cons', bigSepL_cons', bigSepL_map,
    bigSepL_congr (Ψ := fun j => (semVal (dmaCell c j) 0 : sProp 𝕄)) fun j hj => by rw [osem_idx j hj]]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem semL_split (Ψ : SemLoc sig → sProp 𝕄) : bigSep semL.toFinset Ψ = iprop(Ψ (SemLoc.reg barS) ∗ bigSepL copySems fun j => Ψ (SemLoc.dma j)) := by
  rw [bigSep_eq_bigSepL semL semL_nodup, bigSepL_cons', bigSepL_map]

def CA (c : Dev nD) : sProp 𝕄 :=
  iprop((bigSep semL.toFinset fun sm => iprop(∃ κ : ℕ, cellInv ER (Rd m) κ ((c : Thread nD τ), sm)))
    ∗ (bigSep semL.toFinset fun sm => reached ER ((c : Thread nD τ), sm) 0)
    ∗ (semVal (dmaCell c cc0_scratch4.sem) 0 ∗ semVal (dmaCell c cc0_scratch5.sem) 0
      ∗ (bigSep semL.toFinset fun sm => atPos ER ((c : Thread nD τ), sm) 0 ∅ 0)
      ∗ (bigSep tokL.toFinset fun x => dutyTok ER ((c : Thread nD τ), x.1) 0 x.2)))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> CA m c := by
  rw [ownSems0_eq, unscopedSems0_eq]
  unfold G CA
  iintro ⟨⟨H4, H5, Hcs⟩, Hb, Hst, Hr, Hat, Htok⟩
  ihave Hv := (Entails.of_eq (semL_split fun sm => (semVal ((c : Thread nD τ), sm) 0 : sProp 𝕄)).symm) $$ [Hb Hcs]
  · iframe
  imod (show iprop((bigSep semL.toFinset fun sm => semVal ((c : Thread nD τ), sm) 0) ∗ bigSep semL.toFinset fun sm => roundState ER (Rd m) ((c : Thread nD τ), sm) 0)
      ⊢ (|={Set.univ}=> bigSep semL.toFinset fun sm => iprop(∃ κ : ℕ, cellInv ER (Rd m) κ ((c : Thread nD τ), sm)) : sProp 𝕄) from by
        rw [← bigSep_sep']
        exact (bigSep_mono fun sm _ => (Rounds.body_intro ER (Rd m) ((c : Thread nD τ), sm)).trans inv_alloc).trans (bigSep_fupd _ _)) $$ [Hv Hst] with Hinv
  · iframe
  imodintro
  iframe

def lane (s : Fin 8) : List (DmaSem sig) :=
  [rsSend s 0, rsSend s 1, rsSend s 2, rsRecv s 0, rsRecv s 1, rsRecv s 2, t1Send s, t1Recv s, t2Send s, t2Recv s, t3Send s, t3Recv s]

omit [FloatOps F] in
theorem lane_chain (s : Fin 8) (Ψ : DmaSem sig → sProp 𝕄) : bigSepL (lane s) Ψ
    = iprop(Ψ (rsSend s 0) ∗ Ψ (rsSend s 1) ∗ Ψ (rsSend s 2) ∗ Ψ (rsRecv s 0) ∗ Ψ (rsRecv s 1) ∗ Ψ (rsRecv s 2)
        ∗ Ψ (t1Send s) ∗ Ψ (t1Recv s) ∗ Ψ (t2Send s) ∗ Ψ (t2Recv s) ∗ Ψ (t3Send s) ∗ Ψ (t3Recv s)) := rfl

omit [FloatOps F] in
theorem launch_copySems_lanes (Ψ : DmaSem sig → sProp 𝕄) : bigSepL copySems Ψ = bigSepL (List.finRange 8) fun s => bigSepL (lane s) Ψ := by
  rw [show copySems = (List.finRange 8).flatMap lane from rfl, bigSepL_flatMap]

def payB (c : Dev nD) : sProp 𝕄 :=
  iprop(dutyTok ER (barCell (left c)) 0 (0 : Fin 4) ∗ dutyTok ER (barCell (right c)) 0 (1 : Fin 4)
    ∗ dutyTok ER (barCell (xn c)) 0 (2 : Fin 4) ∗ dutyTok ER (barCell (yn c)) 0 (3 : Fin 4))
def lanePay (c : Dev nD) (s : Fin 8) : sProp 𝕄 :=
  iprop((dutyOf c (rsSend s 0)
      ∗ dutyOf c (rsSend s 1)
      ∗ dutyOf c (rsSend s 2)
      ∗ dutyOf c (t1Send s)
      ∗ dutyOf c (t2Send s)
      ∗ dutyOf c (t3Send s))
    ∗ (dutyOf (right c) (rsRecv s 0)
      ∗ dutyOf (right c) (rsRecv s 1)
      ∗ dutyOf (right c) (rsRecv s 2)
      ∗ dutyOf (xn c) (t1Recv s)
      ∗ dutyOf (yn c) (t2Recv s)
      ∗ dutyOf (yn c) (t3Recv s)))

omit [FloatOps F] in
theorem lane_toks_around (s : Fin 8) :
    (bigSepL (lane s) fun j => (bigSep Finset.univ fun c : Dev nD => dutyOf c j : sProp 𝕄))
      ⊢ bigSep Finset.univ fun c : Dev nD => lanePay c s := by
  unfold lanePay
  simp only [lane_chain, bigSep_sep']
  iintro ⟨S0, S1, S2, R0, R1, R2, A1, B1, A2, B2, A3, B3⟩
  ihave R0' := (Entails.of_eq (bigSep_univ_equiv ringEquiv fun c : Dev nD => (dutyOf c (rsRecv s 0) : sProp 𝕄))) $$ R0
  ihave R1' := (Entails.of_eq (bigSep_univ_equiv ringEquiv fun c : Dev nD => (dutyOf c (rsRecv s 1) : sProp 𝕄))) $$ R1
  ihave R2' := (Entails.of_eq (bigSep_univ_equiv ringEquiv fun c : Dev nD => (dutyOf c (rsRecv s 2) : sProp 𝕄))) $$ R2
  ihave B1' := (Entails.of_eq (bigSep_univ_equiv xEquiv fun c : Dev nD => (dutyOf c (t1Recv s) : sProp 𝕄))) $$ B1
  ihave B2' := (Entails.of_eq (bigSep_univ_equiv yEquiv fun c : Dev nD => (dutyOf c (t2Recv s) : sProp 𝕄))) $$ B2
  ihave B3' := (Entails.of_eq (bigSep_univ_equiv yEquiv fun c : Dev nD => (dutyOf c (t3Recv s) : sProp 𝕄))) $$ B3
  isplitl [S0 S1 S2 A1 A2 A3]
  · iframe
  · isplitl [R0']; · iexact R0'
    isplitl [R1']; · iexact R1'
    isplitl [R2']; · iexact R2'
    isplitl [B1']; · iexact B1'
    isplitl [B2']; · iexact B2'
    iexact B3'

omit [FloatOps F] in
theorem toks_chain (c : Dev nD) : (bigSep tokL.toFinset fun x => (dutyTok ER ((c : Thread nD τ), x.1) 0 x.2 : sProp 𝕄))
    = iprop((dutyTok ER (barCell c) 0 (0 : Fin 4) ∗ dutyTok ER (barCell c) 0 (1 : Fin 4) ∗ dutyTok ER (barCell c) 0 (2 : Fin 4) ∗ dutyTok ER (barCell c) 0 (3 : Fin 4))
        ∗ bigSepL (List.finRange 8) fun s => bigSepL (lane s) fun j => dutyOf c j) := by
  rw [bigSep_eq_bigSepL tokL tokL_nodup, bigSepL_append, bigSepL_map, launch_copySems_lanes]
  rfl

omit [FloatOps F] in
theorem toks_around :
    (bigSep Finset.univ fun c : Dev nD => (bigSep tokL.toFinset fun x => dutyTok ER ((c : Thread nD τ), x.1) 0 x.2 : sProp 𝕄))
      ⊢ bigSep Finset.univ fun c : Dev nD => iprop(payB c ∗ bigSepL (List.finRange 8) fun s => lanePay c s) := by
  rw [bigSep_congr fun c _ => toks_chain c]
  unfold payB
  simp only [bigSep_sep', bigSep_bigSepL_comm]
  iintro ⟨⟨H0, H1, H2, H3⟩, HL⟩
  isplitl [H0 H1 H2 H3]
  · ihave H0' := (Entails.of_eq (bigSep_univ_equiv ringEquiv.symm fun c : Dev nD => (dutyTok ER (barCell c) 0 (0 : Fin 4) : sProp 𝕄))) $$ H0
    ihave H1' := (Entails.of_eq (bigSep_univ_equiv ringEquiv fun c : Dev nD => (dutyTok ER (barCell c) 0 (1 : Fin 4) : sProp 𝕄))) $$ H1
    ihave H2' := (Entails.of_eq (bigSep_univ_equiv xEquiv fun c : Dev nD => (dutyTok ER (barCell c) 0 (2 : Fin 4) : sProp 𝕄))) $$ H2
    ihave H3' := (Entails.of_eq (bigSep_univ_equiv yEquiv fun c : Dev nD => (dutyTok ER (barCell c) 0 (3 : Fin 4) : sProp 𝕄))) $$ H3
    isplitl [H0']; · iexact H0'
    isplitl [H1']; · iexact H1'
    isplitl [H2']; · iexact H2'
    iexact H3'
  · iapply (bigSepL_mono _ fun s => lane_toks_around s); iexact HL

def lanePos (c : Dev nD) (s : Fin 8) : sProp 𝕄 := bigSepL (lane s) fun j => posAt c j 0

def G' (c : Dev nD) : sProp 𝕄 :=
  iprop((∃ K, □ invs m K) ∗ atPos ER (barCell c) 0 ∅ 0 ∗ payB c
    ∗ (bigSepL (List.finRange 8) fun s => iprop(lanePos c s ∗ lanePay c s))
    ∗ semVal (dmaCell c cc0_scratch4.sem) 0 ∗ semVal (dmaCell c cc0_scratch5.sem) 0)

def linear (c : Dev nD) : sProp 𝕄 :=
  iprop(semVal (dmaCell c cc0_scratch4.sem) 0 ∗ semVal (dmaCell c cc0_scratch5.sem) 0
    ∗ (bigSep semL.toFinset fun sm => atPos ER ((c : Thread nD τ), sm) 0 ∅ 0)
    ∗ (payB c ∗ bigSepL (List.finRange 8) fun s => lanePay c s))

theorem invs_box (K : GSem nD τ sig → ℕ) : (invs m K : sProp 𝕄) ⊢ iprop(∃ K, □ invs m K) := by
  iintro #H
  iexists K; imodintro; iexact H

omit [FloatOps F] in
theorem ghost_shuffle {I I' s4 s5 aB AL pB PL : sProp 𝕄} (h : I ⊢ I') :
    iprop(I ∗ (s4 ∗ s5 ∗ (aB ∗ AL) ∗ (pB ∗ PL))) ⊢ iprop(I' ∗ aB ∗ pB ∗ (AL ∗ PL) ∗ s4 ∗ s5) := by
  iintro ⟨HI, H4, H5, ⟨HaB, HaL⟩, HpB, HpL⟩
  isplitl [HI]; · iapply h; iexact HI
  iframe

theorem ghost_intro (K : GSem nD τ sig → ℕ) (c : Dev nD) : iprop(invs m K ∗ linear c) ⊢ G' m c := by
  unfold linear G' lanePos
  rw [semL_split, launch_copySems_lanes, bigSepL_sep]
  exact ghost_shuffle (invs_box m K)

omit [FloatOps F] in
theorem regroup_shuffle {XI XR Rest Rest' Goal : sProp 𝕄} {CI Inv : (GSem nD τ sig → ℕ) → sProp 𝕄}
    (hB : XI ⊢ iprop(∃ K, CI K)) (hC : ∀ K, iprop(CI K ∗ XR) ⊢ Inv K) (hR : Rest ⊢ Rest') (hD : ∀ K, iprop(Inv K ∗ Rest') ⊢ Goal) :
    iprop(XI ∗ XR ∗ Rest) ⊢ Goal := by
  iintro ⟨HI, HR, Hrest⟩
  ihave HK := hB $$ HI
  icases HK with ⟨%K, HI⟩
  ihave HInv := (hC K) $$ [HI HR]
  · iframe
  ihave HR' := hR $$ Hrest
  iapply (hD K)
  iframe

omit [FloatOps F] in
theorem rest_linear :
    (bigSep Finset.univ fun c : Dev nD => iprop(semVal (dmaCell c cc0_scratch4.sem) 0 ∗ semVal (dmaCell c cc0_scratch5.sem) 0
      ∗ (bigSep semL.toFinset fun sm => atPos ER ((c : Thread nD τ), sm) 0 ∅ 0)
      ∗ (bigSep tokL.toFinset fun x => dutyTok ER ((c : Thread nD τ), x.1) 0 x.2)) : sProp 𝕄)
      ⊢ bigSep Finset.univ fun c : Dev nD => linear c := by
  unfold linear
  rw [bigSep_sep', bigSep_sep', bigSep_sep',
    bigSep_sep' Finset.univ (fun c : Dev nD => (semVal (dmaCell c cc0_scratch4.sem) 0 : sProp 𝕄)),
    bigSep_sep' Finset.univ (fun c : Dev nD => (semVal (dmaCell c cc0_scratch5.sem) 0 : sProp 𝕄)),
    bigSep_sep' Finset.univ (fun c : Dev nD => (bigSep semL.toFinset fun sm => atPos ER ((c : Thread nD τ), sm) 0 ∅ 0 : sProp 𝕄))]
  exact sep_mono_right (sep_mono_right (sep_mono_right toks_around))

theorem regroup : (bigSep Finset.univ (CA m) : sProp 𝕄) ⊢ bigSep Finset.univ (G' m) := by
  unfold CA
  rw [bigSep_sep', bigSep_sep', ← cells_split (fun g => iprop(∃ κ : ℕ, cellInv ER (Rd m) κ g)), ← cells_split (fun g => reached ER g 0)]
  exact regroup_shuffle (CI := fun K => bigSep allCells fun g => cellInv ER (Rd m) (K g) g) (Inv := invs m)
    (BI.bigSep_exists_pi allCells (fun (g : GSem nD τ sig) (κ : ℕ) => (cellInv ER (Rd m) κ g : sProp 𝕄)))
    (fun K => by rw [invs_eq, bigSep_sep'])
    rest_linear
    (fun K => bigSep_with_persistent (R := invs m K) fun c _ => ghost_intro m K c)

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def famL : List ((Dev nD ≃ Dev nD) × SemLoc sig × ℕ) :=
  [(ringEquiv.symm, SemLoc.reg barS, 1), (ringEquiv, SemLoc.reg barS, 1), (xEquiv, SemLoc.reg barS, 1), (yEquiv, SemLoc.reg barS, 1)]
  ++ (List.finRange 3).flatMap (fun h => (List.finRange 8).map fun s => (ringEquiv, SemLoc.dma (rsRecv s h), NB))
  ++ (List.finRange 8).flatMap (fun s => [(xEquiv, SemLoc.dma (t1Recv s), NB), (yEquiv, SemLoc.dma (t2Recv s), NB)])
  ++ (List.finRange 8).map (fun s => (yEquiv, SemLoc.dma (t3Recv s), NB))

def famObls (l : List ((Dev nD ≃ Dev nD) × SemLoc sig × ℕ)) (d : Dev nD) : List (GSem nD τ sig × ℕ) :=
  l.map fun x => ((((x.1 d : Dev nD) : Thread nD τ), x.2.1), x.2.2)

theorem obls_eq (d : Dev nD) : obls d = famObls famL d := by
  simp only [obls, famObls, famL, List.map_append, List.map_flatMap, List.map_map, List.map_cons, List.map_nil]
  rfl

omit [FloatOps F] in
theorem launchCred_fams (l : List ((Dev nD ≃ Dev nD) × SemLoc sig × ℕ)) (c : Dev nD) :
    (Pipeline.launchCred (fun d => owedOf (famObls l d)) c : sProp 𝕄)
      ⊢ bigSepL l fun x => cred (tallyAt ((c : Thread nD τ), x.2.1) () x.2.2) := by
  induction l with
  | nil =>
    rw [show (fun d : Dev nD => owedOf (famObls [] d)) = fun _ => (0 : CellTallies nD τ sig Unit) from rfl, Pipeline.launchCred_zero]
    exact .rfl
  | cons x l ih =>
    rw [bigSepL_cons', show (fun d : Dev nD => owedOf (famObls (x :: l) d))
        = fun d => owedOf (famObls l d) + tallyAt ((((x.1 d : Dev nD) : Thread nD τ), x.2.1)) () x.2.2 from rfl, Pipeline.launchCred_add]
    iintro ⟨Hl, Hx⟩
    isplitl [Hx]
    · iapply (Pipeline.launchCred_tallyAt x.2.1 x.1 x.1.symm x.1.apply_symm_apply x.1.symm_apply_apply () x.2.2 c); iexact Hx
    · iapply ih; iexact Hl

def laneCred (c : Dev nD) (s : Fin 8) : sProp 𝕄 :=
  iprop(credOf c (rsRecv s 0)
    ∗ credOf c (rsRecv s 1)
    ∗ credOf c (rsRecv s 2)
    ∗ credOf c (t1Recv s)
    ∗ credOf c (t2Recv s)
    ∗ credOf c (t3Recv s))

omit [FloatOps F] in
theorem fin3_chain (Φ : Fin 3 → sProp 𝕄) : bigSepL (List.finRange 3) Φ = iprop(Φ 0 ∗ Φ 1 ∗ Φ 2) := rfl
omit [FloatOps F] in
theorem four_chain {I : Type} (a b c d : I) (Φ : I → sProp 𝕄) : bigSepL [a, b, c, d] Φ = iprop(Φ a ∗ Φ b ∗ Φ c ∗ Φ d) := rfl
omit [FloatOps F] in
theorem two_chain {I : Type} (a b : I) (Φ : I → sProp 𝕄) : bigSepL [a, b] Φ = iprop(Φ a ∗ Φ b) := rfl

omit [FloatOps F] in
theorem bar_four (g : GSem nD τ sig) :
    (iprop(cred (tallyAt g () 1) ∗ cred (tallyAt g () 1) ∗ cred (tallyAt g () 1) ∗ cred (tallyAt g () 1)) : sProp 𝕄) ⊢ cred (tallyAt g () 4) := by
  rw [show (tallyAt g () 4 : CellTallies nD τ sig Unit) = tallyAt g () 1 + (tallyAt g () 1 + (tallyAt g () 1 + tallyAt g () 1)) from by
    rw [tallyAt_add, tallyAt_add, tallyAt_add]]
  iintro ⟨H0, H1, H2, H3⟩
  iapply (cred_add _ _).2
  isplitl [H0]; · iexact H0
  iapply (cred_add _ _).2
  isplitl [H1]; · iexact H1
  iapply (cred_add _ _).2
  isplitl [H2] <;> iassumption

omit [FloatOps F] in
theorem creds_shuffle {h r0 r1 r2 t1 t2 t3 B : sProp 𝕄} (hB : h ⊢ B) :
    iprop(((h ∗ r0 ∗ r1 ∗ r2) ∗ t1 ∗ t2) ∗ t3) ⊢ iprop(B ∗ r0 ∗ r1 ∗ r2 ∗ t1 ∗ t2 ∗ t3) := by
  iintro ⟨⟨⟨H, R0, R1, R2⟩, T1, T2⟩, T3⟩
  isplitl [H]; · iapply hB; iexact H
  iframe

omit [FloatOps F] in
theorem creds (c : Dev nD) :
    (Pipeline.launchCred O₀ c : sProp 𝕄) ⊢ iprop(cred (tallyAt (barCell c) () 4) ∗ bigSepL (List.finRange 8) fun s => laneCred c s) := by
  rw [show (O₀ : Dev nD → CellTallies nD τ sig Unit) = fun d => owedOf (famObls famL d) from funext fun d => by
    unfold O₀ owedAfter; rw [List.drop_zero, obls_eq]]
  refine (launchCred_fams famL c).trans ?_
  unfold famL laneCred
  rw [bigSepL_append, bigSepL_append, bigSepL_append, bigSepL_flatMap, bigSepL_flatMap, bigSepL_map, fin3_chain, four_chain]
  simp only [bigSepL_map, two_chain, bigSepL_sep]
  exact creds_shuffle (bar_four (barCell c))

theorem mayWait_stage (c : Dev nD) (q : DmaSem sig) (hq : lvKind (kindOf q) = 0) (O : CellTallies nD τ sig Unit) (hO : O = O₀ c ∨ O = 0) :
    (levAts L lv : sProp 𝕄) ⊢ MayWait (c : Thread nD τ) (.dma q) () O := by
  rcases hO with rfl | rfl
  · exact mayWait_at c (.dma q) 0 (by show lvKind (kindOf q) < lvAt 0; rw [hq]; exact lvAt_pos 0)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem L_of_ne (g : GSem nD τ sig) (h : g.1.2 ≠ .tc) : L g = ∅ := if_neg h

def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

omit [FloatOps F] in
theorem launch_lane_intro (c : Dev nD) (s : Fin 8) : iprop((lanePos c s ∗ lanePay c s) ∗ laneCred c s) ⊢ (laneGhost c s : sProp 𝕄) := by
  unfold lanePos lanePay laneCred laneGhost
  rw [lane_chain]
  iintro ⟨⟨Hp, Ho, Hn⟩, Hc⟩
  iframe

omit [FloatOps F] in
theorem fin8_chain (Φ : Fin 8 → sProp 𝕄) : bigSepL (List.finRange 8) Φ = iprop(Φ 0 ∗ Φ 1 ∗ Φ 2 ∗ Φ 3 ∗ Φ 4 ∗ Φ 5 ∗ Φ 6 ∗ Φ 7) := rfl

omit [FloatOps F] in
theorem launch_lanes_intro (c : Dev nD) :
    iprop((bigSepL (List.finRange 8) fun s => iprop(lanePos c s ∗ lanePay c s)) ∗ bigSepL (List.finRange 8) fun s => laneCred c s)
      ⊢ (iprop(laneGhost c 0 ∗ laneGhost c 1 ∗ laneGhost c 2 ∗ laneGhost c 3 ∗ laneGhost c 4 ∗ laneGhost c 5 ∗ laneGhost c 6 ∗ laneGhost c 7) : sProp 𝕄) := by
  rw [← bigSepL_sep]
  exact (bigSepL_mono _ fun s => launch_lane_intro c s).trans (Entails.of_eq (fin8_chain _))

omit [FloatOps F] in
theorem start_shuffle {a0 a1 lev cr pr K aB pB HL s4 s5 cB cL G8 : sProp 𝕄} (hc : cr ⊢ iprop(cB ∗ cL)) (hl : iprop(HL ∗ cL) ⊢ G8) :
    iprop((a0 ∗ a1) ∗ lev ∗ cr ∗ pr ∗ (K ∗ aB ∗ pB ∗ HL ∗ s4 ∗ s5))
      ⊢ |={Set.univ}=> iprop(((K ∗ (aB ∗ cB ∗ pB) ∗ G8 ∗ lev ∗ s4 ∗ s5) ∗ (a0 ∗ a1)) ∗ emp) := by
  iintro ⟨⟨Ha0, Ha1⟩, Hlev, Hcr, -, HK, HaB, HpB, HL, H4, H5⟩
  ihave Hc := hc $$ Hcr
  icases Hc with ⟨HcB, HcL⟩
  ihave HG8 := hl $$ [HL HcL]
  · iframe
  imodintro
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ args m c) ∗ emp) := by
  rw [Pipeline.unscopedRestP_none, unscopedRest0_eq]
  unfold G' start barGhost args payB
  exact start_shuffle (creds c) (launch_lanes_intro c)

theorem phi0_intro (c : Dev nD) :
    iprop((start m c ∗ args m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs args
  iintro ⟨⟨Hs, Ha0, Ha1⟩, -, S0, S1, S2, S3⟩
  iframe

theorem phi1_exit (c : Dev nD) :
    (dats m ρ 0 c).Φ (Fin.last cfg0.N) ⊢ iprop(args m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ bufs args
  iintro ⟨⟨S0, S1, S2, S3, Ha0, Ha1⟩, H4, H5, Hcs⟩
  iframe

theorem run_main (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (dats m ρ 0 c).arrAt (0 : Fin 1) cfg0.N
        ∧ r.2.mem ((c : Thread nD τ).loc main_arg0) = m ((c : Thread nD τ).loc main_arg0)
        ∧ r.2.mem ((c : Thread nD τ).loc main_arg1) = m ((c : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_cells m) $$ HX with HG
      imodintro
      iframe)
    (hglob := glob m)
    (hA := fun _ _ => rfl) (hpf := fun _ k => k.elim0)
    (X := fun c => iprop(start m c ∗ args m c)) (Y := args m) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ s.mem ((c : Thread nD τ).loc main_arg1) = m ((c : Thread nD τ).loc main_arg1))
    (hY := fun c s' => by
      unfold args
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun s h c => ⟨(h c).1 0, (h c).2.2.1, (h c).2.2.2⟩)

/-- info: 'Cert.KernelIdeal.Sched.run_main' depends on axioms: [propext, Classical.choice, Quot.sound] -/
#guard_msgs in #print axioms run_main

end Cert.KernelIdeal.Sched

end
-- ==== Proof.FinalOut.lean ====
/- The result array after the run is the assembled result named in the proof data. -/
import proofs.«901049_g7700000000001050_dist_rsdw_v7x_xyz2x2x4_z_m1024_d1024_f4096_f32_1_alg».proof.Proof.Dats
import proofs.«901049_g7700000000001050_dist_rsdw_v7x_xyz2x2x4_z_m1024_d1024_f4096_f32_1_alg».proof.Proof.Gen.KernelIdeal.Points
import Idealize.ShloMosaic.Lib.Pipeline.Cells

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev pt0 : Fin cfg0.N := ⟨0, by decide⟩

theorem finalA_out (c : Dev nD) : (dats m ρ 0 c).arrAt (0 : Fin 1) cfg0.N = outFinal m c := by
  show (dats m ρ 0 c).arrAt (0 : Fin 1) ((pt0).val + 1) = _
  rw [Dat.arrAt_succ (dat := dats m ρ 0 c) (0 : Fin 1) pt0, if_pos (flush0_0 pt0)]
  exact Memref.write_access_unit_zero_univ (Elt F) main_v1 (funext fun a => Nat.zero_mul _) _ _ _

/-- info: 'Cert.KernelIdeal.Sched.finalA_out' depends on axioms: [propext, Classical.choice, Quot.sound] -/
#guard_msgs in #print axioms finalA_out

end Cert.KernelIdeal.Sched

end
-- ==== Proof.Bits.Mesh.lean ====
/- The sixteen devices as coordinates (x, y, z); the ring neighbours along z and the neighbours across x and y; closed forms, decided over the mesh, of the device ids and offsets the program computes. -/
import proofs.«901049_g7700000000001050_dist_rsdw_v7x_xyz2x2x4_z_m1024_d1024_f4096_f32_1_alg».proof.Proof.Gen.Kernel
import Idealize.ShloMosaic.Lib.Decide
import Mathlib.Logic.Equiv.Defs
import Mathlib.Data.Fin.VecNotation

set_option synthInstance.maxSize 4096
set_option Elab.async false

namespace Cert.Kernel.Mesh

open Idealize.ShloMosaic Cert.Kernel Cert.Kernel.Gen

def zc (c : Dev nD) : Nat := c.val % 4
def yc (c : Dev nD) : Nat := (c.val / 4) % 2
def xc (c : Dev nD) : Nat := c.val / 8
def qc (c : Dev nD) : Nat := xc c + 2 * yc c

theorem zc_lt (c : Dev nD) : zc c < 4 := Nat.mod_lt _ (by decide)
theorem yc_lt (c : Dev nD) : yc c < 2 := Nat.mod_lt _ (by decide)
theorem xc_lt (c : Dev nD) : xc c < 2 := by have h : c.val < 16 := c.isLt; unfold xc; omega
theorem qc_lt (c : Dev nD) : qc c < 4 := by have := xc_lt c; have := yc_lt c; unfold qc; omega

def mk (x y z : Nat) (hx : x < 2) (hy : y < 2) (hz : z < 4) : Dev nD :=
  ⟨8 * x + 4 * y + z, by show 8 * x + 4 * y + z < 16; omega⟩

def right (c : Dev nD) : Dev nD :=
  mk (xc c) (yc c) ((zc c + 1) % 4) (xc_lt c) (yc_lt c) (Nat.mod_lt _ (by decide))
def left (c : Dev nD) : Dev nD :=
  mk (xc c) (yc c) ((zc c + 3) % 4) (xc_lt c) (yc_lt c) (Nat.mod_lt _ (by decide))
def xn (c : Dev nD) : Dev nD :=
  mk (1 - xc c) (yc c) (zc c) (by omega) (yc_lt c) (zc_lt c)
def yn (c : Dev nD) : Dev nD :=
  mk (xc c) (1 - yc c) (zc c) (xc_lt c) (by omega) (zc_lt c)

theorem left_right (c : Dev nD) : left (right c) = c := by revert c; decide
theorem right_left (c : Dev nD) : right (left c) = c := by revert c; decide
theorem xn_xn (c : Dev nD) : xn (xn c) = c := by revert c; decide
theorem yn_yn (c : Dev nD) : yn (yn c) = c := by revert c; decide
theorem qc_left (c : Dev nD) : qc (left c) = qc c := by revert c; decide
theorem qc_xn (c : Dev nD) : qc (xn c) = (1 - xc c) + 2 * yc c := by revert c; decide
def ringEquiv : Dev nD ≃ Dev nD := ⟨right, left, left_right, right_left⟩
def xEquiv : Dev nD ≃ Dev nD := ⟨xn, xn, xn_xn, xn_xn⟩
def yEquiv : Dev nD ≃ Dev nD := ⟨yn, yn, yn_yn, yn_yn⟩

@[simp] theorem ringEquiv_apply (c : Dev nD) : ringEquiv c = right c := rfl
@[simp] theorem ringEquiv_symm_apply (c : Dev nD) : ringEquiv.symm c = left c := rfl
@[simp] theorem xEquiv_apply (c : Dev nD) : xEquiv c = xn c := rfl
@[simp] theorem xEquiv_symm_apply (c : Dev nD) : xEquiv.symm c = xn c := rfl
@[simp] theorem yEquiv_apply (c : Dev nD) : yEquiv c = yn c := rfl
@[simp] theorem yEquiv_symm_apply (c : Dev nD) : yEquiv.symm c = yn c := rfl

theorem dev1_eq (c : Dev nD) : (⟨k0_dev1 c, k0_dev1_lt c⟩ : Dev nD) = left c := by
  revert c; decide +kernel
theorem dev2_eq (c : Dev nD) : (⟨k0_dev2 c, k0_dev2_lt c⟩ : Dev nD) = right c := by
  revert c; decide +kernel
theorem dev3_eq (c : Dev nD) : (⟨k0_dev3 c, k0_dev3_lt c⟩ : Dev nD) = xn c := by
  revert c; decide +kernel
theorem dev4_eq (c : Dev nD) : (⟨k0_dev4 c, k0_dev4_lt c⟩ : Dev nD) = yn c := by
  revert c; decide +kernel
theorem dev5_eq (c : Dev nD) : (⟨k0_dev5 c, k0_dev5_lt c⟩ : Dev nD) = right c := by
  revert c; decide +kernel
theorem dev6_eq (c : Dev nD) : (⟨k0_dev6 c, k0_dev6_lt c⟩ : Dev nD) = right c := by
  revert c; decide +kernel
theorem dev7_eq (c : Dev nD) : (⟨k0_dev7 c, k0_dev7_lt c⟩ : Dev nD) = right c := by
  revert c; decide +kernel
theorem dev8_eq (c : Dev nD) : (⟨k0_dev8 c, k0_dev8_lt c⟩ : Dev nD) = right c := by
  revert c; decide +kernel
theorem dev9_eq (c : Dev nD) : (⟨k0_dev9 c, k0_dev9_lt c⟩ : Dev nD) = right c := by
  revert c; decide +kernel
theorem dev10_eq (c : Dev nD) : (⟨k0_dev10 c, k0_dev10_lt c⟩ : Dev nD) = right c := by
  revert c; decide +kernel
theorem dev11_eq (c : Dev nD) : (⟨k0_dev11 c, k0_dev11_lt c⟩ : Dev nD) = right c := by
  revert c; decide +kernel
theorem dev12_eq (c : Dev nD) : (⟨k0_dev12 c, k0_dev12_lt c⟩ : Dev nD) = right c := by
  revert c; decide +kernel
theorem dev13_eq (c : Dev nD) : (⟨k0_dev13 c, k0_dev13_lt c⟩ : Dev nD) = right c := by
  revert c; decide +kernel
theorem dev14_eq (c : Dev nD) : (⟨k0_dev14 c, k0_dev14_lt c⟩ : Dev nD) = right c := by
  revert c; decide +kernel
theorem dev15_eq (c : Dev nD) : (⟨k0_dev15 c, k0_dev15_lt c⟩ : Dev nD) = right c := by
  revert c; decide +kernel
theorem dev16_eq (c : Dev nD) : (⟨k0_dev16 c, k0_dev16_lt c⟩ : Dev nD) = right c := by
  revert c; decide +kernel
theorem dev17_eq (c : Dev nD) : (⟨k0_dev17 c, k0_dev17_lt c⟩ : Dev nD) = right c := by
  revert c; decide +kernel
theorem dev18_eq (c : Dev nD) : (⟨k0_dev18 c, k0_dev18_lt c⟩ : Dev nD) = right c := by
  revert c; decide +kernel
theorem dev19_eq (c : Dev nD) : (⟨k0_dev19 c, k0_dev19_lt c⟩ : Dev nD) = right c := by
  revert c; decide +kernel
theorem dev20_eq (c : Dev nD) : (⟨k0_dev20 c, k0_dev20_lt c⟩ : Dev nD) = right c := by
  revert c; decide +kernel
theorem dev21_eq (c : Dev nD) : (⟨k0_dev21 c, k0_dev21_lt c⟩ : Dev nD) = right c := by
  revert c; decide +kernel
theorem dev22_eq (c : Dev nD) : (⟨k0_dev22 c, k0_dev22_lt c⟩ : Dev nD) = right c := by
  revert c; decide +kernel
theorem dev23_eq (c : Dev nD) : (⟨k0_dev23 c, k0_dev23_lt c⟩ : Dev nD) = right c := by
  revert c; decide +kernel
theorem dev24_eq (c : Dev nD) : (⟨k0_dev24 c, k0_dev24_lt c⟩ : Dev nD) = right c := by
  revert c; decide +kernel
theorem dev25_eq (c : Dev nD) : (⟨k0_dev25 c, k0_dev25_lt c⟩ : Dev nD) = right c := by
  revert c; decide +kernel
theorem dev26_eq (c : Dev nD) : (⟨k0_dev26 c, k0_dev26_lt c⟩ : Dev nD) = right c := by
  revert c; decide +kernel
theorem dev27_eq (c : Dev nD) : (⟨k0_dev27 c, k0_dev27_lt c⟩ : Dev nD) = right c := by
  revert c; decide +kernel
theorem dev28_eq (c : Dev nD) : (⟨k0_dev28 c, k0_dev28_lt c⟩ : Dev nD) = right c := by
  revert c; decide +kernel
theorem dev29_eq (c : Dev nD) : (⟨k0_dev29 c, k0_dev29_lt c⟩ : Dev nD) = xn c := by
  revert c; decide +kernel
theorem dev30_eq (c : Dev nD) : (⟨k0_dev30 c, k0_dev30_lt c⟩ : Dev nD) = yn c := by
  revert c; decide +kernel
theorem dev31_eq (c : Dev nD) : (⟨k0_dev31 c, k0_dev31_lt c⟩ : Dev nD) = xn c := by
  revert c; decide +kernel
theorem dev32_eq (c : Dev nD) : (⟨k0_dev32 c, k0_dev32_lt c⟩ : Dev nD) = yn c := by
  revert c; decide +kernel
theorem dev33_eq (c : Dev nD) : (⟨k0_dev33 c, k0_dev33_lt c⟩ : Dev nD) = xn c := by
  revert c; decide +kernel
theorem dev34_eq (c : Dev nD) : (⟨k0_dev34 c, k0_dev34_lt c⟩ : Dev nD) = yn c := by
  revert c; decide +kernel
theorem dev35_eq (c : Dev nD) : (⟨k0_dev35 c, k0_dev35_lt c⟩ : Dev nD) = xn c := by
  revert c; decide +kernel
theorem dev36_eq (c : Dev nD) : (⟨k0_dev36 c, k0_dev36_lt c⟩ : Dev nD) = yn c := by
  revert c; decide +kernel
theorem dev37_eq (c : Dev nD) : (⟨k0_dev37 c, k0_dev37_lt c⟩ : Dev nD) = xn c := by
  revert c; decide +kernel
theorem dev38_eq (c : Dev nD) : (⟨k0_dev38 c, k0_dev38_lt c⟩ : Dev nD) = yn c := by
  revert c; decide +kernel
theorem dev39_eq (c : Dev nD) : (⟨k0_dev39 c, k0_dev39_lt c⟩ : Dev nD) = xn c := by
  revert c; decide +kernel
theorem dev40_eq (c : Dev nD) : (⟨k0_dev40 c, k0_dev40_lt c⟩ : Dev nD) = yn c := by
  revert c; decide +kernel
theorem dev41_eq (c : Dev nD) : (⟨k0_dev41 c, k0_dev41_lt c⟩ : Dev nD) = xn c := by
  revert c; decide +kernel
theorem dev42_eq (c : Dev nD) : (⟨k0_dev42 c, k0_dev42_lt c⟩ : Dev nD) = yn c := by
  revert c; decide +kernel
theorem dev43_eq (c : Dev nD) : (⟨k0_dev43 c, k0_dev43_lt c⟩ : Dev nD) = xn c := by
  revert c; decide +kernel
theorem dev44_eq (c : Dev nD) : (⟨k0_dev44 c, k0_dev44_lt c⟩ : Dev nD) = yn c := by
  revert c; decide +kernel
theorem dev45_eq (c : Dev nD) : (⟨k0_dev45 c, k0_dev45_lt c⟩ : Dev nD) = yn c := by
  revert c; decide +kernel
theorem dev46_eq (c : Dev nD) : (⟨k0_dev46 c, k0_dev46_lt c⟩ : Dev nD) = yn c := by
  revert c; decide +kernel
theorem dev47_eq (c : Dev nD) : (⟨k0_dev47 c, k0_dev47_lt c⟩ : Dev nD) = yn c := by
  revert c; decide +kernel
theorem dev48_eq (c : Dev nD) : (⟨k0_dev48 c, k0_dev48_lt c⟩ : Dev nD) = yn c := by
  revert c; decide +kernel
theorem dev49_eq (c : Dev nD) : (⟨k0_dev49 c, k0_dev49_lt c⟩ : Dev nD) = yn c := by
  revert c; decide +kernel
theorem dev50_eq (c : Dev nD) : (⟨k0_dev50 c, k0_dev50_lt c⟩ : Dev nD) = yn c := by
  revert c; decide +kernel
theorem dev51_eq (c : Dev nD) : (⟨k0_dev51 c, k0_dev51_lt c⟩ : Dev nD) = yn c := by
  revert c; decide +kernel
theorem dev52_eq (c : Dev nD) : (⟨k0_dev52 c, k0_dev52_lt c⟩ : Dev nD) = yn c := by
  revert c; decide +kernel

theorem off2_eq : ∀ (c : Dev nD) (r : Fin 4), k0_off2 c (BitVec.ofNat 32 (1 + r.val)) = ![0, 256 * ((c.val % 4 + 4 - (1 + r.val)) % 4)] := by
  decide +kernel
theorem off3_eq : ∀ (c : Dev nD) (r : Fin 4), k0_off3 c (BitVec.ofNat 32 (1 + r.val)) = ![256 * ((c.val % 4 + 4 - (1 + r.val)) % 4), 0] := by
  decide +kernel
theorem off4_eq : ∀ (c : Dev nD), k0_off4 c = ![256 * ((c.val % 4 + 3) % 4), 128 * 0] := by
  decide +kernel
theorem off5_eq : ∀ (c : Dev nD), k0_off5 c = ![256 * ((c.val % 4 + 3) % 4), 128 * 1] := by
  decide +kernel
theorem off6_eq : ∀ (c : Dev nD), k0_off6 c = ![256 * ((c.val % 4 + 3) % 4), 128 * 2] := by
  decide +kernel
theorem off7_eq : ∀ (c : Dev nD), k0_off7 c = ![256 * ((c.val % 4 + 3) % 4), 128 * 3] := by
  decide +kernel
theorem off8_eq : ∀ (c : Dev nD), k0_off8 c = ![256 * ((c.val % 4 + 3) % 4), 128 * 4] := by
  decide +kernel
theorem off9_eq : ∀ (c : Dev nD), k0_off9 c = ![256 * ((c.val % 4 + 3) % 4), 128 * 5] := by
  decide +kernel
theorem off10_eq : ∀ (c : Dev nD), k0_off10 c = ![256 * ((c.val % 4 + 3) % 4), 128 * 6] := by
  decide +kernel
theorem off11_eq : ∀ (c : Dev nD), k0_off11 c = ![256 * ((c.val % 4 + 3) % 4), 128 * 7] := by
  decide +kernel
theorem off12_eq : ∀ (c : Dev nD) (r : Fin 2), k0_off12 c (BitVec.ofNat 32 (1 + r.val)) = ![256 * ((c.val % 4 + 4 - (1 + r.val) - 1) % 4), 128 * 0] := by
  decide +kernel
theorem off13_eq : ∀ (c : Dev nD) (r : Fin 2), k0_off13 c (BitVec.ofNat 32 (1 + r.val)) = ![256 * ((c.val % 4 + 4 - (1 + r.val) - 1) % 4), 128 * 1] := by
  decide +kernel
theorem off14_eq : ∀ (c : Dev nD) (r : Fin 2), k0_off14 c (BitVec.ofNat 32 (1 + r.val)) = ![256 * ((c.val % 4 + 4 - (1 + r.val) - 1) % 4), 128 * 2] := by
  decide +kernel
theorem off15_eq : ∀ (c : Dev nD) (r : Fin 2), k0_off15 c (BitVec.ofNat 32 (1 + r.val)) = ![256 * ((c.val % 4 + 4 - (1 + r.val) - 1) % 4), 128 * 3] := by
  decide +kernel
theorem off16_eq : ∀ (c : Dev nD) (r : Fin 2), k0_off16 c (BitVec.ofNat 32 (1 + r.val)) = ![256 * ((c.val % 4 + 4 - (1 + r.val) - 1) % 4), 128 * 4] := by
  decide +kernel
theorem off17_eq : ∀ (c : Dev nD) (r : Fin 2), k0_off17 c (BitVec.ofNat 32 (1 + r.val)) = ![256 * ((c.val % 4 + 4 - (1 + r.val) - 1) % 4), 128 * 5] := by
  decide +kernel
theorem off18_eq : ∀ (c : Dev nD) (r : Fin 2), k0_off18 c (BitVec.ofNat 32 (1 + r.val)) = ![256 * ((c.val % 4 + 4 - (1 + r.val) - 1) % 4), 128 * 6] := by
  decide +kernel
theorem off19_eq : ∀ (c : Dev nD) (r : Fin 2), k0_off19 c (BitVec.ofNat 32 (1 + r.val)) = ![256 * ((c.val % 4 + 4 - (1 + r.val) - 1) % 4), 128 * 7] := by
  decide +kernel

/-- info: 'Cert.Kernel.Mesh.dev5_eq' depends on axioms: [propext, Quot.sound] -/
#guard_msgs in #print axioms dev5_eq

/-- info: 'Cert.Kernel.Mesh.off12_eq' depends on axioms: [propext, Classical.choice, Quot.sound] -/
#guard_msgs in #print axioms off12_eq

end Cert.Kernel.Mesh
-- ==== Proof.Bits.Sched.lean ====
/- The schedule of the semaphore cells: each cell's one round, its duties with their payers and amounts, and the payload a duty hands the cell's owner (the block a copy lands and the value it carries). -/
import proofs.«901049_g7700000000001050_dist_rsdw_v7x_xyz2x2x4_z_m1024_d1024_f4096_f32_1_alg».proof.Proof.Bits.Mesh
import proofs.«901049_g7700000000001050_dist_rsdw_v7x_xyz2x2x4_z_m1024_d1024_f4096_f32_1_alg».proof.Proof.Gen.Kernel.Frame
import proofs.«901049_g7700000000001050_dist_rsdw_v7x_xyz2x2x4_z_m1024_d1024_f4096_f32_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic
import Idealize.ShloMosaic.Lib.Transfers

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

abbrev xM : Memref sig .tc .vmem S1024x1024 .f32 := Memref.whole cc0_scratch0
abbrev dyqM : Memref sig .tc .vmem S1024x1024 .f32 := Memref.whole cc0_scratch1
abbrev partM : Memref sig .tc .vmem S1024x1024 .f32 := Memref.whole cc0_scratch2
abbrev commM : Memref sig .tc .vmem S8x3x256x128 .f32 := Memref.whole cc0_scratch3
abbrev outM : Memref sig .tc .vmem S256x4096 .f32 := Memref.whole cc0_stg0_0

abbrev barS : Sem sig := (SemArray.scalar (sig.barrier 0 rfl) : Sems sig S_).sem

def partBlk (off : Fin 2 → ℕ) (h : ∀ a, off a + S256x128.size a ≤ S1024x1024.size a) : Memref sig .tc .vmem S256x128 .f32 :=
  (partM).slice (Rect.unit (s := S1024x1024) off S256x128.size h) (fun _ => rfl)
def outBlk (off : Fin 2 → ℕ) (h : ∀ a, off a + S256x128.size a ≤ S256x4096.size a) : Memref sig .tc .vmem S256x128 .f32 :=
  (outM).slice (Rect.unit (s := S256x4096) off S256x128.size h) (fun _ => rfl)

theorem commSlot_inb (s : Fin 8) (h : Fin 3) : ∀ a, (![s.val, h.val, 0, 0] : Fin 4 → ℕ) a + S1x1x256x128.size a ≤ S8x3x256x128.size a := by
  revert s h; decide
def commSlot (s : Fin 8) (h : Fin 3) : Memref sig .tc .vmem S256x128 .f32 :=
  ((commM).slice (Rect.unit (s := S8x3x256x128) ![s.val, h.val, 0, 0] S1x1x256x128.size (commSlot_inb s h)) (fun _ => rfl)).squeeze S256x128 Facts₀.squeezes_S1x1x256x128_S256x128

theorem sem2_inb (s : Fin 8) (h : Fin 3) : ∀ a, (![s.val, h.val] : Fin 2 → ℕ) a + S1x1.size a ≤ S8x3.size a := by
  revert s h; decide
theorem sem1_inb (s : Fin 8) : ∀ a, (![s.val] : Fin 1 → ℕ) a + S1.size a ≤ S8.size a := by
  revert s; decide

def sem2 (A : DmaSems sig S8x3) (s : Fin 8) (h : Fin 3) : DmaSem sig :=
  ((A.slice (Rect.unit (s := S8x3) ![s.val, h.val] S1x1.size (sem2_inb s h))).squeeze S_ Facts₀.squeezes_S1x1_S_).sem
def sem1 (A : DmaSems sig S8) (s : Fin 8) : DmaSem sig :=
  ((A.slice (Rect.unit (s := S8) ![s.val] S1.size (sem1_inb s))).squeeze S_ Facts₀.squeezes_S1_S_).sem

abbrev rsSend (s : Fin 8) (h : Fin 3) : DmaSem sig := sem2 cc0_scratch6 s h
abbrev rsRecv (s : Fin 8) (h : Fin 3) : DmaSem sig := sem2 cc0_scratch7 s h
abbrev t1Send (s : Fin 8) : DmaSem sig := sem1 cc0_scratch8 s
abbrev t1Recv (s : Fin 8) : DmaSem sig := sem1 cc0_scratch9 s
abbrev t2Send (s : Fin 8) : DmaSem sig := sem1 cc0_scratch10 s
abbrev t2Recv (s : Fin 8) : DmaSem sig := sem1 cc0_scratch11 s
abbrev t3Send (s : Fin 8) : DmaSem sig := sem1 cc0_scratch12 s
abbrev t3Recv (s : Fin 8) : DmaSem sig := sem1 cc0_scratch13 s

inductive Kind where
  | rsS (s : Fin 8) (h : Fin 3) | rsR (s : Fin 8) (h : Fin 3)
  | t1S (s : Fin 8) | t1R (s : Fin 8) | t2S (s : Fin 8) | t2R (s : Fin 8) | t3S (s : Fin 8) | t3R (s : Fin 8)
  | local_
  deriving DecidableEq

def kindOf (j : DmaSem sig) : Kind :=
  if h : 3 ≤ j.val ∧ j.val < 27 then .rsS ⟨(j.val - 3) / 3, by omega⟩ ⟨(j.val - 3) % 3, Nat.mod_lt _ (by decide)⟩
  else if h : 27 ≤ j.val ∧ j.val < 51 then .rsR ⟨(j.val - 27) / 3, by omega⟩ ⟨(j.val - 27) % 3, Nat.mod_lt _ (by decide)⟩
  else if h : 51 ≤ j.val ∧ j.val < 59 then .t1S ⟨j.val - 51, by omega⟩
  else if h : 59 ≤ j.val ∧ j.val < 67 then .t1R ⟨j.val - 59, by omega⟩
  else if h : 67 ≤ j.val ∧ j.val < 75 then .t2S ⟨j.val - 67, by omega⟩
  else if h : 75 ≤ j.val ∧ j.val < 83 then .t2R ⟨j.val - 75, by omega⟩
  else if h : 83 ≤ j.val ∧ j.val < 91 then .t3S ⟨j.val - 83, by omega⟩
  else if h : 91 ≤ j.val ∧ j.val < 99 then .t3R ⟨j.val - 91, by omega⟩
  else .local_

theorem kindOf_rsSend : ∀ (s : Fin 8) (h : Fin 3), kindOf (rsSend s h) = .rsS s h := by decide
theorem kindOf_rsRecv : ∀ (s : Fin 8) (h : Fin 3), kindOf (rsRecv s h) = .rsR s h := by decide
theorem kindOf_t1Send : ∀ s : Fin 8, kindOf (t1Send s) = .t1S s := by decide
theorem kindOf_t1Recv : ∀ s : Fin 8, kindOf (t1Recv s) = .t1R s := by decide
theorem kindOf_t2Send : ∀ s : Fin 8, kindOf (t2Send s) = .t2S s := by decide
theorem kindOf_t2Recv : ∀ s : Fin 8, kindOf (t2Recv s) = .t2R s := by decide
theorem kindOf_t3Send : ∀ s : Fin 8, kindOf (t3Send s) = .t3S s := by decide
theorem kindOf_t3Recv : ∀ s : Fin 8, kindOf (t3Recv s) = .t3R s := by decide

section Contents

def xA (c : Dev nD) : Vec F S1024x1024 .f32 := m ((c : Thread nD τ).loc main_arg0)
def dyA (c : Dev nD) : Vec F S1024x4096 .f32 := m ((c : Thread nD τ).loc main_arg1)

def dyQ (c : Dev nD) : Vec F S1024x1024 .f32 := fun i =>
  dyA m c (ix2 ⟨(i 0).val, ValueIdx.idx2_lt0 i⟩ ⟨1024 * qc c + (i 1).val, by have := ValueIdx.idx2_lt1 i; have := qc_lt c; omega⟩)

def xCols (c : Dev nD) (j : Fin 4) : Vec F S1024x256 .f32 := fun i =>
  xA m c (ix2 ⟨(i 0).val, ValueIdx.idx2_lt0 i⟩ ⟨256 * j.val + (i 1).val, by have := ValueIdx.idx2_lt1 i; have := j.isLt; omega⟩)

def chunkV (c : Dev nD) (j : Fin 4) : Vec F S256x1024 .f32 := k0_pay1 (xCols m c j) (dyQ m c)

def blockV (c : Dev nD) (j : Fin 4) (s : Fin 8) : Vec F S256x128 .f32 := fun i =>
  chunkV m c j (ix2 ⟨(i 0).val, ValueIdx.idx2_lt0 i⟩ ⟨128 * s.val + (i 1).val, by have := ValueIdx.idx2_lt1 i; have := s.isLt; omega⟩)

def rowOf (z k : ℕ) : Fin 4 := ⟨(z + 4 - k % 4) % 4, Nat.mod_lt _ (by decide)⟩

def acc (s : Fin 8) : ℕ → Dev nD → Vec F S256x128 .f32
  | 0, c => blockV m c (rowOf (zc c) 1) s
  | h + 1, c => addf (acc s h (left c)) (blockV m c (rowOf (zc c) (h + 2)) s)

def redV (c : Dev nD) (s : Fin 8) : Vec F S256x128 .f32 := acc m s 3 c

end Contents

def holds (c : Dev nD) {sp : Space} (M : Memref sig .tc sp S256x128 .f32) (q : PosShare TreeShare) (V : Vec F S256x128 .f32) : sProp 𝕄 :=
  iprop(∃ f : Buf (Elt F) (M.view.loc (c : Thread nD τ)), ⌜M.view.read (Elt F) f = V⌝ ∗ (M.view.loc (c : Thread nD τ) ↦[M.view.set]{q} f))

def owned (c : Dev nD) {sp : Space} (M : Memref sig .tc sp S256x128 .f32) : sProp 𝕄 :=
  iprop(∃ f : Buf (Elt F) (M.view.loc (c : Thread nD τ)), (M.view.loc (c : Thread nD τ) ↦[M.view.set]{fullShare} f))

theorem outOff_inb (Q : ℕ) (hQ : Q < 4) (s : Fin 8) : ∀ a, (![0, 1024 * Q + 128 * s.val] : Fin 2 → ℕ) a + S256x128.size a ≤ S256x4096.size a := by
  intro a; have := s.isLt
  match a with
  | ⟨0, _⟩ => show 0 + 256 ≤ 256; omega
  | ⟨1, _⟩ => show 1024 * Q + 128 * s.val + 128 ≤ 4096; omega
def outQ (Q : ℕ) (hQ : Q < 4) (s : Fin 8) : Memref sig .tc .vmem S256x128 .f32 := outBlk ![0, 1024 * Q + 128 * s.val] (outOff_inb Q hQ s)

theorem partOff_inb (j : Fin 4) (s : Fin 8) : ∀ a, (![256 * j.val, 128 * s.val] : Fin 2 → ℕ) a + S256x128.size a ≤ S1024x1024.size a := by
  intro a; have := s.isLt; have := j.isLt
  match a with
  | ⟨0, _⟩ => show 256 * j.val + 256 ≤ 1024; omega
  | ⟨1, _⟩ => show 128 * s.val + 128 ≤ 1024; omega
def partJS (j : Fin 4) (s : Fin 8) : Memref sig .tc .vmem S256x128 .f32 := partBlk ![256 * j.val, 128 * s.val] (partOff_inb j s)

abbrev barCell (c : Dev nD) : GSem nD τ sig := ((c : Thread nD τ), .reg barS)
abbrev dmaCell (c : Dev nD) (j : DmaSem sig) : GSem nD τ sig := ((c : Thread nD τ), .dma j)

abbrev NB : ℕ := (commSlot 0 0).view.dmaCredit
theorem NB_pos : 0 < NB := View.dmaCredit_pos _ (by decide)

def barPay (c : Dev nD) (d : Fin 4) : sProp 𝕄 :=
  if d = 0 then bigSep (Finset.univ : Finset (Fin 8 × Fin 3)) fun sh => owned (right c) (commSlot sh.1 sh.2)
  else if d = 2 then bigSep (Finset.univ : Finset (Fin 8)) fun s => owned (xn c) (outQ (qc c) (qc_lt c) s)
  else if d = 3 then iprop((bigSep (Finset.univ : Finset (Fin 8)) fun s => owned (yn c) (outQ (qc c) (qc_lt c) s))
      ∗ bigSep (Finset.univ : Finset (Fin 8)) fun s => owned (yn c) (outQ (qc (xn c)) (qc_lt (xn c)) s))
  else iprop(emp)

def dmaPay (c : Dev nD) : Kind → sProp 𝕄
  | .rsS s h => if h.val = 0 then holds c (partJS (rowOf (zc c) 1) s) fullShare (acc m s 0 c)
                else holds c (commSlot s ⟨h.val - 1, by have := h.isLt; omega⟩) fullShare (acc m s h.val c)
  | .rsR s h => holds c (commSlot s h) fullShare (acc m s h.val (left c))
  | .t1S s => holds c (outQ (qc c) (qc_lt c) s) fullShare.left (redV m c s)
  | .t2S s => holds c (outQ (qc c) (qc_lt c) s) fullShare.right (redV m c s)
  | .t3S s => holds c (outQ (qc (xn c)) (qc_lt (xn c)) s) fullShare (redV m (xn c) s)
  | .t1R s => holds c (outQ (qc (xn c)) (qc_lt (xn c)) s) fullShare (redV m (xn c) s)
  | .t2R s => holds c (outQ (qc (yn c)) (qc_lt (yn c)) s) fullShare (redV m (yn c) s)
  | .t3R s => holds c (outQ (qc (xn (yn c))) (qc_lt (xn (yn c))) s) fullShare (redV m (xn (yn c)) s)
  | .local_ => iprop(emp)

def Rd : Rounds.Schedule (GSem nD τ sig) (Fin 4) 𝕄 where
  duties g r :=
    if r = 0 ∧ g.1.2 = .tc then
      (match g.2 with
        | .reg s => if s = barS then Finset.univ else ∅
        | .dma j => if kindOf j = .local_ then ∅ else {0})
    else ∅
  unitless _ := False
  amount g _ _ := match g.2 with | .reg _ => 1 | .dma _ => NB
  payload g _ d := match g.2 with
    | .reg _ => barPay g.1.1 d
    | .dma j => dmaPay m g.1.1 (kindOf j)
  amount_pos g _ _ _ := by
    cases g.2 with
    | reg _ => exact Nat.one_pos
    | dma _ => exact NB_pos

end Cert.Kernel.Sched

end
-- ==== Proof.Bits.State.lean ====
/- The order in which a device pays what it owes, the levels that keep every wait below what is still owed, the invariant of all cells, and what a device holds at launch. -/
import proofs.«901049_g7700000000001050_dist_rsdw_v7x_xyz2x2x4_z_m1024_d1024_f4096_f32_1_alg».proof.Proof.Bits.Sched

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev posAt (c : Dev nD) (x : DmaSem sig) (r : ℕ) : sProp 𝕄 := atPos ER (dmaCell c x) r ∅ 0
abbrev credOf (c : Dev nD) (x : DmaSem sig) : sProp 𝕄 := cred (tallyAt (dmaCell c x) () NB)
abbrev dutyOf (c : Dev nD) (x : DmaSem sig) : sProp 𝕄 := dutyTok ER (dmaCell c x) 0 (0 : Fin 4)
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

omit [FloatOps F] in
theorem bigSepL_append {I : Type} (l₁ l₂ : List I) (Φ : I → sProp 𝕄) :
    bigSepL (l₁ ++ l₂) Φ = BI.sep (bigSepL l₁ Φ) (bigSepL l₂ Φ) := by
  induction l₁ with
  | nil => exact (equiv_iff.mp BI.emp_sep).symm
  | cons i l ih =>
    rw [List.cons_append, bigSepL_cons, ih, bigSepL_cons]
    exact (BI.sep_assoc' (P := Φ i) (Q := bigSepL l Φ) (R := bigSepL l₂ Φ)).antisymm BI.sep_assoc

omit [FloatOps F] in
theorem bigSepL_flatMap {I J : Type} (l : List J) (f : J → List I) (Φ : I → sProp 𝕄) :
    bigSepL (l.flatMap f) Φ = bigSepL l fun a => bigSepL (f a) Φ := by
  induction l with
  | nil => rfl
  | cons a l ih => rw [List.flatMap_cons, bigSepL_append, ih, bigSepL_cons]

def obls (c : Dev nD) : List (GSem nD τ sig × ℕ) :=
  [(barCell (left c), 1), (barCell (right c), 1), (barCell (xn c), 1), (barCell (yn c), 1)]
  ++ (List.finRange 3).flatMap (fun h => (List.finRange 8).map fun s => (dmaCell (right c) (rsRecv s h), NB))
  ++ (List.finRange 8).flatMap (fun s => [(dmaCell (xn c) (t1Recv s), NB), (dmaCell (yn c) (t2Recv s), NB)])
  ++ (List.finRange 8).map (fun s => (dmaCell (yn c) (t3Recv s), NB))

def owedOf : List (GSem nD τ sig × ℕ) → CellTallies nD τ sig Unit
  | [] => 0
  | p :: l => owedOf l + tallyAt p.1 () p.2

def owedAfter (c : Dev nD) (k : ℕ) : CellTallies nD τ sig Unit := owedOf ((obls c).drop k)

def O₀ (c : Dev nD) : CellTallies nD τ sig Unit := owedAfter c 0

def L (g : GSem nD τ sig) : Finset Unit := if g.1.2 = .tc then {()} else ∅

def lvKind : Kind → ℕ
  | .rsR s h => 2 + 8 * h.val + s.val
  | .t1R s => 26 + 2 * s.val
  | .t2R s => 27 + 2 * s.val
  | .t3R s => 42 + s.val
  | _ => 0
def lv (g : GSem nD τ sig) (_ : Unit) : ℕ := match g.2 with
  | .reg _ => 1
  | .dma j => lvKind (kindOf j)

def copySems : List (DmaSem sig) :=
  (List.finRange 8).flatMap fun s => [rsSend s 0, rsSend s 1, rsSend s 2, rsRecv s 0, rsRecv s 1, rsRecv s 2,
    t1Send s, t1Recv s, t2Send s, t2Recv s, t3Send s, t3Recv s]

def allCells : Finset (GSem nD τ sig) :=
  Finset.univ.biUnion fun d : Dev nD => (barCell d :: copySems.map (dmaCell d)).toFinset

def invs (K : GSem nD τ sig → ℕ) : sProp 𝕄 :=
  bigSep allCells fun g => iprop(cellInv ER (Rd m) (K g) g ∗ reached ER g 0)

omit [FloatOps F] in
theorem mem_allCells_bar (d : Dev nD) : barCell d ∈ (allCells : Finset (GSem nD τ sig)) :=
  Finset.mem_biUnion.mpr ⟨d, Finset.mem_univ _, List.mem_toFinset.mpr (List.mem_cons_self ..)⟩
omit [FloatOps F] in
theorem mem_allCells_dma (d : Dev nD) {j : DmaSem sig} (hj : j ∈ copySems) : dmaCell d j ∈ (allCells : Finset (GSem nD τ sig)) :=
  Finset.mem_biUnion.mpr ⟨d, Finset.mem_univ _, List.mem_toFinset.mpr (List.mem_cons_of_mem _ (List.mem_map.mpr ⟨j, hj, rfl⟩))⟩

theorem mem_copySems_rsSend : ∀ (s : Fin 8) (h : Fin 3), rsSend s h ∈ copySems := by decide
theorem mem_copySems_rsRecv : ∀ (s : Fin 8) (h : Fin 3), rsRecv s h ∈ copySems := by decide
theorem mem_copySems_t1Send : ∀ s : Fin 8, t1Send s ∈ copySems := by decide
theorem mem_copySems_t1Recv : ∀ s : Fin 8, t1Recv s ∈ copySems := by decide
theorem mem_copySems_t2Send : ∀ s : Fin 8, t2Send s ∈ copySems := by decide
theorem mem_copySems_t2Recv : ∀ s : Fin 8, t2Recv s ∈ copySems := by decide
theorem mem_copySems_t3Send : ∀ s : Fin 8, t3Send s ∈ copySems := by decide
theorem mem_copySems_t3Recv : ∀ s : Fin 8, t3Recv s ∈ copySems := by decide

theorem invs_at (K : GSem nD τ sig → ℕ) {g : GSem nD τ sig} (h : g ∈ (allCells : Finset (GSem nD τ sig))) :
    invs m K ⊢ iprop(cellInv ER (Rd m) (K g) g ∗ reached ER g 0) :=
  bigSep_elim h

instance invs_persistent (K : GSem nD τ sig → ℕ) : BI.Persistent (invs m K) := by unfold invs; infer_instance

theorem invs_eq (K : GSem nD τ sig → ℕ) :
    invs m K = bigSep allCells fun g => iprop(cellInv ER (Rd m) (K g) g ∗ reached ER g 0) := rfl

attribute [irreducible] invs allCells

def laneGhost (c : Dev nD) (s : Fin 8) : sProp 𝕄 :=
  iprop((posAt c (rsSend s 0) 0
      ∗ posAt c (rsSend s 1) 0
      ∗ posAt c (rsSend s 2) 0
      ∗ posAt c (rsRecv s 0) 0
      ∗ posAt c (rsRecv s 1) 0
      ∗ posAt c (rsRecv s 2) 0
      ∗ posAt c (t1Send s) 0
      ∗ posAt c (t1Recv s) 0
      ∗ posAt c (t2Send s) 0
      ∗ posAt c (t2Recv s) 0
      ∗ posAt c (t3Send s) 0
      ∗ posAt c (t3Recv s) 0)
    ∗ (credOf c (rsRecv s 0)
      ∗ credOf c (rsRecv s 1)
      ∗ credOf c (rsRecv s 2)
      ∗ credOf c (t1Recv s)
      ∗ credOf c (t2Recv s)
      ∗ credOf c (t3Recv s))
    ∗ (dutyOf c (rsSend s 0)
      ∗ dutyOf c (rsSend s 1)
      ∗ dutyOf c (rsSend s 2)
      ∗ dutyOf c (t1Send s)
      ∗ dutyOf c (t2Send s)
      ∗ dutyOf c (t3Send s))
    ∗ (dutyOf (right c) (rsRecv s 0)
      ∗ dutyOf (right c) (rsRecv s 1)
      ∗ dutyOf (right c) (rsRecv s 2)
      ∗ dutyOf (xn c) (t1Recv s)
      ∗ dutyOf (yn c) (t2Recv s)
      ∗ dutyOf (yn c) (t3Recv s)))

def barGhost (c : Dev nD) : sProp 𝕄 :=
  iprop(atPos ER (barCell c) 0 ∅ 0 ∗ cred (tallyAt (barCell c) () 4)
    ∗ dutyTok ER (barCell (left c)) 0 (0 : Fin 4) ∗ dutyTok ER (barCell (right c)) 0 (1 : Fin 4)
    ∗ dutyTok ER (barCell (xn c)) 0 (2 : Fin 4) ∗ dutyTok ER (barCell (yn c)) 0 (3 : Fin 4))

def start (c : Dev nD) : sProp 𝕄 :=
  iprop((∃ K, □ invs m K) ∗ barGhost c ∗ (laneGhost c 0 ∗ laneGhost c 1 ∗ laneGhost c 2 ∗ laneGhost c 3 ∗ laneGhost c 4 ∗ laneGhost c 5 ∗ laneGhost c 6 ∗ laneGhost c 7) ∗ levAts L lv
    ∗ semVal (dmaCell c cc0_scratch4.sem) 0 ∗ semVal (dmaCell c cc0_scratch5.sem) 0)

end Cert.Kernel.Sched

end
-- ==== Proof.Bits.Dats.lean ====
/- The proof data of the launch. The result is assembled from four quarters of eight blocks; quarter Q holds the ring's sums formed on the device with coordinates (Q mod 2, Q / 2, z). -/
import proofs.«901049_g7700000000001050_dist_rsdw_v7x_xyz2x2x4_z_m1024_d1024_f4096_f32_1_alg».proof.Proof.Bits.State

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def outAssemble (V : Fin 4 → Fin 8 → Vec F S256x128 .f32) : Vec F S256x4096 .f32 := fun i =>
  V ⟨(i 1).val / 1024, by have := ValueIdx.idx2_lt1 i; omega⟩ ⟨(i 1).val % 1024 / 128, by have := ValueIdx.idx2_lt1 i; omega⟩
    (ix2 ⟨(i 0).val, ValueIdx.idx2_lt0 i⟩ ⟨(i 1).val % 128, Nat.mod_lt _ (by decide)⟩)

def devQ (c : Dev nD) (Q : Fin 4) : Dev nD := ⟨8 * (Q.val % 2) + 4 * (Q.val / 2) + zc c, by have := zc_lt c; have := Q.isLt; show _ < 16; omega⟩

theorem devQ_own : ∀ c : Dev nD, devQ c ⟨qc c, qc_lt c⟩ = c := by decide
theorem devQ_xn : ∀ c : Dev nD, devQ c ⟨qc (xn c), qc_lt (xn c)⟩ = xn c := by decide
theorem devQ_yn : ∀ c : Dev nD, devQ c ⟨qc (yn c), qc_lt (yn c)⟩ = yn c := by decide
theorem devQ_xn_yn : ∀ c : Dev nD, devQ c ⟨qc (xn (yn c)), qc_lt (xn (yn c))⟩ = xn (yn c) := by decide

def outFinal (c : Dev nD) : Vec F S256x4096 .f32 := outAssemble fun Q s => redV m (devQ c Q) s

def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (((c : Thread nD τ).loc main_arg0) ↦{fullShare} m ((c : Thread nD τ).loc main_arg0))
    ∗ (((c : Thread nD τ).loc main_arg1) ↦{fullShare} m ((c : Thread nD τ).loc main_arg1)))

def Φ₀ (c : Dev nD) : sProp 𝕄 := iprop(start m c ∗ bufs m c)

def Φ₁ (c : Dev nD) : sProp 𝕄 :=
  iprop(bufs m c ∗ semVal (dmaCell c cc0_scratch4.sem) 0 ∗ semVal (dmaCell c cc0_scratch5.sem) 0
    ∗ bigSepL copySems fun j => semVal (dmaCell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outFinal m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Sched

end
-- ==== Proof.Bits.SchedTab.lean ====
/- The schedule read at each kind of cell. -/
import proofs.«901049_g7700000000001050_dist_rsdw_v7x_xyz2x2x4_z_m1024_d1024_f4096_f32_1_alg».proof.Proof.Bits.Sched

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

instance holds_storable (c : Dev nD) {sp : Space} (M : Memref sig .tc sp S256x128 .f32) (q : PosShare TreeShare) (V : Vec F S256x128 .f32) :
    BI.Storable (upEmb : UEmb _ 𝕄) (holds c M q V) := by unfold holds; infer_instance

instance owned_storable (c : Dev nD) {sp : Space} (M : Memref sig .tc sp S256x128 .f32) :
    BI.Storable (upEmb : UEmb _ 𝕄) (owned (F := F) c M) := by unfold owned; infer_instance

instance barPay_storable (c : Dev nD) (d : Fin 4) : BI.Storable (upEmb : UEmb _ 𝕄) (barPay (F := F) c d) := by
  unfold barPay
  (repeat' split) <;> infer_instance

instance dmaPay_storable (c : Dev nD) (k : Kind) : BI.Storable (upEmb : UEmb _ 𝕄) (dmaPay m c k) := by
  cases k <;> dsimp only [dmaPay] <;> (try split) <;> infer_instance

instance Rd_payload_storable (g : GSem nD τ sig) (r : ℕ) (d : Fin 4) :
    BI.Storable (upEmb : UEmb _ 𝕄) ((Rd m).payload g r d) := by
  obtain ⟨t, sm⟩ := g
  cases sm with
  | reg s => show BI.Storable upEmb (barPay t.1 d); infer_instance
  | dma j => show BI.Storable upEmb (dmaPay m t.1 (kindOf j)); infer_instance

section Tab
variable (c : Dev nD) (s : Fin 8) (h : Fin 3)

theorem duties_bar : (Rd m).duties (barCell c) 0 = Finset.univ := by
  dsimp only [Rd]; rw [if_pos ⟨rfl, rfl⟩]; exact if_pos rfl

theorem duties_dma (j : DmaSem sig) (hk : kindOf j ≠ .local_) : (Rd m).duties (dmaCell c j) 0 = {0} := by
  dsimp only [Rd]; rw [if_pos ⟨rfl, rfl⟩]; exact if_neg hk

theorem duties_later (g : GSem nD τ sig) : ∀ r, 1 ≤ r → (Rd m).duties g r = ∅ :=
  fun r hr => by dsimp only [Rd]; rw [if_neg fun e => by have := e.1; omega]

theorem amount_bar (r : ℕ) (d : Fin 4) : (Rd m).amount (barCell c) r d = 1 := rfl

theorem amount_dma (j : DmaSem sig) (r : ℕ) (d : Fin 4) : (Rd m).amount (dmaCell c j) r d = NB := rfl

theorem expect_bar : (Rd m).expect (barCell c) 0 = 4 := by
  unfold Schedule.expect Schedule.amountOf
  rw [duties_bar, Finset.sum_congr rfl fun d _ => amount_bar m c 0 d, Finset.sum_const, Finset.card_univ, Fintype.card_fin, smul_eq_mul]

theorem expect_dma (j : DmaSem sig) (hk : kindOf j ≠ .local_) : (Rd m).expect (dmaCell c j) 0 = NB := by
  unfold Schedule.expect Schedule.amountOf; rw [duties_dma m c j hk, Finset.sum_singleton, amount_dma]

theorem payload_bar (d : Fin 4) : (Rd m).payload (barCell c) 0 d = barPay c d := rfl

theorem barPay_zero : barPay (F := F) c 0 = bigSep (Finset.univ : Finset (Fin 8 × Fin 3)) fun sh => owned (right c) (commSlot sh.1 sh.2) := by
  unfold barPay; exact if_pos rfl
theorem barPay_one : barPay (F := F) c 1 = iprop(emp) := by
  unfold barPay; rw [if_neg (by decide), if_neg (by decide), if_neg (by decide)]
theorem barPay_two : barPay (F := F) c 2 = bigSep (Finset.univ : Finset (Fin 8)) fun s => owned (xn c) (outQ (qc c) (qc_lt c) s) := by
  unfold barPay; rw [if_neg (by decide), if_pos rfl]
theorem barPay_three : barPay (F := F) c 3 = iprop((bigSep (Finset.univ : Finset (Fin 8)) fun s => owned (yn c) (outQ (qc c) (qc_lt c) s))
      ∗ bigSep (Finset.univ : Finset (Fin 8)) fun s => owned (yn c) (outQ (qc (xn c)) (qc_lt (xn c)) s)) := by
  unfold barPay; rw [if_neg (by decide), if_neg (by decide), if_pos rfl]

theorem dmaPay_rsS_zero : dmaPay m c (.rsS s 0) = holds c (partJS (rowOf (zc c) 1) s) fullShare (acc m s 0 c) := by
  unfold dmaPay; exact if_pos rfl
theorem dmaPay_rsS_succ (h' : ℕ) (hh : h' + 1 < 3) :
    dmaPay m c (.rsS s ⟨h' + 1, hh⟩) = holds c (commSlot s ⟨h', by omega⟩) fullShare (acc m s (h' + 1) c) := by
  unfold dmaPay; exact if_neg (Nat.succ_ne_zero h')
theorem dmaPay_rsR : dmaPay m c (.rsR s h) = holds c (commSlot s h) fullShare (acc m s h.val (left c)) := rfl
theorem dmaPay_t1S : dmaPay m c (.t1S s) = holds c (outQ (qc c) (qc_lt c) s) fullShare.left (redV m c s) := rfl
theorem dmaPay_t2S : dmaPay m c (.t2S s) = holds c (outQ (qc c) (qc_lt c) s) fullShare.right (redV m c s) := rfl
theorem dmaPay_t3S : dmaPay m c (.t3S s) = holds c (outQ (qc (xn c)) (qc_lt (xn c)) s) fullShare (redV m (xn c) s) := rfl
theorem dmaPay_t1R : dmaPay m c (.t1R s) = holds c (outQ (qc (xn c)) (qc_lt (xn c)) s) fullShare (redV m (xn c) s) := rfl
theorem dmaPay_t2R : dmaPay m c (.t2R s) = holds c (outQ (qc (yn c)) (qc_lt (yn c)) s) fullShare (redV m (yn c) s) := rfl
theorem dmaPay_t3R : dmaPay m c (.t3R s) = holds c (outQ (qc (xn (yn c))) (qc_lt (xn (yn c))) s) fullShare (redV m (xn (yn c)) s) := rfl

theorem rest_bar : bigSep ((Rd m).duties (barCell c) 0 \ ∅) (fun d => (Rd m).payload (barCell c) 0 d)
    = iprop(barPay c 0 ∗ barPay c 1 ∗ barPay c 2 ∗ barPay c 3) := by
  rw [Finset.sdiff_empty, duties_bar, bigSep_univ_eq_bigSepL [0, 1, 2, 3] (by decide) (by decide), bigSepL_cons_cons, bigSepL_cons_cons,
    bigSepL_cons_cons, bigSepL_singleton]
  rfl

theorem rest_bar_blocks : bigSep ((Rd m).duties (barCell c) 0 \ ∅) (fun d => (Rd m).payload (barCell c) 0 d)
    = iprop((bigSep (Finset.univ : Finset (Fin 8 × Fin 3)) fun sh => owned (right c) (commSlot sh.1 sh.2))
      ∗ emp
      ∗ (bigSep (Finset.univ : Finset (Fin 8)) fun s => owned (xn c) (outQ (qc c) (qc_lt c) s))
      ∗ (bigSep (Finset.univ : Finset (Fin 8)) fun s => owned (yn c) (outQ (qc c) (qc_lt c) s))
      ∗ bigSep (Finset.univ : Finset (Fin 8)) fun s => owned (yn c) (outQ (qc (xn c)) (qc_lt (xn c)) s)) := by
  rw [rest_bar, barPay_zero, barPay_one, barPay_two, barPay_three]

end Tab

end Cert.Kernel.Sched

end
-- ==== Proof.Bits.StepsWait.lean ====
/- A wait on a cell whose round is paid hands the waiter the round's payload; what a device still owes after each payment; every cell waited on lies below everything still owed. -/
import proofs.«901049_g7700000000001050_dist_rsdw_v7x_xyz2x2x4_z_m1024_d1024_f4096_f32_1_alg».proof.Proof.Bits.SchedTab
import proofs.«901049_g7700000000001050_dist_rsdw_v7x_xyz2x2x4_z_m1024_d1024_f4096_f32_1_alg».proof.Proof.Bits.State

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem rest_dma (c : Dev nD) (j : DmaSem sig) (hk : kindOf j ≠ .local_) :
    bigSep ((Rd m).duties (dmaCell c j) 0 \ ∅) (fun d => (Rd m).payload (dmaCell c j) 0 d) = dmaPay m c (kindOf j) := by
  rw [Finset.sdiff_empty, duties_dma m c j hk, bigSep_singleton]; rfl

theorem wait_dma (c : Dev nD) (j : DmaSem sig) (hj : j ∈ copySems) (hk : kindOf j ≠ .local_)
    (K : GSem nD τ sig → ℕ) (sem : DmaSem sig) (hsem : sem = j)
    {sp' : Space} {s' : Shape} {e' : EltTy} (src : Memref sig .tc sp' s' e') (dst : Memref sig .tc .vmem S256x128 .f32)
    {hs : src.view.WordExact} {hd : dst.view.WordExact}
    {α : Type} {Q : α → sProp 𝕄} {k : PUnit → Prog (TpuEff nD τ sig (Elt F) Λ₀ .tc) α}
    (O : CellTallies nD τ sig Unit) (W : Waits sig Unit) :
    iprop(invs m K ∗ cred (tallyAt (dmaCell c j) () NB) ∗ owes (c : Thread nD τ) O W
        ∗ MayWait (c : Thread nD τ) (.dma j) () O ∗ atPos ER (dmaCell c j) 0 ∅ 0)
      ⊢ iprop(((owes (c : Thread nD τ) O (insert (SemLoc.dma j, ()) W) ∗ atPos ER (dmaCell c j) 1 ∅ 0 ∗ reached ER (dmaCell c j) 1
              ∗ dmaPay m c (kindOf j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hs hd) k) Q) := by
  subst hsem
  have hamt : dst.view.dmaCredit = NB := rfl
  have key := Rounds.wp_wait_rest_token (defs := defs₀ (F := F)) 𝒱₀ ER (Rd m) (c : Thread nD τ) none (κ := K (dmaCell c sem)) (Q := Q) (k := k)
    (wpE_waitDma2_eq (defs := defs₀ (F := F)) (sem := sem) (src := src) (dst := dst) (hsrc := hs) (hdst := hd) 𝒱₀ (c : Thread nD τ) none Set.univ)
    (Set.mem_univ _) () (O := O) (W := W) (R := 0) (m := 0) (T := ∅)
    (by rw [Nat.zero_add, hamt, expect_dma m c sem hk])
  rw [hamt, rest_dma m c sem hk] at key
  iintro ⟨HI, Hrest⟩
  icases (invs_at m K (mem_allCells_dma c hj)) $$ HI with ⟨Hinv, -⟩
  iapply key
  iframe

theorem close_dma (c : Dev nD) (j : DmaSem sig) (hj : j ∈ copySems) (K : GSem nD τ sig → ℕ) :
    invs m K ⊢ iprop(atPos ER (dmaCell c j) 1 ∅ 0 -∗ |={Set.univ}=> semVal (dmaCell c j) 0) := by
  iintro HI Hat
  icases (invs_at m K (mem_allCells_dma c hj)) $$ HI with ⟨Hinv, -⟩
  iapply (Rounds.cell_close ER (Rd m) (Set.mem_univ (K (dmaCell c j))) (fun h => h) (R := 1) (duties_later m (dmaCell c j)))
  iframe

theorem owedAfter_peel (c : Dev nD) {k : ℕ} {p : GSem nD τ sig × ℕ} (h : (obls c)[k]? = some p) :
    owedAfter c k = owedAfter c (k + 1) + tallyAt p.1 () p.2 := by
  obtain ⟨hk, rfl⟩ := List.getElem?_eq_some_iff.mp h
  unfold owedAfter
  rw [List.drop_eq_getElem_cons hk]
  rfl

theorem obls_length (c : Dev nD) : (obls c).length = 52 := rfl

theorem owedAfter_all (c : Dev nD) : owedAfter c 52 = 0 := by
  unfold owedAfter; rw [List.drop_of_length_le (by rw [obls_length])]; rfl

theorem owedAfter_bar_left (c : Dev nD) : owedAfter c 0 = owedAfter c 1 + tallyAt (barCell (left c)) () 1 :=
  owedAfter_peel c (p := (barCell (left c), 1)) (by rfl)
theorem owedAfter_bar_right (c : Dev nD) : owedAfter c 1 = owedAfter c 2 + tallyAt (barCell (right c)) () 1 :=
  owedAfter_peel c (p := (barCell (right c), 1)) (by rfl)
theorem owedAfter_bar_xn (c : Dev nD) : owedAfter c 2 = owedAfter c 3 + tallyAt (barCell (xn c)) () 1 :=
  owedAfter_peel c (p := (barCell (xn c), 1)) (by rfl)
theorem owedAfter_bar_yn (c : Dev nD) : owedAfter c 3 = owedAfter c 4 + tallyAt (barCell (yn c)) () 1 :=
  owedAfter_peel c (p := (barCell (yn c), 1)) (by rfl)
theorem owedAfter_rs (c : Dev nD) (s : Fin 8) (h : Fin 3) :
    owedAfter c (4 + 8 * h.val + s.val) = owedAfter c (4 + 8 * h.val + s.val + 1) + tallyAt (dmaCell (right c) (rsRecv s h)) () NB :=
  owedAfter_peel c (p := (dmaCell (right c) (rsRecv s h), NB)) (by fin_cases s <;> fin_cases h <;> rfl)
theorem owedAfter_t1 (c : Dev nD) (s : Fin 8) :
    owedAfter c (28 + 2 * s.val) = owedAfter c (28 + 2 * s.val + 1) + tallyAt (dmaCell (xn c) (t1Recv s)) () NB :=
  owedAfter_peel c (p := (dmaCell (xn c) (t1Recv s), NB)) (by fin_cases s <;> rfl)
theorem owedAfter_t2 (c : Dev nD) (s : Fin 8) :
    owedAfter c (29 + 2 * s.val) = owedAfter c (29 + 2 * s.val + 1) + tallyAt (dmaCell (yn c) (t2Recv s)) () NB :=
  owedAfter_peel c (p := (dmaCell (yn c) (t2Recv s), NB)) (by fin_cases s <;> rfl)
theorem owedAfter_t3 (c : Dev nD) (s : Fin 8) :
    owedAfter c (44 + s.val) = owedAfter c (44 + s.val + 1) + tallyAt (dmaCell (yn c) (t3Recv s)) () NB :=
  owedAfter_peel c (p := (dmaCell (yn c) (t3Recv s), NB)) (by fin_cases s <;> rfl)

theorem L_of_tc {g : GSem nD τ sig} (h : g.1.2 = .tc) : L g = {()} := if_pos h

theorem owedOf_pos {l : List (GSem nD τ sig × ℕ)} {g : GSem nD τ sig} {u : Unit} (h : 0 < owedOf l g u) : ∃ p ∈ l, p.1 = g := by
  induction l with
  | nil => exact absurd h (Nat.lt_irrefl 0)
  | cons p l ih =>
    unfold owedOf at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨q, hq, hqg⟩ := ih h
      exact ⟨q, List.mem_cons_of_mem _ hq, hqg⟩

theorem mayWait_of_drop (c : Dev nD) (sm : SemLoc sig) (k : ℕ)
    (h : ∀ p ∈ (obls c).drop k, p.1.1.2 = .tc ∧ lv ((c : Thread nD τ), sm) () < lv p.1 ()) :
    (levAts L lv : sProp 𝕄) ⊢ MayWait (c : Thread nD τ) sm () (owedAfter c k) :=
  MayOwe.of_cut (L := L) (lev := lv) (lv ((c : Thread nD τ), sm) ())
    (fun p hp => by rw [Finset.mem_singleton.mp hp, L_of_tc rfl]; exact Finset.mem_singleton_self _)
    (fun g u hg => by
      obtain ⟨p, hp, rfl⟩ := owedOf_pos hg
      rw [L_of_tc (h p hp).1]; exact Finset.mem_singleton_self _)
    (fun p hp => by rw [Finset.mem_singleton.mp hp])
    (fun g u hg => by
      obtain ⟨p, hp, rfl⟩ := owedOf_pos hg
      exact (h p hp).2)

def lvAt (i : ℕ) : ℕ := if i < 4 then 1 else i - 2

theorem lvAt_mono {i j : ℕ} (h : i ≤ j) : lvAt i ≤ lvAt j := by unfold lvAt; split <;> split <;> omega

theorem obls_at (c : Dev nD) (i : ℕ) (hi : i < 52) :
    ((obls c)[i]'(by rw [obls_length]; exact hi)).1.1.2 = .tc ∧ lv ((obls c)[i]'(by rw [obls_length]; exact hi)).1 () = lvAt i := by
  interval_cases i <;> exact ⟨rfl, rfl⟩

theorem mayWait_at (c : Dev nD) (sm : SemLoc sig) (k : ℕ) (hlv : lv ((c : Thread nD τ), sm) () < lvAt k) :
    (levAts L lv : sProp 𝕄) ⊢ MayWait (c : Thread nD τ) sm () (owedAfter c k) :=
  mayWait_of_drop c sm k fun p hp => by
    obtain ⟨j, hj, rfl⟩ := List.mem_iff_getElem.mp hp
    rw [List.getElem_drop]
    have hlen : k + j < 52 := by rw [List.length_drop, obls_length] at hj; omega
    obtain ⟨h1, h2⟩ := obls_at c (k + j) hlen
    exact ⟨h1, by rw [h2]; exact lt_of_lt_of_le hlv (lvAt_mono (Nat.le_add_right k j))⟩

theorem lvAt_pos (k : ℕ) : 0 < lvAt k := by unfold lvAt; split <;> omega

theorem lvAt_gt {ℓ j : ℕ} (h : ℓ + 2 < j) : ℓ < lvAt j := by unfold lvAt; split <;> omega

theorem mayWait_bar (c : Dev nD) : (levAts L lv : sProp 𝕄) ⊢ MayWait (c : Thread nD τ) (.reg barS) () (owedAfter c 4) :=
  mayWait_at c _ 4 (show 1 < lvAt 4 by decide)

end Cert.Kernel.Sched

end
-- ==== Proof.Bits.Launch.lean ====
/- The launch: the cells' tokens dealt to the sixteen devices (each duty token to its payer), what every device owes at launch, and the run of all bodies together. -/
import proofs.«901049_g7700000000001050_dist_rsdw_v7x_xyz2x2x4_z_m1024_d1024_f4096_f32_1_alg».proof.Proof.Bits.Dats
import proofs.«901049_g7700000000001050_dist_rsdw_v7x_xyz2x2x4_z_m1024_d1024_f4096_f32_1_alg».proof.Proof.Bits.SchedTab
import proofs.«901049_g7700000000001050_dist_rsdw_v7x_xyz2x2x4_z_m1024_d1024_f4096_f32_1_alg».proof.Proof.Bits.StepsWait
import proofs.«901049_g7700000000001050_dist_rsdw_v7x_xyz2x2x4_z_m1024_d1024_f4096_f32_1_alg».proof.Proof.Gen.Kernel.Launch
import Idealize.ShloMosaic.Lib.Pipeline.Launch
import Idealize.ShloMosaic.Lib.Pipeline.Kit
import Idealize.ShloMosaic.Lib.SparseCore.Launch
import Idealize.ShloMosaic.Lib.Tactic

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Lists

variable {M : Type} [URA M] {I J : Type}

theorem bigSepL_cons' (i : I) (l : List I) (Φ : I → sProp M) : bigSepL (i :: l) Φ = iprop(Φ i ∗ bigSepL l Φ) := bigSepL_cons i l Φ

theorem bigSepL_map (f : J → I) (l : List J) (Φ : I → sProp M) : bigSepL (l.map f) Φ = bigSepL l fun j => Φ (f j) := by
  induction l with
  | nil => rfl
  | cons i l ih => rw [List.map_cons, bigSepL_cons', bigSepL_cons', ih]

theorem bigSepL_sep (l : List I) (Φ Ψ : I → sProp M) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    refine BI.Entails.antisymm (show _ ⊢ (_ : sProp M) from ?_) (show _ ⊢ (_ : sProp M) from ?_)
    · iintro ⟨⟨H1, H2⟩, H3, H4⟩; iframe
    · iintro ⟨⟨H1, H3⟩, H2, H4⟩; iframe

theorem bigSepL_mono (l : List I) {Φ Ψ : I → sProp M} (h : ∀ i, Φ i ⊢ Ψ i) : bigSepL l Φ ⊢ bigSepL l Ψ := by
  induction l with
  | nil => exact .rfl
  | cons i l ih =>
    rw [bigSepL_cons', bigSepL_cons']
    exact BIClass.sep_mono (h i) ih

theorem bigSepL_congr {l : List I} {Φ Ψ : I → sProp M} (h : ∀ i ∈ l, Φ i = Ψ i) : bigSepL l Φ = bigSepL l Ψ := by
  induction l with
  | nil => rfl
  | cons i l ih => rw [bigSepL_cons', bigSepL_cons', h i (List.mem_cons_self ..), ih fun j hj => h j (List.mem_cons_of_mem _ hj)]

theorem bigSep_bigSepL_comm (S : Finset J) (l : List I) (Φ : J → I → sProp M) :
    bigSep S (fun c => bigSepL l (Φ c)) = bigSepL l fun i => bigSep S fun c => Φ c i := by
  induction l with
  | nil => exact bigSep_emp_const S
  | cons i l ih =>
    rw [bigSepL_cons', ← ih, ← bigSep_sep']
    exact bigSep_congr fun c _ => bigSepL_cons' i l (Φ c)

end Lists

abbrev osem : Fin 98 → SemLoc sig := fun i => .dma ⟨i.val + 1, by have := i.isLt; show i.val + 1 < 99; omega⟩

theorem ownSemFacts : Pipeline.OwnSemFacts cfg0.spec osem := by decide +kernel

theorem share_eq (c : Dev nD) (w : Fin cfg0.W) : (dats m ρ 0 c).share w = fullShare := by unfold Dat.share; split <;> rfl

abbrev semL : List (SemLoc sig) := SemLoc.reg barS :: copySems.map SemLoc.dma
abbrev tokL : List (SemLoc sig × Fin 4) :=
  [(SemLoc.reg barS, 0), (SemLoc.reg barS, 1), (SemLoc.reg barS, 2), (SemLoc.reg barS, 3)] ++ copySems.map fun j => (SemLoc.dma j, (0 : Fin 4))

theorem semL_nodup : semL.Nodup := by decide +kernel
theorem tokL_nodup : tokL.Nodup := by decide +kernel

def cellEmb : Dev nD × SemLoc sig ↪ GSem nD τ sig :=
  ⟨fun x => ((x.1 : Thread nD τ), x.2), fun a b h =>
    Prod.ext (congrArg (fun g : GSem nD τ sig => g.1.1) h) (congrArg (fun g : GSem nD τ sig => g.2) h)⟩
def tokEmb : Dev nD × (SemLoc sig × Fin 4) ↪ GSem nD τ sig × ℕ × Fin 4 :=
  ⟨fun x => (((x.1 : Thread nD τ), x.2.1), 0, x.2.2), fun a b h =>
    Prod.ext (congrArg (fun g : GSem nD τ sig × ℕ × Fin 4 => g.1.1.1) h)
      (Prod.ext (congrArg (fun g : GSem nD τ sig × ℕ × Fin 4 => g.1.2) h) (congrArg (fun g : GSem nD τ sig × ℕ × Fin 4 => g.2.2) h))⟩

def ourToks : Finset (GSem nD τ sig × ℕ × Fin 4) := (Finset.univ ×ˢ tokL.toFinset).map tokEmb

theorem allCells_eq : (allCells : Finset (GSem nD τ sig)) = (Finset.univ ×ˢ semL.toFinset).map cellEmb := by
  refine Finset.ext fun g => ⟨fun hg => ?_, fun hg => ?_⟩
  · unfold allCells at hg
    obtain ⟨d, -, hd⟩ := Finset.mem_biUnion.mp hg
    rcases List.mem_cons.mp (List.mem_toFinset.mp hd) with rfl | hd
    · exact Finset.mem_map.mpr ⟨(d, SemLoc.reg barS), Finset.mem_product.mpr ⟨Finset.mem_univ _, List.mem_toFinset.mpr (List.mem_cons_self ..)⟩, rfl⟩
    · obtain ⟨j, hj, rfl⟩ := List.mem_map.mp hd
      exact Finset.mem_map.mpr ⟨(d, SemLoc.dma j), Finset.mem_product.mpr ⟨Finset.mem_univ _, List.mem_toFinset.mpr (List.mem_cons_of_mem _ (List.mem_map.mpr ⟨j, hj, rfl⟩))⟩, rfl⟩
  · obtain ⟨⟨d, sm⟩, hx, rfl⟩ := Finset.mem_map.mp hg
    rcases List.mem_cons.mp (List.mem_toFinset.mp (Finset.mem_product.mp hx).2) with rfl | hsm
    · exact mem_allCells_bar d
    · obtain ⟨j, hj, rfl⟩ := List.mem_map.mp hsm
      exact mem_allCells_dma d hj

omit [FloatOps F] in
theorem cells_split (Φ : GSem nD τ sig → sProp 𝕄) :
    bigSep allCells Φ = bigSep Finset.univ fun d : Dev nD => bigSep semL.toFinset fun sm => Φ ((d : Thread nD τ), sm) := by
  rw [allCells_eq, bigSep_map, SparseCore.bigSep_product]; rfl
omit [FloatOps F] in
theorem toks_split (Φ : GSem nD τ sig × ℕ × Fin 4 → sProp 𝕄) :
    bigSep ourToks Φ = bigSep Finset.univ fun d : Dev nD => bigSep tokL.toFinset fun x => Φ (((d : Thread nD τ), x.1), 0, x.2) := by
  unfold ourToks; rw [bigSep_map, SparseCore.bigSep_product]; rfl

def u₀ : UU :=
  (initOf (Pipeline.cells cfgs cellOf_inj) (Pipeline.launchToks cfgs cellOf_inj), (initOf allCells ourToks, 1))

def G (c : Dev nD) : sProp 𝕄 :=
  iprop((bigSep semL.toFinset fun sm => roundState ER (Rd m) ((c : Thread nD τ), sm) 0)
    ∗ (bigSep semL.toFinset fun sm => reached ER ((c : Thread nD τ), sm) 0)
    ∗ (bigSep semL.toFinset fun sm => atPos ER ((c : Thread nD τ), sm) 0 ∅ 0)
    ∗ (bigSep tokL.toFinset fun x => dutyTok ER ((c : Thread nD τ), x.1) 0 x.2))

theorem fund_cells : BI.own (ER (initOf allCells ourToks)) ⊢ (|==> bigSep Finset.univ (G m) : sProp 𝕄) := by
  iintro HX
  imod (Rounds.fund ER (Rd m) allCells ourToks) $$ HX with ⟨Hst, Hr, Hat, Htok⟩
  imodintro
  ihave Hst' := (Entails.of_eq (cells_split fun g => roundState ER (Rd m) g 0)) $$ Hst
  ihave Hr' := (Entails.of_eq (cells_split fun g => reached ER g 0)) $$ Hr
  ihave Hat' := (Entails.of_eq (cells_split fun g => atPos ER g 0 ∅ 0)) $$ Hat
  ihave Htok' := (Entails.of_eq (toks_split fun x => dutyTok ER x.1 x.2.1 x.2.2)) $$ Htok
  unfold G; simp only [bigSep_sep']
  isplitl [Hst']; · iexact Hst'
  isplitl [Hr']; · iexact Hr'
  isplitl [Hat']; · iexact Hat'
  iexact Htok'

abbrev osemIdx (j : DmaSem sig) : Fin 98 := ⟨(j.val - 1) % 98, Nat.mod_lt _ (by decide)⟩
abbrev osemL : List (Fin 98) := 0 :: 1 :: copySems.map osemIdx

theorem osem_idx : ∀ j ∈ copySems, osem (osemIdx j) = SemLoc.dma j := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop(semVal (dmaCell c cc0_scratch4.sem) 0 ∗ semVal (dmaCell c cc0_scratch5.sem) 0 ∗ bigSepL copySems fun j => semVal (dmaCell c j) 0) := by
  rw [Pipeline.ownSems0_eq_of_list c osem osemL (by decide +kernel) (by decide +kernel), bigSepL_cons', bigSepL_cons', bigSepL_map,
    bigSepL_congr (Ψ := fun j => (semVal (dmaCell c j) 0 : sProp 𝕄)) fun j hj => by rw [osem_idx j hj]]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem semL_split (Ψ : SemLoc sig → sProp 𝕄) : bigSep semL.toFinset Ψ = iprop(Ψ (SemLoc.reg barS) ∗ bigSepL copySems fun j => Ψ (SemLoc.dma j)) := by
  rw [bigSep_eq_bigSepL semL semL_nodup, bigSepL_cons', bigSepL_map]

def CA (c : Dev nD) : sProp 𝕄 :=
  iprop((bigSep semL.toFinset fun sm => iprop(∃ κ : ℕ, cellInv ER (Rd m) κ ((c : Thread nD τ), sm)))
    ∗ (bigSep semL.toFinset fun sm => reached ER ((c : Thread nD τ), sm) 0)
    ∗ (semVal (dmaCell c cc0_scratch4.sem) 0 ∗ semVal (dmaCell c cc0_scratch5.sem) 0
      ∗ (bigSep semL.toFinset fun sm => atPos ER ((c : Thread nD τ), sm) 0 ∅ 0)
      ∗ (bigSep tokL.toFinset fun x => dutyTok ER ((c : Thread nD τ), x.1) 0 x.2)))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> CA m c := by
  rw [ownSems0_eq, unscopedSems0_eq]
  unfold G CA
  iintro ⟨⟨H4, H5, Hcs⟩, Hb, Hst, Hr, Hat, Htok⟩
  ihave Hv := (Entails.of_eq (semL_split fun sm => (semVal ((c : Thread nD τ), sm) 0 : sProp 𝕄)).symm) $$ [Hb Hcs]
  · iframe
  imod (show iprop((bigSep semL.toFinset fun sm => semVal ((c : Thread nD τ), sm) 0) ∗ bigSep semL.toFinset fun sm => roundState ER (Rd m) ((c : Thread nD τ), sm) 0)
      ⊢ (|={Set.univ}=> bigSep semL.toFinset fun sm => iprop(∃ κ : ℕ, cellInv ER (Rd m) κ ((c : Thread nD τ), sm)) : sProp 𝕄) from by
        rw [← bigSep_sep']
        exact (bigSep_mono fun sm _ => (Rounds.body_intro ER (Rd m) ((c : Thread nD τ), sm)).trans inv_alloc).trans (bigSep_fupd _ _)) $$ [Hv Hst] with Hinv
  · iframe
  imodintro
  iframe

def lane (s : Fin 8) : List (DmaSem sig) :=
  [rsSend s 0, rsSend s 1, rsSend s 2, rsRecv s 0, rsRecv s 1, rsRecv s 2, t1Send s, t1Recv s, t2Send s, t2Recv s, t3Send s, t3Recv s]

omit [FloatOps F] in
theorem lane_chain (s : Fin 8) (Ψ : DmaSem sig → sProp 𝕄) : bigSepL (lane s) Ψ
    = iprop(Ψ (rsSend s 0) ∗ Ψ (rsSend s 1) ∗ Ψ (rsSend s 2) ∗ Ψ (rsRecv s 0) ∗ Ψ (rsRecv s 1) ∗ Ψ (rsRecv s 2)
        ∗ Ψ (t1Send s) ∗ Ψ (t1Recv s) ∗ Ψ (t2Send s) ∗ Ψ (t2Recv s) ∗ Ψ (t3Send s) ∗ Ψ (t3Recv s)) := rfl

omit [FloatOps F] in
theorem launch_copySems_lanes (Ψ : DmaSem sig → sProp 𝕄) : bigSepL copySems Ψ = bigSepL (List.finRange 8) fun s => bigSepL (lane s) Ψ := by
  rw [show copySems = (List.finRange 8).flatMap lane from rfl, bigSepL_flatMap]

def payB (c : Dev nD) : sProp 𝕄 :=
  iprop(dutyTok ER (barCell (left c)) 0 (0 : Fin 4) ∗ dutyTok ER (barCell (right c)) 0 (1 : Fin 4)
    ∗ dutyTok ER (barCell (xn c)) 0 (2 : Fin 4) ∗ dutyTok ER (barCell (yn c)) 0 (3 : Fin 4))
def lanePay (c : Dev nD) (s : Fin 8) : sProp 𝕄 :=
  iprop((dutyOf c (rsSend s 0)
      ∗ dutyOf c (rsSend s 1)
      ∗ dutyOf c (rsSend s 2)
      ∗ dutyOf c (t1Send s)
      ∗ dutyOf c (t2Send s)
      ∗ dutyOf c (t3Send s))
    ∗ (dutyOf (right c) (rsRecv s 0)
      ∗ dutyOf (right c) (rsRecv s 1)
      ∗ dutyOf (right c) (rsRecv s 2)
      ∗ dutyOf (xn c) (t1Recv s)
      ∗ dutyOf (yn c) (t2Recv s)
      ∗ dutyOf (yn c) (t3Recv s)))

omit [FloatOps F] in
theorem lane_toks_around (s : Fin 8) :
    (bigSepL (lane s) fun j => (bigSep Finset.univ fun c : Dev nD => dutyOf c j : sProp 𝕄))
      ⊢ bigSep Finset.univ fun c : Dev nD => lanePay c s := by
  unfold lanePay
  simp only [lane_chain, bigSep_sep']
  iintro ⟨S0, S1, S2, R0, R1, R2, A1, B1, A2, B2, A3, B3⟩
  ihave R0' := (Entails.of_eq (bigSep_univ_equiv ringEquiv fun c : Dev nD => (dutyOf c (rsRecv s 0) : sProp 𝕄))) $$ R0
  ihave R1' := (Entails.of_eq (bigSep_univ_equiv ringEquiv fun c : Dev nD => (dutyOf c (rsRecv s 1) : sProp 𝕄))) $$ R1
  ihave R2' := (Entails.of_eq (bigSep_univ_equiv ringEquiv fun c : Dev nD => (dutyOf c (rsRecv s 2) : sProp 𝕄))) $$ R2
  ihave B1' := (Entails.of_eq (bigSep_univ_equiv xEquiv fun c : Dev nD => (dutyOf c (t1Recv s) : sProp 𝕄))) $$ B1
  ihave B2' := (Entails.of_eq (bigSep_univ_equiv yEquiv fun c : Dev nD => (dutyOf c (t2Recv s) : sProp 𝕄))) $$ B2
  ihave B3' := (Entails.of_eq (bigSep_univ_equiv yEquiv fun c : Dev nD => (dutyOf c (t3Recv s) : sProp 𝕄))) $$ B3
  isplitl [S0 S1 S2 A1 A2 A3]
  · iframe
  · isplitl [R0']; · iexact R0'
    isplitl [R1']; · iexact R1'
    isplitl [R2']; · iexact R2'
    isplitl [B1']; · iexact B1'
    isplitl [B2']; · iexact B2'
    iexact B3'

omit [FloatOps F] in
theorem toks_chain (c : Dev nD) : (bigSep tokL.toFinset fun x => (dutyTok ER ((c : Thread nD τ), x.1) 0 x.2 : sProp 𝕄))
    = iprop((dutyTok ER (barCell c) 0 (0 : Fin 4) ∗ dutyTok ER (barCell c) 0 (1 : Fin 4) ∗ dutyTok ER (barCell c) 0 (2 : Fin 4) ∗ dutyTok ER (barCell c) 0 (3 : Fin 4))
        ∗ bigSepL (List.finRange 8) fun s => bigSepL (lane s) fun j => dutyOf c j) := by
  rw [bigSep_eq_bigSepL tokL tokL_nodup, bigSepL_append, bigSepL_map, launch_copySems_lanes]
  rfl

omit [FloatOps F] in
theorem toks_around :
    (bigSep Finset.univ fun c : Dev nD => (bigSep tokL.toFinset fun x => dutyTok ER ((c : Thread nD τ), x.1) 0 x.2 : sProp 𝕄))
      ⊢ bigSep Finset.univ fun c : Dev nD => iprop(payB c ∗ bigSepL (List.finRange 8) fun s => lanePay c s) := by
  rw [bigSep_congr fun c _ => toks_chain c]
  unfold payB
  simp only [bigSep_sep', bigSep_bigSepL_comm]
  iintro ⟨⟨H0, H1, H2, H3⟩, HL⟩
  isplitl [H0 H1 H2 H3]
  · ihave H0' := (Entails.of_eq (bigSep_univ_equiv ringEquiv.symm fun c : Dev nD => (dutyTok ER (barCell c) 0 (0 : Fin 4) : sProp 𝕄))) $$ H0
    ihave H1' := (Entails.of_eq (bigSep_univ_equiv ringEquiv fun c : Dev nD => (dutyTok ER (barCell c) 0 (1 : Fin 4) : sProp 𝕄))) $$ H1
    ihave H2' := (Entails.of_eq (bigSep_univ_equiv xEquiv fun c : Dev nD => (dutyTok ER (barCell c) 0 (2 : Fin 4) : sProp 𝕄))) $$ H2
    ihave H3' := (Entails.of_eq (bigSep_univ_equiv yEquiv fun c : Dev nD => (dutyTok ER (barCell c) 0 (3 : Fin 4) : sProp 𝕄))) $$ H3
    isplitl [H0']; · iexact H0'
    isplitl [H1']; · iexact H1'
    isplitl [H2']; · iexact H2'
    iexact H3'
  · iapply (bigSepL_mono _ fun s => lane_toks_around s); iexact HL

def lanePos (c : Dev nD) (s : Fin 8) : sProp 𝕄 := bigSepL (lane s) fun j => posAt c j 0

def G' (c : Dev nD) : sProp 𝕄 :=
  iprop((∃ K, □ invs m K) ∗ atPos ER (barCell c) 0 ∅ 0 ∗ payB c
    ∗ (bigSepL (List.finRange 8) fun s => iprop(lanePos c s ∗ lanePay c s))
    ∗ semVal (dmaCell c cc0_scratch4.sem) 0 ∗ semVal (dmaCell c cc0_scratch5.sem) 0)

def linear (c : Dev nD) : sProp 𝕄 :=
  iprop(semVal (dmaCell c cc0_scratch4.sem) 0 ∗ semVal (dmaCell c cc0_scratch5.sem) 0
    ∗ (bigSep semL.toFinset fun sm => atPos ER ((c : Thread nD τ), sm) 0 ∅ 0)
    ∗ (payB c ∗ bigSepL (List.finRange 8) fun s => lanePay c s))

theorem invs_box (K : GSem nD τ sig → ℕ) : (invs m K : sProp 𝕄) ⊢ iprop(∃ K, □ invs m K) := by
  iintro #H
  iexists K; imodintro; iexact H

omit [FloatOps F] in
theorem ghost_shuffle {I I' s4 s5 aB AL pB PL : sProp 𝕄} (h : I ⊢ I') :
    iprop(I ∗ (s4 ∗ s5 ∗ (aB ∗ AL) ∗ (pB ∗ PL))) ⊢ iprop(I' ∗ aB ∗ pB ∗ (AL ∗ PL) ∗ s4 ∗ s5) := by
  iintro ⟨HI, H4, H5, ⟨HaB, HaL⟩, HpB, HpL⟩
  isplitl [HI]; · iapply h; iexact HI
  iframe

theorem ghost_intro (K : GSem nD τ sig → ℕ) (c : Dev nD) : iprop(invs m K ∗ linear c) ⊢ G' m c := by
  unfold linear G' lanePos
  rw [semL_split, launch_copySems_lanes, bigSepL_sep]
  exact ghost_shuffle (invs_box m K)

omit [FloatOps F] in
theorem regroup_shuffle {XI XR Rest Rest' Goal : sProp 𝕄} {CI Inv : (GSem nD τ sig → ℕ) → sProp 𝕄}
    (hB : XI ⊢ iprop(∃ K, CI K)) (hC : ∀ K, iprop(CI K ∗ XR) ⊢ Inv K) (hR : Rest ⊢ Rest') (hD : ∀ K, iprop(Inv K ∗ Rest') ⊢ Goal) :
    iprop(XI ∗ XR ∗ Rest) ⊢ Goal := by
  iintro ⟨HI, HR, Hrest⟩
  ihave HK := hB $$ HI
  icases HK with ⟨%K, HI⟩
  ihave HInv := (hC K) $$ [HI HR]
  · iframe
  ihave HR' := hR $$ Hrest
  iapply (hD K)
  iframe

omit [FloatOps F] in
theorem rest_linear :
    (bigSep Finset.univ fun c : Dev nD => iprop(semVal (dmaCell c cc0_scratch4.sem) 0 ∗ semVal (dmaCell c cc0_scratch5.sem) 0
      ∗ (bigSep semL.toFinset fun sm => atPos ER ((c : Thread nD τ), sm) 0 ∅ 0)
      ∗ (bigSep tokL.toFinset fun x => dutyTok ER ((c : Thread nD τ), x.1) 0 x.2)) : sProp 𝕄)
      ⊢ bigSep Finset.univ fun c : Dev nD => linear c := by
  unfold linear
  rw [bigSep_sep', bigSep_sep', bigSep_sep',
    bigSep_sep' Finset.univ (fun c : Dev nD => (semVal (dmaCell c cc0_scratch4.sem) 0 : sProp 𝕄)),
    bigSep_sep' Finset.univ (fun c : Dev nD => (semVal (dmaCell c cc0_scratch5.sem) 0 : sProp 𝕄)),
    bigSep_sep' Finset.univ (fun c : Dev nD => (bigSep semL.toFinset fun sm => atPos ER ((c : Thread nD τ), sm) 0 ∅ 0 : sProp 𝕄))]
  exact sep_mono_right (sep_mono_right (sep_mono_right toks_around))

theorem regroup : (bigSep Finset.univ (CA m) : sProp 𝕄) ⊢ bigSep Finset.univ (G' m) := by
  unfold CA
  rw [bigSep_sep', bigSep_sep', ← cells_split (fun g => iprop(∃ κ : ℕ, cellInv ER (Rd m) κ g)), ← cells_split (fun g => reached ER g 0)]
  exact regroup_shuffle (CI := fun K => bigSep allCells fun g => cellInv ER (Rd m) (K g) g) (Inv := invs m)
    (BI.bigSep_exists_pi allCells (fun (g : GSem nD τ sig) (κ : ℕ) => (cellInv ER (Rd m) κ g : sProp 𝕄)))
    (fun K => by rw [invs_eq, bigSep_sep'])
    rest_linear
    (fun K => bigSep_with_persistent (R := invs m K) fun c _ => ghost_intro m K c)

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def famL : List ((Dev nD ≃ Dev nD) × SemLoc sig × ℕ) :=
  [(ringEquiv.symm, SemLoc.reg barS, 1), (ringEquiv, SemLoc.reg barS, 1), (xEquiv, SemLoc.reg barS, 1), (yEquiv, SemLoc.reg barS, 1)]
  ++ (List.finRange 3).flatMap (fun h => (List.finRange 8).map fun s => (ringEquiv, SemLoc.dma (rsRecv s h), NB))
  ++ (List.finRange 8).flatMap (fun s => [(xEquiv, SemLoc.dma (t1Recv s), NB), (yEquiv, SemLoc.dma (t2Recv s), NB)])
  ++ (List.finRange 8).map (fun s => (yEquiv, SemLoc.dma (t3Recv s), NB))

def famObls (l : List ((Dev nD ≃ Dev nD) × SemLoc sig × ℕ)) (d : Dev nD) : List (GSem nD τ sig × ℕ) :=
  l.map fun x => ((((x.1 d : Dev nD) : Thread nD τ), x.2.1), x.2.2)

theorem obls_eq (d : Dev nD) : obls d = famObls famL d := by
  simp only [obls, famObls, famL, List.map_append, List.map_flatMap, List.map_map, List.map_cons, List.map_nil]
  rfl

omit [FloatOps F] in
theorem launchCred_fams (l : List ((Dev nD ≃ Dev nD) × SemLoc sig × ℕ)) (c : Dev nD) :
    (Pipeline.launchCred (fun d => owedOf (famObls l d)) c : sProp 𝕄)
      ⊢ bigSepL l fun x => cred (tallyAt ((c : Thread nD τ), x.2.1) () x.2.2) := by
  induction l with
  | nil =>
    rw [show (fun d : Dev nD => owedOf (famObls [] d)) = fun _ => (0 : CellTallies nD τ sig Unit) from rfl, Pipeline.launchCred_zero]
    exact .rfl
  | cons x l ih =>
    rw [bigSepL_cons', show (fun d : Dev nD => owedOf (famObls (x :: l) d))
        = fun d => owedOf (famObls l d) + tallyAt ((((x.1 d : Dev nD) : Thread nD τ), x.2.1)) () x.2.2 from rfl, Pipeline.launchCred_add]
    iintro ⟨Hl, Hx⟩
    isplitl [Hx]
    · iapply (Pipeline.launchCred_tallyAt x.2.1 x.1 x.1.symm x.1.apply_symm_apply x.1.symm_apply_apply () x.2.2 c); iexact Hx
    · iapply ih; iexact Hl

def laneCred (c : Dev nD) (s : Fin 8) : sProp 𝕄 :=
  iprop(credOf c (rsRecv s 0)
    ∗ credOf c (rsRecv s 1)
    ∗ credOf c (rsRecv s 2)
    ∗ credOf c (t1Recv s)
    ∗ credOf c (t2Recv s)
    ∗ credOf c (t3Recv s))

omit [FloatOps F] in
theorem fin3_chain (Φ : Fin 3 → sProp 𝕄) : bigSepL (List.finRange 3) Φ = iprop(Φ 0 ∗ Φ 1 ∗ Φ 2) := rfl
omit [FloatOps F] in
theorem four_chain {I : Type} (a b c d : I) (Φ : I → sProp 𝕄) : bigSepL [a, b, c, d] Φ = iprop(Φ a ∗ Φ b ∗ Φ c ∗ Φ d) := rfl
omit [FloatOps F] in
theorem two_chain {I : Type} (a b : I) (Φ : I → sProp 𝕄) : bigSepL [a, b] Φ = iprop(Φ a ∗ Φ b) := rfl

omit [FloatOps F] in
theorem bar_four (g : GSem nD τ sig) :
    (iprop(cred (tallyAt g () 1) ∗ cred (tallyAt g () 1) ∗ cred (tallyAt g () 1) ∗ cred (tallyAt g () 1)) : sProp 𝕄) ⊢ cred (tallyAt g () 4) := by
  rw [show (tallyAt g () 4 : CellTallies nD τ sig Unit) = tallyAt g () 1 + (tallyAt g () 1 + (tallyAt g () 1 + tallyAt g () 1)) from by
    rw [tallyAt_add, tallyAt_add, tallyAt_add]]
  iintro ⟨H0, H1, H2, H3⟩
  iapply (cred_add _ _).2
  isplitl [H0]; · iexact H0
  iapply (cred_add _ _).2
  isplitl [H1]; · iexact H1
  iapply (cred_add _ _).2
  isplitl [H2] <;> iassumption

omit [FloatOps F] in
theorem creds_shuffle {h r0 r1 r2 t1 t2 t3 B : sProp 𝕄} (hB : h ⊢ B) :
    iprop(((h ∗ r0 ∗ r1 ∗ r2) ∗ t1 ∗ t2) ∗ t3) ⊢ iprop(B ∗ r0 ∗ r1 ∗ r2 ∗ t1 ∗ t2 ∗ t3) := by
  iintro ⟨⟨⟨H, R0, R1, R2⟩, T1, T2⟩, T3⟩
  isplitl [H]; · iapply hB; iexact H
  iframe

omit [FloatOps F] in
theorem creds (c : Dev nD) :
    (Pipeline.launchCred O₀ c : sProp 𝕄) ⊢ iprop(cred (tallyAt (barCell c) () 4) ∗ bigSepL (List.finRange 8) fun s => laneCred c s) := by
  rw [show (O₀ : Dev nD → CellTallies nD τ sig Unit) = fun d => owedOf (famObls famL d) from funext fun d => by
    unfold O₀ owedAfter; rw [List.drop_zero, obls_eq]]
  refine (launchCred_fams famL c).trans ?_
  unfold famL laneCred
  rw [bigSepL_append, bigSepL_append, bigSepL_append, bigSepL_flatMap, bigSepL_flatMap, bigSepL_map, fin3_chain, four_chain]
  simp only [bigSepL_map, two_chain, bigSepL_sep]
  exact creds_shuffle (bar_four (barCell c))

theorem mayWait_stage (c : Dev nD) (q : DmaSem sig) (hq : lvKind (kindOf q) = 0) (O : CellTallies nD τ sig Unit) (hO : O = O₀ c ∨ O = 0) :
    (levAts L lv : sProp 𝕄) ⊢ MayWait (c : Thread nD τ) (.dma q) () O := by
  rcases hO with rfl | rfl
  · exact mayWait_at c (.dma q) 0 (by show lvKind (kindOf q) < lvAt 0; rw [hq]; exact lvAt_pos 0)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem L_of_ne (g : GSem nD τ sig) (h : g.1.2 ≠ .tc) : L g = ∅ := if_neg h

def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

omit [FloatOps F] in
theorem launch_lane_intro (c : Dev nD) (s : Fin 8) : iprop((lanePos c s ∗ lanePay c s) ∗ laneCred c s) ⊢ (laneGhost c s : sProp 𝕄) := by
  unfold lanePos lanePay laneCred laneGhost
  rw [lane_chain]
  iintro ⟨⟨Hp, Ho, Hn⟩, Hc⟩
  iframe

omit [FloatOps F] in
theorem fin8_chain (Φ : Fin 8 → sProp 𝕄) : bigSepL (List.finRange 8) Φ = iprop(Φ 0 ∗ Φ 1 ∗ Φ 2 ∗ Φ 3 ∗ Φ 4 ∗ Φ 5 ∗ Φ 6 ∗ Φ 7) := rfl

omit [FloatOps F] in
theorem launch_lanes_intro (c : Dev nD) :
    iprop((bigSepL (List.finRange 8) fun s => iprop(lanePos c s ∗ lanePay c s)) ∗ bigSepL (List.finRange 8) fun s => laneCred c s)
      ⊢ (iprop(laneGhost c 0 ∗ laneGhost c 1 ∗ laneGhost c 2 ∗ laneGhost c 3 ∗ laneGhost c 4 ∗ laneGhost c 5 ∗ laneGhost c 6 ∗ laneGhost c 7) : sProp 𝕄) := by
  rw [← bigSepL_sep]
  exact (bigSepL_mono _ fun s => launch_lane_intro c s).trans (Entails.of_eq (fin8_chain _))

omit [FloatOps F] in
theorem start_shuffle {a0 a1 lev cr pr K aB pB HL s4 s5 cB cL G8 : sProp 𝕄} (hc : cr ⊢ iprop(cB ∗ cL)) (hl : iprop(HL ∗ cL) ⊢ G8) :
    iprop((a0 ∗ a1) ∗ lev ∗ cr ∗ pr ∗ (K ∗ aB ∗ pB ∗ HL ∗ s4 ∗ s5))
      ⊢ |={Set.univ}=> iprop(((K ∗ (aB ∗ cB ∗ pB) ∗ G8 ∗ lev ∗ s4 ∗ s5) ∗ (a0 ∗ a1)) ∗ emp) := by
  iintro ⟨⟨Ha0, Ha1⟩, Hlev, Hcr, -, HK, HaB, HpB, HL, H4, H5⟩
  ihave Hc := hc $$ Hcr
  icases Hc with ⟨HcB, HcL⟩
  ihave HG8 := hl $$ [HL HcL]
  · iframe
  imodintro
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ args m c) ∗ emp) := by
  rw [Pipeline.unscopedRestP_none, unscopedRest0_eq]
  unfold G' start barGhost args payB
  exact start_shuffle (creds c) (launch_lanes_intro c)

theorem phi0_intro (c : Dev nD) :
    iprop((start m c ∗ args m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs args
  iintro ⟨⟨Hs, Ha0, Ha1⟩, -, S0, S1, S2, S3⟩
  iframe

theorem phi1_exit (c : Dev nD) :
    (dats m ρ 0 c).Φ (Fin.last cfg0.N) ⊢ iprop(args m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ bufs args
  iintro ⟨⟨S0, S1, S2, S3, Ha0, Ha1⟩, H4, H5, Hcs⟩
  iframe

theorem run_main (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_v1) = (dats m ρ 0 c).arrAt (0 : Fin 1) cfg0.N
        ∧ r.2.mem ((c : Thread nD τ).loc main_arg0) = m ((c : Thread nD τ).loc main_arg0)
        ∧ r.2.mem ((c : Thread nD τ).loc main_arg1) = m ((c : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_cells m) $$ HX with HG
      imodintro
      iframe)
    (hglob := glob m)
    (hA := fun _ _ => rfl) (hpf := fun _ k => k.elim0)
    (X := fun c => iprop(start m c ∗ args m c)) (Y := args m) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ s.mem ((c : Thread nD τ).loc main_arg1) = m ((c : Thread nD τ).loc main_arg1))
    (hY := fun c s' => by
      unfold args
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun s h c => ⟨(h c).1 0, (h c).2.2.1, (h c).2.2.2⟩)

/-- info: 'Cert.Kernel.Sched.run_main' depends on axioms: [propext, Classical.choice, Quot.sound] -/
#guard_msgs in #print axioms run_main

end Cert.Kernel.Sched

end
-- ==== Proof.Bits.FinalOut.lean ====
/- The result array after the run is the assembled result named in the proof data. -/
import proofs.«901049_g7700000000001050_dist_rsdw_v7x_xyz2x2x4_z_m1024_d1024_f4096_f32_1_alg».proof.Proof.Bits.Dats
import proofs.«901049_g7700000000001050_dist_rsdw_v7x_xyz2x2x4_z_m1024_d1024_f4096_f32_1_alg».proof.Proof.Gen.Kernel.Points
import Idealize.ShloMosaic.Lib.Pipeline.Cells

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev pt0 : Fin cfg0.N := ⟨0, by decide⟩

theorem finalA_out (c : Dev nD) : (dats m ρ 0 c).arrAt (0 : Fin 1) cfg0.N = outFinal m c := by
  show (dats m ρ 0 c).arrAt (0 : Fin 1) ((pt0).val + 1) = _
  rw [Dat.arrAt_succ (dat := dats m ρ 0 c) (0 : Fin 1) pt0, if_pos (flush0_0 pt0)]
  exact Memref.write_access_unit_zero_univ (Elt F) main_v1 (funext fun a => Nat.zero_mul _) _ _ _

/-- info: 'Cert.Kernel.Sched.finalA_out' depends on axioms: [propext, Classical.choice, Quot.sound] -/
#guard_msgs in #print axioms finalA_out

end Cert.Kernel.Sched

end
-- ==== Proof.Final.lean ====
/- The five claims from the kernel's run: the two frames by dropping the result's value, the algebraic claim by the value of the assembled result; the idealization rewrote nothing. -/
import proofs.«901049_g7700000000001050_dist_rsdw_v7x_xyz2x2x4_z_m1024_d1024_f4096_f32_1_alg».proof.Defs
import proofs.«901049_g7700000000001050_dist_rsdw_v7x_xyz2x2x4_z_m1024_d1024_f4096_f32_1_alg».proof.Proof.Gen.Kernel
import proofs.«901049_g7700000000001050_dist_rsdw_v7x_xyz2x2x4_z_m1024_d1024_f4096_f32_1_alg».proof.Proof.Gen.KernelIdeal
import proofs.«901049_g7700000000001050_dist_rsdw_v7x_xyz2x2x4_z_m1024_d1024_f4096_f32_1_alg».proof.Proof.Gen.ReferenceIdeal
import proofs.«901049_g7700000000001050_dist_rsdw_v7x_xyz2x2x4_z_m1024_d1024_f4096_f32_1_alg».proof.Proof.Gen.Pre_finite_inputs_Kernel
import proofs.«901049_g7700000000001050_dist_rsdw_v7x_xyz2x2x4_z_m1024_d1024_f4096_f32_1_alg».proof.Proof.Gen.Pre_finite_inputs_ReferenceIdeal
import proofs.«901049_g7700000000001050_dist_rsdw_v7x_xyz2x2x4_z_m1024_d1024_f4096_f32_1_alg».proof.Proof.RefRun
import proofs.«901049_g7700000000001050_dist_rsdw_v7x_xyz2x2x4_z_m1024_d1024_f4096_f32_1_alg».proof.Proof.OutValue
import proofs.«901049_g7700000000001050_dist_rsdw_v7x_xyz2x2x4_z_m1024_d1024_f4096_f32_1_alg».proof.Proof.Launch
import proofs.«901049_g7700000000001050_dist_rsdw_v7x_xyz2x2x4_z_m1024_d1024_f4096_f32_1_alg».proof.Proof.FinalOut
import proofs.«901049_g7700000000001050_dist_rsdw_v7x_xyz2x2x4_z_m1024_d1024_f4096_f32_1_alg».proof.Proof.Bits.Launch
import proofs.«901049_g7700000000001050_dist_rsdw_v7x_xyz2x2x4_z_m1024_d1024_f4096_f32_1_alg».proof.Proof.Bits.FinalOut

noncomputable section

open Idealize.ShloMosaic Idealize.ShloMosaic.TcCoe Idealize.SL.Sem

namespace Cert.Proof.Final

abbrev BodyI : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD),
    Pipeline.BodyObligation (Cert.KernelIdeal.Sched.dats (F := Ideal) m ρ 0 c) (Cert.KernelIdeal.defs₀ (F := Ideal))
      Cert.KernelIdeal.Sched.𝒱₀ () Set.univ

abbrev BodyB : Prop :=
  ∀ (m : (ℓ : Loc Cert.Kernel.nD Cert.Kernel.τ Cert.Kernel.sig) → Buf (Elt Bits) ℓ)
    (ρ : Dev Cert.Kernel.nD → PrngReg) (c : Dev Cert.Kernel.nD),
    Pipeline.BodyObligation (Cert.Kernel.Sched.dats (F := Bits) m ρ 0 c) (Cert.Kernel.defs₀ (F := Bits))
      Cert.Kernel.Sched.𝒱₀ () Set.univ

theorem frame_p (hbB : BodyB) : Cert.frame_Kernel := fun m ρ _ =>
  (θ_run Cert.Kernel.defs _ _).mono (fun _ h c => ⟨(h c).2.1, (h c).2.2⟩)
    (Cert.Kernel.Sched.run_main (F := Bits) m ρ (hbB m ρ))

theorem frame_pi (hbI : BodyI) : Cert.frame_KernelIdeal := fun m ρ _ =>
  (θ_run Cert.KernelIdeal.defs _ _).mono (fun _ h c => ⟨(h c).2.1, (h c).2.2⟩)
    (Cert.KernelIdeal.Sched.run_main (F := Ideal) m ρ (hbI m ρ))

theorem algebraic (hbI : BodyI) : Cert.algebraic_KernelIdeal_ReferenceIdeal := by
  intro m g m' g' _ hagree
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_,
    Cert.Proof.RefClaims.run_ref m' g'⟩
  refine (θ_run Cert.KernelIdeal.defs _ _).mono (fun _ h c => ⟨?_, (h c).2.1, (h c).2.2⟩)
    (Cert.KernelIdeal.Sched.run_main (F := Ideal) m g (hbI m g))
  rw [(h c).1, Cert.KernelIdeal.Sched.finalA_out]
  exact out_value m _ _ (fun c => (hagree c).1) (fun c => (hagree c).2) c

theorem claim_of (hbI : BodyI) (hbB : BodyB) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p hbB, frame_pi hbI, Cert.Proof.RefClaims.frame_ri, trivial,
    algebraic hbI⟩

/-- info: 'Cert.Proof.Final.claim_of' depends on axioms: [propext, Classical.choice, Quot.sound] -/
#guard_msgs in #print axioms claim_of

end Cert.Proof.Final

end
-- ==== Proof.LaneSt.lean ====
/- What one of the eight column lanes of a device holds at each of its stages 0 … 21: its position on its twelve cells, credits, duty tokens, the neighbours' landing blocks, and its own blocks with their values. -/
import proofs.«901049_g7700000000001050_dist_rsdw_v7x_xyz2x2x4_z_m1024_d1024_f4096_f32_1_alg».proof.Proof.State

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def LaneSt0 (c : Dev nD) (s : Fin 8) : sProp 𝕄 :=
  iprop(posAt c (rsSend s 0) 0
    ∗ posAt c (rsSend s 1) 0
    ∗ posAt c (rsSend s 2) 0
    ∗ posAt c (rsRecv s 0) 0
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 0)
    ∗ credOf c (rsRecv s 1)
    ∗ credOf c (rsRecv s 2)
    ∗ credOf c (t1Recv s)
    ∗ credOf c (t2Recv s)
    ∗ credOf c (t3Recv s)
    ∗ dutyOf c (rsSend s 0)
    ∗ dutyOf (right c) (rsRecv s 0)
    ∗ owned (right c) (commSlot s 0)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ owned c (outQ (qc c) (qc_lt c) s))

def LaneSt1 (c : Dev nD) (s : Fin 8) : sProp 𝕄 :=
  iprop(posAt c (rsSend s 0) 0
    ∗ posAt c (rsSend s 1) 0
    ∗ posAt c (rsSend s 2) 0
    ∗ posAt c (rsRecv s 0) 0
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 0)
    ∗ credOf c (rsRecv s 1)
    ∗ credOf c (rsRecv s 2)
    ∗ credOf c (t1Recv s)
    ∗ credOf c (t2Recv s)
    ∗ credOf c (t3Recv s)
    ∗ credOf c (rsSend s 0)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ owned c (outQ (qc c) (qc_lt c) s))

def LaneSt2 (c : Dev nD) (s : Fin 8) : sProp 𝕄 :=
  iprop(posAt c (rsSend s 0) 1
    ∗ posAt c (rsSend s 1) 0
    ∗ posAt c (rsSend s 2) 0
    ∗ posAt c (rsRecv s 0) 0
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 0)
    ∗ credOf c (rsRecv s 1)
    ∗ credOf c (rsRecv s 2)
    ∗ credOf c (t1Recv s)
    ∗ credOf c (t2Recv s)
    ∗ credOf c (t3Recv s)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ owned c (outQ (qc c) (qc_lt c) s))

def LaneSt3 (c : Dev nD) (s : Fin 8) : sProp 𝕄 :=
  iprop(posAt c (rsSend s 0) 1
    ∗ posAt c (rsSend s 1) 0
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 0 (left c))
    ∗ owned c (outQ (qc c) (qc_lt c) s))

def LaneSt4 (c : Dev nD) (s : Fin 8) : sProp 𝕄 :=
  iprop(posAt c (rsSend s 0) 1
    ∗ posAt c (rsSend s 1) 0
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ owned c (outQ (qc c) (qc_lt c) s))

def LaneSt5 (c : Dev nD) (s : Fin 8) : sProp 𝕄 :=
  iprop(posAt c (rsSend s 0) 1
    ∗ posAt c (rsSend s 1) 0
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ credOf c (rsSend s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ owned c (outQ (qc c) (qc_lt c) s))

def LaneSt6 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ owned c (outQ (qc c) (qc_lt c) s))

def LaneSt7 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 1 (left c))
    ∗ owned c (outQ (qc c) (qc_lt c) s))

def LaneSt8 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ owned c (outQ (qc c) (qc_lt c) s))

def LaneSt9 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ credOf c (rsSend s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ owned c (outQ (qc c) (qc_lt c) s))

def LaneSt10 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ owned c (outQ (qc c) (qc_lt c) s))

def LaneSt11 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ owned c (outQ (qc c) (qc_lt c) s))

def LaneSt12 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s))

def LaneSt13 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ credOf c (t1Send s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare.right (redV m c s))

def LaneSt14 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ credOf c (t1Send s)
    ∗ credOf c (t2Send s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c)))

def LaneSt15 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 1
    ∗ posAt c (t2Send s) 0
    ∗ posAt c (t2Recv s) 0
    ∗ posAt c (t3Send s) 0
    ∗ posAt c (t3Recv s) 0
    ∗ credOf c (t2Recv s)
    ∗ credOf c (t3Recv s)
    ∗ credOf c (t1Send s)
    ∗ credOf c (t2Send s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc (xn c)) (qc_lt (xn c)) s) fullShare (redV m (xn c) s))

def LaneSt16 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 1
    ∗ posAt c (t2Send s) 0
    ∗ posAt c (t2Recv s) 0
    ∗ posAt c (t3Send s) 0
    ∗ posAt c (t3Recv s) 0
    ∗ credOf c (t2Recv s)
    ∗ credOf c (t3Recv s)
    ∗ credOf c (t1Send s)
    ∗ credOf c (t2Send s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c)))

def LaneSt17 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 0
    ∗ posAt c (t2Recv s) 0
    ∗ posAt c (t3Send s) 0
    ∗ posAt c (t3Recv s) 0
    ∗ credOf c (t2Recv s)
    ∗ credOf c (t3Recv s)
    ∗ credOf c (t2Send s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare.left (redV m c s))

def LaneSt18 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 0
    ∗ posAt c (t3Send s) 0
    ∗ posAt c (t3Recv s) 0
    ∗ credOf c (t2Recv s)
    ∗ credOf c (t3Recv s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s))

def LaneSt19 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 1
    ∗ posAt c (t3Send s) 0
    ∗ posAt c (t3Recv s) 0
    ∗ credOf c (t3Recv s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (yn c)) (qc_lt (yn c)) s) fullShare (redV m (yn c) s))

def LaneSt20 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 1
    ∗ posAt c (t3Send s) 1
    ∗ posAt c (t3Recv s) 0
    ∗ credOf c (t3Recv s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (xn c)) (qc_lt (xn c)) s) fullShare (redV m (xn c) s)
    ∗ holds c (outQ (qc (yn c)) (qc_lt (yn c)) s) fullShare (redV m (yn c) s))

def LaneSt21 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 1
    ∗ posAt c (t3Send s) 1
    ∗ posAt c (t3Recv s) 1
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (xn c)) (qc_lt (xn c)) s) fullShare (redV m (xn c) s)
    ∗ holds c (outQ (qc (yn c)) (qc_lt (yn c)) s) fullShare (redV m (yn c) s)
    ∗ holds c (outQ (qc (xn (yn c))) (qc_lt (xn (yn c))) s) fullShare (redV m (xn (yn c)) s))

end Cert.KernelIdeal.Sched

end
-- ==== Proof.Shared.lean ====
/- A device's outstanding payments, the set of cells it has waited on hidden. -/
import proofs.«901049_g7700000000001050_dist_rsdw_v7x_xyz2x2x4_z_m1024_d1024_f4096_f32_1_alg».proof.Proof.LaneSt

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def Owes (c : Dev nD) (O : CellTallies nD τ sig Unit) : sProp 𝕄 := iprop(∃ W : Waits sig Unit, owes (c : Thread nD τ) O W)

end Cert.KernelIdeal.Sched

end
-- ==== Proof.BodyDefs.lean ====
/- The body's precondition and postcondition on one device. -/
import proofs.«901049_g7700000000001050_dist_rsdw_v7x_xyz2x2x4_z_m1024_d1024_f4096_f32_1_alg».proof.Proof.Dats
import proofs.«901049_g7700000000001050_dist_rsdw_v7x_xyz2x2x4_z_m1024_d1024_f4096_f32_1_alg».proof.Proof.Shared

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (outFinal m c))

end Cert.KernelIdeal.Sched

end
-- ==== Proof.StepsSig.lean ====
/- The four entry signals, which hand the neighbours the blocks they will copy into, and the wait for the neighbours' four. -/
import proofs.«901049_g7700000000001050_dist_rsdw_v7x_xyz2x2x4_z_m1024_d1024_f4096_f32_1_alg».proof.Proof.State
import proofs.«901049_g7700000000001050_dist_rsdw_v7x_xyz2x2x4_z_m1024_d1024_f4096_f32_1_alg».proof.Proof.SchedTab
import Idealize.ShloMosaic.Lib.Rounds

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

section Sig

variable (c : Dev nD)

/-- A signal to neighbour `n'` by its duty `d` of round 0, paid with what entails the cell's payload. -/
theorem signal_bar (K : GSem nD τ sig → ℕ) (n' : Dev nD) (d : Fin 4) {R : sProp 𝕄}
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell n') () 1) (W : Waits sig Unit)
    (hR : R ⊢ iprop(invs m K ∗ dutyTok ER (barCell n') 0 d ∗ barPay (F := F) n' d ∗ owes (c : Thread nD τ) O₀ W)) :
    R ⊢ iprop((owes (c : Thread nD τ) O W -∗ WP c (k ⟨⟩) Q) -∗ WP c (.op ((.semSignal (n' : Thread nD τ) barS 1)) k) Q) := by
  iintro HR
  icases hR $$ HR with ⟨HI, Ht, Hp, HO⟩
  ihave HI' := (invs_at m K (mem_allCells_bar n')) $$ HI
  icases HI' with ⟨Hc, Hr⟩
  iapply (Rounds.wp_signal 𝒱₀ ER (Rd m) (c : Thread nD τ) none (dst := (n' : Thread nD τ)) (κ := K (barCell n'))
      (d := d) (by rw [duties_bar]; exact Finset.mem_univ _) (amount_bar m n' 0 d) () O hO (W := W))
  iframe Hc HO Ht
  isplitl [Hp]
  · rw [payload_bar]; iexact Hp
  iexact Hr

theorem signal_left (K : GSem nD τ sig → ℕ) (n : Dev nD) (hn : n = left c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (left c)) () 1)
    (W : Waits sig Unit) :
    iprop(invs m K ∗ dutyTok ER (barCell (left c)) 0 (0 : Fin 4)
        ∗ (bigSep (Finset.univ : Finset (Fin 8 × Fin 3)) fun sh => owned (F := F) c (commSlot sh.1 sh.2))
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  exact signal_bar m c K _ 0 O hO W (by rw [barPay_zero, right_left])

theorem signal_right (K : GSem nD τ sig → ℕ) (n : Dev nD) (hn : n = right c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (right c)) () 1)
    (W : Waits sig Unit) :
    iprop(invs m K ∗ dutyTok ER (barCell (right c)) 0 (1 : Fin 4)
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  refine signal_bar m c K _ 1 O hO W ?_
  rw [barPay_one]
  iintro ⟨HI, Ht, HO⟩
  iframe

theorem signal_xn (K : GSem nD τ sig → ℕ) (n : Dev nD) (hn : n = xn c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (xn c)) () 1)
    (W : Waits sig Unit) :
    iprop(invs m K ∗ dutyTok ER (barCell (xn c)) 0 (2 : Fin 4)
        ∗ (bigSep (Finset.univ : Finset (Fin 8)) fun s => owned (F := F) c (outQ (qc (xn c)) (qc_lt (xn c)) s))
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  exact signal_bar m c K _ 2 O hO W (by rw [barPay_two, xn_xn])

theorem signal_yn (K : GSem nD τ sig → ℕ) (n : Dev nD) (hn : n = yn c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (yn c)) () 1)
    (W : Waits sig Unit) :
    iprop(invs m K ∗ dutyTok ER (barCell (yn c)) 0 (3 : Fin 4)
        ∗ (bigSep (Finset.univ : Finset (Fin 8)) fun s => owned (F := F) c (outQ (qc (yn c)) (qc_lt (yn c)) s))
        ∗ (bigSep (Finset.univ : Finset (Fin 8)) fun s => owned (F := F) c (outQ (qc (xn (yn c))) (qc_lt (xn (yn c))) s))
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  refine signal_bar m c K _ 3 O hO W ?_
  rw [barPay_three, yn_yn]
  iintro ⟨HI, Ht, Hp, Hp', HO⟩
  iframe

theorem wait_bar (K : GSem nD τ sig → ℕ) (sem : Sem sig) (hsem : sem = barS) (a : ℕ) (ha : a = 4)
    {α : Type} {Q : α → sProp 𝕄} {k : PUnit → Prog (TpuEff nD τ sig (Elt F) Λ₀ .tc) α}
    {O : CellTallies nD τ sig Unit} {W : Waits sig Unit} :
    iprop(invs m K ∗ cred (tallyAt (barCell c) () 4) ∗ owes (c : Thread nD τ) O W
        ∗ MayWait (c : Thread nD τ) (.reg barS) () O ∗ atPos ER (barCell c) 0 ∅ 0)
      ⊢ iprop(((owes (c : Thread nD τ) O (insert (SemLoc.reg barS, ()) W)
              ∗ atPos ER (barCell c) 1 ∅ 0 ∗ reached ER (barCell c) 1
              ∗ (bigSep (Finset.univ : Finset (Fin 8 × Fin 3)) fun sh => owned (F := F) (right c) (commSlot sh.1 sh.2))
              ∗ (bigSep (Finset.univ : Finset (Fin 8)) fun s => owned (F := F) (xn c) (outQ (qc c) (qc_lt c) s))
              ∗ (bigSep (Finset.univ : Finset (Fin 8)) fun s => owned (F := F) (yn c) (outQ (qc c) (qc_lt c) s))
              ∗ (bigSep (Finset.univ : Finset (Fin 8)) fun s => owned (F := F) (yn c) (outQ (qc (xn c)) (qc_lt (xn c)) s)))
            -∗ WP c (k ⟨⟩) Q)
          -∗ WP c (.op ((.semWait sem a)) k) Q) := by
  subst hsem ha
  iintro ⟨HI, Hc, HO, Hm, Hat⟩ Hk
  ihave HI' := (invs_at m K (mem_allCells_bar c)) $$ HI
  icases HI' with ⟨Hg, -⟩
  iapply (Rounds.wp_wait_rest_token 𝒱₀ ER (Rd m) (c : Thread nD τ) none (κ := K (barCell c))
      (wpE_semWait_eq 𝒱₀ (c : Thread nD τ) none Set.univ) (Set.mem_univ _) () (O := O) (W := W) (R := 0) (m := 0) (T := ∅)
      (by rw [expect_bar])) $$ [Hg Hc HO Hm Hat]
  · iframe
  iintro ⟨HO, Hat, Hr, Hpay⟩
  ihave Hp := (Entails.of_eq (rest_bar_blocks m c)) $$ Hpay
  icases Hp with ⟨H0, -, H2, H3, H3'⟩
  iapply Hk
  iframe HO Hat Hr H0 H2 H3
  iexact H3'

end Sig

end Cert.KernelIdeal.Sched

end
-- ==== Proof.StepsLocal.lean ====
/- The two copies of the arguments into scratch with their waits, and the loads of the operands of the four products. -/
import proofs.«901049_g7700000000001050_dist_rsdw_v7x_xyz2x2x4_z_m1024_d1024_f4096_f32_1_alg».proof.Proof.State
import Idealize.ShloMosaic.Lib.Transfers

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

theorem readAt_xcols (c : Dev nD) (j : Fin 4) {off : Fin 2 → ℕ} (hoff : off = ![0, 256 * j.val])
    (inb : ∀ a, off a + S1024x256.size a ≤ S1024x1024.size a) :
    (xM).view.readAt (Elt F) (Rect.unit (s := S1024x1024) off S1024x256.size inb).toLoadRect (xA m c) = xCols m c j := by
  subst hoff
  funext i
  rw [View.readAt_apply]
  show xA m c _ = xA m c _
  congr 1
  funext a
  match a with
  | ⟨0, _⟩ => apply Fin.ext; show 0 + 1 * (i 0).val = (i 0).val; omega
  | ⟨1, _⟩ => apply Fin.ext; show 256 * j.val + 1 * (i 1).val = 256 * j.val + (i 1).val; omega

omit [FloatOps F] in
theorem zero2 : (![0, 0] : Fin 2 → ℕ) = fun _ => 0 := funext fun a => by fin_cases a <;> rfl

theorem readAt_dyq {off : Fin 2 → ℕ} (hoff : off = ![0, 0]) (inb : ∀ a, off a + S1024x1024.size a ≤ S1024x1024.size a)
    (f : (cc0_scratch1 : Ref sig .tc).ty.Contents (Elt F)) :
    (dyqM).view.readAt (Elt F) (Rect.unit (s := S1024x1024) off S1024x1024.size inb).toLoadRect f = f :=
  Memref.readAt_unit_zero (Elt F) cc0_scratch1 (hoff.trans zero2) inb f

theorem read_dy_slice (c : Dev nD) {off : Fin 2 → ℕ} (hoff : off = ![0, 1024 * qc c])
    (inb : ∀ a, off a + S1024x1024.size a ≤ S1024x4096.size a) :
    ((Memref.whole main_arg1 : Memref sig .tc .hbm S1024x4096 .f32).slice (Rect.unit (s := S1024x4096) off S1024x1024.size inb) (fun _ => rfl)).view.read (Elt F)
        (m ((c : Thread nD τ).loc main_arg1)) = dyQ m c := by
  subst hoff
  funext i
  show dyA m c _ = dyA m c _
  congr 1
  funext a
  match a with
  | ⟨0, _⟩ => apply Fin.ext; show 0 + 1 * (i 0).val = (i 0).val; omega
  | ⟨1, _⟩ => apply Fin.ext; show 1024 * qc c + 1 * (i 1).val = 1024 * qc c + (i 1).val; omega

theorem off1_q (c : Dev nD) : k0_off1 c = ![0, 1024 * qc c] := by
  rw [Gen.k0_off1_eq]; revert c; decide

theorem off2_row (c : Dev nD) (r : Fin 4) : k0_off2 c (BitVec.ofNat 32 (1 + r.val)) = ![0, 256 * (rowOf (zc c) (1 + r.val)).val] := by
  rw [Mesh.off2_eq]; revert c r; decide
theorem off3_row (c : Dev nD) (r : Fin 4) : k0_off3 c (BitVec.ofNat 32 (1 + r.val)) = ![256 * (rowOf (zc c) (1 + r.val)).val, 0] := by
  rw [Mesh.off3_eq]; revert c r; decide

def XHeld (c : Dev nD) : sProp 𝕄 := iprop(((c : Thread nD τ).loc cc0_scratch0) ↦{fullShare} xA m c)

def DyqHeld (c : Dev nD) : sProp 𝕄 := iprop(((c : Thread nD τ).loc cc0_scratch1) ↦{fullShare} dyQ m c)

theorem xheld_load (c : Dev nD) (j : Fin 4) {α : Type} {Q : α → sProp 𝕄}
    {off : Fin 2 → ℕ} (hoff : off = ![0, 256 * j.val]) {inb : ∀ a, off a + S1024x256.size a ≤ S1024x1024.size a}
    {hl : (xM).view.LoadsAt (Rect.unit (s := S1024x1024) off S1024x256.size inb).toLoadRect}
    {k : Vec F S1024x256 .f32 → Prog (TpuEff nD τ sig (Elt F) Λ₀ .tc) α} :
    XHeld m c
      ⊢ iprop((XHeld m c -∗ WP c (k (xCols m c j)) Q)
          -∗ WP c (.op (.load xM (Rect.unit (s := S1024x1024) off S1024x256.size inb).toLoadRect hl) k) Q) := by
  unfold XHeld
  iintro H Hk
  iapply (wp_load 𝒱₀ (c : Thread nD τ) none Set.univ (m := xM) (hl := hl) (k := k) (Finset.subset_univ _)) $$ [H]
  · iexact H
  rw [readAt_xcols m c j hoff inb]
  iexact Hk

theorem dyqheld_load (c : Dev nD) {α : Type} {Q : α → sProp 𝕄}
    {off : Fin 2 → ℕ} (hoff : off = ![0, 0]) {inb : ∀ a, off a + S1024x1024.size a ≤ S1024x1024.size a}
    {hl : (dyqM).view.LoadsAt (Rect.unit (s := S1024x1024) off S1024x1024.size inb).toLoadRect}
    {k : Vec F S1024x1024 .f32 → Prog (TpuEff nD τ sig (Elt F) Λ₀ .tc) α} :
    DyqHeld m c
      ⊢ iprop((DyqHeld m c -∗ WP c (k (dyQ m c)) Q)
          -∗ WP c (.op (.load dyqM (Rect.unit (s := S1024x1024) off S1024x1024.size inb).toLoadRect hl) k) Q) := by
  unfold DyqHeld
  iintro H Hk
  iapply (wp_load 𝒱₀ (c : Thread nD τ) none Set.univ (m := dyqM) (hl := hl) (k := k) (Finset.subset_univ _)) $$ [H]
  · iexact H
  rw [readAt_dyq hoff inb]
  iexact Hk
theorem load_dead (c : Dev nD) {α : Type} {Q : α → sProp 𝕄}
    {off : Fin 2 → ℕ} {inb : ∀ a, off a + S256x1024.size a ≤ S1024x1024.size a}
    {hl : (partM).view.LoadsAt (Rect.unit (s := S1024x1024) off S256x1024.size inb).toLoadRect}
    {k : Vec F S256x1024 .f32 → Prog (TpuEff nD τ sig (Elt F) Λ₀ .tc) α} {q : PosShare TreeShare}
    {S : Finset (Idx ((partM).view.loc (c : Thread nD τ)))} {f : Buf (Elt F) ((partM).view.loc (c : Thread nD τ))}
    (hS : (partM).view.setOn (Rect.unit (s := S1024x1024) off S256x1024.size inb).toLoadRect.set ⊆ S) :
    iprop(((partM).view.loc (c : Thread nD τ)) ↦[S]{q} f)
      ⊢ iprop((((((partM).view.loc (c : Thread nD τ)) ↦[S]{q} f)) -∗ ∀ v, WP c (k v) Q)
          -∗ WP c (.op (.load partM (Rect.unit (s := S1024x1024) off S256x1024.size inb).toLoadRect hl) k) Q) := by
  iintro H Hk
  iapply (wp_load 𝒱₀ (c : Thread nD τ) none Set.univ (m := partM) (hl := hl) (k := k) hS) $$ [H]
  · iexact H
  iintro H
  iapply Hk $$ [H]
  iexact H

abbrev NX : ℕ := (xM).view.dmaCredit
abbrev NDY : ℕ := (dyqM).view.dmaCredit

theorem dyoff_inb (c : Dev nD) : ∀ a, (![0, 1024 * qc c] : Fin 2 → ℕ) a + S1024x1024.size a ≤ S1024x4096.size a := by
  intro a; have := qc_lt c
  match a with
  | ⟨0, _⟩ => show 0 + 1024 ≤ 1024; omega
  | ⟨1, _⟩ => show 1024 * qc c + 1024 ≤ 4096; omega

def dySrc (c : Dev nD) : Memref sig .tc .hbm S1024x1024 .f32 :=
  (Memref.whole main_arg1 : Memref sig .tc .hbm S1024x4096 .f32).slice (Rect.unit (s := S1024x4096) ![0, 1024 * qc c] S1024x1024.size (dyoff_inb c)) (fun _ => rfl)

def xLanded (c : Dev nD) (q : PosShare TreeShare) : sProp 𝕄 :=
  iprop((((c : Thread nD τ).loc cc0_scratch0) ↦{fullShare} xA m c) ∗ (((c : Thread nD τ).loc main_arg0) ↦{q} m ((c : Thread nD τ).loc main_arg0)))

def dyLanded (c : Dev nD) (q : PosShare TreeShare) : sProp 𝕄 :=
  iprop((((c : Thread nD τ).loc cc0_scratch1) ↦{fullShare} dyQ m c)
    ∗ (((c : Thread nD τ).loc main_arg1) ↦[(dySrc c).view.set]{q} m ((c : Thread nD τ).loc main_arg1)))

def dyRest (c : Dev nD) (q : PosShare TreeShare) : sProp 𝕄 :=
  iprop(((c : Thread nD τ).loc main_arg1) ↦[Finset.univ \ (dySrc c).view.set]{q} m ((c : Thread nD τ).loc main_arg1))

omit [FloatOps F] in
theorem set_whole_arg0 : ((Memref.whole main_arg0 : Memref sig .tc .hbm S1024x1024 .f32)).view.set = Finset.univ :=
  (Memref.isWhole_whole _).set_eq_univ

theorem copy_x (c : Dev nD) {α : Type} {Q : α → sProp 𝕄}
    (src : Memref sig .tc .hbm S1024x1024 .f32) (hsrc : src = Memref.whole main_arg0)
    (dst : Memref sig .tc .vmem S1024x1024 .f32) (hdst : dst = xM)
    (sem : DmaSem sig) (hsem : sem = cc0_scratch4.sem)
    {hs : src.view.WordExact} {hd : dst.view.WordExact} {ht : (DmaTarget.here dst : DmaTarget nD τ sig .tc .vmem S1024x1024 .f32).Typed .hbm (SemLoc.dma sem)}
    {k : PUnit → Prog (TpuEff nD τ sig (Elt F) Λ₀ .tc) α} {q : PosShare TreeShare} :
    iprop((((c : Thread nD τ).loc main_arg0) ↦{q} m ((c : Thread nD τ).loc main_arg0))
        ∗ (∃ f : Buf (Elt F) ((c : Thread nD τ).loc cc0_scratch0), ((c : Thread nD τ).loc cc0_scratch0) ↦{fullShare} f)
        ∗ semVal (dmaCell c cc0_scratch4.sem) 0)
      ⊢ iprop((Transfers.Flight EC (c : Thread nD τ) (.dma cc0_scratch4.sem) () NX (xLanded m c q) -∗ WP c (k ⟨⟩) Q)
          -∗ WP c (.op (.enqueueDma src (.here dst) (.dma sem) hs hd ht) k) Q) := by
  subst hsrc hdst hsem
  iintro ⟨Hs, ⟨%f, Hd⟩, Hv⟩ Hk
  have h := Transfers.wp_dmaLocal EC 𝒱₀ (c : Thread nD τ) none (defs := defs₀ (F := F)) (Q := Q)
    (src := (Memref.whole main_arg0 : Memref sig .tc .hbm S1024x1024 .f32)) (via := .same) (dst := xM) (sm := .dma cc0_scratch4.sem)
    (hsrc := hs) (hdst := hd) (hsem := ht) (k := k) (q := q) (fs := m ((c : Thread nD τ).loc main_arg0)) (Sd := Finset.univ) (fd := f)
    () NX rfl (View.dmaCredit_pos _ (by decide)) (Finset.subset_univ _)
  rw [set_whole_arg0] at h
  iapply h $$ [Hs Hd Hv]
  · iframe
  iintro Hf
  iapply Hk
  iapply (Transfers.Flight_mono EC (c : Thread nD τ) ?_) $$ Hf
  unfold xLanded
  rw [View.write_whole_univ]
  exact .rfl

theorem copy_dy (c : Dev nD) {α : Type} {Q : α → sProp 𝕄}
    {off : Fin 2 → ℕ} (hoff : off = ![0, 1024 * qc c]) {inb : ∀ a, off a + S1024x1024.size a ≤ S1024x4096.size a}
    (src : Memref sig .tc .hbm S1024x1024 .f32)
    (hsrc : src = (Memref.whole main_arg1 : Memref sig .tc .hbm S1024x4096 .f32).slice (Rect.unit (s := S1024x4096) off S1024x1024.size inb) (fun _ => rfl))
    (dst : Memref sig .tc .vmem S1024x1024 .f32) (hdst : dst = dyqM)
    (sem : DmaSem sig) (hsem : sem = cc0_scratch5.sem)
    {hs : src.view.WordExact} {hd : dst.view.WordExact} {ht : (DmaTarget.here dst : DmaTarget nD τ sig .tc .vmem S1024x1024 .f32).Typed .hbm (SemLoc.dma sem)}
    {k : PUnit → Prog (TpuEff nD τ sig (Elt F) Λ₀ .tc) α} {q : PosShare TreeShare} :
    iprop((((c : Thread nD τ).loc main_arg1) ↦{q} m ((c : Thread nD τ).loc main_arg1))
        ∗ (∃ f : Buf (Elt F) ((c : Thread nD τ).loc cc0_scratch1), ((c : Thread nD τ).loc cc0_scratch1) ↦{fullShare} f)
        ∗ semVal (dmaCell c cc0_scratch5.sem) 0)
      ⊢ iprop(((Transfers.Flight EC (c : Thread nD τ) (.dma cc0_scratch5.sem) () NDY (dyLanded m c q) ∗ dyRest m c q) -∗ WP c (k ⟨⟩) Q)
          -∗ WP c (.op (.enqueueDma src (.here dst) (.dma sem) hs hd ht) k) Q) := by
  subst hoff hsrc hdst hsem
  iintro ⟨Hs, ⟨%f, Hd⟩, Hv⟩ Hk
  ihave Hsplit := (pointsTo_split_subset (Finset.subset_univ (dySrc c).view.set)).1 $$ Hs
  icases Hsplit with ⟨Hs, Hrest⟩
  iapply (Transfers.wp_dmaLocal EC 𝒱₀ (c : Thread nD τ) none (defs := defs₀ (F := F)) (Q := Q)
    (src := dySrc c) (via := .same) (dst := dyqM) (sm := .dma cc0_scratch5.sem)
    (hsrc := hs) (hdst := hd) (hsem := ht) (k := k) (q := q) (fs := m ((c : Thread nD τ).loc main_arg1)) (Sd := Finset.univ) (fd := f)
    () NDY rfl (View.dmaCredit_pos _ (by decide)) (Finset.subset_univ _)) $$ [Hs Hd Hv]
  · isplitl [Hs]; · iexact Hs
    iframe
  iintro Hf
  iapply Hk
  isplitl [Hf]
  · iapply (Transfers.Flight_mono EC (c : Thread nD τ) ?_) $$ Hf
    unfold dyLanded
    rw [View.write_whole_univ]
    have hv : ReadAs.same.apply ((dySrc c).view.read (Elt F) (m ((c : Thread nD τ).loc main_arg1))) = dyQ m c :=
      read_dy_slice m c rfl (dyoff_inb c)
    rw [hv]
    exact .rfl
  · unfold dyRest; iexact Hrest

theorem wait_x (c : Dev nD) {α : Type} {Q : α → sProp 𝕄} (sem : DmaSem sig) (hsem : sem = cc0_scratch4.sem)
    {sp' : Space} {s' : Shape} {e' : EltTy} {srcw : Memref sig .tc sp' s' e'}
    (dstw : Memref sig .tc .vmem S1024x1024 .f32) (hdst : dstw = xM)
    {hs : srcw.view.WordExact} {hd : dstw.view.WordExact}
    {k : PUnit → Prog (TpuEff nD τ sig (Elt F) Λ₀ .tc) α} {q : PosShare TreeShare}
    {O : CellTallies nD τ sig Unit} {W : Waits sig Unit} :
    iprop(Transfers.Flight EC (c : Thread nD τ) (.dma cc0_scratch4.sem) () NX (xLanded m c q) ∗ owes (c : Thread nD τ) O W
        ∗ MayWait (c : Thread nD τ) (.dma cc0_scratch4.sem) () O)
      ⊢ iprop(((XHeld m c ∗ (((c : Thread nD τ).loc main_arg0) ↦{q} m ((c : Thread nD τ).loc main_arg0))
              ∗ semVal (dmaCell c cc0_scratch4.sem) 0 ∗ owes (c : Thread nD τ) O (insert (SemLoc.dma cc0_scratch4.sem, ()) W)) -∗ WP c (k ⟨⟩) Q)
          -∗ WP c (.op (.waitDma2 sem srcw dstw hs hd) k) Q) := by
  subst hdst hsem
  iintro ⟨Hf, HO, HM⟩ Hk
  iapply (Transfers.wp_waitLocalO EC 𝒱₀ (c : Thread nD τ) none (defs := defs₀ (F := F)) (Q := Q) (srcw := srcw) (dstw := xM) (hsrc := hs) (hdst := hd) (k := k)
    () (N := NX) rfl) $$ [Hf HO HM]
  · iframe
  iintro ⟨HD, Hv, HO⟩
  unfold xLanded
  unfold XHeld
  icases HD with ⟨Hx, Ha⟩
  iapply Hk
  iframe

theorem wait_dy (c : Dev nD) {α : Type} {Q : α → sProp 𝕄} (sem : DmaSem sig) (hsem : sem = cc0_scratch5.sem)
    {sp' : Space} {s' : Shape} {e' : EltTy} {srcw : Memref sig .tc sp' s' e'}
    (dstw : Memref sig .tc .vmem S1024x1024 .f32) (hdst : dstw = dyqM)
    {hs : srcw.view.WordExact} {hd : dstw.view.WordExact}
    {k : PUnit → Prog (TpuEff nD τ sig (Elt F) Λ₀ .tc) α} {q : PosShare TreeShare}
    {O : CellTallies nD τ sig Unit} {W : Waits sig Unit} :
    iprop(Transfers.Flight EC (c : Thread nD τ) (.dma cc0_scratch5.sem) () NDY (dyLanded m c q) ∗ dyRest m c q ∗ owes (c : Thread nD τ) O W
        ∗ MayWait (c : Thread nD τ) (.dma cc0_scratch5.sem) () O)
      ⊢ iprop(((DyqHeld m c ∗ (((c : Thread nD τ).loc main_arg1) ↦{q} m ((c : Thread nD τ).loc main_arg1))
              ∗ semVal (dmaCell c cc0_scratch5.sem) 0 ∗ owes (c : Thread nD τ) O (insert (SemLoc.dma cc0_scratch5.sem, ()) W)) -∗ WP c (k ⟨⟩) Q)
          -∗ WP c (.op (.waitDma2 sem srcw dstw hs hd) k) Q) := by
  subst hdst hsem
  iintro ⟨Hf, Hrest, HO, HM⟩ Hk
  iapply (Transfers.wp_waitLocalO EC 𝒱₀ (c : Thread nD τ) none (defs := defs₀ (F := F)) (Q := Q) (srcw := srcw) (dstw := dyqM) (hsrc := hs) (hdst := hd) (k := k)
    () (N := NDY) rfl) $$ [Hf HO HM]
  · iframe
  iintro ⟨HD, Hv, HO⟩
  unfold dyLanded
  unfold dyRest
  unfold DyqHeld
  icases HD with ⟨Hx, Ha⟩
  iapply Hk
  iframe Hx Hv HO
  iapply (pointsTo_split_subset (Finset.subset_univ (dySrc c).view.set)).2
  iframe

end Cert.KernelIdeal.Sched

end
-- ==== Proof.StepsMem.lean ====
/- Blocks held by shares, and the local loads and stores on blocks. -/
import proofs.«901049_g7700000000001050_dist_rsdw_v7x_xyz2x2x4_z_m1024_d1024_f4096_f32_1_alg».proof.Proof.State
import Idealize.ShloMosaic.Rules.Step

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

theorem pointsTo_same {ℓ : Loc nD τ sig} {I : Finset (Idx ℓ)} {q₁ q₂ : PosShare TreeShare} {f g : Buf (Elt F) ℓ} :
    (iprop((ℓ ↦[I]{q₁} f) ∗ (ℓ ↦[I]{q₂} g)) : sProp 𝕄) ⊢ iprop((ℓ ↦[I]{q₁} f) ∗ (ℓ ↦[I]{q₂} f)) :=
  pure_elim _ Region.is_agree fun hag => by
    have e : (ℓ ↦[I]{q₂} g : sProp 𝕄) = (ℓ ↦[I]{q₂} f) :=
      Region.is_congr fun i hi => ((hag i (Finset.mem_inter.mpr ⟨hi, hi⟩)).1).symm
    rw [e]

theorem holds_halves (c : Dev nD) {sp : Space} (M : Memref sig .tc sp S256x128 .f32) (V : Vec F S256x128 .f32) :
    (holds c M fullShare V : sProp 𝕄) ⊣⊢ iprop(holds c M fullShare.left V ∗ holds c M fullShare.right V) := by
  unfold holds
  constructor
  · iintro ⟨%f, %hf, H⟩
    icases (Region.is_share (PosShare.mem_left_op_right fullShare)).1 $$ H with ⟨H1, H2⟩
    isplitl [H1] <;> iexists f <;> iframe <;> ipureintro <;> exact hf
  · iintro ⟨⟨%f1, %hf1, H1⟩, ⟨%f2, %hf2, H2⟩⟩
    iexists f1; isplitr
    · ipureintro; exact hf1
    · iapply (Region.is_share (PosShare.mem_left_op_right fullShare)).2
      iapply pointsTo_same (g := f2)
      iframe

theorem commSlot_read (s : Fin 8) (h : Fin 3) {inb : ∀ a, (![s.val, h.val, 0, 0] : Fin 4 → ℕ) a + S1x1x256x128.size a ≤ S8x3x256x128.size a}
    (g : (commSlot s h).view.ty.Contents (Elt F)) :
    (commSlot s h).view.read (Elt F) g
      = shapeCast S256x128 ((commM.access (Rect.unit (s := S8x3x256x128) ![s.val, h.val, 0, 0] S1x1x256x128.size inb)).read (Elt F) g)
          Facts₀.shapeCasts_S1x1x256x128_S256x128 := rfl

/-- At offsets `o`, a load of one comm slot from `P` continues with `P` at every value whose cast is `V`. -/
def CommLoads (c : Dev nD) (o : Fin 4 → ℕ) (P : sProp 𝕄) (V : Vec F S256x128 .f32) : Prop :=
  ∀ (off : Fin 4 → ℕ) (hoff : off = o) {inb : ∀ a, off a + S1x1x256x128.size a ≤ S8x3x256x128.size a}
    {hl : commM.view.LoadsAt (Rect.unit (s := S8x3x256x128) off S1x1x256x128.size inb).toLoadRect}
    {α : Type} {Q : α → sProp 𝕄} {k : Vec F S1x1x256x128 .f32 → Prog (TpuEff nD τ sig (Elt F) Λ₀ .tc) α},
    P ⊢ iprop((∀ v : Vec F S1x1x256x128 .f32, ⌜shapeCast S256x128 v Facts₀.shapeCasts_S1x1x256x128_S256x128 = V⌝ -∗ P -∗ wp frame (wpE (defs₀ (F := F)) 𝒱₀ (c : Thread nD τ) none) Set.univ (k v) Q)
      -∗ wp frame (wpE (defs₀ (F := F)) 𝒱₀ (c : Thread nD τ) none) Set.univ (.op (.load commM (Rect.unit (s := S8x3x256x128) off S1x1x256x128.size inb).toLoadRect hl) k) Q)

/-- At offsets `o`, a load of the `sz` block of `M` from `P` continues with `P` at any value. -/
def DeadLoads (c : Dev nD) {s₀ : Shape} (M : Memref sig .tc .vmem s₀ .f32) (sz o : Fin s₀.rank → ℕ) (P : sProp 𝕄) : Prop :=
  ∀ (off : Fin s₀.rank → ℕ) (hoff : off = o) {inb : ∀ a, off a + sz a ≤ s₀.size a}
    {hl : M.view.LoadsAt (Rect.unit (s := s₀) off sz inb).toLoadRect}
    {α : Type} {Q : α → sProp 𝕄} {k : Vec F ⟨s₀.rank, sz⟩ .f32 → Prog (TpuEff nD τ sig (Elt F) Λ₀ .tc) α},
    P ⊢ iprop((∀ v : Vec F ⟨s₀.rank, sz⟩ .f32, P -∗ wp frame (wpE (defs₀ (F := F)) 𝒱₀ (c : Thread nD τ) none) Set.univ (k v) Q)
      -∗ wp frame (wpE (defs₀ (F := F)) 𝒱₀ (c : Thread nD τ) none) Set.univ (.op (.load M (Rect.unit (s := s₀) off sz inb).toLoadRect hl) k) Q)

/-- At offsets `o`, an unmasked store of a `w` with `φ w` into the `sz` block of `M` takes `P` to `P'`. -/
def StoreSpec (c : Dev nD) {s₀ : Shape} (M : Memref sig .tc .vmem s₀ .f32) (sz o : Fin s₀.rank → ℕ) (P : sProp 𝕄)
    (φ : Vec F ⟨s₀.rank, sz⟩ .f32 → Prop) (P' : sProp 𝕄) : Prop :=
  ∀ (off : Fin s₀.rank → ℕ) (hoff : off = o) {inb : ∀ a, off a + sz a ≤ s₀.size a} (w : Vec F ⟨s₀.rank, sz⟩ .f32) (hw : φ w)
    {hx : (M.access (Rect.unit (s := s₀) off sz inb)).Stores Finset.univ}
    {hm : (Finset.univ : Finset (Rect.unit (s := s₀) off sz inb).shape.Idx) = Finset.univ ∨ ∀ a, (Rect.unit (s := s₀) off sz inb).stride a = 1}
    {α : Type} {Q : α → sProp 𝕄} {k : PUnit → Prog (TpuEff nD τ sig (Elt F) Λ₀ .tc) α},
    P ⊢ iprop((P' -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := s₀) off sz inb) w Finset.univ hx hm) k) Q)

theorem load_comm (c : Dev nD) (s : Fin 8) (h : Fin 3) (q : PosShare TreeShare) (V : Vec F S256x128 .f32) :
    CommLoads c ![s.val, h.val, 0, 0] (holds c (commSlot s h) q V) V := by
  intro off hoff inb hl α Q k
  subst hoff
  unfold holds
  iintro ⟨%f, %hf, H⟩ Hk
  have key : (((commSlot s h).view.loc (c : Thread nD τ) ↦[(commSlot s h).view.set]{q} f) : sProp 𝕄)
      ⊢ iprop((_ -∗ wp frame (wpE (defs₀ (F := F)) 𝒱₀ (c : Thread nD τ) none) Set.univ (k _) Q) -∗ _) :=
    wp_load_rect 𝒱₀ (c : Thread nD τ) none Set.univ (m := commM) (r := Rect.unit (s := S8x3x256x128) ![s.val, h.val, 0, 0] S1x1x256x128.size inb) (hl := hl)
      (View.set_reshape (v := commM.view.slice (Rect.unit (s := S8x3x256x128) ![s.val, h.val, 0, 0] S1x1x256x128.size inb)) (s' := S256x128) _).ge
  iapply key $$ H
  iintro H
  iapply Hk $$ [] [H]
  · ipureintro; exact hf
  · iexists f; isplitr
    · ipureintro; exact hf
    · iexact H

theorem store_comm (c : Dev nD) (s : Fin 8) (h : Fin 3) (V V' : Vec F S256x128 .f32) :
    StoreSpec c commM S1x1x256x128.size ![s.val, h.val, 0, 0] (holds c (commSlot s h) fullShare V)
      (fun w => shapeCast S256x128 w Facts₀.shapeCasts_S1x1x256x128_S256x128 = V') (holds c (commSlot s h) fullShare V') := by
  intro off hoff inb w hw hx hm α Q k
  subst hoff hw
  unfold holds
  iintro ⟨%f, %hf, H⟩ Hk
  have key : (((commSlot s h).view.loc (c : Thread nD τ) ↦[(commSlot s h).view.set]{fullShare} f) : sProp 𝕄)
      ⊢ iprop((_ -∗ wp frame (wpE (defs₀ (F := F)) 𝒱₀ (c : Thread nD τ) none) Set.univ (k ⟨⟩) Q) -∗ _) :=
    wp_store 𝒱₀ (c : Thread nD τ) none Set.univ (m := commM) (r := Rect.unit (s := S8x3x256x128) ![s.val, h.val, 0, 0] S1x1x256x128.size inb) (w := w) (hx := hx) (hm := hm)
      (View.set_reshape (v := commM.view.slice (Rect.unit (s := S8x3x256x128) ![s.val, h.val, 0, 0] S1x1x256x128.size inb)) (s' := S256x128) _).ge
  iapply key $$ H
  iintro H
  iapply Hk
  iexists ((commM.access (Rect.unit (s := S8x3x256x128) ![s.val, h.val, 0, 0] S1x1x256x128.size inb)).write (Elt F) f w Finset.univ)
  isplitr
  · ipureintro
    exact (commSlot_read s h (inb := inb) _).trans (congrArg (fun v => shapeCast S256x128 v Facts₀.shapeCasts_S1x1x256x128_S256x128)
      (View.read_write_univ (v := commM.access (Rect.unit (s := S8x3x256x128) ![s.val, h.val, 0, 0] S1x1x256x128.size inb)) (Val := Elt F) f w))
  · iexact H

theorem load_part (c : Dev nD) (j : Fin 4) (s : Fin 8) (off : Fin 2 → ℕ) (hoff : off = ![256 * j.val, 128 * s.val])
    {inb : ∀ a, off a + S256x128.size a ≤ S1024x1024.size a}
    {hl : partM.view.LoadsAt (Rect.unit (s := S1024x1024) off S256x128.size inb).toLoadRect}
    (S : Finset (Idx (partM.view.loc (c : Thread nD τ)))) (q : PosShare TreeShare)
    (f : Buf (Elt F) (partM.view.loc (c : Thread nD τ))) (V : Vec F S256x128 .f32)
    (hS : (partJS j s).view.set ⊆ S) (hV : (partJS j s).view.read (Elt F) f = V)
    {α : Type} {Q : α → sProp 𝕄} {k : Vec F S256x128 .f32 → Prog (TpuEff nD τ sig (Elt F) Λ₀ .tc) α} :
    ((partM.view.loc (c : Thread nD τ) ↦[S]{q} f) : sProp 𝕄)
      ⊢ iprop(((partM.view.loc (c : Thread nD τ) ↦[S]{q} f) -∗ wp frame (wpE (defs₀ (F := F)) 𝒱₀ (c : Thread nD τ) none) Set.univ (k V) Q)
          -∗ wp frame (wpE (defs₀ (F := F)) 𝒱₀ (c : Thread nD τ) none) Set.univ (.op (.load partM (Rect.unit (s := S1024x1024) off S256x128.size inb).toLoadRect hl) k) Q) := by
  subst hoff; subst hV
  exact wp_load_rect 𝒱₀ (c : Thread nD τ) none Set.univ (m := partM)
      (r := Rect.unit (s := S1024x1024) ![256 * j.val, 128 * s.val] S256x128.size inb) hS

theorem store_out (c : Dev nD) (Q' : ℕ) (hQ : Q' < 4) (s : Fin 8) (V : Vec F S256x128 .f32) :
    StoreSpec c outM S256x128.size ![0, 1024 * Q' + 128 * s.val] (owned c (outQ Q' hQ s)) (· = V) (holds c (outQ Q' hQ s) fullShare V) := by
  intro off hoff inb w hw hx hm α Q k
  subst hoff hw
  unfold holds owned
  iintro ⟨%f, H⟩ Hk
  have key : (((outQ Q' hQ s).view.loc (c : Thread nD τ) ↦[(outQ Q' hQ s).view.set]{fullShare} f) : sProp 𝕄)
      ⊢ iprop((_ -∗ wp frame (wpE (defs₀ (F := F)) 𝒱₀ (c : Thread nD τ) none) Set.univ (k ⟨⟩) Q) -∗ _) :=
    wp_store 𝒱₀ (c : Thread nD τ) none Set.univ (m := outM) (r := Rect.unit (s := S256x4096) ![0, 1024 * Q' + 128 * s.val] S256x128.size inb) (w := w) (hx := hx) (hm := hm) (Finset.Subset.refl _)
  iapply key $$ H
  iintro H
  iapply Hk
  iexists ((outQ Q' hQ s).view.write (Elt F) f w Finset.univ)
  isplitr
  · ipureintro; exact View.read_write_univ _ _
  · iexact H

theorem rows_inb (j : Fin 4) : ∀ a, (![256 * j.val, 0] : Fin 2 → ℕ) a + S256x1024.size a ≤ S1024x1024.size a := by
  intro a; have := j.isLt
  match a with
  | ⟨0, _⟩ => show 256 * j.val + 256 ≤ 1024; omega
  | ⟨1, _⟩ => show 0 + 1024 ≤ 1024; omega

abbrev rowsR (j : Fin 4) : Rect S1024x1024 := Rect.unit (s := S1024x1024) ![256 * j.val, 0] S256x1024.size (rows_inb j)

def colBlk (w : Vec F S256x1024 .f32) (s : Fin 8) : Vec F S256x128 .f32 := fun i =>
  w (ix2 ⟨(i 0).val, ValueIdx.idx2_lt0 i⟩ ⟨128 * s.val + (i 1).val, by have := ValueIdx.idx2_lt1 i; have := s.isLt; omega⟩)

theorem read_block_write_rows (j : Fin 4) (s : Fin 8) (f : partM.view.ty.Contents (Elt F))
    (w : Vec F S256x1024 .f32) :
    (partJS j s).view.read (Elt F) ((partM.access (rowsR j)).write (Elt F) f w Finset.univ) = colBlk w s := by
  funext x
  have e : (Rect.unit (s := S1024x1024) ![256 * j.val, 128 * s.val] S256x128.size (partOff_inb j s)).emb x
      = (rowsR j).emb (ix2 ⟨(x 0).val, ValueIdx.idx2_lt0 x⟩ ⟨128 * s.val + (x 1).val, by have := ValueIdx.idx2_lt1 x; have := s.isLt; omega⟩) := by
    funext a
    apply Fin.ext
    match a with
    | ⟨0, _⟩ => rfl
    | ⟨1, _⟩ => show 128 * s.val + 1 * (x 1).val = 0 + 1 * (128 * s.val + (x 1).val); omega
  generalize hg : (partM.access (rowsR j)).write (Elt F) f w Finset.univ = g
  show partM.view.read (Elt F) g ((Rect.unit (s := S1024x1024) ![256 * j.val, 128 * s.val] S256x128.size (partOff_inb j s)).emb x) = _
  rw [e, ← hg]
  exact View.read_slice_write_emb (v := partM.view) (rowsR j) f w (Finset.mem_univ _)

theorem read_block_write_rows_ne (j j' : Fin 4) (hj : j' ≠ j) (s : Fin 8) (f : partM.view.ty.Contents (Elt F))
    (w : Vec F S256x1024 .f32) :
    (partJS j' s).view.read (Elt F) ((partM.access (rowsR j)).write (Elt F) f w Finset.univ)
      = (partJS j' s).view.read (Elt F) f := by
  funext x
  have hx0 := ValueIdx.idx2_lt0 x
  have hn : (Rect.unit (s := S1024x1024) ![256 * j'.val, 128 * s.val] S256x128.size (partOff_inb j' s)).emb x ∉ (Finset.univ.map (rowsR j).emb) := by
    rw [Rect.map_emb_univ, Rect.mem_set_unit]
    intro hmem
    have h0 := hmem ⟨0, by decide⟩
    have h0' : 256 * j.val ≤ 256 * j'.val + 1 * (x 0).val ∧ 256 * j'.val + 1 * (x 0).val < 256 * j.val + 256 := h0
    exact hj (Fin.ext (by omega))
  generalize hg : (partM.access (rowsR j)).write (Elt F) f w Finset.univ = g
  show partM.view.read (Elt F) g ((Rect.unit (s := S1024x1024) ![256 * j'.val, 128 * s.val] S256x128.size (partOff_inb j' s)).emb x)
      = partM.view.read (Elt F) f ((Rect.unit (s := S1024x1024) ![256 * j'.val, 128 * s.val] S256x128.size (partOff_inb j' s)).emb x)
  rw [← hg]
  exact View.read_slice_write_of_not_mem (v := partM.view) (rowsR j) f w Finset.univ hn

theorem load_rows (c : Dev nD) (j : Fin 4) (off : Fin 2 → ℕ) (hoff : off = ![256 * j.val, 0])
    {inb : ∀ a, off a + S256x1024.size a ≤ S1024x1024.size a}
    {hl : partM.view.LoadsAt (Rect.unit (s := S1024x1024) off S256x1024.size inb).toLoadRect}
    (S : Finset (Idx (partM.view.loc (c : Thread nD τ)))) (q : PosShare TreeShare)
    (f : Buf (Elt F) (partM.view.loc (c : Thread nD τ)))
    (hS : (partM.access (rowsR j)).set ⊆ S)
    {α : Type} {Q : α → sProp 𝕄} {k : Vec F S256x1024 .f32 → Prog (TpuEff nD τ sig (Elt F) Λ₀ .tc) α} :
    ((partM.view.loc (c : Thread nD τ) ↦[S]{q} f) : sProp 𝕄)
      ⊢ iprop(((partM.view.loc (c : Thread nD τ) ↦[S]{q} f)
            -∗ wp frame (wpE (defs₀ (F := F)) 𝒱₀ (c : Thread nD τ) none) Set.univ (k ((partM.access (rowsR j)).read (Elt F) f)) Q)
          -∗ wp frame (wpE (defs₀ (F := F)) 𝒱₀ (c : Thread nD τ) none) Set.univ (.op (.load partM (Rect.unit (s := S1024x1024) off S256x1024.size inb).toLoadRect hl) k) Q) := by
  subst hoff
  exact wp_load_rect 𝒱₀ (c : Thread nD τ) none Set.univ (m := partM) (r := Rect.unit (s := S1024x1024) ![256 * j.val, 0] S256x1024.size inb) hS

theorem load_out_dead (c : Dev nD) (Q' : ℕ) (hQ : Q' < 4) (s : Fin 8) :
    DeadLoads (F := F) c outM S256x128.size ![0, 1024 * Q' + 128 * s.val] (owned c (outQ Q' hQ s)) := by
  intro off hoff inb hl α Q k
  subst hoff
  unfold owned
  iintro ⟨%f, H⟩ Hk
  have key : (((outQ Q' hQ s).view.loc (c : Thread nD τ) ↦[(outQ Q' hQ s).view.set]{fullShare} f) : sProp 𝕄)
      ⊢ iprop((_ -∗ wp frame (wpE (defs₀ (F := F)) 𝒱₀ (c : Thread nD τ) none) Set.univ (k _) Q) -∗ _) :=
    wp_load_rect 𝒱₀ (c : Thread nD τ) none Set.univ (m := outM) (r := Rect.unit (s := S256x4096) ![0, 1024 * Q' + 128 * s.val] S256x128.size inb) (hl := hl) (Finset.Subset.refl _)
  iapply key $$ H
  iintro H
  iapply Hk
  iexists f
  iexact H

theorem gemm_store' (c : Dev nD) (j : Fin 4) (off : Fin 2 → ℕ) (hoff : off = ![256 * j.val, 0])
    {inb : ∀ a, off a + S256x1024.size a ≤ S1024x1024.size a} (w : Vec F S256x1024 .f32)
    {hx : (partM.access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    (S : Finset (Idx (partM.view.loc (c : Thread nD τ))))
    (f : Buf (Elt F) (partM.view.loc (c : Thread nD τ)))
    (hS : (partM.access (rowsR j)).set ⊆ S)
    {α : Type} {Q : α → sProp 𝕄} {k : PUnit → Prog (TpuEff nD τ sig (Elt F) Λ₀ .tc) α} :
    ((partM.view.loc (c : Thread nD τ) ↦[S]{fullShare} f) : sProp 𝕄)
      ⊢ iprop(((∃ f' : Buf (Elt F) (partM.view.loc (c : Thread nD τ)),
              ⌜(∀ s : Fin 8, (partJS j s).view.read (Elt F) f' = colBlk w s)
                ∧ ∀ j' : Fin 4, j' ≠ j → ∀ s : Fin 8, (partJS j' s).view.read (Elt F) f' = (partJS j' s).view.read (Elt F) f⌝
              ∗ (partM.view.loc (c : Thread nD τ) ↦[S]{fullShare} f')) -∗ wp frame (wpE (defs₀ (F := F)) 𝒱₀ (c : Thread nD τ) none) Set.univ (k ⟨⟩) Q)
          -∗ wp frame (wpE (defs₀ (F := F)) 𝒱₀ (c : Thread nD τ) none) Set.univ (.op (.store partM (Rect.unit (s := S1024x1024) off S256x1024.size inb) w Finset.univ hx hm) k) Q) := by
  subst hoff
  iintro H Hk
  iapply (wp_store 𝒱₀ (c : Thread nD τ) none Set.univ (m := partM) (r := rowsR j) hS) $$ H
  iintro H
  iapply Hk
  iexists ((partM.access (rowsR j)).write (Elt F) f w Finset.univ)
  isplitr
  · ipureintro
    exact ⟨fun s => read_block_write_rows j s f w, fun j' hj s => read_block_write_rows_ne j j' hj s f w⟩
  · iexact H

theorem rowOf_val_step : ∀ (c : Dev nD) (r : Fin 2), (rowOf (zc c) (2 + r.val)).val = (c.val % 4 + 4 - (1 + r.val) - 1) % 4 := by decide
theorem rowOf_val_own : ∀ c : Dev nD, (rowOf (zc c) 4).val = c.val % 4 := by decide
/-- info: 'Cert.KernelIdeal.Sched.store_comm' depends on axioms: [propext, Classical.choice, Quot.sound] -/
#guard_msgs in #print axioms store_comm

end Cert.KernelIdeal.Sched

end
-- ==== Proof.PartSt.lean ====
/- The product buffer by row chunks and column blocks: the stores of the four row chunks and the loads of single blocks. -/
import proofs.«901049_g7700000000001050_dist_rsdw_v7x_xyz2x2x4_z_m1024_d1024_f4096_f32_1_alg».proof.Proof.StepsLocal
import proofs.«901049_g7700000000001050_dist_rsdw_v7x_xyz2x2x4_z_m1024_d1024_f4096_f32_1_alg».proof.Proof.StepsMem
import proofs.«901049_g7700000000001050_dist_rsdw_v7x_xyz2x2x4_z_m1024_d1024_f4096_f32_1_alg».proof.Proof.Shared

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev j₀ (c : Dev nD) : Fin 4 := rowOf (zc c) 1

def restSet (c : Dev nD) : Finset (Idx ((partM : Memref sig .tc .vmem S1024x1024 .f32).view.loc (c : Thread nD τ))) :=
  Finset.univ \ ((partM : Memref sig .tc .vmem S1024x1024 .f32).access (rowsR (j₀ c))).set

def PartFacts (c : Dev nD) (J : Finset (Fin 4)) (f : Buf (Elt F) ((partM : Memref sig .tc .vmem S1024x1024 .f32).view.loc (c : Thread nD τ))) : Prop :=
  ∀ j ∈ J, ∀ s : Fin 8, (partJS j s).view.read (Elt F) f = blockV m c j s

def PartWhole (c : Dev nD) (J : Finset (Fin 4)) : sProp 𝕄 :=
  iprop(∃ f : Buf (Elt F) ((partM : Memref sig .tc .vmem S1024x1024 .f32).view.loc (c : Thread nD τ)),
    ⌜PartFacts m c J f⌝ ∗ (((c : Thread nD τ).loc cc0_scratch2) ↦{fullShare} f))

def PartRest (c : Dev nD) (J : Finset (Fin 4)) : sProp 𝕄 :=
  iprop(∃ f : Buf (Elt F) ((partM : Memref sig .tc .vmem S1024x1024 .f32).view.loc (c : Thread nD τ)),
    ⌜PartFacts m c J f⌝ ∗ (((c : Thread nD τ).loc cc0_scratch2) ↦[restSet c]{fullShare} f))

namespace PartSt

section Geometry

abbrev blkR (j : Fin 4) (s : Fin 8) : Rect S1024x1024 := Rect.unit (s := S1024x1024) ![256 * j.val, 128 * s.val] S256x128.size (partOff_inb j s)

omit [FloatOps F] in
theorem rows_set (j : Fin 4) : ((partM : Memref sig .tc .vmem S1024x1024 .f32).access (rowsR j)).set = (rowsR j).set :=
  View.set_slice_whole cc0_scratch2 (rowsR j)
omit [FloatOps F] in
theorem block_set (j : Fin 4) (s : Fin 8) : (partJS j s).view.set = (blkR j s).set :=
  View.set_slice_whole cc0_scratch2 (blkR j s)

omit [FloatOps F] in
theorem mem_rowsR (j : Fin 4) (i : S1024x1024.Idx) : i ∈ (rowsR j).set ↔ 256 * j.val ≤ (i 0).val ∧ (i 0).val < 256 * j.val + 256 := by
  rw [Rect.mem_set_unit]
  exact Fin.forall_fin_two.trans (and_iff_left ⟨Nat.zero_le _, by show (i 1).val < 0 + 1024; have := ValueIdx.idx2_lt1 i; omega⟩)

omit [FloatOps F] in
theorem mem_blkR (j : Fin 4) (s : Fin 8) (i : S1024x1024.Idx) :
    i ∈ (blkR j s).set ↔ (256 * j.val ≤ (i 0).val ∧ (i 0).val < 256 * j.val + 256) ∧ (128 * s.val ≤ (i 1).val ∧ (i 1).val < 128 * s.val + 128) := by
  rw [Rect.mem_set_unit]
  exact Fin.forall_fin_two

omit [FloatOps F] in
theorem mem_rows (j : Fin 4) (i : S1024x1024.Idx) :
    i ∈ (((partM : Memref sig .tc .vmem S1024x1024 .f32).access (rowsR j)).set : Finset S1024x1024.Idx) ↔ 256 * j.val ≤ (i 0).val ∧ (i 0).val < 256 * j.val + 256 := by
  have e : (((partM : Memref sig .tc .vmem S1024x1024 .f32).access (rowsR j)).set : Finset S1024x1024.Idx) = (rowsR j).set := rows_set j
  rw [e]; exact mem_rowsR j i
omit [FloatOps F] in
theorem mem_block (j : Fin 4) (s : Fin 8) (i : S1024x1024.Idx) :
    i ∈ ((partJS j s).view.set : Finset S1024x1024.Idx)
      ↔ (256 * j.val ≤ (i 0).val ∧ (i 0).val < 256 * j.val + 256) ∧ (128 * s.val ≤ (i 1).val ∧ (i 1).val < 128 * s.val + 128) := by
  have e : ((partJS j s).view.set : Finset S1024x1024.Idx) = (blkR j s).set := block_set j s
  rw [e]; exact mem_blkR j s i

omit [FloatOps F] in
theorem rows_subset_rest (c : Dev nD) (j : Fin 4) (hj : j ≠ j₀ c) :
    ((partM : Memref sig .tc .vmem S1024x1024 .f32).access (rowsR j)).set ⊆ restSet c := by
  intro i hi
  unfold restSet
  refine Finset.mem_sdiff.mpr ⟨Finset.mem_univ _, fun hi' => ?_⟩
  have h1 := (mem_rows j i).mp hi
  have h2 := (mem_rows (j₀ c) i).mp hi'
  exact hj (Fin.ext (by omega))

omit [FloatOps F] in
theorem block_subset_rows (j : Fin 4) (s : Fin 8) :
    (partJS j s).view.set ⊆ ((partM : Memref sig .tc .vmem S1024x1024 .f32).access (rowsR j)).set := by
  intro i hi
  exact (mem_rows j i).mpr ((mem_block j s i).mp hi).1

omit [FloatOps F] in
theorem blocks_disjoint (j : Fin 4) (s s' : Fin 8) (h : s ≠ s') : Disjoint (partJS j s).view.set (partJS j s').view.set := by
  refine Finset.disjoint_left.mpr fun i hi hi' => ?_
  have h1 := (mem_block j s i).mp hi
  have h2 := (mem_block j s' i).mp hi'
  exact h (Fin.ext (by omega))

def blkSet (c : Dev nD) (j : Fin 4) (s : Fin 8) : Finset (Idx ((partM : Memref sig .tc .vmem S1024x1024 .f32).view.loc (c : Thread nD τ))) :=
  (partJS j s).view.set

omit [FloatOps F] in
theorem rows_eq_blocks (c : Dev nD) (j : Fin 4) :
    (((partM : Memref sig .tc .vmem S1024x1024 .f32).access (rowsR j)).set : Finset (Idx ((partM : Memref sig .tc .vmem S1024x1024 .f32).view.loc (c : Thread nD τ))))
      = (Finset.univ : Finset (Fin 8)).biUnion (blkSet c j) := by
  apply Finset.Subset.antisymm
  · intro i hi
    have h0 := (mem_rows j i).mp hi
    have h1 := ValueIdx.idx2_lt1 (n0 := 1024) (n1 := 1024) i
    refine Finset.mem_biUnion.mpr ⟨⟨(i 1).val / 128, by omega⟩, Finset.mem_univ _, ?_⟩
    unfold blkSet
    refine (mem_block j _ i).mpr ⟨h0, ?_⟩
    show 128 * ((i 1).val / 128) ≤ (i 1).val ∧ (i 1).val < 128 * ((i 1).val / 128) + 128
    omega
  · intro i hi
    obtain ⟨s, _, hs⟩ := Finset.mem_biUnion.mp hi
    exact block_subset_rows j s hs

end Geometry

end PartSt

open PartSt

section Rows

omit [FloatOps F] in
theorem row_ne_j₀ : ∀ (c : Dev nD) (r : Fin 4), r ≠ 0 → rowOf (zc c) (1 + r.val) ≠ j₀ c := by decide
omit [FloatOps F] in
theorem row_step_ne_j₀ : ∀ (c : Dev nD) (r : Fin 2), rowOf (zc c) (2 + r.val) ≠ j₀ c := by decide
omit [FloatOps F] in
theorem row_own_ne_j₀ : ∀ c : Dev nD, rowOf (zc c) 4 ≠ j₀ c := by decide

end Rows

section Steps

theorem part_whole_intro (c : Dev nD) :
    iprop(∃ f : Buf (Elt F) ((c : Thread nD τ).loc cc0_scratch2), ((c : Thread nD τ).loc cc0_scratch2) ↦{fullShare} f) ⊢ PartWhole m c ∅ := by
  unfold PartWhole
  iintro ⟨%f, H⟩
  iexists f
  isplitr
  · ipureintro; intro j hj; exact absurd hj (Finset.notMem_empty _)
  · iexact H

theorem part_dead_whole (c : Dev nD) (J : Finset (Fin 4)) {α : Type} {Q : α → sProp 𝕄}
    {off : Fin 2 → ℕ} {inb : ∀ a, off a + S256x1024.size a ≤ S1024x1024.size a}
    {hl : (partM : Memref sig .tc .vmem S1024x1024 .f32).view.LoadsAt (Rect.unit (s := S1024x1024) off S256x1024.size inb).toLoadRect}
    {k : Vec F S256x1024 .f32 → Prog (TpuEff nD τ sig (Elt F) Λ₀ .tc) α} :
    PartWhole m c J
      ⊢ iprop((PartWhole m c J -∗ ∀ v, WP c (k v) Q)
          -∗ WP c (.op (.load partM (Rect.unit (s := S1024x1024) off S256x1024.size inb).toLoadRect hl) k) Q) := by
  unfold PartWhole
  iintro ⟨%f, %hf, H⟩ Hk
  iapply (load_dead c (q := fullShare) (S := Finset.univ) (f := f) (Finset.subset_univ _)) $$ H
  iintro H
  iapply Hk
  iexists f
  isplitr
  · ipureintro; exact hf
  · iexact H

theorem part_dead_rest (c : Dev nD) (J : Finset (Fin 4)) (r : Fin 4) (hr : r ≠ 0) {α : Type} {Q : α → sProp 𝕄}
    {off : Fin 2 → ℕ} (hoff : off = ![256 * (rowOf (zc c) (1 + r.val)).val, 0]) {inb : ∀ a, off a + S256x1024.size a ≤ S1024x1024.size a}
    {hl : (partM : Memref sig .tc .vmem S1024x1024 .f32).view.LoadsAt (Rect.unit (s := S1024x1024) off S256x1024.size inb).toLoadRect}
    {k : Vec F S256x1024 .f32 → Prog (TpuEff nD τ sig (Elt F) Λ₀ .tc) α} :
    PartRest m c J
      ⊢ iprop((PartRest m c J -∗ ∀ v, WP c (k v) Q)
          -∗ WP c (.op (.load partM (Rect.unit (s := S1024x1024) off S256x1024.size inb).toLoadRect hl) k) Q) := by
  unfold PartRest
  iintro ⟨%f, %hf, H⟩ Hk
  iapply (load_rows c (rowOf (zc c) (1 + r.val)) off hoff (restSet c) fullShare f (rows_subset_rest c _ (row_ne_j₀ c r hr))) $$ H
  iintro H
  iapply Hk $$ [H]
  iexists f
  isplitr
  · ipureintro; exact hf
  · iexact H

theorem part_store_whole (c : Dev nD) {α : Type} {Q : α → sProp 𝕄}
    {off : Fin 2 → ℕ} (hoff : off = ![256 * (j₀ c).val, 0]) {inb : ∀ a, off a + S256x1024.size a ≤ S1024x1024.size a}
    (w : Vec F S256x1024 .f32) (hw : w = chunkV m c (j₀ c))
    {hx : ((partM : Memref sig .tc .vmem S1024x1024 .f32).access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {k : PUnit → Prog (TpuEff nD τ sig (Elt F) Λ₀ .tc) α} :
    PartWhole m c ∅
      ⊢ iprop((PartWhole m c {j₀ c} -∗ WP c (k ⟨⟩) Q)
          -∗ WP c (.op (.store partM (Rect.unit (s := S1024x1024) off S256x1024.size inb) w Finset.univ hx hm) k) Q) := by
  unfold PartWhole
  iintro ⟨%f, -, H⟩ Hk
  iapply (gemm_store' c (j₀ c) off hoff w Finset.univ f (Finset.subset_univ _)) $$ H
  iintro ⟨%f', %hf', H⟩
  iapply Hk
  iexists f'
  isplitr
  · ipureintro
    intro j hj s
    rw [Finset.mem_singleton] at hj
    subst hj
    rw [hf'.1 s, hw]
    rfl
  · iexact H

theorem part_store_rest (c : Dev nD) (J : Finset (Fin 4)) (r : Fin 4) (hr : r ≠ 0) {α : Type} {Q : α → sProp 𝕄}
    {off : Fin 2 → ℕ} (hoff : off = ![256 * (rowOf (zc c) (1 + r.val)).val, 0]) {inb : ∀ a, off a + S256x1024.size a ≤ S1024x1024.size a}
    (w : Vec F S256x1024 .f32) (hw : w = chunkV m c (rowOf (zc c) (1 + r.val)))
    {hx : ((partM : Memref sig .tc .vmem S1024x1024 .f32).access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {k : PUnit → Prog (TpuEff nD τ sig (Elt F) Λ₀ .tc) α} :
    PartRest m c J
      ⊢ iprop((PartRest m c (insert (rowOf (zc c) (1 + r.val)) J) -∗ WP c (k ⟨⟩) Q)
          -∗ WP c (.op (.store partM (Rect.unit (s := S1024x1024) off S256x1024.size inb) w Finset.univ hx hm) k) Q) := by
  unfold PartRest
  iintro ⟨%f, %hf, H⟩ Hk
  iapply (gemm_store' c (rowOf (zc c) (1 + r.val)) off hoff w (restSet c) f (rows_subset_rest c _ (row_ne_j₀ c r hr))) $$ H
  iintro ⟨%f', %hf', H⟩
  iapply Hk
  iexists f'
  isplitr
  · ipureintro
    intro j hj s
    by_cases hjj : j = rowOf (zc c) (1 + r.val)
    · subst hjj
      rw [hf'.1 s, hw]
      rfl
    · rw [hf'.2 j hjj s]
      exact hf j ((Finset.mem_insert.mp hj).resolve_left hjj) s
  · iexact H

theorem part_load (c : Dev nD) (J : Finset (Fin 4)) (j : Fin 4) (hj : j ∈ J) (hne : j ≠ j₀ c) (s : Fin 8) {α : Type} {Q : α → sProp 𝕄}
    {off : Fin 2 → ℕ} (hoff : off = ![256 * j.val, 128 * s.val]) {inb : ∀ a, off a + S256x128.size a ≤ S1024x1024.size a}
    {hl : (partM : Memref sig .tc .vmem S1024x1024 .f32).view.LoadsAt (Rect.unit (s := S1024x1024) off S256x128.size inb).toLoadRect}
    {k : Vec F S256x128 .f32 → Prog (TpuEff nD τ sig (Elt F) Λ₀ .tc) α} :
    PartRest m c J
      ⊢ iprop((PartRest m c J -∗ WP c (k (blockV m c j s)) Q)
          -∗ WP c (.op (.load partM (Rect.unit (s := S1024x1024) off S256x128.size inb).toLoadRect hl) k) Q) := by
  unfold PartRest
  iintro ⟨%f, %hf, H⟩ Hk
  iapply (load_part c j s off hoff (restSet c) fullShare f (blockV m c j s)
    ((block_subset_rows j s).trans (rows_subset_rest c j hne)) (hf j hj s)) $$ H
  iintro H
  iapply Hk
  iexists f
  isplitr
  · ipureintro; exact hf
  · iexact H

theorem part_rest_exit (c : Dev nD) (J : Finset (Fin 4)) :
    PartRest m c J ⊢ iprop(∃ f : Buf (Elt F) ((c : Thread nD τ).loc cc0_scratch2),
      ((c : Thread nD τ).loc cc0_scratch2) ↦[Finset.univ \ ((partM : Memref sig .tc .vmem S1024x1024 .f32).access (rowsR (j₀ c))).set]{fullShare} f) := by
  unfold PartRest restSet
  iintro ⟨%f, -, H⟩
  iexists f
  iexact H

theorem PartSt.holds_intro (c : Dev nD) {sp : Space} (M : Memref sig .tc sp S256x128 .f32) (q : PosShare TreeShare) (V : Vec F S256x128 .f32)
    (f : Buf (Elt F) (M.view.loc (c : Thread nD τ))) (hf : M.view.read (Elt F) f = V) :
    ((M.view.loc (c : Thread nD τ)) ↦[M.view.set]{q} f : sProp 𝕄) ⊢ holds c M q V := by
  unfold holds
  iintro H
  iexists f
  isplitr
  · ipureintro; exact hf
  · iexact H

theorem PartSt.rows_to_blocks (c : Dev nD) (j : Fin 4) (f : Buf (Elt F) ((partM : Memref sig .tc .vmem S1024x1024 .f32).view.loc (c : Thread nD τ))) (V : Fin 8 → Vec F S256x128 .f32)
    (hf : ∀ s : Fin 8, (partJS j s).view.read (Elt F) f = V s) :
    (((partM : Memref sig .tc .vmem S1024x1024 .f32).view.loc (c : Thread nD τ)) ↦[((partM : Memref sig .tc .vmem S1024x1024 .f32).access (rowsR j)).set]{fullShare} f : sProp 𝕄)
      ⊢ bigSep (Finset.univ : Finset (Fin 8)) fun s => holds c (partJS j s) fullShare (V s) := by
  rw [rows_eq_blocks c j, pointsTo_biUnion _ _ (fun s _ s' _ h => blocks_disjoint j s s' h)]
  exact bigSep_mono fun s _ => holds_intro c (partJS j s) fullShare (V s) f (hf s)

theorem part_split_lanes (c : Dev nD) :
    PartWhole m c {j₀ c}
      ⊢ iprop((bigSep (Finset.univ : Finset (Fin 8)) fun s => holds c (partJS (j₀ c) s) fullShare (acc m s 0 c)) ∗ PartRest m c ∅) := by
  unfold PartWhole PartRest
  iintro ⟨%f, %hf, H⟩
  ihave H2 := (pointsTo_split_subset (Finset.subset_univ ((partM : Memref sig .tc .vmem S1024x1024 .f32).access (rowsR (j₀ c))).set)).1 $$ H
  icases H2 with ⟨Hrows, Hrest⟩
  isplitl [Hrows]
  · iapply (rows_to_blocks c (j₀ c) f (fun s => acc m s 0 c) (fun s => hf (j₀ c) (Finset.mem_singleton_self _) s)) $$ Hrows
  · iexists f
    isplitr
    · ipureintro; intro j hj; exact absurd hj (Finset.notMem_empty _)
    · unfold restSet; iexact Hrest

end Steps

section Offsets

def partOffStep (s : Fin 8) : Dev nD → BitVec 32 → Fin 2 → ℕ :=
  match s with
  | ⟨0, _⟩ => k0_off12 | ⟨1, _⟩ => k0_off13 | ⟨2, _⟩ => k0_off14 | ⟨3, _⟩ => k0_off15
  | ⟨4, _⟩ => k0_off16 | ⟨5, _⟩ => k0_off17 | ⟨6, _⟩ => k0_off18 | ⟨7, _⟩ => k0_off19
  | ⟨n + 8, h⟩ => absurd h (by omega)

def partOffOwn (s : Fin 8) : Dev nD → Fin 2 → ℕ :=
  match s with
  | ⟨0, _⟩ => k0_off20 | ⟨1, _⟩ => k0_off23 | ⟨2, _⟩ => k0_off24 | ⟨3, _⟩ => k0_off25
  | ⟨4, _⟩ => k0_off26 | ⟨5, _⟩ => k0_off27 | ⟨6, _⟩ => k0_off28 | ⟨7, _⟩ => k0_off29
  | ⟨n + 8, h⟩ => absurd h (by omega)

omit [FloatOps F] in
theorem partoff_step (c : Dev nD) (s : Fin 8) (r : Fin 2) :
    partOffStep s c (BitVec.ofNat 32 (1 + r.val)) = ![256 * (rowOf (zc c) (2 + r.val)).val, 128 * s.val] := by
  rw [rowOf_val_step c r]
  match s with
  | ⟨0, _⟩ => exact Mesh.off12_eq c r
  | ⟨1, _⟩ => exact Mesh.off13_eq c r
  | ⟨2, _⟩ => exact Mesh.off14_eq c r
  | ⟨3, _⟩ => exact Mesh.off15_eq c r
  | ⟨4, _⟩ => exact Mesh.off16_eq c r
  | ⟨5, _⟩ => exact Mesh.off17_eq c r
  | ⟨6, _⟩ => exact Mesh.off18_eq c r
  | ⟨7, _⟩ => exact Mesh.off19_eq c r
  | ⟨n + 8, h⟩ => exact absurd h (by omega)

omit [FloatOps F] in
theorem partoff_own (c : Dev nD) (s : Fin 8) : partOffOwn s c = ![256 * (rowOf (zc c) 4).val, 128 * s.val] := by
  rw [rowOf_val_own c]
  match s with
  | ⟨0, _⟩ => exact Gen.k0_off20_eq c
  | ⟨1, _⟩ => exact Gen.k0_off23_eq c
  | ⟨2, _⟩ => exact Gen.k0_off24_eq c
  | ⟨3, _⟩ => exact Gen.k0_off25_eq c
  | ⟨4, _⟩ => exact Gen.k0_off26_eq c
  | ⟨5, _⟩ => exact Gen.k0_off27_eq c
  | ⟨6, _⟩ => exact Gen.k0_off28_eq c
  | ⟨7, _⟩ => exact Gen.k0_off29_eq c
  | ⟨n + 8, h⟩ => exact absurd h (by omega)

end Offsets

end Cert.KernelIdeal.Sched

end
-- ==== Proof.Pieces.lean ====
/- A buffer cut into pairwise disjoint blocks that cover it, and the blocks joined back. -/
import proofs.«901049_g7700000000001050_dist_rsdw_v7x_xyz2x2x4_z_m1024_d1024_f4096_f32_1_alg».proof.Proof.StepsMem
import proofs.«901049_g7700000000001050_dist_rsdw_v7x_xyz2x2x4_z_m1024_d1024_f4096_f32_1_alg».proof.Proof.Dats

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

theorem ent_of {P R : sProp 𝕄} (h : P ⊢ R) : Idealize.SL.BI.Entails P R := h

theorem bigSep_insert' {ι : Type} [DecidableEq ι] {T : Finset ι} {i : ι} (hi : i ∉ T) (Φ : ι → sProp 𝕄) :
    bigSep (insert i T) Φ = iprop(Φ i ∗ bigSep T Φ) := bigSep_insert hi

theorem pointsTo_pieces {ι : Type} [DecidableEq ι] {ℓ : Loc nD τ sig} (A : ι → Finset (Idx ℓ)) (q : PosShare TreeShare) (f : Buf (Elt F) ℓ) :
    ∀ (T : Finset ι) (S : Finset (Idx ℓ)), (∀ i ∈ T, A i ⊆ S) → (∀ i ∈ T, ∀ j ∈ T, i ≠ j → Disjoint (A i) (A j)) →
      ((ℓ ↦[S]{q} f) : sProp 𝕄) ⊢ iprop(bigSep T (fun i => (ℓ ↦[A i]{q} f)) ∗ (ℓ ↦[S \ T.biUnion A]{q} f)) := by
  intro T
  induction T using Finset.induction_on with
  | empty =>
    intro S _ _
    rw [bigSep_empty, Finset.biUnion_empty, Finset.sdiff_empty]
    exact Idealize.SL.BI.emp_sep.2
  | insert i T hi ih =>
    intro S hS hd
    have hsub : A i ⊆ S \ T.biUnion A :=
      Finset.subset_sdiff.mpr ⟨hS i (Finset.mem_insert_self i T), (Finset.disjoint_biUnion_right _ _ _).mpr fun j hj =>
        hd i (Finset.mem_insert_self i T) j (Finset.mem_insert_of_mem hj) (fun e => hi (e ▸ hj))⟩
    have hrest : S \ (insert i T).biUnion A = (S \ T.biUnion A) \ A i := by
      rw [Finset.biUnion_insert, Finset.union_comm, ← Finset.sup_eq_union, ← sdiff_sdiff_left]
    rw [bigSep_insert' hi, hrest]
    iintro H
    icases (ih S (fun j hj => hS j (Finset.mem_insert_of_mem hj))
      (fun a ha b hb => hd a (Finset.mem_insert_of_mem ha) b (Finset.mem_insert_of_mem hb))) $$ H with ⟨HT, HR⟩
    icases (Region.is_split_subset hsub).1 $$ HR with ⟨Hi, HR'⟩
    isplitr [HR']
    · isplitl [Hi]
      · iexact Hi
      · iexact HT
    · iexact HR'

theorem pointsTo_cover {ι : Type} [DecidableEq ι] {ℓ : Loc nD τ sig} (A : ι → Finset (Idx ℓ)) (q : PosShare TreeShare) (f : Buf (Elt F) ℓ)
    (T : Finset ι) (S : Finset (Idx ℓ)) (hS : ∀ i ∈ T, A i ⊆ S) (hd : ∀ i ∈ T, ∀ j ∈ T, i ≠ j → Disjoint (A i) (A j)) :
    ((ℓ ↦[S]{q} f) : sProp 𝕄) ⊢ bigSep T (fun i => (ℓ ↦[A i]{q} f)) := by
  iintro H
  icases (pointsTo_pieces A q f T S hS hd) $$ H with ⟨HT, _⟩
  iexact HT

theorem pointsTo_piece_to {ℓ : Loc nD τ sig} {I : Finset (Idx ℓ)} {q : PosShare TreeShare} {g : Buf (Elt F) ℓ} :
    (iprop(∃ f : Buf (Elt F) ℓ, ⌜∀ x ∈ I, f x = g x⌝ ∗ (ℓ ↦[I]{q} f)) : sProp 𝕄) ⊢ (ℓ ↦[I]{q} g) := by
  iintro ⟨%f, %hf, H⟩
  have e : ((ℓ ↦[I]{q} f) : sProp 𝕄) = (ℓ ↦[I]{q} g) := Region.is_congr hf
  rw [← e]
  iexact H

theorem pointsTo_join_to {ι : Type} [DecidableEq ι] {ℓ : Loc nD τ sig} (A : ι → Finset (Idx ℓ)) (q : PosShare TreeShare) (g : Buf (Elt F) ℓ) :
    ∀ (T : Finset ι) (hT : T.Nonempty), (∀ i ∈ T, ∀ j ∈ T, i ≠ j → Disjoint (A i) (A j)) →
      (bigSep T (fun i => iprop(∃ f : Buf (Elt F) ℓ, ⌜∀ x ∈ A i, f x = g x⌝ ∗ (ℓ ↦[A i]{q} f))) : sProp 𝕄) ⊢ (ℓ ↦[T.biUnion A]{q} g) := by
  intro T hT
  induction hT using Finset.Nonempty.cons_induction with
  | singleton i =>
    intro _
    rw [bigSep_singleton, Finset.singleton_biUnion]
    exact pointsTo_piece_to
  | cons i T hi hT ih =>
    intro hd
    rw [Finset.cons_eq_insert, bigSep_insert' hi, Finset.biUnion_insert]
    have hdis : Disjoint (A i) (T.biUnion A) := (Finset.disjoint_biUnion_right _ _ _).mpr fun j hj =>
      hd i (by simp) j (by simp [hj]) (fun e => hi (e ▸ hj))
    iintro ⟨Hi, HT⟩
    iapply (Region.is_union hdis).2
    isplitl [Hi]
    · iapply pointsTo_piece_to
      iexact Hi
    · iapply (ih (fun a ha b hb => hd a (by simp [ha]) b (by simp [hb])))
      iexact HT

theorem pointsTo_join {ι : Type} [DecidableEq ι] {ℓ : Loc nD τ sig} (A : ι → Finset (Idx ℓ)) (q : PosShare TreeShare) :
    ∀ (T : Finset ι) (hT : T.Nonempty), (∀ i ∈ T, ∀ j ∈ T, i ≠ j → Disjoint (A i) (A j)) →
      (bigSep T (fun i => iprop(∃ f : Buf (Elt F) ℓ, (ℓ ↦[A i]{q} f))) : sProp 𝕄) ⊢ iprop(∃ f : Buf (Elt F) ℓ, (ℓ ↦[T.biUnion A]{q} f)) := by
  intro T hT
  induction hT using Finset.Nonempty.cons_induction with
  | singleton i =>
    intro _
    rw [bigSep_singleton, Finset.singleton_biUnion]
  | cons i T hi hT ih =>
    intro hd
    rw [Finset.cons_eq_insert, bigSep_insert' hi, Finset.biUnion_insert]
    have hdis : Disjoint (A i) (T.biUnion A) := (Finset.disjoint_biUnion_right _ _ _).mpr fun j hj =>
      hd i (by simp) j (by simp [hj]) (fun e => hi (e ▸ hj))
    iintro ⟨⟨%f, H⟩, HT⟩
    icases (ih (fun a ha b hb => hd a (by simp [ha]) b (by simp [hb]))) $$ HT with ⟨%g, HG⟩
    iexists ((T.biUnion A).piecewise g f)
    iapply (Region.is_join hdis)
    isplitl [H]
    · iexact H
    · iexact HG

theorem mem_partJS_set (j : Fin 4) (s : Fin 8) (x : S1024x1024.Idx) :
    x ∈ (partJS j s).view.set ↔ (256 * j.val ≤ (x 0).val ∧ (x 0).val < 256 * j.val + 256) ∧ (128 * s.val ≤ (x 1).val ∧ (x 1).val < 128 * s.val + 128) := by
  show x ∈ ((View.whole cc0_scratch2 : View sig .tc _ _ _).slice (Rect.unit (s := S1024x1024) ![256 * j.val, 128 * s.val] S256x128.size (partOff_inb j s))).set ↔ _
  rw [View.set_slice_whole, Rect.mem_set_unit]
  exact Fin.forall_fin_two

theorem mem_outQ_set (Q' : ℕ) (hQ : Q' < 4) (s : Fin 8) (x : S256x4096.Idx) :
    x ∈ (outQ Q' hQ s).view.set ↔ 1024 * Q' + 128 * s.val ≤ (x 1).val ∧ (x 1).val < 1024 * Q' + 128 * s.val + 128 := by
  show x ∈ ((View.whole cc0_stg0_0 : View sig .tc _ _ _).slice (Rect.unit (s := S256x4096) ![0, 1024 * Q' + 128 * s.val] S256x128.size (outOff_inb Q' hQ s))).set ↔ _
  rw [View.set_slice_whole, Rect.mem_set_unit]
  exact Fin.forall_fin_two.trans (and_iff_right ⟨Nat.zero_le _, by have := ValueIdx.idx2_lt0 x; show (x 0).val < 0 + 256; omega⟩)

theorem mem_commSlot_set (s : Fin 8) (h : Fin 3) (x : S8x3x256x128.Idx) :
    x ∈ (commSlot s h).view.set ↔ (x 0).val = s.val ∧ (x 1).val = h.val := by
  show x ∈ (((View.whole cc0_scratch3 : View sig .tc _ _ _).slice (Rect.unit (s := S8x3x256x128) ![s.val, h.val, 0, 0] S1x1x256x128.size (commSlot_inb s h))).reshape S256x128 Facts₀.squeezes_S1x1x256x128_S256x128.numel_eq).set ↔ _
  rw [View.set_reshape, View.set_slice_whole, Rect.mem_set_unit]
  constructor
  · intro hm
    have h0 : s.val ≤ (x 0).val ∧ (x 0).val < s.val + 1 := hm (0 : Fin 4)
    have h1 : h.val ≤ (x 1).val ∧ (x 1).val < h.val + 1 := hm (1 : Fin 4)
    omega
  · rintro ⟨h0, h1⟩ a
    match a with
    | ⟨0, _⟩ => show s.val ≤ (x 0).val ∧ (x 0).val < s.val + 1; omega
    | ⟨1, _⟩ => show h.val ≤ (x 1).val ∧ (x 1).val < h.val + 1; omega
    | ⟨2, _⟩ => exact ⟨Nat.zero_le _, by have : (x 2).val < 256 := (x 2).isLt; show (x 2).val < 0 + 256; omega⟩
    | ⟨3, _⟩ => exact ⟨Nat.zero_le _, by have : (x 3).val < 128 := (x 3).isLt; show (x 3).val < 0 + 128; omega⟩

def commSet (c : Dev nD) (sh : Fin 8 × Fin 3) : Finset (Idx ((c : Thread nD τ).loc cc0_scratch3)) := (commSlot sh.1 sh.2).view.set

theorem commSet_disj (c : Dev nD) : ∀ a ∈ (Finset.univ : Finset (Fin 8 × Fin 3)), ∀ b ∈ (Finset.univ : Finset (Fin 8 × Fin 3)), a ≠ b →
    Disjoint (commSet c a) (commSet c b) := by
  intro a _ b _ hab
  rw [Finset.disjoint_left]
  intro x hxa hxb
  have ha := (mem_commSlot_set a.1 a.2 x).mp hxa
  have hb := (mem_commSlot_set b.1 b.2 x).mp hxb
  exact hab (Prod.ext (Fin.ext (by omega)) (Fin.ext (by omega)))

theorem commSet_cover (c : Dev nD) : (Finset.univ : Finset (Fin 8 × Fin 3)).biUnion (commSet c) = Finset.univ := by
  ext x
  simp only [Finset.mem_biUnion, Finset.mem_univ, true_and, iff_true]
  exact ⟨(⟨(x 0).val, (x 0).isLt⟩, ⟨(x 1).val, (x 1).isLt⟩), (mem_commSlot_set _ _ x).mpr ⟨rfl, rfl⟩⟩

theorem comm_split (c : Dev nD) (f : Buf (Elt F) ((c : Thread nD τ).loc cc0_scratch3)) :
    ((((c : Thread nD τ).loc cc0_scratch3) ↦{fullShare} f) : sProp 𝕄)
      ⊢ bigSep (Finset.univ : Finset (Fin 8 × Fin 3)) fun sh => owned c (commSlot sh.1 sh.2) :=
  (pointsTo_cover (commSet c) fullShare f Finset.univ Finset.univ (fun _ _ => Finset.subset_univ _) (commSet_disj c)).trans
    (bigSep_mono fun sh _ => by
      unfold owned
      exact exists_intro (Φ := fun f' => iprop(((commSlot sh.1 sh.2).view.loc (c : Thread nD τ) ↦[(commSlot sh.1 sh.2).view.set]{fullShare} f'))) f)

theorem comm_join (c : Dev nD) :
    (bigSep (Finset.univ : Finset (Fin 8 × Fin 3)) (fun sh => owned c (commSlot sh.1 sh.2)) : sProp 𝕄)
      ⊢ iprop(∃ f : Buf (Elt F) ((c : Thread nD τ).loc cc0_scratch3), (((c : Thread nD τ).loc cc0_scratch3) ↦{fullShare} f)) := by
  have h := pointsTo_join (F := F) (commSet c) fullShare Finset.univ Finset.univ_nonempty (commSet_disj c)
  rw [commSet_cover] at h
  exact h

def outSet (c : Dev nD) (p : Fin 4 × Fin 8) : Finset (Idx ((c : Thread nD τ).loc cc0_stg0_0)) := (outQ p.1.val p.1.isLt p.2).view.set

theorem outSet_disj (c : Dev nD) : ∀ a ∈ (Finset.univ : Finset (Fin 4 × Fin 8)), ∀ b ∈ (Finset.univ : Finset (Fin 4 × Fin 8)), a ≠ b →
    Disjoint (outSet c a) (outSet c b) := by
  intro a _ b _ hab
  rw [Finset.disjoint_left]
  intro x hxa hxb
  have ha := (mem_outQ_set a.1.val a.1.isLt a.2 x).mp hxa
  have hb := (mem_outQ_set b.1.val b.1.isLt b.2 x).mp hxb
  have h1 := a.2.isLt; have h2 := b.2.isLt
  exact hab (Prod.ext (Fin.ext (by omega)) (Fin.ext (by omega)))

theorem outSet_cover (c : Dev nD) : (Finset.univ : Finset (Fin 4 × Fin 8)).biUnion (outSet c) = Finset.univ := by
  ext x
  simp only [Finset.mem_biUnion, Finset.mem_univ, true_and, iff_true]
  have hx : (x 1).val < 4096 := ValueIdx.idx2_lt1 x
  refine ⟨(⟨(x 1).val / 1024, by omega⟩, ⟨(x 1).val % 1024 / 128, by omega⟩), ?_⟩
  exact (mem_outQ_set ((x 1).val / 1024) (by omega) ⟨(x 1).val % 1024 / 128, by omega⟩ x).mpr
    (by show 1024 * ((x 1).val / 1024) + 128 * ((x 1).val % 1024 / 128) ≤ (x 1).val ∧ (x 1).val < 1024 * ((x 1).val / 1024) + 128 * ((x 1).val % 1024 / 128) + 128; omega)

theorem out_split (c : Dev nD) (f : Buf (Elt F) ((c : Thread nD τ).loc cc0_stg0_0)) :
    ((((c : Thread nD τ).loc cc0_stg0_0) ↦{fullShare} f) : sProp 𝕄)
      ⊢ bigSep (Finset.univ : Finset (Fin 4)) fun Q' => bigSep (Finset.univ : Finset (Fin 8)) fun s => owned c (outQ Q'.val Q'.isLt s) := by
  rw [← bigSep_univ_prod (fun p : Fin 4 × Fin 8 => owned c (outQ p.1.val p.1.isLt p.2))]
  exact (pointsTo_cover (outSet c) fullShare f Finset.univ Finset.univ (fun _ _ => Finset.subset_univ _) (outSet_disj c)).trans
    (bigSep_mono fun p _ => by
      unfold owned
      exact exists_intro (Φ := fun f' => iprop(((outQ p.1.val p.1.isLt p.2).view.loc (c : Thread nD τ) ↦[(outQ p.1.val p.1.isLt p.2).view.set]{fullShare} f'))) f)

theorem outAssemble_at (V : Fin 4 → Fin 8 → Vec F S256x128 .f32) (Q' : Fin 4) (s : Fin 8) (y : S256x128.Idx) (z : S256x4096.Idx)
    (h0 : (z 0).val = (y 0).val) (h1 : (z 1).val = 1024 * Q'.val + 128 * s.val + (y 1).val) : outAssemble V z = V Q' s y := by
  have hy0 := ValueIdx.idx2_lt0 y; have hy1 := ValueIdx.idx2_lt1 y; have hQ := Q'.isLt; have hs := s.isLt
  have key : ∀ (a : Fin 4) (b : Fin 8) (i : S256x128.Idx), a = Q' → b = s → i = y → V a b i = V Q' s y := by
    rintro _ _ _ rfl rfl rfl; rfl
  unfold outAssemble
  refine key _ _ _ (Fin.ext ?_) (Fin.ext ?_) (funext fun a => Fin.ext ?_)
  · show (z 1).val / 1024 = Q'.val; omega
  · show (z 1).val % 1024 / 128 = s.val; omega
  · match a with
    | ⟨0, _⟩ => exact h0
    | ⟨1, _⟩ => show (z 1).val % 128 = (y 1).val; omega

theorem out_join (c : Dev nD) (V : Fin 4 → Fin 8 → Vec F S256x128 .f32) :
    (bigSep (Finset.univ : Finset (Fin 4)) (fun Q' => bigSep (Finset.univ : Finset (Fin 8)) fun s => holds c (outQ Q'.val Q'.isLt s) fullShare (V Q' s)) : sProp 𝕄)
      ⊢ iprop(∃ f : Buf (Elt F) ((c : Thread nD τ).loc cc0_stg0_0), ⌜f = outAssemble V⌝ ∗ (((c : Thread nD τ).loc cc0_stg0_0) ↦{fullShare} f)) := by
  rw [← bigSep_univ_prod (fun p : Fin 4 × Fin 8 => holds c (outQ p.1.val p.1.isLt p.2) fullShare (V p.1 p.2))]
  have h := pointsTo_join_to (F := F) (outSet c) fullShare (outAssemble V) Finset.univ Finset.univ_nonempty (outSet_disj c)
  rw [outSet_cover] at h
  refine BIBase.Entails.trans (BIBase.Entails.trans (bigSep_mono fun p _ => ent_of ?_) h) ?_
  · unfold holds
    iintro ⟨%f, %hf, H⟩
    iexists f
    isplitr
    · ipureintro
      intro x hx
      obtain ⟨y, -, rfl⟩ := Finset.mem_map.mp (show x ∈ Finset.univ.map (outQ p.1.val p.1.isLt p.2).view.emb from hx)
      have hy : f ((outQ p.1.val p.1.isLt p.2).view.emb y) = V p.1 p.2 y := congrFun hf y
      refine hy.trans (Eq.symm ?_)
      exact outAssemble_at V p.1 p.2 y ((outQ p.1.val p.1.isLt p.2).view.emb y)
        (by show 0 + 1 * (y 0).val = (y 0).val; omega)
        (by show 1024 * p.1.val + 128 * p.2.val + 1 * (y 1).val = 1024 * p.1.val + 128 * p.2.val + (y 1).val; omega)
    · iexact H
  · iintro H
    iexists (outAssemble V)
    isplitr
    · ipureintro; rfl
    · iexact H

def partSet (c : Dev nD) (j : Fin 4) (s : Fin 8) : Finset (Idx ((c : Thread nD τ).loc cc0_scratch2)) := (partJS j s).view.set
def rowsSet (c : Dev nD) (j : Fin 4) : Finset (Idx ((c : Thread nD τ).loc cc0_scratch2)) :=
  ((partM : Memref sig .tc .vmem S1024x1024 .f32).access (rowsR j)).set

theorem mem_rowsSet (c : Dev nD) (j : Fin 4) (x : S1024x1024.Idx) :
    x ∈ rowsSet c j ↔ 256 * j.val ≤ (x 0).val ∧ (x 0).val < 256 * j.val + 256 := by
  show x ∈ ((View.whole cc0_scratch2 : View sig .tc _ _ _).slice (rowsR j)).set ↔ _
  rw [View.set_slice_whole, Rect.mem_set_unit]
  exact Fin.forall_fin_two.trans (and_iff_left ⟨Nat.zero_le _, by have := ValueIdx.idx2_lt1 x; show (x 1).val < 0 + 1024; omega⟩)

theorem partSet_disj (c : Dev nD) (j : Fin 4) : ∀ a ∈ (Finset.univ : Finset (Fin 8)), ∀ b ∈ (Finset.univ : Finset (Fin 8)), a ≠ b →
    Disjoint (partSet c j a) (partSet c j b) := by
  intro a _ b _ hab
  rw [Finset.disjoint_left]
  intro x hxa hxb
  have ha := (mem_partJS_set j a x).mp hxa
  have hb := (mem_partJS_set j b x).mp hxb
  exact hab (Fin.ext (by omega))

theorem partSet_cover (c : Dev nD) (j : Fin 4) : (Finset.univ : Finset (Fin 8)).biUnion (partSet c j) = rowsSet c j := by
  ext x
  rw [mem_rowsSet]
  simp only [Finset.mem_biUnion, Finset.mem_univ, true_and]
  have hx : (x 1).val < 1024 := ValueIdx.idx2_lt1 x
  constructor
  · rintro ⟨s, hs⟩
    exact ((mem_partJS_set j s x).mp hs).1
  · intro h0
    refine ⟨⟨(x 1).val / 128, by omega⟩, ?_⟩
    exact (mem_partJS_set j ⟨(x 1).val / 128, by omega⟩ x).mpr ⟨h0, by show 128 * ((x 1).val / 128) ≤ (x 1).val ∧ (x 1).val < 128 * ((x 1).val / 128) + 128; omega⟩

theorem part_join (c : Dev nD) (j : Fin 4) (S : Finset (Idx ((c : Thread nD τ).loc cc0_scratch2))) (hS : rowsSet c j ⊆ S) :
    (iprop(bigSep (Finset.univ : Finset (Fin 8)) (fun s => owned c (partJS j s))
        ∗ (∃ f : Buf (Elt F) ((c : Thread nD τ).loc cc0_scratch2), (((c : Thread nD τ).loc cc0_scratch2) ↦[S \ rowsSet c j]{fullShare} f))) : sProp 𝕄)
      ⊢ iprop(∃ f : Buf (Elt F) ((c : Thread nD τ).loc cc0_scratch2), (((c : Thread nD τ).loc cc0_scratch2) ↦[S]{fullShare} f)) := by
  have h : (bigSep (Finset.univ : Finset (Fin 8)) (fun s => owned c (partJS j s)) : sProp 𝕄)
      ⊢ iprop(∃ f : Buf (Elt F) ((c : Thread nD τ).loc cc0_scratch2), (((c : Thread nD τ).loc cc0_scratch2) ↦[rowsSet c j]{fullShare} f)) :=
    partSet_cover c j ▸ pointsTo_join (F := F) (partSet c j) fullShare Finset.univ Finset.univ_nonempty (partSet_disj c j)
  have hu : rowsSet c j ∪ (S \ rowsSet c j) = S := Finset.union_sdiff_of_subset hS
  have e : ∀ f' : Buf (Elt F) ((c : Thread nD τ).loc cc0_scratch2), ((((c : Thread nD τ).loc cc0_scratch2) ↦[S]{fullShare} f') : sProp 𝕄)
      = (((c : Thread nD τ).loc cc0_scratch2) ↦[rowsSet c j ∪ (S \ rowsSet c j)]{fullShare} f') := fun f' => by rw [hu]
  simp only [e]
  iintro ⟨HB, ⟨%g, HR⟩⟩
  icases h $$ HB with ⟨%f, HB'⟩
  iexists ((S \ rowsSet c j).piecewise g f)
  iapply (Region.is_join Finset.disjoint_sdiff)
  isplitl [HB']
  · iexact HB'
  · iexact HR

end Cert.KernelIdeal.Sched

end
-- ==== Proof.StepsSend.lean ====
/- Holding a block at given contents, and the blocks named by the offsets the program computes: the source of a lane's first copy and the columns of the device's own and its x neighbour's quarter. -/
import proofs.«901049_g7700000000001050_dist_rsdw_v7x_xyz2x2x4_z_m1024_d1024_f4096_f32_1_alg».proof.Proof.State
import proofs.«901049_g7700000000001050_dist_rsdw_v7x_xyz2x2x4_z_m1024_d1024_f4096_f32_1_alg».proof.Proof.SchedTab

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

theorem holds_intro (c : Dev nD) {sp : Space} (M : Memref sig .tc sp S256x128 .f32) (q : PosShare TreeShare)
    (f : Buf (Elt F) (M.view.loc (c : Thread nD τ))) :
    (M.view.loc (c : Thread nD τ) ↦[M.view.set]{q} f : sProp 𝕄) ⊢ holds c M q (M.view.read (Elt F) f) := by
  unfold holds
  iintro H
  iexists f
  isplitr; · ipureintro; rfl
  iexact H

theorem partBlk_congr {off off' : Fin 2 → ℕ} (e : off = off') (h : ∀ a, off a + S256x128.size a ≤ S1024x1024.size a)
    (h' : ∀ a, off' a + S256x128.size a ≤ S1024x1024.size a) : partBlk off h = partBlk off' h' := by subst e; rfl
theorem outBlk_congr {off off' : Fin 2 → ℕ} (e : off = off') (h : ∀ a, off a + S256x128.size a ≤ S256x4096.size a)
    (h' : ∀ a, off' a + S256x128.size a ≤ S256x4096.size a) : outBlk off h = outBlk off' h' := by subst e; rfl

theorem rowOf_one_val (c : Dev nD) : (rowOf (zc c) 1).val = (c.val % 4 + 3) % 4 := by
  show (c.val % 4 + 4 - 1 % 4) % 4 = (c.val % 4 + 3) % 4
  omega

theorem src_rs0_eq (c : Dev nD) (s : Fin 8) (off : Fin 2 → ℕ) (h : ∀ a, off a + S256x128.size a ≤ S1024x1024.size a)
    (hoff : off = ![256 * ((c.val % 4 + 3) % 4), 128 * s.val]) :
    (partM).slice (Rect.unit (s := S1024x1024) off S256x128.size h) (fun _ => rfl) = partJS (rowOf (zc c) 1) s :=
  partBlk_congr (hoff.trans (by rw [rowOf_one_val])) h _

theorem own_col (c : Dev nD) (s : Fin 8) :
    1024 * (c.val / 8) + 2048 * ((c.val / 4) % 2) + 128 * s.val = 1024 * qc c + 128 * s.val := by
  unfold qc xc yc; omega
theorem xn_col (c : Dev nD) (s : Fin 8) :
    (2048 * ((c.val / 4) % 2) + 128 * s.val + 1024) - 1024 * (c.val / 8) = 1024 * qc (xn c) + 128 * s.val := by
  rw [qc_xn]; have := xc_lt c; unfold xc yc at *; omega

theorem out_own_eq (c : Dev nD) (s : Fin 8) (off : Fin 2 → ℕ) (h : ∀ a, off a + S256x128.size a ≤ S256x4096.size a)
    (hoff : off = ![0, 1024 * (c.val / 8) + 2048 * ((c.val / 4) % 2) + 128 * s.val]) :
    (outM).slice (Rect.unit (s := S256x4096) off S256x128.size h) (fun _ => rfl) = outQ (qc c) (qc_lt c) s :=
  outBlk_congr (hoff.trans (by rw [own_col])) h _

theorem out_xn_eq (c : Dev nD) (s : Fin 8) (off : Fin 2 → ℕ) (h : ∀ a, off a + S256x128.size a ≤ S256x4096.size a)
    (hoff : off = ![0, (2048 * ((c.val / 4) % 2) + 128 * s.val + 1024) - 1024 * (c.val / 8)]) :
    (outM).slice (Rect.unit (s := S256x4096) off S256x128.size h) (fun _ => rfl) = outQ (qc (xn c)) (qc_lt (xn c)) s :=
  outBlk_congr (hoff.trans (by rw [xn_col])) h _

end Cert.KernelIdeal.Sched

end
-- ==== Proof.LaneSend.lean ====
/- A lane's six copies as transitions between its stages. -/
import proofs.«901049_g7700000000001050_dist_rsdw_v7x_xyz2x2x4_z_m1024_d1024_f4096_f32_1_alg».proof.Proof.StepsSend
import proofs.«901049_g7700000000001050_dist_rsdw_v7x_xyz2x2x4_z_m1024_d1024_f4096_f32_1_alg».proof.Proof.StepsWait
import proofs.«901049_g7700000000001050_dist_rsdw_v7x_xyz2x2x4_z_m1024_d1024_f4096_f32_1_alg».proof.Proof.StepsMem
import proofs.«901049_g7700000000001050_dist_rsdw_v7x_xyz2x2x4_z_m1024_d1024_f4096_f32_1_alg».proof.Proof.Shared

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- Taking `X` out of a product passes a conjunct that stands in front of it. -/
theorem sep_skip {A T T' X : sProp 𝕄} (h : T ⊢ iprop(X ∗ T')) : iprop(A ∗ T) ⊢ iprop(X ∗ A ∗ T') :=
  (sep_mono_right h).trans sep_left_comm.1

/-- Three conjuncts in front join what is taken out of the rest. -/
theorem sep_take3 {A B C T T' Y : sProp 𝕄} (h : T ⊢ iprop(Y ∗ T')) : iprop(A ∗ B ∗ C ∗ T) ⊢ iprop((Y ∗ A ∗ B ∗ C) ∗ T') := by
  iintro ⟨HA, HB, HC, HT⟩
  icases h $$ HT with ⟨HY, HT⟩
  iframe

/-- Putting `X` into a product, behind a conjunct that stays in front. -/
theorem sep_ins {A T T' X : sProp 𝕄} (h : iprop(X ∗ T) ⊢ T') : iprop(X ∗ A ∗ T) ⊢ iprop(A ∗ T') :=
  sep_left_comm.1.trans (sep_mono_right h)

/-- In lane state `P`, with the debts left after `J` steps, the copy of `SRC` into `DST` on `N` over the semaphores `SS`, `SR` may be issued;
    it leaves lane state `P'` and the debts left after `J + 1` steps. -/
def SendStep (K : GSem nD τ sig → ℕ) (c : Dev nD) (SRC DST : Memref sig .tc .vmem S256x128 .f32) (N : Dev nD) (SS SR : DmaSem sig)
    (J : ℕ) (P P' : sProp 𝕄) : Prop :=
  ∀ (src : Memref sig .tc .vmem S256x128 .f32) (hsrcE : src = SRC) (dst : Memref sig .tc .vmem S256x128 .f32) (hdstE : dst = DST)
    (n : Dev nD) (hn : n = N) (sS sR : DmaSem sig) (hsS : sS = SS) (hsR : sR = SR)
    {hsc : (dst : Memref sig (Dev.tc n : Thread nD τ).2.kind .vmem S256x128 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (j j' : ℕ) (hj : j = J) (hj' : j' = j + 1),
    iprop(invs m K ∗ P ∗ Owes c (owedAfter c j))
      ⊢ iprop(((P' ∗ Owes c (owedAfter c j')) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q)

/-- A copy step holds once `P` splits into the source block at contents `V`, the two duty tokens, the neighbour's destination and a rest `R`,
    and `P'` is `R` with the credit on `SS`: the block pays the sender's duty, the destination rewritten to `V` the receiver's. -/
theorem lane_send (K : GSem nD τ sig → ℕ) (c N : Dev nD) (SRC DST : Memref sig .tc .vmem S256x128 .f32) (SS SR : DmaSem sig)
    (q : PosShare TreeShare) (V : Vec F S256x128 .f32) (J : ℕ) {P P' R : sProp 𝕄}
    (hmS : SS ∈ copySems) (hmR : SR ∈ copySems) (hkS : kindOf SS ≠ .local_) (hkR : kindOf SR ≠ .local_)
    (hN : DST.view.amount (.dma SR) = NB)
    (hpayS : holds c SRC q V ⊢ dmaPay m c (kindOf SS)) (hpayR : holds N DST fullShare V ⊢ dmaPay m N (kindOf SR))
    (hO : owedAfter c J = owedAfter c (J + 1) + tallyAt (dmaCell N SR) () NB)
    (hP : P ⊢ iprop((holds c SRC q V ∗ dutyOf c SS ∗ dutyOf N SR ∗ owned N DST) ∗ R))
    (hP' : iprop(credOf c SS ∗ R) ⊢ P') :
    SendStep m K c SRC DST N SS SR J P P' := by
  intro src e₁ dst e₂ n e₃ sS sR e₄ e₅ hsc hsrc hdst hsem α Q k j j' e₆ e₇
  subst e₁ e₂ e₃ e₄ e₅ e₇ e₆
  haveI := invs_persistent m K
  unfold holds owned at hP
  unfold Owes
  iintro ⟨#HI, HP, ⟨%W, HO⟩⟩ Hk
  icases hP $$ HP with ⟨⟨⟨%fs, %hfs, Hsrc⟩, Ht₁, Ht₂, ⟨%fd, Hdst⟩⟩, HR⟩
  icases (invs_at m K (mem_allCells_dma c hmS)) $$ HI with ⟨#Hg₁, #Hr₁⟩
  icases (invs_at m K (mem_allCells_dma n hmR)) $$ HI with ⟨#Hg₂, #Hr₂⟩
  iapply (Rounds.wp_send_pointsTo 𝒱₀ ER (Rd m) (c : Thread nD τ) none (c' := (n : Thread nD τ)) (src := src) (dst := dst) (q := q) (fs := fs) (fd := fd)
      (κ₁ := K (dmaCell c sS)) (κ₂ := K (dmaCell n sR)) (r₁ := 0) (r₂ := 0) (d₁ := (0 : Fin 4)) (d₂ := (0 : Fin 4))
      (by rw [duties_dma m c sS hkS]; exact Finset.mem_singleton_self _) (by rw [duties_dma m n sR hkR]; exact Finset.mem_singleton_self _)
      () () NB hN rfl rfl _ hO (W := W)
      (by
        subst hfs
        exact (holds_intro c src q fs).trans hpayS)
      (by
        refine .trans ?_ hpayR
        refine (holds_intro n dst fullShare _).trans (Entails.of_eq ?_)
        rw [View.read_write_univ, hfs])) $$ [Hsrc Hdst HO Ht₁ Ht₂]
  · isplitr; · iexact Hg₁
    isplitr; · iexact Hg₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hcr, HO⟩
  iapply Hk
  isplitr [HO]
  · iapply hP'
    isplitl [Hcr]; · iexact Hcr
    iexact HR
  · iexists W; iexact HO

theorem lane_0 (K : GSem nD τ sig → ℕ) (c : Dev nD) (s : Fin 8) :
    SendStep m K c (partJS (rowOf (zc c) 1) s) (commSlot s 0) (right c) (rsSend s 0) (rsRecv s 0) (4 + s.val)
      (LaneSt0 m c s) (LaneSt1 c s) :=
  lane_send m K c _ _ _ _ _ fullShare (acc m s 0 c) _ (mem_copySems_rsSend s 0) (mem_copySems_rsRecv s 0)
    (by rw [kindOf_rsSend]; nofun) (by rw [kindOf_rsRecv]; nofun) rfl
    (.of_eq (by rw [kindOf_rsSend, dmaPay_rsS_zero])) (.of_eq (by rw [kindOf_rsRecv, dmaPay_rsR, left_right]; rfl))
    (owedAfter_rs c s 0)
    (by unfold LaneSt0; iterate 18 apply sep_skip
        apply sep_take3; iterate 15 apply sep_skip
        exact .rfl)
    (by unfold LaneSt1; iterate 18 apply sep_ins
        exact .rfl)

theorem lane_4 (K : GSem nD τ sig → ℕ) (c : Dev nD) (s : Fin 8) :
    SendStep m K c (commSlot s 0) (commSlot s 1) (right c) (rsSend s 1) (rsRecv s 1) (4 + 8 + s.val)
      (LaneSt4 m c s) (LaneSt5 m c s) :=
  lane_send m K c _ _ _ _ _ fullShare (acc m s 1 c) _ (mem_copySems_rsSend s 1) (mem_copySems_rsRecv s 1)
    (by rw [kindOf_rsSend]; nofun) (by rw [kindOf_rsRecv]; nofun) rfl
    (.of_eq (by rw [kindOf_rsSend]; exact (dmaPay_rsS_succ m c s 0 (by omega)).symm)) (.of_eq (by rw [kindOf_rsRecv, dmaPay_rsR, left_right] <;> rfl))
    (owedAfter_rs c s 1)
    (by unfold LaneSt4; iterate 17 apply sep_skip
        apply sep_take3; iterate 13 apply sep_skip
        exact .rfl)
    (by unfold LaneSt5; iterate 17 apply sep_ins
        exact .rfl)

theorem lane_8 (K : GSem nD τ sig → ℕ) (c : Dev nD) (s : Fin 8) :
    SendStep m K c (commSlot s 1) (commSlot s 2) (right c) (rsSend s 2) (rsRecv s 2) (4 + 16 + s.val)
      (LaneSt8 m c s) (LaneSt9 m c s) :=
  lane_send m K c _ _ _ _ _ fullShare (acc m s 2 c) _ (mem_copySems_rsSend s 2) (mem_copySems_rsRecv s 2)
    (by rw [kindOf_rsSend]; nofun) (by rw [kindOf_rsRecv]; nofun) rfl
    (.of_eq (by rw [kindOf_rsSend]; exact (dmaPay_rsS_succ m c s 1 (by omega)).symm)) (.of_eq (by rw [kindOf_rsRecv, dmaPay_rsR, left_right] <;> rfl))
    (owedAfter_rs c s 2)
    (by unfold LaneSt8; iterate 16 apply sep_skip
        apply sep_take3; iterate 11 apply sep_skip
        exact .rfl)
    (by unfold LaneSt9; iterate 16 apply sep_ins
        exact .rfl)

/-- The reduced block is the source of two copies: this one reads it at the left half of the share and leaves the right half. -/
theorem lane_12 (K : GSem nD τ sig → ℕ) (c : Dev nD) (s : Fin 8) :
    SendStep m K c (outQ (qc c) (qc_lt c) s) (outQ (qc c) (qc_lt c) s) (xn c) (t1Send s) (t1Recv s) (28 + 2 * s.val)
      (LaneSt12 m c s) (LaneSt13 m c s) :=
  lane_send m K c _ _ _ _ _ fullShare.left (redV m c s) _ (mem_copySems_t1Send s) (mem_copySems_t1Recv s)
    (by rw [kindOf_t1Send]; nofun) (by rw [kindOf_t1Recv]; nofun) rfl
    (.of_eq (by rw [kindOf_t1Send, dmaPay_t1S])) (.of_eq (by rw [kindOf_t1Recv, dmaPay_t1R, xn_xn]))
    (owedAfter_t1 c s)
    (by unfold LaneSt12
        refine .trans (by iterate 28 apply sep_mono_right
                          exact (holds_halves c _ _).1) ?_
        iterate 15 apply sep_skip
        apply sep_take3; iterate 10 apply sep_skip
        exact .rfl)
    (by unfold LaneSt13; iterate 15 apply sep_ins
        exact .rfl)

theorem lane_13 (K : GSem nD τ sig → ℕ) (c : Dev nD) (s : Fin 8) :
    SendStep m K c (outQ (qc c) (qc_lt c) s) (outQ (qc c) (qc_lt c) s) (yn c) (t2Send s) (t2Recv s) (29 + 2 * s.val)
      (LaneSt13 m c s) (LaneSt14 m c s) :=
  lane_send m K c _ _ _ _ _ fullShare.right (redV m c s) _ (mem_copySems_t2Send s) (mem_copySems_t2Recv s)
    (by rw [kindOf_t2Send]; nofun) (by rw [kindOf_t2Recv]; nofun) rfl
    (.of_eq (by rw [kindOf_t2Send, dmaPay_t2S])) (.of_eq (by rw [kindOf_t2Recv, dmaPay_t2R, yn_yn]))
    (owedAfter_t2 c s)
    (by unfold LaneSt13; iterate 16 apply sep_skip
        apply sep_take3; iterate 6 apply sep_skip
        exact sep_comm.1)
    (by unfold LaneSt14; iterate 16 apply sep_ins
        exact .rfl)

theorem lane_15 (K : GSem nD τ sig → ℕ) (c : Dev nD) (s : Fin 8) :
    SendStep m K c (outQ (qc (xn c)) (qc_lt (xn c)) s) (outQ (qc (xn c)) (qc_lt (xn c)) s) (yn c) (t3Send s) (t3Recv s) (44 + s.val)
      (LaneSt15 m c s) (LaneSt16 m c s) :=
  lane_send m K c _ _ _ _ _ fullShare (redV m (xn c) s) _ (mem_copySems_t3Send s) (mem_copySems_t3Recv s)
    (by rw [kindOf_t3Send]; nofun) (by rw [kindOf_t3Recv]; nofun) rfl
    (.of_eq (by rw [kindOf_t3Send, dmaPay_t3S])) (.of_eq (by rw [kindOf_t3Recv, dmaPay_t3R, yn_yn]))
    (owedAfter_t3 c s)
    (by unfold LaneSt15; iterate 16 apply sep_skip
        apply sep_take3; iterate 3 apply sep_skip
        exact sep_comm.1)
    (by unfold LaneSt16; iterate 16 apply sep_ins
        exact .rfl)

end Cert.KernelIdeal.Sched

end
-- ==== Proof.LaneIO.lean ====
/- Entering the eight lanes from what the launch hands a device, and leaving them: the cells go back and the blocks are gathered by buffer. -/
import proofs.«901049_g7700000000001050_dist_rsdw_v7x_xyz2x2x4_z_m1024_d1024_f4096_f32_1_alg».proof.Proof.Shared
import proofs.«901049_g7700000000001050_dist_rsdw_v7x_xyz2x2x4_z_m1024_d1024_f4096_f32_1_alg».proof.Proof.SchedTab
import proofs.«901049_g7700000000001050_dist_rsdw_v7x_xyz2x2x4_z_m1024_d1024_f4096_f32_1_alg».proof.Proof.Dats
import Idealize.ShloMosaic.Lib.Pipeline.Kit

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

section Entry

variable (c : Dev nD)

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide)]; rfl

omit [FloatOps F] in
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

theorem lane_intro (s : Fin 8) :
    iprop(laneGhost c s
        ∗ (bigSep (Finset.univ : Finset (Fin 3)) fun h => owned (F := F) (right c) (commSlot s h))
        ∗ owned (xn c) (outQ (qc c) (qc_lt c) s)
        ∗ owned (yn c) (outQ (qc c) (qc_lt c) s)
        ∗ owned (yn c) (outQ (qc (xn c)) (qc_lt (xn c)) s)
        ∗ owned c (outQ (qc c) (qc_lt c) s)
        ∗ holds c (partJS (rowOf (zc c) 1) s) fullShare (acc m s 0 c))
      ⊢ LaneSt0 m c s := by
  rw [bigSep_three]
  unfold laneGhost LaneSt0
  iintro ⟨⟨⟨a0, a1, a2, a3, a4, a5, a6, a7, a8, a9, a10, a11⟩, ⟨c0, c1, c2, c3, c4, c5⟩, ⟨t0, t1, t2, t3, t4, t5⟩,
    ⟨n0, n1, n2, n3, n4, n5⟩⟩, ⟨o0, o1, o2⟩, x1, y1, y2, w, p⟩
  iframe

theorem lanes_intro :
    iprop((laneGhost c 0 ∗ laneGhost c 1 ∗ laneGhost c 2 ∗ laneGhost c 3 ∗ laneGhost c 4 ∗ laneGhost c 5 ∗ laneGhost c 6 ∗ laneGhost c 7)
        ∗ (bigSep (Finset.univ : Finset (Fin 8 × Fin 3)) fun sh => owned (F := F) (right c) (commSlot sh.1 sh.2))
        ∗ (bigSep (Finset.univ : Finset (Fin 8)) fun s => owned (F := F) (xn c) (outQ (qc c) (qc_lt c) s))
        ∗ (bigSep (Finset.univ : Finset (Fin 8)) fun s => owned (F := F) (yn c) (outQ (qc c) (qc_lt c) s))
        ∗ (bigSep (Finset.univ : Finset (Fin 8)) fun s => owned (F := F) (yn c) (outQ (qc (xn c)) (qc_lt (xn c)) s))
        ∗ (bigSep (Finset.univ : Finset (Fin 8)) fun s => owned (F := F) c (outQ (qc c) (qc_lt c) s))
        ∗ (bigSep (Finset.univ : Finset (Fin 8)) fun s => holds c (partJS (rowOf (zc c) 1) s) fullShare (acc m s 0 c)))
      ⊢ iprop(LaneSt0 m c 0 ∗ LaneSt0 m c 1 ∗ LaneSt0 m c 2 ∗ LaneSt0 m c 3 ∗ LaneSt0 m c 4 ∗ LaneSt0 m c 5 ∗ LaneSt0 m c 6 ∗ LaneSt0 m c 7) := by
  rw [← bigSep_eight (fun s => laneGhost (F := F) c s), ← bigSep_eight (fun s => LaneSt0 m c s), bigSep_univ_prod,
    ← bigSep_sep', ← bigSep_sep', ← bigSep_sep', ← bigSep_sep', ← bigSep_sep', ← bigSep_sep']
  exact bigSep_mono fun s _ => lane_intro m c s

end Entry

section Exit

variable (c : Dev nD)

omit [FloatOps F] in
theorem quarters_univ : ∀ c : Dev nD, (Finset.univ : Finset (Fin 4)) = [(⟨qc c, qc_lt c⟩ : Fin 4), ⟨qc (xn c), qc_lt (xn c)⟩, ⟨qc (yn c), qc_lt (yn c)⟩, ⟨qc (xn (yn c)), qc_lt (xn (yn c))⟩].toFinset := by decide
omit [FloatOps F] in
theorem quarters_nodup : ∀ c : Dev nD, [(⟨qc c, qc_lt c⟩ : Fin 4), ⟨qc (xn c), qc_lt (xn c)⟩, ⟨qc (yn c), qc_lt (yn c)⟩, ⟨qc (xn (yn c)), qc_lt (xn (yn c))⟩].Nodup := by decide

omit [FloatOps F] in
theorem quarters_split (Φ : Fin 4 → sProp 𝕄) :
    bigSep Finset.univ Φ
      = iprop(Φ ⟨qc c, qc_lt c⟩ ∗ Φ ⟨qc (xn c), qc_lt (xn c)⟩ ∗ Φ ⟨qc (yn c), qc_lt (yn c)⟩ ∗ Φ ⟨qc (xn (yn c)), qc_lt (xn (yn c))⟩) := by
  rw [bigSep_univ_eq_bigSepL _ (quarters_univ c) (quarters_nodup c)]; rfl

theorem out_quarters :
    (bigSep (Finset.univ : Finset (Fin 4)) fun Q => bigSep (Finset.univ : Finset (Fin 8)) fun s => owned (F := F) c (outQ Q.val Q.isLt s))
      = iprop((bigSep (Finset.univ : Finset (Fin 8)) fun s => owned (F := F) c (outQ (qc c) (qc_lt c) s))
        ∗ (bigSep (Finset.univ : Finset (Fin 8)) fun s => owned (F := F) c (outQ (qc (xn c)) (qc_lt (xn c)) s))
        ∗ (bigSep (Finset.univ : Finset (Fin 8)) fun s => owned (F := F) c (outQ (qc (yn c)) (qc_lt (yn c)) s))
        ∗ (bigSep (Finset.univ : Finset (Fin 8)) fun s => owned (F := F) c (outQ (qc (xn (yn c))) (qc_lt (xn (yn c))) s))) :=
  quarters_split c _

def laneSems (s : Fin 8) : sProp 𝕄 :=
  iprop(semVal (dmaCell c (rsSend s 0)) 0
    ∗ semVal (dmaCell c (rsSend s 1)) 0
    ∗ semVal (dmaCell c (rsSend s 2)) 0
    ∗ semVal (dmaCell c (rsRecv s 0)) 0
    ∗ semVal (dmaCell c (rsRecv s 1)) 0
    ∗ semVal (dmaCell c (rsRecv s 2)) 0
    ∗ semVal (dmaCell c (t1Send s)) 0
    ∗ semVal (dmaCell c (t1Recv s)) 0
    ∗ semVal (dmaCell c (t2Send s)) 0
    ∗ semVal (dmaCell c (t2Recv s)) 0
    ∗ semVal (dmaCell c (t3Send s)) 0
    ∗ semVal (dmaCell c (t3Recv s)) 0)

omit [FloatOps F] in
theorem copySems_lanes :
    (bigSepL copySems fun j => (semVal (dmaCell c j) 0 : sProp 𝕄)) = bigSep Finset.univ fun s => laneSems (F := F) c s := by
  rw [bigSep_univ_eq_bigSepL (List.finRange 8) (by decide) (List.nodup_finRange 8)]
  unfold copySems
  rw [bigSepL_flatMap]
  rfl

def LaneClosed (s : Fin 8) : sProp 𝕄 :=
  iprop(semVal (dmaCell c (rsSend s 0)) 0
    ∗ semVal (dmaCell c (rsSend s 1)) 0
    ∗ semVal (dmaCell c (rsSend s 2)) 0
    ∗ semVal (dmaCell c (rsRecv s 0)) 0
    ∗ semVal (dmaCell c (rsRecv s 1)) 0
    ∗ semVal (dmaCell c (rsRecv s 2)) 0
    ∗ semVal (dmaCell c (t1Send s)) 0
    ∗ semVal (dmaCell c (t1Recv s)) 0
    ∗ semVal (dmaCell c (t2Send s)) 0
    ∗ semVal (dmaCell c (t2Recv s)) 0
    ∗ semVal (dmaCell c (t3Send s)) 0
    ∗ semVal (dmaCell c (t3Recv s)) 0
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (xn c)) (qc_lt (xn c)) s) fullShare (redV m (xn c) s)
    ∗ holds c (outQ (qc (yn c)) (qc_lt (yn c)) s) fullShare (redV m (yn c) s)
    ∗ holds c (outQ (qc (xn (yn c))) (qc_lt (xn (yn c))) s) fullShare (redV m (xn (yn c)) s))

theorem owned_of_holds {sp : Space} (M : Memref sig .tc sp S256x128 .f32) (V : Vec F S256x128 .f32) :
    (holds c M fullShare V : sProp 𝕄) ⊢ owned c M := by
  unfold holds owned
  iintro ⟨%f, -, H⟩
  iexists f
  iexact H

theorem lane_closed_split (s : Fin 8) :
    LaneClosed m c s
      ⊢ iprop(laneSems c s
        ∗ owned c (partJS (rowOf (zc c) 1) s)
        ∗ (bigSep (Finset.univ : Finset (Fin 3)) fun h => owned (F := F) c (commSlot s h))
        ∗ holds c (outQ (qc c) (qc_lt c) s) fullShare (redV m c s)
        ∗ holds c (outQ (qc (xn c)) (qc_lt (xn c)) s) fullShare (redV m (xn c) s)
        ∗ holds c (outQ (qc (yn c)) (qc_lt (yn c)) s) fullShare (redV m (yn c) s)
        ∗ holds c (outQ (qc (xn (yn c))) (qc_lt (xn (yn c))) s) fullShare (redV m (xn (yn c)) s)) := by
  rw [bigSep_three]
  unfold LaneClosed laneSems
  iintro ⟨v0, v1, v2, v3, v4, v5, v6, v7, v8, v9, v10, v11, p, k0, k1, k2, o0, o1, o2, o3⟩
  ihave p' := (owned_of_holds c _ _) $$ p
  ihave k0' := (owned_of_holds c _ _) $$ k0
  ihave k1' := (owned_of_holds c _ _) $$ k1
  ihave k2' := (owned_of_holds c _ _) $$ k2
  isplitl [v0 v1 v2 v3 v4 v5 v6 v7 v8 v9 v10 v11]
  · iframe
  iframe

theorem lanes_exit :
    iprop(LaneClosed m c 0 ∗ LaneClosed m c 1 ∗ LaneClosed m c 2 ∗ LaneClosed m c 3 ∗ LaneClosed m c 4 ∗ LaneClosed m c 5 ∗ LaneClosed m c 6 ∗ LaneClosed m c 7)
      ⊢ iprop((bigSepL copySems fun j => semVal (dmaCell c j) 0)
        ∗ (bigSep (Finset.univ : Finset (Fin 8)) fun s => owned (F := F) c (partJS (rowOf (zc c) 1) s))
        ∗ (bigSep (Finset.univ : Finset (Fin 8 × Fin 3)) fun sh => owned (F := F) c (commSlot sh.1 sh.2))
        ∗ (bigSep (Finset.univ : Finset (Fin 4)) fun Q => bigSep (Finset.univ : Finset (Fin 8)) fun s =>
            holds c (outQ Q.val Q.isLt s) fullShare (redV m (devQ c Q) s))) := by
  rw [← bigSep_eight (fun s => LaneClosed m c s)]
  refine (bigSep_mono fun s _ => lane_closed_split m c s).trans ?_
  rw [bigSep_sep', bigSep_sep', bigSep_sep', bigSep_sep', bigSep_sep', bigSep_sep', copySems_lanes, bigSep_univ_prod,
    quarters_split c]
  simp only [devQ_own, devQ_xn, devQ_yn, devQ_xn_yn]
  exact .refl _

end Exit

end Cert.KernelIdeal.Sched

end
-- ==== Proof.LaneWait.lean ====
/- A lane's twelve waits as transitions between its stages, and the closing of a finished lane. -/
import proofs.«901049_g7700000000001050_dist_rsdw_v7x_xyz2x2x4_z_m1024_d1024_f4096_f32_1_alg».proof.Proof.StepsWait
import proofs.«901049_g7700000000001050_dist_rsdw_v7x_xyz2x2x4_z_m1024_d1024_f4096_f32_1_alg».proof.Proof.StepsMem
import proofs.«901049_g7700000000001050_dist_rsdw_v7x_xyz2x2x4_z_m1024_d1024_f4096_f32_1_alg».proof.Proof.LaneIO

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def LaneWaitSpec (c : Dev nD) (K : GSem nD τ sig → ℕ) (j : ℕ) (x : DmaSem sig) (A B : sProp 𝕄) : Prop :=
  ∀ (sem : DmaSem sig) (hsem : sem = x)
    {sp' : Space} {s' : Shape} {e' : EltTy} (src : Memref sig .tc sp' s' e') (dst : Memref sig .tc .vmem S256x128 .f32)
    {hs : src.view.WordExact} {hd : dst.view.WordExact}
    {α : Type} {Q : α → sProp 𝕄} {k : PUnit → Prog (TpuEff nD τ sig (Elt F) Λ₀ .tc) α},
    iprop(invs m K ∗ levAts L lv ∗ A ∗ Owes c (owedAfter c j))
      ⊢ iprop(((B ∗ Owes c (owedAfter c j)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hs hd) k) Q)

/-- A wait on cell `x` moves stage `A` to stage `B` when `A` holds the cell's credit and position 0 and `B` is the rest of `A` with position 1 and the payload. -/
theorem lane_wait (c : Dev nD) (K : GSem nD τ sig → ℕ) (j : ℕ) (x : DmaSem sig) (κ : Kind) (hx : x ∈ copySems) (hκ : kindOf x = κ)
    (hne : κ ≠ .local_) (hlv : lvKind κ < lvAt j) (P A B : sProp 𝕄) (hP : dmaPay m c κ = P)
    (hAB : A ⊢ iprop(credOf c x ∗ posAt c x 0 ∗ (posAt c x 1 ∗ P -∗ B)) := by
      iintro H
      repeat icases H with ⟨$, H⟩
      iframe H
      iintro ⟨$, H⟩
      iexact H) : LaneWaitSpec m c K j x A B := by
  subst hκ hP
  intro sem hsem _ _ _ src dst hs hd α Q k
  unfold Owes
  iintro ⟨HI, #Hlev, HA, ⟨%W, HO⟩⟩ Hk
  icases hAB $$ HA with ⟨Hc, Hp, HB⟩
  iapply (wait_dma m c x hx hne K sem hsem src dst (owedAfter c j) W) $$ [HI Hc HO Hp]
  · iframe HI Hc HO Hp
    iapply (mayWait_at c (.dma x) j hlv); iexact Hlev
  iintro ⟨HO, Hp, -, HP⟩
  iapply Hk
  isplitr [HO]
  · iapply HB; iframe
  · iexists _; iexact HO

theorem lane_1 (c : Dev nD) (s : Fin 8) (K : GSem nD τ sig → ℕ) (j : ℕ) :
    LaneWaitSpec m c K j (rsSend s 0) (LaneSt1 c s) (LaneSt2 m c s) := by
  unfold LaneSt1 LaneSt2
  exact lane_wait m c K j _ _ (mem_copySems_rsSend s 0) (kindOf_rsSend s 0) nofun (lvAt_pos j) _ _ _ (dmaPay_rsS_zero m c s)

theorem lane_2 (c : Dev nD) (s : Fin 8) (K : GSem nD τ sig → ℕ) (j : ℕ) (hj : j = 4 + 8 + s.val) :
    LaneWaitSpec m c K j (rsRecv s 0) (LaneSt2 m c s) (LaneSt3 m c s) := by
  unfold LaneSt2 LaneSt3
  exact lane_wait m c K j _ _ (mem_copySems_rsRecv s 0) (kindOf_rsRecv s 0) nofun (lvAt_gt (ℓ := 2 + s.val) (by omega)) _ _ _ (dmaPay_rsR m c s 0)

theorem lane_5 (c : Dev nD) (s : Fin 8) (K : GSem nD τ sig → ℕ) (j : ℕ) :
    LaneWaitSpec m c K j (rsSend s 1) (LaneSt5 m c s) (LaneSt6 m c s) := by
  unfold LaneSt5 LaneSt6
  exact lane_wait m c K j _ _ (mem_copySems_rsSend s 1) (kindOf_rsSend s 1) nofun (lvAt_pos j) _ _ _ (dmaPay_rsS_succ m c s 0 (by decide))

theorem lane_6 (c : Dev nD) (s : Fin 8) (K : GSem nD τ sig → ℕ) (j : ℕ) (hj : j = 4 + 16 + s.val) :
    LaneWaitSpec m c K j (rsRecv s 1) (LaneSt6 m c s) (LaneSt7 m c s) := by
  unfold LaneSt6 LaneSt7
  exact lane_wait m c K j _ _ (mem_copySems_rsRecv s 1) (kindOf_rsRecv s 1) nofun (lvAt_gt (ℓ := 10 + s.val) (by omega)) _ _ _ (dmaPay_rsR m c s 1)

theorem lane_9 (c : Dev nD) (s : Fin 8) (K : GSem nD τ sig → ℕ) (j : ℕ) :
    LaneWaitSpec m c K j (rsSend s 2) (LaneSt9 m c s) (LaneSt10 m c s) := by
  unfold LaneSt9 LaneSt10
  exact lane_wait m c K j _ _ (mem_copySems_rsSend s 2) (kindOf_rsSend s 2) nofun (lvAt_pos j) _ _ _ (dmaPay_rsS_succ m c s 1 (by decide))

theorem lane_10 (c : Dev nD) (s : Fin 8) (K : GSem nD τ sig → ℕ) (j : ℕ) (hj : j = 28 + 2 * s.val) :
    LaneWaitSpec m c K j (rsRecv s 2) (LaneSt10 m c s) (LaneSt11 m c s) := by
  unfold LaneSt10 LaneSt11
  exact lane_wait m c K j _ _ (mem_copySems_rsRecv s 2) (kindOf_rsRecv s 2) nofun (lvAt_gt (ℓ := 18 + s.val) (by omega)) _ _ _ (dmaPay_rsR m c s 2)

theorem lane_14 (c : Dev nD) (s : Fin 8) (K : GSem nD τ sig → ℕ) (j : ℕ) (hj : j = 44 + s.val) :
    LaneWaitSpec m c K j (t1Recv s) (LaneSt14 m c s) (LaneSt15 m c s) := by
  unfold LaneSt14 LaneSt15
  exact lane_wait m c K j _ _ (mem_copySems_t1Recv s) (kindOf_t1Recv s) nofun (lvAt_gt (ℓ := 26 + 2 * s.val) (by have := s.isLt; omega)) _ _ _ (dmaPay_t1R m c s)

theorem lane_16 (c : Dev nD) (s : Fin 8) (K : GSem nD τ sig → ℕ) (j : ℕ) :
    LaneWaitSpec m c K j (t1Send s) (LaneSt16 m c s) (LaneSt17 m c s) := by
  unfold LaneSt16 LaneSt17
  exact lane_wait m c K j _ _ (mem_copySems_t1Send s) (kindOf_t1Send s) nofun (lvAt_pos j) _ _ _ (dmaPay_t1S m c s)

theorem lane_17 (c : Dev nD) (s : Fin 8) (K : GSem nD τ sig → ℕ) (j : ℕ) :
    LaneWaitSpec m c K j (t2Send s) (LaneSt17 m c s) (LaneSt18 m c s) := by
  unfold LaneSt17 LaneSt18
  exact lane_wait m c K j _ _ (mem_copySems_t2Send s) (kindOf_t2Send s) nofun (lvAt_pos j) _ _ _ (dmaPay_t2S m c s) (by
    iintro H
    repeat icases H with ⟨$, H⟩
    iintro ⟨$, Hp⟩
    iapply (holds_halves c _ _).2
    iframe)

theorem lane_18 (c : Dev nD) (s : Fin 8) (K : GSem nD τ sig → ℕ) (j : ℕ) (hj : j = 52) :
    LaneWaitSpec m c K j (t2Recv s) (LaneSt18 m c s) (LaneSt19 m c s) := by
  unfold LaneSt18 LaneSt19
  exact lane_wait m c K j _ _ (mem_copySems_t2Recv s) (kindOf_t2Recv s) nofun (lvAt_gt (ℓ := 27 + 2 * s.val) (by have := s.isLt; omega)) _ _ _ (dmaPay_t2R m c s)

theorem lane_19 (c : Dev nD) (s : Fin 8) (K : GSem nD τ sig → ℕ) (j : ℕ) :
    LaneWaitSpec m c K j (t3Send s) (LaneSt19 m c s) (LaneSt20 m c s) := by
  unfold LaneSt19 LaneSt20
  exact lane_wait m c K j _ _ (mem_copySems_t3Send s) (kindOf_t3Send s) nofun (lvAt_pos j) _ _ _ (dmaPay_t3S m c s)

theorem lane_20 (c : Dev nD) (s : Fin 8) (K : GSem nD τ sig → ℕ) (j : ℕ) (hj : j = 52) :
    LaneWaitSpec m c K j (t3Recv s) (LaneSt20 m c s) (LaneSt21 m c s) := by
  unfold LaneSt20 LaneSt21
  exact lane_wait m c K j _ _ (mem_copySems_t3Recv s) (kindOf_t3Recv s) nofun (lvAt_gt (ℓ := 42 + s.val) (by have := s.isLt; omega)) _ _ _ (dmaPay_t3R m c s)

theorem lane_close (K : GSem nD τ sig → ℕ) (c : Dev nD) (s : Fin 8) :
    iprop(invs m K ∗ LaneSt21 m c s) ⊢ iprop(|={Set.univ}=> LaneClosed m c s) := by
  unfold LaneSt21 LaneClosed
  iintro ⟨#HI, H1, H2, H3, H4, H5, H6, H7, H8, H9, H10, H11, H12, HR⟩
  imod (close_dma m c _ (mem_copySems_rsSend s 0) K) $$ HI H1 with Z1
  imod (close_dma m c _ (mem_copySems_rsSend s 1) K) $$ HI H2 with Z2
  imod (close_dma m c _ (mem_copySems_rsSend s 2) K) $$ HI H3 with Z3
  imod (close_dma m c _ (mem_copySems_rsRecv s 0) K) $$ HI H4 with Z4
  imod (close_dma m c _ (mem_copySems_rsRecv s 1) K) $$ HI H5 with Z5
  imod (close_dma m c _ (mem_copySems_rsRecv s 2) K) $$ HI H6 with Z6
  imod (close_dma m c _ (mem_copySems_t1Send s) K) $$ HI H7 with Z7
  imod (close_dma m c _ (mem_copySems_t1Recv s) K) $$ HI H8 with Z8
  imod (close_dma m c _ (mem_copySems_t2Send s) K) $$ HI H9 with Z9
  imod (close_dma m c _ (mem_copySems_t2Recv s) K) $$ HI H10 with Z10
  imod (close_dma m c _ (mem_copySems_t3Send s) K) $$ HI H11 with Z11
  imod (close_dma m c _ (mem_copySems_t3Recv s) K) $$ HI H12 with Z12
  imodintro
  iframe

end Cert.KernelIdeal.Sched

end
-- ==== Proof.LaneMem.lean ====
/- A lane's loads and stores as transitions between its stages; what is stored is the ring's next partial sum. -/
import proofs.«901049_g7700000000001050_dist_rsdw_v7x_xyz2x2x4_z_m1024_d1024_f4096_f32_1_alg».proof.Proof.StepsMem
import proofs.«901049_g7700000000001050_dist_rsdw_v7x_xyz2x2x4_z_m1024_d1024_f4096_f32_1_alg».proof.Proof.StepsSend
import proofs.«901049_g7700000000001050_dist_rsdw_v7x_xyz2x2x4_z_m1024_d1024_f4096_f32_1_alg».proof.Proof.Shared

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- A load that hands back part of a state hands back the state. -/
theorem load_under {R X P W' : sProp 𝕄} {β : Type} {φ : β → Prop} {W : β → sProp 𝕄} (e : R ⊣⊢ iprop(X ∗ P))
    (h : P ⊢ iprop((∀ v, ⌜φ v⌝ -∗ P -∗ W v) -∗ W')) : R ⊢ iprop((∀ v, ⌜φ v⌝ -∗ R -∗ W v) -∗ W') := by
  iintro HR Hk
  icases e.1 $$ HR with ⟨HX, HP⟩
  iapply h $$ HP
  iintro %v %hv HP
  iapply Hk $$ [] [HX HP]
  · ipureintro; exact hv
  · iapply e.2; iframe

theorem dead_under {X P W' : sProp 𝕄} {β : Type} {W : β → sProp 𝕄} (h : P ⊢ iprop((∀ v, P -∗ W v) -∗ W')) :
    iprop(X ∗ P) ⊢ iprop((∀ v, (X ∗ P) -∗ W v) -∗ W') := by
  iintro ⟨HX, HP⟩ Hk
  iapply h $$ HP
  iintro %v HP
  iapply Hk
  iframe

/-- A store that changes part of a state changes the state. -/
theorem store_under {R R' X P P' W W' : sProp 𝕄} (e : R ⊣⊢ iprop(X ∗ P)) (e' : R' ⊣⊢ iprop(X ∗ P'))
    (h : P ⊢ iprop((P' -∗ W) -∗ W')) : R ⊢ iprop((R' -∗ W) -∗ W') := by
  iintro HR Hk
  icases e.1 $$ HR with ⟨HX, HP⟩
  iapply h $$ HP
  iintro HP
  iapply Hk
  iapply e'.2; iframe

theorem CommLoads.dead {c : Dev nD} {o : Fin 4 → ℕ} {P : sProp 𝕄} {V : Vec F S256x128 .f32} (h : CommLoads c o P V) :
    DeadLoads c commM S1x1x256x128.size o P := fun off hoff _ _ _ _ _ => by
  iintro H Hk
  iapply (h off hoff) $$ H
  iintro %v %_ H
  iapply Hk $$ H

theorem lane_load_comm_3 (c : Dev nD) (s : Fin 8) : CommLoads c ![s.val, 0, 0, 0] (LaneSt3 m c s) (acc m s 0 (left c)) := by
  intro off hoff _ _ _ _ _
  unfold LaneSt3
  iterate 33 refine load_under .rfl ?_
  exact load_under sep_comm (load_comm c s 0 fullShare _ off hoff)

theorem lane_load_comm_dead_3 (c : Dev nD) (s : Fin 8) : DeadLoads c commM S1x1x256x128.size ![s.val, 0, 0, 0] (LaneSt3 m c s) :=
  (lane_load_comm_3 m c s).dead

theorem lane_3 (c : Dev nD) (s : Fin 8) : StoreSpec c commM S1x1x256x128.size ![s.val, 0, 0, 0] (LaneSt3 m c s)
    (fun w => shapeCast S256x128 w Facts₀.shapeCasts_S1x1x256x128_S256x128 = acc m s 1 c) (LaneSt4 m c s) := by
  intro off hoff _ w hw _ _ _ _ _
  unfold LaneSt3 LaneSt4
  iterate 33 refine store_under .rfl .rfl ?_
  exact store_under sep_comm sep_comm (store_comm c s 0 _ _ off hoff w hw)

theorem lane_load_comm_7 (c : Dev nD) (s : Fin 8) : CommLoads c ![s.val, 1, 0, 0] (LaneSt7 m c s) (acc m s 1 (left c)) := by
  intro off hoff _ _ _ _ _
  unfold LaneSt7
  iterate 30 refine load_under .rfl ?_
  exact load_under sep_comm (load_comm c s 1 fullShare _ off hoff)

theorem lane_load_comm_dead_7 (c : Dev nD) (s : Fin 8) : DeadLoads c commM S1x1x256x128.size ![s.val, 1, 0, 0] (LaneSt7 m c s) :=
  (lane_load_comm_7 m c s).dead

theorem lane_7 (c : Dev nD) (s : Fin 8) : StoreSpec c commM S1x1x256x128.size ![s.val, 1, 0, 0] (LaneSt7 m c s)
    (fun w => shapeCast S256x128 w Facts₀.shapeCasts_S1x1x256x128_S256x128 = acc m s 2 c) (LaneSt8 m c s) := by
  intro off hoff _ w hw _ _ _ _ _
  unfold LaneSt7 LaneSt8
  iterate 30 refine store_under .rfl .rfl ?_
  exact store_under sep_comm sep_comm (store_comm c s 1 _ _ off hoff w hw)

theorem lane_load_comm_11 (c : Dev nD) (s : Fin 8) : CommLoads c ![s.val, 2, 0, 0] (LaneSt11 m c s) (acc m s 2 (left c)) := by
  intro off hoff _ _ _ _ _
  unfold LaneSt11
  iterate 27 refine load_under .rfl ?_
  exact load_under sep_comm (load_comm c s 2 fullShare _ off hoff)

theorem lane_out_dead_11 (c : Dev nD) (s : Fin 8) : DeadLoads c outM S256x128.size ![0, 1024 * qc c + 128 * s.val] (LaneSt11 m c s) := by
  intro off hoff _ _ _ _ _
  unfold LaneSt11
  iterate 28 refine dead_under ?_
  exact load_out_dead c (qc c) (qc_lt c) s off hoff

theorem lane_11 (c : Dev nD) (s : Fin 8) : StoreSpec c outM S256x128.size ![0, 1024 * qc c + 128 * s.val] (LaneSt11 m c s)
    (· = redV m c s) (LaneSt12 m c s) := by
  intro off hoff _ w hw _ _ _ _ _
  unfold LaneSt11 LaneSt12
  iterate 28 refine store_under .rfl .rfl ?_
  exact store_out c (qc c) (qc_lt c) s _ off hoff w hw

theorem pay_comm (v : Vec F S1x1x256x128 .f32) (b : Vec F S256x128 .f32) (V : Vec F S256x128 .f32)
    (hv : shapeCast S256x128 v Facts₀.shapeCasts_S1x1x256x128_S256x128 = V) :
    shapeCast S256x128 (k0_pay7 v b) Facts₀.shapeCasts_S1x1x256x128_S256x128 = addf V b := by
  subst hv
  exact shapeCast_shapeCast _ _ _

theorem pay_out (v : Vec F S1x1x256x128 .f32) (b : Vec F S256x128 .f32) (V : Vec F S256x128 .f32)
    (hv : shapeCast S256x128 v Facts₀.shapeCasts_S1x1x256x128_S256x128 = V) :
    k0_pay25 v b = addf V b := by
  subst hv; rfl

theorem acc_succ (s : Fin 8) (h : ℕ) (c : Dev nD) :
    acc m s (h + 1) c = addf (acc m s h (left c)) (blockV m c (rowOf (zc c) (h + 2)) s) := rfl
theorem stored_comm (c : Dev nD) (s : Fin 8) (h : ℕ) (v : Vec F S1x1x256x128 .f32) (b : Vec F S256x128 .f32)
    (hv : shapeCast S256x128 v Facts₀.shapeCasts_S1x1x256x128_S256x128 = acc m s h (left c))
    (hb : b = blockV m c (rowOf (zc c) (h + 2)) s) :
    shapeCast S256x128 (k0_pay7 v b) Facts₀.shapeCasts_S1x1x256x128_S256x128 = acc m s (h + 1) c := by
  rw [pay_comm v b _ hv, hb, acc_succ]

theorem stored_out (c : Dev nD) (s : Fin 8) (v : Vec F S1x1x256x128 .f32) (b : Vec F S256x128 .f32)
    (hv : shapeCast S256x128 v Facts₀.shapeCasts_S1x1x256x128_S256x128 = acc m s 2 (left c))
    (hb : b = blockV m c (rowOf (zc c) 4) s) :
    k0_pay25 v b = redV m c s := by
  rw [pay_out v b _ hv, hb]; rfl

theorem off21_own (c : Dev nD) (s : Fin 8) : k0_off21 c (BitVec.ofNat 32 (128 * s.val)) = ![0, 1024 * qc c + 128 * s.val] := by
  rw [Gen.k0_off21_eq, own_col]

/-- info: 'Cert.KernelIdeal.Sched.lane_3' depends on axioms: [propext, Classical.choice, Quot.sound] -/
#guard_msgs in #print axioms lane_3

/-- info: 'Cert.KernelIdeal.Sched.lane_11' depends on axioms: [propext, Classical.choice, Quot.sound] -/
#guard_msgs in #print axioms lane_11

end Cert.KernelIdeal.Sched

end
-- ==== Proof.BodyExit.lean ====
/- From the eight closed lanes to the body's postcondition. -/
import proofs.«901049_g7700000000001050_dist_rsdw_v7x_xyz2x2x4_z_m1024_d1024_f4096_f32_1_alg».proof.Proof.LaneIO
import proofs.«901049_g7700000000001050_dist_rsdw_v7x_xyz2x2x4_z_m1024_d1024_f4096_f32_1_alg».proof.Proof.BodyDefs
import proofs.«901049_g7700000000001050_dist_rsdw_v7x_xyz2x2x4_z_m1024_d1024_f4096_f32_1_alg».proof.Proof.StepsLocal
import proofs.«901049_g7700000000001050_dist_rsdw_v7x_xyz2x2x4_z_m1024_d1024_f4096_f32_1_alg».proof.Proof.StepsWait
import proofs.«901049_g7700000000001050_dist_rsdw_v7x_xyz2x2x4_z_m1024_d1024_f4096_f32_1_alg».proof.Proof.Pieces
import proofs.«901049_g7700000000001050_dist_rsdw_v7x_xyz2x2x4_z_m1024_d1024_f4096_f32_1_alg».proof.Proof.PartSt

set_option maxRecDepth 16384

noncomputable section

namespace Cert.KernelIdeal.Sched

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

section BodyExit

variable (c : Dev nD)

theorem part_rest_join (J : Finset (Fin 4)) :
    iprop((bigSep (Finset.univ : Finset (Fin 8)) fun s => owned (F := F) c (partJS (rowOf (zc c) 1) s)) ∗ PartRest m c J)
      ⊢ iprop((∃ f : Buf (Elt F) ((c : Thread nD τ).loc cc0_scratch2), ((c : Thread nD τ).loc cc0_scratch2) ↦{fullShare} f)) := by
  iintro ⟨Hb, HR⟩
  ihave HR' := (part_rest_exit m c J) $$ HR
  iapply (part_join c (j₀ c) Finset.univ (Finset.subset_univ _))
  isplitl [Hb]; · iexact Hb
  iexact HR'

theorem body_exit (J : Finset (Fin 4)) :
    iprop((LaneClosed m c 0 ∗ LaneClosed m c 1 ∗ LaneClosed m c 2 ∗ LaneClosed m c 3 ∗ LaneClosed m c 4 ∗ LaneClosed m c 5 ∗ LaneClosed m c 6 ∗ LaneClosed m c 7) ∗ PartRest m c J
        ∗ XHeld m c ∗ DyqHeld m c ∗ (((c : Thread nD τ).loc main_arg0) ↦{fullShare} m ((c : Thread nD τ).loc main_arg0)) ∗ (((c : Thread nD τ).loc main_arg1) ↦{fullShare} m ((c : Thread nD τ).loc main_arg1))
        ∗ semVal (dmaCell c cc0_scratch4.sem) 0 ∗ semVal (dmaCell c cc0_scratch5.sem) 0 ∗ Owes c (owedAfter c 52))
      ⊢ bodyPost m ρ c := by
  unfold bodyPost Φ₁ bufs Dat.owesAt Pipeline.owesWithin Owes XHeld DyqHeld
  rw [show (dats m ρ 0 c).owed t0_0.succ = 0 from rfl, owedAfter_all]
  iintro ⟨HL, HR, Hx, Hd, Ha0, Ha1, Hs4, Hs5, ⟨%W, HO⟩⟩
  icases (lanes_exit m c) $$ HL with ⟨Hsems, Hp, Hk, Ho⟩
  ihave Hp := (part_rest_join m c J) $$ [Hp HR]
  · iframe
  ihave Hk := (comm_join c) $$ Hk
  ihave Hout := (out_join c fun Q s => redV m (devQ c Q) s) $$ Ho
  isplitl [Hx Hd Hp Hk Ha0 Ha1 Hs4 Hs5 Hsems]
  · isplitl [Hx Hd Hp Hk Ha0 Ha1]
    · isplitl [Hx]; · iexists _; iexact Hx
      isplitl [Hd]; · iexists _; iexact Hd
      iframe
    iframe
  isplitl [HO]
  · iexists W
    isplitr; · ipureintro; exact fun _ _ => Or.inl trivial
    iexact HO
  iexact Hout

end BodyExit

end Cert.KernelIdeal.Sched

end
-- ==== Proof.Body.lean ====
/- The body on one device, effect by effect in program order: entry signals, the two local copies, the four products interleaved with the lanes' 21 stages, and the exit. -/
import proofs.«901049_g7700000000001050_dist_rsdw_v7x_xyz2x2x4_z_m1024_d1024_f4096_f32_1_alg».proof.Proof.BodyDefs
import proofs.«901049_g7700000000001050_dist_rsdw_v7x_xyz2x2x4_z_m1024_d1024_f4096_f32_1_alg».proof.Proof.StepsSig
import proofs.«901049_g7700000000001050_dist_rsdw_v7x_xyz2x2x4_z_m1024_d1024_f4096_f32_1_alg».proof.Proof.StepsLocal
import proofs.«901049_g7700000000001050_dist_rsdw_v7x_xyz2x2x4_z_m1024_d1024_f4096_f32_1_alg».proof.Proof.PartSt
import proofs.«901049_g7700000000001050_dist_rsdw_v7x_xyz2x2x4_z_m1024_d1024_f4096_f32_1_alg».proof.Proof.Pieces
import proofs.«901049_g7700000000001050_dist_rsdw_v7x_xyz2x2x4_z_m1024_d1024_f4096_f32_1_alg».proof.Proof.LaneSend
import proofs.«901049_g7700000000001050_dist_rsdw_v7x_xyz2x2x4_z_m1024_d1024_f4096_f32_1_alg».proof.Proof.LaneWait
import proofs.«901049_g7700000000001050_dist_rsdw_v7x_xyz2x2x4_z_m1024_d1024_f4096_f32_1_alg».proof.Proof.LaneMem
import proofs.«901049_g7700000000001050_dist_rsdw_v7x_xyz2x2x4_z_m1024_d1024_f4096_f32_1_alg».proof.Proof.LaneIO
import proofs.«901049_g7700000000001050_dist_rsdw_v7x_xyz2x2x4_z_m1024_d1024_f4096_f32_1_alg».proof.Proof.BodyExit
import proofs.«901049_g7700000000001050_dist_rsdw_v7x_xyz2x2x4_z_m1024_d1024_f4096_f32_1_alg».proof.Proof.Gen.KernelIdeal.Skeleton
import Idealize.ShloMosaic.Lib.Tactic

set_option maxRecDepth 65536

noncomputable section

namespace Cert.KernelIdeal.Sched

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem box_dup (P : sProp 𝕄) : iprop(□ P) ⊢ iprop(□ P ∗ □ P) := (intuitionistically_sep_idem (P := P)).2

theorem boxed {K : GSem nD τ sig → ℕ} {R G : sProp 𝕄} (h : iprop(invs m K ∗ R) ⊢ G) : iprop(□ invs m K ∗ R) ⊢ G :=
  (sep_mono_left intuitionistically_elim).trans h

theorem boxed' {K : GSem nD τ sig → ℕ} {R P G' G : sProp 𝕄} (h : iprop(invs m K ∗ R) ⊢ iprop((P -∗ G') -∗ G)) :
    iprop(□ invs m K ∗ R) ⊢ iprop(((□ invs m K ∗ P) -∗ G') -∗ G) := by
  iintro ⟨#HI, HR⟩ Hk
  iapply h $$ [HR]
  · isplitr; · iexact HI
    iexact HR
  iintro HP
  iapply Hk
  isplitr; · iexact HI
  iexact HP

omit [FloatOps F] in
theorem owes_intro (c : Dev nD) (O : CellTallies nD τ sig Unit) (W : Waits sig Unit) :
    (owes (c : Thread nD τ) O W : sProp 𝕄) ⊢ Owes c O := by
  unfold Owes; iintro H; iexists W; iexact H

def OwnBlocks (c : Dev nD) : sProp 𝕄 := bigSep (Finset.univ : Finset (Fin 8)) fun s => owned c (outQ (qc c) (qc_lt c) s)
def XnBlocks (c : Dev nD) : sProp 𝕄 := bigSep (Finset.univ : Finset (Fin 8)) fun s => owned c (outQ (qc (xn c)) (qc_lt (xn c)) s)
def YnBlocks (c : Dev nD) : sProp 𝕄 :=
  iprop((bigSep (Finset.univ : Finset (Fin 8)) fun s => owned c (outQ (qc (yn c)) (qc_lt (yn c)) s))
    ∗ bigSep (Finset.univ : Finset (Fin 8)) fun s => owned c (outQ (qc (xn (yn c))) (qc_lt (xn (yn c))) s))
omit [FloatOps F] in
theorem ownBlocks_eq (c : Dev nD) : OwnBlocks (F := F) c = bigSep (Finset.univ : Finset (Fin 8)) fun s => owned c (outQ (qc c) (qc_lt c) s) := rfl
omit [FloatOps F] in
theorem xnBlocks_eq (c : Dev nD) : XnBlocks (F := F) c = bigSep (Finset.univ : Finset (Fin 8)) fun s => owned c (outQ (qc (xn c)) (qc_lt (xn c)) s) := rfl
omit [FloatOps F] in
theorem ynBlocks_eq (c : Dev nD) : YnBlocks (F := F) c =
    iprop((bigSep (Finset.univ : Finset (Fin 8)) fun s => owned c (outQ (qc (yn c)) (qc_lt (yn c)) s))
      ∗ bigSep (Finset.univ : Finset (Fin 8)) fun s => owned c (outQ (qc (xn (yn c))) (qc_lt (xn (yn c))) s)) := rfl

abbrev Jfull (c : Dev nD) : Finset (Fin 4) :=
  insert (rowOf (zc c) (1 + (3 : Fin 4).val)) (insert (rowOf (zc c) (1 + (2 : Fin 4).val)) (insert (rowOf (zc c) (1 + (1 : Fin 4).val)) ∅))
theorem memJ_step : ∀ (c : Dev nD) (r : Fin 2), rowOf (zc c) (2 + r.val) ∈ Jfull c := by decide
theorem memJ_own : ∀ c : Dev nD, rowOf (zc c) 4 ∈ Jfull c := by decide
theorem mayWait_local4 (c : Dev nD) : (levAts L lv : sProp 𝕄) ⊢ MayWait (c : Thread nD τ) (.dma cc0_scratch4.sem) () (owedAfter c 4) :=
  mayWait_at c (.dma cc0_scratch4.sem) 4 (by show lvKind (kindOf (cc0_scratch4.sem)) < lvAt 4; decide)
theorem mayWait_local5 (c : Dev nD) : (levAts L lv : sProp 𝕄) ⊢ MayWait (c : Thread nD τ) (.dma cc0_scratch5.sem) () (owedAfter c 4) :=
  mayWait_at c (.dma cc0_scratch5.sem) 4 (by show lvKind (kindOf (cc0_scratch5.sem)) < lvAt 4; decide)

set_option maxHeartbeats 40000000 in
theorem sound_body (c : Dev nD) :
    bodyPre m ρ c ⊢ wp frame (wpE (defs₀ (F := F)) 𝒱₀ c none) Set.univ (bodyAt0 (F := F) t0_0) (fun _ => bodyPost m ρ c) := by
  unfold bodyPre Φ₀ start bufs barGhost
  unfold Dat.owesAt Pipeline.owesWithin
  rw [show (dats m ρ 0 c).owed t0_0.castSucc = owedAfter c 0 from rfl]
  unfold bodyAt0
  simp only [cc0_body_eq_skeleton]
  unfold cc0_body_skel
  simp only [k0_part67_eq_skeleton, k0_part61_eq_skeleton, k0_part62_eq_skeleton, k0_part63_eq_skeleton, k0_part64_eq_skeleton, k0_part65_eq_skeleton, k0_part66_eq_skeleton]
  unfold k0_part67_skel k0_part61_skel k0_part62_skel k0_part63_skel k0_part64_skel k0_part65_skel k0_part66_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel
  simp only [semSignalWord, semWaitWord, Prog.lift, Prog.bind_op, Prog.bind_ret, Prog.pure_eq_ret, wp_deviceId]
  iintro ⟨HΦ, Ho, Hst⟩
  icases HΦ with ⟨Hstart, Hbufs⟩
  icases Hstart with ⟨HKI, Hbar, Hlanes, Hrest⟩
  icases HKI with ⟨%K, HI⟩
  icases Hbar with ⟨HatB, HcB, HtL, HtR, HtX, HtY⟩
  icases Hlanes with ⟨HG0, HG1, HG2, HG3, HG4, HG5, HG6, HG7⟩
  icases Hrest with ⟨#Hlev, Hz4, Hz5⟩
  icases Hbufs with ⟨⟨%fx, Hx⟩, ⟨%fq, Hq⟩, ⟨%fp, Hp⟩, ⟨%fc, Hc⟩, Ha0, Ha1⟩
  icases Hst with ⟨%d0, %g0, %hg0, Hout⟩
  icases Ho with ⟨%W, %hW, HO⟩
  ihave Hcs := (comm_split c fc) $$ Hc
  ihave Hos := (out_split c g0) $$ Hout
  ihave Hos' := (Entails.of_eq (out_quarters c)) $$ Hos
  icases Hos' with ⟨Hown, HoX, HoYD⟩
  ihave Hown := (Entails.of_eq (ownBlocks_eq c).symm) $$ Hown
  ihave HoYD := (Entails.of_eq (ynBlocks_eq c).symm) $$ HoYD
  ihave HoX := (Entails.of_eq (xnBlocks_eq c).symm) $$ HoX
  iapply (boxed' m (signal_left m c K _ (dev1_eq c) _ rfl _ rfl (owedAfter c 1) (owedAfter_bar_left c) W)) $$ [HI HtL Hcs HO]
  · iframe
  iintro ⟨HI, HO⟩
  iapply (boxed' m (signal_right m c K _ (dev2_eq c) _ rfl _ rfl (owedAfter c 2) (owedAfter_bar_right c) W)) $$ [HI HtR HO]
  · iframe
  iintro ⟨HI, HO⟩
  ihave HoX := (Entails.of_eq (xnBlocks_eq c)) $$ HoX
  iapply (boxed' m (signal_xn m c K _ (dev3_eq c) _ rfl _ rfl (owedAfter c 3) (owedAfter_bar_xn c) W)) $$ [HI HtX HoX HO]
  · iframe
  iintro ⟨HI, HO⟩
  ihave HoYD := (Entails.of_eq (ynBlocks_eq c)) $$ HoYD
  icases HoYD with ⟨HoY, HoD⟩
  iapply (boxed' m (signal_yn m c K _ (dev4_eq c) _ rfl _ rfl (owedAfter c 4) (owedAfter_bar_yn c) W)) $$ [HI HtY HoY HoD HO]
  · iframe
  iintro ⟨HI, HO⟩
  iapply (copy_x m c _ rfl _ rfl _ rfl) $$ [Ha0 Hx Hz4]
  · isplitl [Ha0]; · iexact Ha0
    isplitl [Hx]; · iexists fx; iexact Hx
    iexact Hz4
  iintro HFx
  iapply (copy_dy m c (off1_q c) _ rfl _ rfl _ rfl) $$ [Ha1 Hq Hz5]
  · isplitl [Ha1]; · iexact Ha1
    isplitl [Hq]; · iexists fq; iexact Hq
    iexact Hz5
  iintro ⟨HFq, HdyR⟩
  iapply (wait_x m c _ rfl _ rfl) $$ [HFx HO]
  · iframe HFx HO
    iapply (mayWait_local4 c); iexact Hlev
  iintro ⟨HX, Ha0, Hz4, HO⟩
  iapply (wait_dy m c _ rfl _ rfl) $$ [HFq HdyR HO]
  · iframe HFq HdyR HO
    iapply (mayWait_local5 c); iexact Hlev
  iintro ⟨HQ, Ha1, Hz5, HO⟩
  iapply (xheld_load m c (rowOf (zc c) (1 + 0)) (off2_row c 0)) $$ HX; iintro HX
  iapply (dyqheld_load m c rfl) $$ HQ; iintro HQ
  ihave HP := (part_whole_intro m c) $$ [Hp]
  · iexists fp; iexact Hp
  iapply (part_dead_whole m c ∅) $$ HP; iintro HP %vdead0
  iapply (part_store_whole m c (off3_row c 0) _ rfl) $$ HP; iintro HP
  iapply (boxed' m (wait_bar m c K _ rfl _ rfl)) $$ [HI HcB HO HatB]
  · iframe HI HcB HO
    isplitr; · iapply (mayWait_bar c); iexact Hlev
    iexact HatB
  iintro ⟨HI, HO, HatB, -, HpR, HpX, HpY, HpYx⟩
  ihave Hsp := (part_split_lanes m c) $$ HP
  icases Hsp with ⟨Hblk, HP⟩
  ihave Hown := (Entails.of_eq (ownBlocks_eq c)) $$ Hown
  ihave HLs := (lanes_intro m c) $$ [HG0 HG1 HG2 HG3 HG4 HG5 HG6 HG7 HpR HpX HpY HpYx Hown Hblk]
  · isplitl [HG0 HG1 HG2 HG3 HG4 HG5 HG6 HG7]
    · iframe
    iframe
  icases HLs with ⟨HL0, HL1, HL2, HL3, HL4, HL5, HL6, HL7⟩
  ihave HO := (owes_intro c _ _) $$ HO
  iapply (boxed' m (lane_0 m K c 0 _ (src_rs0_eq c 0 _ _ (Mesh.off4_eq c)) _ rfl _ (Mesh.dev5_eq c) _ _ rfl rfl 4 5 rfl rfl)) $$ [HI HL0 HO]
  · iframe
  iintro ⟨HI, HL0, HO⟩
  iapply (boxed' m (lane_0 m K c 1 _ (src_rs0_eq c 1 _ _ (Mesh.off5_eq c)) _ rfl _ (Mesh.dev6_eq c) _ _ rfl rfl 5 6 rfl rfl)) $$ [HI HL1 HO]
  · iframe
  iintro ⟨HI, HL1, HO⟩
  iapply (boxed' m (lane_0 m K c 2 _ (src_rs0_eq c 2 _ _ (Mesh.off6_eq c)) _ rfl _ (Mesh.dev7_eq c) _ _ rfl rfl 6 7 rfl rfl)) $$ [HI HL2 HO]
  · iframe
  iintro ⟨HI, HL2, HO⟩
  iapply (boxed' m (lane_0 m K c 3 _ (src_rs0_eq c 3 _ _ (Mesh.off7_eq c)) _ rfl _ (Mesh.dev8_eq c) _ _ rfl rfl 7 8 rfl rfl)) $$ [HI HL3 HO]
  · iframe
  iintro ⟨HI, HL3, HO⟩
  iapply (boxed' m (lane_0 m K c 4 _ (src_rs0_eq c 4 _ _ (Mesh.off8_eq c)) _ rfl _ (Mesh.dev9_eq c) _ _ rfl rfl 8 9 rfl rfl)) $$ [HI HL4 HO]
  · iframe
  iintro ⟨HI, HL4, HO⟩
  iapply (boxed' m (lane_0 m K c 5 _ (src_rs0_eq c 5 _ _ (Mesh.off9_eq c)) _ rfl _ (Mesh.dev10_eq c) _ _ rfl rfl 9 10 rfl rfl)) $$ [HI HL5 HO]
  · iframe
  iintro ⟨HI, HL5, HO⟩
  iapply (boxed' m (lane_0 m K c 6 _ (src_rs0_eq c 6 _ _ (Mesh.off10_eq c)) _ rfl _ (Mesh.dev11_eq c) _ _ rfl rfl 10 11 rfl rfl)) $$ [HI HL6 HO]
  · iframe
  iintro ⟨HI, HL6, HO⟩
  iapply (boxed' m (lane_0 m K c 7 _ (src_rs0_eq c 7 _ _ (Mesh.off11_eq c)) _ rfl _ (Mesh.dev12_eq c) _ _ rfl rfl 11 12 rfl rfl)) $$ [HI HL7 HO]
  · iframe
  iintro ⟨HI, HL7, HO⟩
  iapply (xheld_load m c (rowOf (zc c) (1 + 1)) (off2_row c 1)) $$ HX; iintro HX
  iapply (dyqheld_load m c rfl) $$ HQ; iintro HQ
  iapply (part_dead_rest m c _ 1 (by decide) (off3_row c 1)) $$ HP; iintro HP %vdead1
  iapply (part_store_rest m c _ 1 (by decide) (off3_row c 1) _ rfl) $$ HP; iintro HP
  iapply (xheld_load m c (rowOf (zc c) (1 + 2)) (off2_row c 2)) $$ HX; iintro HX
  iapply (dyqheld_load m c rfl) $$ HQ; iintro HQ
  iapply (part_dead_rest m c _ 2 (by decide) (off3_row c 2)) $$ HP; iintro HP %vdead2
  iapply (part_store_rest m c _ 2 (by decide) (off3_row c 2) _ rfl) $$ HP; iintro HP
  iapply (xheld_load m c (rowOf (zc c) (1 + 3)) (off2_row c 3)) $$ HX; iintro HX
  iapply (dyqheld_load m c rfl) $$ HQ; iintro HQ
  iapply (part_dead_rest m c _ 3 (by decide) (off3_row c 3)) $$ HP; iintro HP %vdead3
  iapply (part_store_rest m c _ 3 (by decide) (off3_row c 3) _ rfl) $$ HP; iintro HP
  iapply (boxed' m (lane_1 m c 0 K 12 _ rfl _ _)) $$ [HI HL0 HO]
  · iframe HI Hlev ∗
  iintro ⟨HI, HL0, HO⟩
  iapply (boxed' m (lane_2 m c 0 K 12 (by decide) _ rfl _ _)) $$ [HI HL0 HO]
  · iframe HI Hlev ∗
  iintro ⟨HI, HL0, HO⟩
  iapply (lane_load_comm_3 m c 0 _ rfl) $$ HL0; iintro %vc0_0 %hvc0_0 HL0
  iapply (part_load m c _ _ (memJ_step c 0) (row_step_ne_j₀ c 0) 0 (partoff_step c 0 0)) $$ HP; iintro HP
  iapply (lane_load_comm_dead_3 m c 0 _ rfl) $$ HL0; iintro %vd0_0 HL0
  iapply (lane_3 m c 0 _ rfl _ (stored_comm m c 0 0 _ _ hvc0_0 rfl)) $$ HL0; iintro HL0
  iapply (boxed' m (lane_4 m K c 0 _ rfl _ rfl _ (Mesh.dev13_eq c) _ _ rfl rfl 12 13 rfl rfl)) $$ [HI HL0 HO]
  · iframe
  iintro ⟨HI, HL0, HO⟩
  iapply (boxed' m (lane_1 m c 1 K 13 _ rfl _ _)) $$ [HI HL1 HO]
  · iframe HI Hlev ∗
  iintro ⟨HI, HL1, HO⟩
  iapply (boxed' m (lane_2 m c 1 K 13 (by decide) _ rfl _ _)) $$ [HI HL1 HO]
  · iframe HI Hlev ∗
  iintro ⟨HI, HL1, HO⟩
  iapply (lane_load_comm_3 m c 1 _ rfl) $$ HL1; iintro %vc1_0 %hvc1_0 HL1
  iapply (part_load m c _ _ (memJ_step c 0) (row_step_ne_j₀ c 0) 1 (partoff_step c 1 0)) $$ HP; iintro HP
  iapply (lane_load_comm_dead_3 m c 1 _ rfl) $$ HL1; iintro %vd1_0 HL1
  iapply (lane_3 m c 1 _ rfl _ (stored_comm m c 1 0 _ _ hvc1_0 rfl)) $$ HL1; iintro HL1
  iapply (boxed' m (lane_4 m K c 1 _ rfl _ rfl _ (Mesh.dev14_eq c) _ _ rfl rfl 13 14 rfl rfl)) $$ [HI HL1 HO]
  · iframe
  iintro ⟨HI, HL1, HO⟩
  iapply (boxed' m (lane_1 m c 2 K 14 _ rfl _ _)) $$ [HI HL2 HO]
  · iframe HI Hlev ∗
  iintro ⟨HI, HL2, HO⟩
  iapply (boxed' m (lane_2 m c 2 K 14 (by decide) _ rfl _ _)) $$ [HI HL2 HO]
  · iframe HI Hlev ∗
  iintro ⟨HI, HL2, HO⟩
  iapply (lane_load_comm_3 m c 2 _ rfl) $$ HL2; iintro %vc2_0 %hvc2_0 HL2
  iapply (part_load m c _ _ (memJ_step c 0) (row_step_ne_j₀ c 0) 2 (partoff_step c 2 0)) $$ HP; iintro HP
  iapply (lane_load_comm_dead_3 m c 2 _ rfl) $$ HL2; iintro %vd2_0 HL2
  iapply (lane_3 m c 2 _ rfl _ (stored_comm m c 2 0 _ _ hvc2_0 rfl)) $$ HL2; iintro HL2
  iapply (boxed' m (lane_4 m K c 2 _ rfl _ rfl _ (Mesh.dev15_eq c) _ _ rfl rfl 14 15 rfl rfl)) $$ [HI HL2 HO]
  · iframe
  iintro ⟨HI, HL2, HO⟩
  iapply (boxed' m (lane_1 m c 3 K 15 _ rfl _ _)) $$ [HI HL3 HO]
  · iframe HI Hlev ∗
  iintro ⟨HI, HL3, HO⟩
  iapply (boxed' m (lane_2 m c 3 K 15 (by decide) _ rfl _ _)) $$ [HI HL3 HO]
  · iframe HI Hlev ∗
  iintro ⟨HI, HL3, HO⟩
  iapply (lane_load_comm_3 m c 3 _ rfl) $$ HL3; iintro %vc3_0 %hvc3_0 HL3
  iapply (part_load m c _ _ (memJ_step c 0) (row_step_ne_j₀ c 0) 3 (partoff_step c 3 0)) $$ HP; iintro HP
  iapply (lane_load_comm_dead_3 m c 3 _ rfl) $$ HL3; iintro %vd3_0 HL3
  iapply (lane_3 m c 3 _ rfl _ (stored_comm m c 3 0 _ _ hvc3_0 rfl)) $$ HL3; iintro HL3
  iapply (boxed' m (lane_4 m K c 3 _ rfl _ rfl _ (Mesh.dev16_eq c) _ _ rfl rfl 15 16 rfl rfl)) $$ [HI HL3 HO]
  · iframe
  iintro ⟨HI, HL3, HO⟩
  iapply (boxed' m (lane_1 m c 4 K 16 _ rfl _ _)) $$ [HI HL4 HO]
  · iframe HI Hlev ∗
  iintro ⟨HI, HL4, HO⟩
  iapply (boxed' m (lane_2 m c 4 K 16 (by decide) _ rfl _ _)) $$ [HI HL4 HO]
  · iframe HI Hlev ∗
  iintro ⟨HI, HL4, HO⟩
  iapply (lane_load_comm_3 m c 4 _ rfl) $$ HL4; iintro %vc4_0 %hvc4_0 HL4
  iapply (part_load m c _ _ (memJ_step c 0) (row_step_ne_j₀ c 0) 4 (partoff_step c 4 0)) $$ HP; iintro HP
  iapply (lane_load_comm_dead_3 m c 4 _ rfl) $$ HL4; iintro %vd4_0 HL4
  iapply (lane_3 m c 4 _ rfl _ (stored_comm m c 4 0 _ _ hvc4_0 rfl)) $$ HL4; iintro HL4
  iapply (boxed' m (lane_4 m K c 4 _ rfl _ rfl _ (Mesh.dev17_eq c) _ _ rfl rfl 16 17 rfl rfl)) $$ [HI HL4 HO]
  · iframe
  iintro ⟨HI, HL4, HO⟩
  iapply (boxed' m (lane_1 m c 5 K 17 _ rfl _ _)) $$ [HI HL5 HO]
  · iframe HI Hlev ∗
  iintro ⟨HI, HL5, HO⟩
  iapply (boxed' m (lane_2 m c 5 K 17 (by decide) _ rfl _ _)) $$ [HI HL5 HO]
  · iframe HI Hlev ∗
  iintro ⟨HI, HL5, HO⟩
  iapply (lane_load_comm_3 m c 5 _ rfl) $$ HL5; iintro %vc5_0 %hvc5_0 HL5
  iapply (part_load m c _ _ (memJ_step c 0) (row_step_ne_j₀ c 0) 5 (partoff_step c 5 0)) $$ HP; iintro HP
  iapply (lane_load_comm_dead_3 m c 5 _ rfl) $$ HL5; iintro %vd5_0 HL5
  iapply (lane_3 m c 5 _ rfl _ (stored_comm m c 5 0 _ _ hvc5_0 rfl)) $$ HL5; iintro HL5
  iapply (boxed' m (lane_4 m K c 5 _ rfl _ rfl _ (Mesh.dev18_eq c) _ _ rfl rfl 17 18 rfl rfl)) $$ [HI HL5 HO]
  · iframe
  iintro ⟨HI, HL5, HO⟩
  iapply (boxed' m (lane_1 m c 6 K 18 _ rfl _ _)) $$ [HI HL6 HO]
  · iframe HI Hlev ∗
  iintro ⟨HI, HL6, HO⟩
  iapply (boxed' m (lane_2 m c 6 K 18 (by decide) _ rfl _ _)) $$ [HI HL6 HO]
  · iframe HI Hlev ∗
  iintro ⟨HI, HL6, HO⟩
  iapply (lane_load_comm_3 m c 6 _ rfl) $$ HL6; iintro %vc6_0 %hvc6_0 HL6
  iapply (part_load m c _ _ (memJ_step c 0) (row_step_ne_j₀ c 0) 6 (partoff_step c 6 0)) $$ HP; iintro HP
  iapply (lane_load_comm_dead_3 m c 6 _ rfl) $$ HL6; iintro %vd6_0 HL6
  iapply (lane_3 m c 6 _ rfl _ (stored_comm m c 6 0 _ _ hvc6_0 rfl)) $$ HL6; iintro HL6
  iapply (boxed' m (lane_4 m K c 6 _ rfl _ rfl _ (Mesh.dev19_eq c) _ _ rfl rfl 18 19 rfl rfl)) $$ [HI HL6 HO]
  · iframe
  iintro ⟨HI, HL6, HO⟩
  iapply (boxed' m (lane_1 m c 7 K 19 _ rfl _ _)) $$ [HI HL7 HO]
  · iframe HI Hlev ∗
  iintro ⟨HI, HL7, HO⟩
  iapply (boxed' m (lane_2 m c 7 K 19 (by decide) _ rfl _ _)) $$ [HI HL7 HO]
  · iframe HI Hlev ∗
  iintro ⟨HI, HL7, HO⟩
  iapply (lane_load_comm_3 m c 7 _ rfl) $$ HL7; iintro %vc7_0 %hvc7_0 HL7
  iapply (part_load m c _ _ (memJ_step c 0) (row_step_ne_j₀ c 0) 7 (partoff_step c 7 0)) $$ HP; iintro HP
  iapply (lane_load_comm_dead_3 m c 7 _ rfl) $$ HL7; iintro %vd7_0 HL7
  iapply (lane_3 m c 7 _ rfl _ (stored_comm m c 7 0 _ _ hvc7_0 rfl)) $$ HL7; iintro HL7
  iapply (boxed' m (lane_4 m K c 7 _ rfl _ rfl _ (Mesh.dev20_eq c) _ _ rfl rfl 19 20 rfl rfl)) $$ [HI HL7 HO]
  · iframe
  iintro ⟨HI, HL7, HO⟩
  iapply (boxed' m (lane_5 m c 0 K 20 _ rfl _ _)) $$ [HI HL0 HO]
  · iframe HI Hlev ∗
  iintro ⟨HI, HL0, HO⟩
  iapply (boxed' m (lane_6 m c 0 K 20 (by decide) _ rfl _ _)) $$ [HI HL0 HO]
  · iframe HI Hlev ∗
  iintro ⟨HI, HL0, HO⟩
  iapply (lane_load_comm_7 m c 0 _ rfl) $$ HL0; iintro %vc0_1 %hvc0_1 HL0
  iapply (part_load m c _ _ (memJ_step c 1) (row_step_ne_j₀ c 1) 0 (partoff_step c 0 1)) $$ HP; iintro HP
  iapply (lane_load_comm_dead_7 m c 0 _ rfl) $$ HL0; iintro %vd0_1 HL0
  iapply (lane_7 m c 0 _ rfl _ (stored_comm m c 0 1 _ _ hvc0_1 rfl)) $$ HL0; iintro HL0
  iapply (boxed' m (lane_8 m K c 0 _ rfl _ rfl _ (Mesh.dev21_eq c) _ _ rfl rfl 20 21 rfl rfl)) $$ [HI HL0 HO]
  · iframe
  iintro ⟨HI, HL0, HO⟩
  iapply (boxed' m (lane_5 m c 1 K 21 _ rfl _ _)) $$ [HI HL1 HO]
  · iframe HI Hlev ∗
  iintro ⟨HI, HL1, HO⟩
  iapply (boxed' m (lane_6 m c 1 K 21 (by decide) _ rfl _ _)) $$ [HI HL1 HO]
  · iframe HI Hlev ∗
  iintro ⟨HI, HL1, HO⟩
  iapply (lane_load_comm_7 m c 1 _ rfl) $$ HL1; iintro %vc1_1 %hvc1_1 HL1
  iapply (part_load m c _ _ (memJ_step c 1) (row_step_ne_j₀ c 1) 1 (partoff_step c 1 1)) $$ HP; iintro HP
  iapply (lane_load_comm_dead_7 m c 1 _ rfl) $$ HL1; iintro %vd1_1 HL1
  iapply (lane_7 m c 1 _ rfl _ (stored_comm m c 1 1 _ _ hvc1_1 rfl)) $$ HL1; iintro HL1
  iapply (boxed' m (lane_8 m K c 1 _ rfl _ rfl _ (Mesh.dev22_eq c) _ _ rfl rfl 21 22 rfl rfl)) $$ [HI HL1 HO]
  · iframe
  iintro ⟨HI, HL1, HO⟩
  iapply (boxed' m (lane_5 m c 2 K 22 _ rfl _ _)) $$ [HI HL2 HO]
  · iframe HI Hlev ∗
  iintro ⟨HI, HL2, HO⟩
  iapply (boxed' m (lane_6 m c 2 K 22 (by decide) _ rfl _ _)) $$ [HI HL2 HO]
  · iframe HI Hlev ∗
  iintro ⟨HI, HL2, HO⟩
  iapply (lane_load_comm_7 m c 2 _ rfl) $$ HL2; iintro %vc2_1 %hvc2_1 HL2
  iapply (part_load m c _ _ (memJ_step c 1) (row_step_ne_j₀ c 1) 2 (partoff_step c 2 1)) $$ HP; iintro HP
  iapply (lane_load_comm_dead_7 m c 2 _ rfl) $$ HL2; iintro %vd2_1 HL2
  iapply (lane_7 m c 2 _ rfl _ (stored_comm m c 2 1 _ _ hvc2_1 rfl)) $$ HL2; iintro HL2
  iapply (boxed' m (lane_8 m K c 2 _ rfl _ rfl _ (Mesh.dev23_eq c) _ _ rfl rfl 22 23 rfl rfl)) $$ [HI HL2 HO]
  · iframe
  iintro ⟨HI, HL2, HO⟩
  iapply (boxed' m (lane_5 m c 3 K 23 _ rfl _ _)) $$ [HI HL3 HO]
  · iframe HI Hlev ∗
  iintro ⟨HI, HL3, HO⟩
  iapply (boxed' m (lane_6 m c 3 K 23 (by decide) _ rfl _ _)) $$ [HI HL3 HO]
  · iframe HI Hlev ∗
  iintro ⟨HI, HL3, HO⟩
  iapply (lane_load_comm_7 m c 3 _ rfl) $$ HL3; iintro %vc3_1 %hvc3_1 HL3
  iapply (part_load m c _ _ (memJ_step c 1) (row_step_ne_j₀ c 1) 3 (partoff_step c 3 1)) $$ HP; iintro HP
  iapply (lane_load_comm_dead_7 m c 3 _ rfl) $$ HL3; iintro %vd3_1 HL3
  iapply (lane_7 m c 3 _ rfl _ (stored_comm m c 3 1 _ _ hvc3_1 rfl)) $$ HL3; iintro HL3
  iapply (boxed' m (lane_8 m K c 3 _ rfl _ rfl _ (Mesh.dev24_eq c) _ _ rfl rfl 23 24 rfl rfl)) $$ [HI HL3 HO]
  · iframe
  iintro ⟨HI, HL3, HO⟩
  iapply (boxed' m (lane_5 m c 4 K 24 _ rfl _ _)) $$ [HI HL4 HO]
  · iframe HI Hlev ∗
  iintro ⟨HI, HL4, HO⟩
  iapply (boxed' m (lane_6 m c 4 K 24 (by decide) _ rfl _ _)) $$ [HI HL4 HO]
  · iframe HI Hlev ∗
  iintro ⟨HI, HL4, HO⟩
  iapply (lane_load_comm_7 m c 4 _ rfl) $$ HL4; iintro %vc4_1 %hvc4_1 HL4
  iapply (part_load m c _ _ (memJ_step c 1) (row_step_ne_j₀ c 1) 4 (partoff_step c 4 1)) $$ HP; iintro HP
  iapply (lane_load_comm_dead_7 m c 4 _ rfl) $$ HL4; iintro %vd4_1 HL4
  iapply (lane_7 m c 4 _ rfl _ (stored_comm m c 4 1 _ _ hvc4_1 rfl)) $$ HL4; iintro HL4
  iapply (boxed' m (lane_8 m K c 4 _ rfl _ rfl _ (Mesh.dev25_eq c) _ _ rfl rfl 24 25 rfl rfl)) $$ [HI HL4 HO]
  · iframe
  iintro ⟨HI, HL4, HO⟩
  iapply (boxed' m (lane_5 m c 5 K 25 _ rfl _ _)) $$ [HI HL5 HO]
  · iframe HI Hlev ∗
  iintro ⟨HI, HL5, HO⟩
  iapply (boxed' m (lane_6 m c 5 K 25 (by decide) _ rfl _ _)) $$ [HI HL5 HO]
  · iframe HI Hlev ∗
  iintro ⟨HI, HL5, HO⟩
  iapply (lane_load_comm_7 m c 5 _ rfl) $$ HL5; iintro %vc5_1 %hvc5_1 HL5
  iapply (part_load m c _ _ (memJ_step c 1) (row_step_ne_j₀ c 1) 5 (partoff_step c 5 1)) $$ HP; iintro HP
  iapply (lane_load_comm_dead_7 m c 5 _ rfl) $$ HL5; iintro %vd5_1 HL5
  iapply (lane_7 m c 5 _ rfl _ (stored_comm m c 5 1 _ _ hvc5_1 rfl)) $$ HL5; iintro HL5
  iapply (boxed' m (lane_8 m K c 5 _ rfl _ rfl _ (Mesh.dev26_eq c) _ _ rfl rfl 25 26 rfl rfl)) $$ [HI HL5 HO]
  · iframe
  iintro ⟨HI, HL5, HO⟩
  iapply (boxed' m (lane_5 m c 6 K 26 _ rfl _ _)) $$ [HI HL6 HO]
  · iframe HI Hlev ∗
  iintro ⟨HI, HL6, HO⟩
  iapply (boxed' m (lane_6 m c 6 K 26 (by decide) _ rfl _ _)) $$ [HI HL6 HO]
  · iframe HI Hlev ∗
  iintro ⟨HI, HL6, HO⟩
  iapply (lane_load_comm_7 m c 6 _ rfl) $$ HL6; iintro %vc6_1 %hvc6_1 HL6
  iapply (part_load m c _ _ (memJ_step c 1) (row_step_ne_j₀ c 1) 6 (partoff_step c 6 1)) $$ HP; iintro HP
  iapply (lane_load_comm_dead_7 m c 6 _ rfl) $$ HL6; iintro %vd6_1 HL6
  iapply (lane_7 m c 6 _ rfl _ (stored_comm m c 6 1 _ _ hvc6_1 rfl)) $$ HL6; iintro HL6
  iapply (boxed' m (lane_8 m K c 6 _ rfl _ rfl _ (Mesh.dev27_eq c) _ _ rfl rfl 26 27 rfl rfl)) $$ [HI HL6 HO]
  · iframe
  iintro ⟨HI, HL6, HO⟩
  iapply (boxed' m (lane_5 m c 7 K 27 _ rfl _ _)) $$ [HI HL7 HO]
  · iframe HI Hlev ∗
  iintro ⟨HI, HL7, HO⟩
  iapply (boxed' m (lane_6 m c 7 K 27 (by decide) _ rfl _ _)) $$ [HI HL7 HO]
  · iframe HI Hlev ∗
  iintro ⟨HI, HL7, HO⟩
  iapply (lane_load_comm_7 m c 7 _ rfl) $$ HL7; iintro %vc7_1 %hvc7_1 HL7
  iapply (part_load m c _ _ (memJ_step c 1) (row_step_ne_j₀ c 1) 7 (partoff_step c 7 1)) $$ HP; iintro HP
  iapply (lane_load_comm_dead_7 m c 7 _ rfl) $$ HL7; iintro %vd7_1 HL7
  iapply (lane_7 m c 7 _ rfl _ (stored_comm m c 7 1 _ _ hvc7_1 rfl)) $$ HL7; iintro HL7
  iapply (boxed' m (lane_8 m K c 7 _ rfl _ rfl _ (Mesh.dev28_eq c) _ _ rfl rfl 27 28 rfl rfl)) $$ [HI HL7 HO]
  · iframe
  iintro ⟨HI, HL7, HO⟩
  iapply (boxed' m (lane_9 m c 0 K 28 _ rfl _ _)) $$ [HI HL0 HO]
  · iframe HI Hlev ∗
  iintro ⟨HI, HL0, HO⟩
  iapply (boxed' m (lane_10 m c 0 K 28 (by decide) _ rfl _ _)) $$ [HI HL0 HO]
  · iframe HI Hlev ∗
  iintro ⟨HI, HL0, HO⟩
  iapply (lane_load_comm_11 m c 0 _ rfl) $$ HL0; iintro %vc0_2 %hvc0_2 HL0
  iapply (part_load m c _ _ (memJ_own c) (row_own_ne_j₀ c) 0 (partoff_own c 0)) $$ HP; iintro HP
  iapply (lane_out_dead_11 m c 0 _ (off21_own c 0)) $$ HL0; iintro %vo0 HL0
  iapply (lane_11 m c 0 _ (off21_own c 0) _ (stored_out m c 0 _ _ hvc0_2 rfl)) $$ HL0; iintro HL0
  iapply (boxed' m (lane_12 m K c 0 _ (out_own_eq c 0 _ _ (Gen.k0_off22_eq c 0)) _ (out_own_eq c 0 _ _ (Gen.k0_off22_eq c 0)) _ (Mesh.dev29_eq c) _ _ rfl rfl 28 29 rfl rfl)) $$ [HI HL0 HO]
  · iframe
  iintro ⟨HI, HL0, HO⟩
  iapply (boxed' m (lane_13 m K c 0 _ (out_own_eq c 0 _ _ (Gen.k0_off22_eq c 0)) _ (out_own_eq c 0 _ _ (Gen.k0_off22_eq c 0)) _ (Mesh.dev30_eq c) _ _ rfl rfl 29 30 rfl rfl)) $$ [HI HL0 HO]
  · iframe
  iintro ⟨HI, HL0, HO⟩
  iapply (boxed' m (lane_9 m c 1 K 30 _ rfl _ _)) $$ [HI HL1 HO]
  · iframe HI Hlev ∗
  iintro ⟨HI, HL1, HO⟩
  iapply (boxed' m (lane_10 m c 1 K 30 (by decide) _ rfl _ _)) $$ [HI HL1 HO]
  · iframe HI Hlev ∗
  iintro ⟨HI, HL1, HO⟩
  iapply (lane_load_comm_11 m c 1 _ rfl) $$ HL1; iintro %vc1_2 %hvc1_2 HL1
  iapply (part_load m c _ _ (memJ_own c) (row_own_ne_j₀ c) 1 (partoff_own c 1)) $$ HP; iintro HP
  iapply (lane_out_dead_11 m c 1 _ (off21_own c 1)) $$ HL1; iintro %vo1 HL1
  iapply (lane_11 m c 1 _ (off21_own c 1) _ (stored_out m c 1 _ _ hvc1_2 rfl)) $$ HL1; iintro HL1
  iapply (boxed' m (lane_12 m K c 1 _ (out_own_eq c 1 _ _ (Gen.k0_off22_eq c 1)) _ (out_own_eq c 1 _ _ (Gen.k0_off22_eq c 1)) _ (Mesh.dev31_eq c) _ _ rfl rfl 30 31 rfl rfl)) $$ [HI HL1 HO]
  · iframe
  iintro ⟨HI, HL1, HO⟩
  iapply (boxed' m (lane_13 m K c 1 _ (out_own_eq c 1 _ _ (Gen.k0_off22_eq c 1)) _ (out_own_eq c 1 _ _ (Gen.k0_off22_eq c 1)) _ (Mesh.dev32_eq c) _ _ rfl rfl 31 32 rfl rfl)) $$ [HI HL1 HO]
  · iframe
  iintro ⟨HI, HL1, HO⟩
  iapply (boxed' m (lane_9 m c 2 K 32 _ rfl _ _)) $$ [HI HL2 HO]
  · iframe HI Hlev ∗
  iintro ⟨HI, HL2, HO⟩
  iapply (boxed' m (lane_10 m c 2 K 32 (by decide) _ rfl _ _)) $$ [HI HL2 HO]
  · iframe HI Hlev ∗
  iintro ⟨HI, HL2, HO⟩
  iapply (lane_load_comm_11 m c 2 _ rfl) $$ HL2; iintro %vc2_2 %hvc2_2 HL2
  iapply (part_load m c _ _ (memJ_own c) (row_own_ne_j₀ c) 2 (partoff_own c 2)) $$ HP; iintro HP
  iapply (lane_out_dead_11 m c 2 _ (off21_own c 2)) $$ HL2; iintro %vo2 HL2
  iapply (lane_11 m c 2 _ (off21_own c 2) _ (stored_out m c 2 _ _ hvc2_2 rfl)) $$ HL2; iintro HL2
  iapply (boxed' m (lane_12 m K c 2 _ (out_own_eq c 2 _ _ (Gen.k0_off22_eq c 2)) _ (out_own_eq c 2 _ _ (Gen.k0_off22_eq c 2)) _ (Mesh.dev33_eq c) _ _ rfl rfl 32 33 rfl rfl)) $$ [HI HL2 HO]
  · iframe
  iintro ⟨HI, HL2, HO⟩
  iapply (boxed' m (lane_13 m K c 2 _ (out_own_eq c 2 _ _ (Gen.k0_off22_eq c 2)) _ (out_own_eq c 2 _ _ (Gen.k0_off22_eq c 2)) _ (Mesh.dev34_eq c) _ _ rfl rfl 33 34 rfl rfl)) $$ [HI HL2 HO]
  · iframe
  iintro ⟨HI, HL2, HO⟩
  iapply (boxed' m (lane_9 m c 3 K 34 _ rfl _ _)) $$ [HI HL3 HO]
  · iframe HI Hlev ∗
  iintro ⟨HI, HL3, HO⟩
  iapply (boxed' m (lane_10 m c 3 K 34 (by decide) _ rfl _ _)) $$ [HI HL3 HO]
  · iframe HI Hlev ∗
  iintro ⟨HI, HL3, HO⟩
  iapply (lane_load_comm_11 m c 3 _ rfl) $$ HL3; iintro %vc3_2 %hvc3_2 HL3
  iapply (part_load m c _ _ (memJ_own c) (row_own_ne_j₀ c) 3 (partoff_own c 3)) $$ HP; iintro HP
  iapply (lane_out_dead_11 m c 3 _ (off21_own c 3)) $$ HL3; iintro %vo3 HL3
  iapply (lane_11 m c 3 _ (off21_own c 3) _ (stored_out m c 3 _ _ hvc3_2 rfl)) $$ HL3; iintro HL3
  iapply (boxed' m (lane_12 m K c 3 _ (out_own_eq c 3 _ _ (Gen.k0_off22_eq c 3)) _ (out_own_eq c 3 _ _ (Gen.k0_off22_eq c 3)) _ (Mesh.dev35_eq c) _ _ rfl rfl 34 35 rfl rfl)) $$ [HI HL3 HO]
  · iframe
  iintro ⟨HI, HL3, HO⟩
  iapply (boxed' m (lane_13 m K c 3 _ (out_own_eq c 3 _ _ (Gen.k0_off22_eq c 3)) _ (out_own_eq c 3 _ _ (Gen.k0_off22_eq c 3)) _ (Mesh.dev36_eq c) _ _ rfl rfl 35 36 rfl rfl)) $$ [HI HL3 HO]
  · iframe
  iintro ⟨HI, HL3, HO⟩
  iapply (boxed' m (lane_9 m c 4 K 36 _ rfl _ _)) $$ [HI HL4 HO]
  · iframe HI Hlev ∗
  iintro ⟨HI, HL4, HO⟩
  iapply (boxed' m (lane_10 m c 4 K 36 (by decide) _ rfl _ _)) $$ [HI HL4 HO]
  · iframe HI Hlev ∗
  iintro ⟨HI, HL4, HO⟩
  iapply (lane_load_comm_11 m c 4 _ rfl) $$ HL4; iintro %vc4_2 %hvc4_2 HL4
  iapply (part_load m c _ _ (memJ_own c) (row_own_ne_j₀ c) 4 (partoff_own c 4)) $$ HP; iintro HP
  iapply (lane_out_dead_11 m c 4 _ (off21_own c 4)) $$ HL4; iintro %vo4 HL4
  iapply (lane_11 m c 4 _ (off21_own c 4) _ (stored_out m c 4 _ _ hvc4_2 rfl)) $$ HL4; iintro HL4
  iapply (boxed' m (lane_12 m K c 4 _ (out_own_eq c 4 _ _ (Gen.k0_off22_eq c 4)) _ (out_own_eq c 4 _ _ (Gen.k0_off22_eq c 4)) _ (Mesh.dev37_eq c) _ _ rfl rfl 36 37 rfl rfl)) $$ [HI HL4 HO]
  · iframe
  iintro ⟨HI, HL4, HO⟩
  iapply (boxed' m (lane_13 m K c 4 _ (out_own_eq c 4 _ _ (Gen.k0_off22_eq c 4)) _ (out_own_eq c 4 _ _ (Gen.k0_off22_eq c 4)) _ (Mesh.dev38_eq c) _ _ rfl rfl 37 38 rfl rfl)) $$ [HI HL4 HO]
  · iframe
  iintro ⟨HI, HL4, HO⟩
  iapply (boxed' m (lane_9 m c 5 K 38 _ rfl _ _)) $$ [HI HL5 HO]
  · iframe HI Hlev ∗
  iintro ⟨HI, HL5, HO⟩
  iapply (boxed' m (lane_10 m c 5 K 38 (by decide) _ rfl _ _)) $$ [HI HL5 HO]
  · iframe HI Hlev ∗
  iintro ⟨HI, HL5, HO⟩
  iapply (lane_load_comm_11 m c 5 _ rfl) $$ HL5; iintro %vc5_2 %hvc5_2 HL5
  iapply (part_load m c _ _ (memJ_own c) (row_own_ne_j₀ c) 5 (partoff_own c 5)) $$ HP; iintro HP
  iapply (lane_out_dead_11 m c 5 _ (off21_own c 5)) $$ HL5; iintro %vo5 HL5
  iapply (lane_11 m c 5 _ (off21_own c 5) _ (stored_out m c 5 _ _ hvc5_2 rfl)) $$ HL5; iintro HL5
  iapply (boxed' m (lane_12 m K c 5 _ (out_own_eq c 5 _ _ (Gen.k0_off22_eq c 5)) _ (out_own_eq c 5 _ _ (Gen.k0_off22_eq c 5)) _ (Mesh.dev39_eq c) _ _ rfl rfl 38 39 rfl rfl)) $$ [HI HL5 HO]
  · iframe
  iintro ⟨HI, HL5, HO⟩
  iapply (boxed' m (lane_13 m K c 5 _ (out_own_eq c 5 _ _ (Gen.k0_off22_eq c 5)) _ (out_own_eq c 5 _ _ (Gen.k0_off22_eq c 5)) _ (Mesh.dev40_eq c) _ _ rfl rfl 39 40 rfl rfl)) $$ [HI HL5 HO]
  · iframe
  iintro ⟨HI, HL5, HO⟩
  iapply (boxed' m (lane_9 m c 6 K 40 _ rfl _ _)) $$ [HI HL6 HO]
  · iframe HI Hlev ∗
  iintro ⟨HI, HL6, HO⟩
  iapply (boxed' m (lane_10 m c 6 K 40 (by decide) _ rfl _ _)) $$ [HI HL6 HO]
  · iframe HI Hlev ∗
  iintro ⟨HI, HL6, HO⟩
  iapply (lane_load_comm_11 m c 6 _ rfl) $$ HL6; iintro %vc6_2 %hvc6_2 HL6
  iapply (part_load m c _ _ (memJ_own c) (row_own_ne_j₀ c) 6 (partoff_own c 6)) $$ HP; iintro HP
  iapply (lane_out_dead_11 m c 6 _ (off21_own c 6)) $$ HL6; iintro %vo6 HL6
  iapply (lane_11 m c 6 _ (off21_own c 6) _ (stored_out m c 6 _ _ hvc6_2 rfl)) $$ HL6; iintro HL6
  iapply (boxed' m (lane_12 m K c 6 _ (out_own_eq c 6 _ _ (Gen.k0_off22_eq c 6)) _ (out_own_eq c 6 _ _ (Gen.k0_off22_eq c 6)) _ (Mesh.dev41_eq c) _ _ rfl rfl 40 41 rfl rfl)) $$ [HI HL6 HO]
  · iframe
  iintro ⟨HI, HL6, HO⟩
  iapply (boxed' m (lane_13 m K c 6 _ (out_own_eq c 6 _ _ (Gen.k0_off22_eq c 6)) _ (out_own_eq c 6 _ _ (Gen.k0_off22_eq c 6)) _ (Mesh.dev42_eq c) _ _ rfl rfl 41 42 rfl rfl)) $$ [HI HL6 HO]
  · iframe
  iintro ⟨HI, HL6, HO⟩
  iapply (boxed' m (lane_9 m c 7 K 42 _ rfl _ _)) $$ [HI HL7 HO]
  · iframe HI Hlev ∗
  iintro ⟨HI, HL7, HO⟩
  iapply (boxed' m (lane_10 m c 7 K 42 (by decide) _ rfl _ _)) $$ [HI HL7 HO]
  · iframe HI Hlev ∗
  iintro ⟨HI, HL7, HO⟩
  iapply (lane_load_comm_11 m c 7 _ rfl) $$ HL7; iintro %vc7_2 %hvc7_2 HL7
  iapply (part_load m c _ _ (memJ_own c) (row_own_ne_j₀ c) 7 (partoff_own c 7)) $$ HP; iintro HP
  iapply (lane_out_dead_11 m c 7 _ (off21_own c 7)) $$ HL7; iintro %vo7 HL7
  iapply (lane_11 m c 7 _ (off21_own c 7) _ (stored_out m c 7 _ _ hvc7_2 rfl)) $$ HL7; iintro HL7
  iapply (boxed' m (lane_12 m K c 7 _ (out_own_eq c 7 _ _ (Gen.k0_off22_eq c 7)) _ (out_own_eq c 7 _ _ (Gen.k0_off22_eq c 7)) _ (Mesh.dev43_eq c) _ _ rfl rfl 42 43 rfl rfl)) $$ [HI HL7 HO]
  · iframe
  iintro ⟨HI, HL7, HO⟩
  iapply (boxed' m (lane_13 m K c 7 _ (out_own_eq c 7 _ _ (Gen.k0_off22_eq c 7)) _ (out_own_eq c 7 _ _ (Gen.k0_off22_eq c 7)) _ (Mesh.dev44_eq c) _ _ rfl rfl 43 44 rfl rfl)) $$ [HI HL7 HO]
  · iframe
  iintro ⟨HI, HL7, HO⟩
  iapply (boxed' m (lane_14 m c 0 K 44 (by decide) _ rfl _ _)) $$ [HI HL0 HO]
  · iframe HI Hlev ∗
  iintro ⟨HI, HL0, HO⟩
  iapply (boxed' m (lane_15 m K c 0 _ (out_xn_eq c 0 _ _ (Gen.k0_off30_eq c 0)) _ (out_xn_eq c 0 _ _ (Gen.k0_off30_eq c 0)) _ (Mesh.dev45_eq c) _ _ rfl rfl 44 45 rfl rfl)) $$ [HI HL0 HO]
  · iframe
  iintro ⟨HI, HL0, HO⟩
  iapply (boxed' m (lane_14 m c 1 K 45 (by decide) _ rfl _ _)) $$ [HI HL1 HO]
  · iframe HI Hlev ∗
  iintro ⟨HI, HL1, HO⟩
  iapply (boxed' m (lane_15 m K c 1 _ (out_xn_eq c 1 _ _ (Gen.k0_off30_eq c 1)) _ (out_xn_eq c 1 _ _ (Gen.k0_off30_eq c 1)) _ (Mesh.dev46_eq c) _ _ rfl rfl 45 46 rfl rfl)) $$ [HI HL1 HO]
  · iframe
  iintro ⟨HI, HL1, HO⟩
  iapply (boxed' m (lane_14 m c 2 K 46 (by decide) _ rfl _ _)) $$ [HI HL2 HO]
  · iframe HI Hlev ∗
  iintro ⟨HI, HL2, HO⟩
  iapply (boxed' m (lane_15 m K c 2 _ (out_xn_eq c 2 _ _ (Gen.k0_off30_eq c 2)) _ (out_xn_eq c 2 _ _ (Gen.k0_off30_eq c 2)) _ (Mesh.dev47_eq c) _ _ rfl rfl 46 47 rfl rfl)) $$ [HI HL2 HO]
  · iframe
  iintro ⟨HI, HL2, HO⟩
  iapply (boxed' m (lane_14 m c 3 K 47 (by decide) _ rfl _ _)) $$ [HI HL3 HO]
  · iframe HI Hlev ∗
  iintro ⟨HI, HL3, HO⟩
  iapply (boxed' m (lane_15 m K c 3 _ (out_xn_eq c 3 _ _ (Gen.k0_off30_eq c 3)) _ (out_xn_eq c 3 _ _ (Gen.k0_off30_eq c 3)) _ (Mesh.dev48_eq c) _ _ rfl rfl 47 48 rfl rfl)) $$ [HI HL3 HO]
  · iframe
  iintro ⟨HI, HL3, HO⟩
  iapply (boxed' m (lane_14 m c 4 K 48 (by decide) _ rfl _ _)) $$ [HI HL4 HO]
  · iframe HI Hlev ∗
  iintro ⟨HI, HL4, HO⟩
  iapply (boxed' m (lane_15 m K c 4 _ (out_xn_eq c 4 _ _ (Gen.k0_off30_eq c 4)) _ (out_xn_eq c 4 _ _ (Gen.k0_off30_eq c 4)) _ (Mesh.dev49_eq c) _ _ rfl rfl 48 49 rfl rfl)) $$ [HI HL4 HO]
  · iframe
  iintro ⟨HI, HL4, HO⟩
  iapply (boxed' m (lane_14 m c 5 K 49 (by decide) _ rfl _ _)) $$ [HI HL5 HO]
  · iframe HI Hlev ∗
  iintro ⟨HI, HL5, HO⟩
  iapply (boxed' m (lane_15 m K c 5 _ (out_xn_eq c 5 _ _ (Gen.k0_off30_eq c 5)) _ (out_xn_eq c 5 _ _ (Gen.k0_off30_eq c 5)) _ (Mesh.dev50_eq c) _ _ rfl rfl 49 50 rfl rfl)) $$ [HI HL5 HO]
  · iframe
  iintro ⟨HI, HL5, HO⟩
  iapply (boxed' m (lane_14 m c 6 K 50 (by decide) _ rfl _ _)) $$ [HI HL6 HO]
  · iframe HI Hlev ∗
  iintro ⟨HI, HL6, HO⟩
  iapply (boxed' m (lane_15 m K c 6 _ (out_xn_eq c 6 _ _ (Gen.k0_off30_eq c 6)) _ (out_xn_eq c 6 _ _ (Gen.k0_off30_eq c 6)) _ (Mesh.dev51_eq c) _ _ rfl rfl 50 51 rfl rfl)) $$ [HI HL6 HO]
  · iframe
  iintro ⟨HI, HL6, HO⟩
  iapply (boxed' m (lane_14 m c 7 K 51 (by decide) _ rfl _ _)) $$ [HI HL7 HO]
  · iframe HI Hlev ∗
  iintro ⟨HI, HL7, HO⟩
  iapply (boxed' m (lane_15 m K c 7 _ (out_xn_eq c 7 _ _ (Gen.k0_off30_eq c 7)) _ (out_xn_eq c 7 _ _ (Gen.k0_off30_eq c 7)) _ (Mesh.dev52_eq c) _ _ rfl rfl 51 52 rfl rfl)) $$ [HI HL7 HO]
  · iframe
  iintro ⟨HI, HL7, HO⟩
  iapply (boxed' m (lane_16 m c 0 K 52 _ rfl _ _)) $$ [HI HL0 HO]
  · iframe HI Hlev ∗
  iintro ⟨HI, HL0, HO⟩
  iapply (boxed' m (lane_17 m c 0 K 52 _ rfl _ _)) $$ [HI HL0 HO]
  · iframe HI Hlev ∗
  iintro ⟨HI, HL0, HO⟩
  iapply (boxed' m (lane_18 m c 0 K 52 (by decide) _ rfl _ _)) $$ [HI HL0 HO]
  · iframe HI Hlev ∗
  iintro ⟨HI, HL0, HO⟩
  iapply (boxed' m (lane_19 m c 0 K 52 _ rfl _ _)) $$ [HI HL0 HO]
  · iframe HI Hlev ∗
  iintro ⟨HI, HL0, HO⟩
  iapply (boxed' m (lane_20 m c 0 K 52 (by decide) _ rfl _ _)) $$ [HI HL0 HO]
  · iframe HI Hlev ∗
  iintro ⟨HI, HL0, HO⟩
  iapply (boxed' m (lane_16 m c 1 K 52 _ rfl _ _)) $$ [HI HL1 HO]
  · iframe HI Hlev ∗
  iintro ⟨HI, HL1, HO⟩
  iapply (boxed' m (lane_17 m c 1 K 52 _ rfl _ _)) $$ [HI HL1 HO]
  · iframe HI Hlev ∗
  iintro ⟨HI, HL1, HO⟩
  iapply (boxed' m (lane_18 m c 1 K 52 (by decide) _ rfl _ _)) $$ [HI HL1 HO]
  · iframe HI Hlev ∗
  iintro ⟨HI, HL1, HO⟩
  iapply (boxed' m (lane_19 m c 1 K 52 _ rfl _ _)) $$ [HI HL1 HO]
  · iframe HI Hlev ∗
  iintro ⟨HI, HL1, HO⟩
  iapply (boxed' m (lane_20 m c 1 K 52 (by decide) _ rfl _ _)) $$ [HI HL1 HO]
  · iframe HI Hlev ∗
  iintro ⟨HI, HL1, HO⟩
  iapply (boxed' m (lane_16 m c 2 K 52 _ rfl _ _)) $$ [HI HL2 HO]
  · iframe HI Hlev ∗
  iintro ⟨HI, HL2, HO⟩
  iapply (boxed' m (lane_17 m c 2 K 52 _ rfl _ _)) $$ [HI HL2 HO]
  · iframe HI Hlev ∗
  iintro ⟨HI, HL2, HO⟩
  iapply (boxed' m (lane_18 m c 2 K 52 (by decide) _ rfl _ _)) $$ [HI HL2 HO]
  · iframe HI Hlev ∗
  iintro ⟨HI, HL2, HO⟩
  iapply (boxed' m (lane_19 m c 2 K 52 _ rfl _ _)) $$ [HI HL2 HO]
  · iframe HI Hlev ∗
  iintro ⟨HI, HL2, HO⟩
  iapply (boxed' m (lane_20 m c 2 K 52 (by decide) _ rfl _ _)) $$ [HI HL2 HO]
  · iframe HI Hlev ∗
  iintro ⟨HI, HL2, HO⟩
  iapply (boxed' m (lane_16 m c 3 K 52 _ rfl _ _)) $$ [HI HL3 HO]
  · iframe HI Hlev ∗
  iintro ⟨HI, HL3, HO⟩
  iapply (boxed' m (lane_17 m c 3 K 52 _ rfl _ _)) $$ [HI HL3 HO]
  · iframe HI Hlev ∗
  iintro ⟨HI, HL3, HO⟩
  iapply (boxed' m (lane_18 m c 3 K 52 (by decide) _ rfl _ _)) $$ [HI HL3 HO]
  · iframe HI Hlev ∗
  iintro ⟨HI, HL3, HO⟩
  iapply (boxed' m (lane_19 m c 3 K 52 _ rfl _ _)) $$ [HI HL3 HO]
  · iframe HI Hlev ∗
  iintro ⟨HI, HL3, HO⟩
  iapply (boxed' m (lane_20 m c 3 K 52 (by decide) _ rfl _ _)) $$ [HI HL3 HO]
  · iframe HI Hlev ∗
  iintro ⟨HI, HL3, HO⟩
  iapply (boxed' m (lane_16 m c 4 K 52 _ rfl _ _)) $$ [HI HL4 HO]
  · iframe HI Hlev ∗
  iintro ⟨HI, HL4, HO⟩
  iapply (boxed' m (lane_17 m c 4 K 52 _ rfl _ _)) $$ [HI HL4 HO]
  · iframe HI Hlev ∗
  iintro ⟨HI, HL4, HO⟩
  iapply (boxed' m (lane_18 m c 4 K 52 (by decide) _ rfl _ _)) $$ [HI HL4 HO]
  · iframe HI Hlev ∗
  iintro ⟨HI, HL4, HO⟩
  iapply (boxed' m (lane_19 m c 4 K 52 _ rfl _ _)) $$ [HI HL4 HO]
  · iframe HI Hlev ∗
  iintro ⟨HI, HL4, HO⟩
  iapply (boxed' m (lane_20 m c 4 K 52 (by decide) _ rfl _ _)) $$ [HI HL4 HO]
  · iframe HI Hlev ∗
  iintro ⟨HI, HL4, HO⟩
  iapply (boxed' m (lane_16 m c 5 K 52 _ rfl _ _)) $$ [HI HL5 HO]
  · iframe HI Hlev ∗
  iintro ⟨HI, HL5, HO⟩
  iapply (boxed' m (lane_17 m c 5 K 52 _ rfl _ _)) $$ [HI HL5 HO]
  · iframe HI Hlev ∗
  iintro ⟨HI, HL5, HO⟩
  iapply (boxed' m (lane_18 m c 5 K 52 (by decide) _ rfl _ _)) $$ [HI HL5 HO]
  · iframe HI Hlev ∗
  iintro ⟨HI, HL5, HO⟩
  iapply (boxed' m (lane_19 m c 5 K 52 _ rfl _ _)) $$ [HI HL5 HO]
  · iframe HI Hlev ∗
  iintro ⟨HI, HL5, HO⟩
  iapply (boxed' m (lane_20 m c 5 K 52 (by decide) _ rfl _ _)) $$ [HI HL5 HO]
  · iframe HI Hlev ∗
  iintro ⟨HI, HL5, HO⟩
  iapply (boxed' m (lane_16 m c 6 K 52 _ rfl _ _)) $$ [HI HL6 HO]
  · iframe HI Hlev ∗
  iintro ⟨HI, HL6, HO⟩
  iapply (boxed' m (lane_17 m c 6 K 52 _ rfl _ _)) $$ [HI HL6 HO]
  · iframe HI Hlev ∗
  iintro ⟨HI, HL6, HO⟩
  iapply (boxed' m (lane_18 m c 6 K 52 (by decide) _ rfl _ _)) $$ [HI HL6 HO]
  · iframe HI Hlev ∗
  iintro ⟨HI, HL6, HO⟩
  iapply (boxed' m (lane_19 m c 6 K 52 _ rfl _ _)) $$ [HI HL6 HO]
  · iframe HI Hlev ∗
  iintro ⟨HI, HL6, HO⟩
  iapply (boxed' m (lane_20 m c 6 K 52 (by decide) _ rfl _ _)) $$ [HI HL6 HO]
  · iframe HI Hlev ∗
  iintro ⟨HI, HL6, HO⟩
  iapply (boxed' m (lane_16 m c 7 K 52 _ rfl _ _)) $$ [HI HL7 HO]
  · iframe HI Hlev ∗
  iintro ⟨HI, HL7, HO⟩
  iapply (boxed' m (lane_17 m c 7 K 52 _ rfl _ _)) $$ [HI HL7 HO]
  · iframe HI Hlev ∗
  iintro ⟨HI, HL7, HO⟩
  iapply (boxed' m (lane_18 m c 7 K 52 (by decide) _ rfl _ _)) $$ [HI HL7 HO]
  · iframe HI Hlev ∗
  iintro ⟨HI, HL7, HO⟩
  iapply (boxed' m (lane_19 m c 7 K 52 _ rfl _ _)) $$ [HI HL7 HO]
  · iframe HI Hlev ∗
  iintro ⟨HI, HL7, HO⟩
  iapply (boxed' m (lane_20 m c 7 K 52 (by decide) _ rfl _ _)) $$ [HI HL7 HO]
  · iframe HI Hlev ∗
  iintro ⟨HI, HL7, HO⟩
  ihave HI2 := (box_dup (invs m K)) $$ HI
  icases HI2 with ⟨HI, HIc⟩
  imod (boxed m (lane_close m K c 0)) $$ [HIc HL0] with HL0
  · iframe
  ihave HI2 := (box_dup (invs m K)) $$ HI
  icases HI2 with ⟨HI, HIc⟩
  imod (boxed m (lane_close m K c 1)) $$ [HIc HL1] with HL1
  · iframe
  ihave HI2 := (box_dup (invs m K)) $$ HI
  icases HI2 with ⟨HI, HIc⟩
  imod (boxed m (lane_close m K c 2)) $$ [HIc HL2] with HL2
  · iframe
  ihave HI2 := (box_dup (invs m K)) $$ HI
  icases HI2 with ⟨HI, HIc⟩
  imod (boxed m (lane_close m K c 3)) $$ [HIc HL3] with HL3
  · iframe
  ihave HI2 := (box_dup (invs m K)) $$ HI
  icases HI2 with ⟨HI, HIc⟩
  imod (boxed m (lane_close m K c 4)) $$ [HIc HL4] with HL4
  · iframe
  ihave HI2 := (box_dup (invs m K)) $$ HI
  icases HI2 with ⟨HI, HIc⟩
  imod (boxed m (lane_close m K c 5)) $$ [HIc HL5] with HL5
  · iframe
  ihave HI2 := (box_dup (invs m K)) $$ HI
  icases HI2 with ⟨HI, HIc⟩
  imod (boxed m (lane_close m K c 6)) $$ [HIc HL6] with HL6
  · iframe
  ihave HI2 := (box_dup (invs m K)) $$ HI
  icases HI2 with ⟨HI, HIc⟩
  imod (boxed m (lane_close m K c 7)) $$ [HIc HL7] with HL7
  · iframe
  rw [wp_ret]; imodintro
  iapply (body_exit m ρ c _)
  isplitl [HL0 HL1 HL2 HL3 HL4 HL5 HL6 HL7]
  · iframe
  iframe

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-- info: 'Cert.KernelIdeal.Sched.body_obligation' depends on axioms: [propext, Classical.choice, Quot.sound] -/
#guard_msgs in #print axioms body_obligation

end Cert.KernelIdeal.Sched

end
-- ==== Proof.Bits.LaneSt.lean ====
/- What one of the eight column lanes of a device holds at each of its stages 0 … 21: its position on its twelve cells, credits, duty tokens, the neighbours' landing blocks, and its own blocks with their values. -/
import proofs.«901049_g7700000000001050_dist_rsdw_v7x_xyz2x2x4_z_m1024_d1024_f4096_f32_1_alg».proof.Proof.Bits.State

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def LaneSt0 (c : Dev nD) (s : Fin 8) : sProp 𝕄 :=
  iprop(posAt c (rsSend s 0) 0
    ∗ posAt c (rsSend s 1) 0
    ∗ posAt c (rsSend s 2) 0
    ∗ posAt c (rsRecv s 0) 0
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 0)
    ∗ credOf c (rsRecv s 1)
    ∗ credOf c (rsRecv s 2)
    ∗ credOf c (t1Recv s)
    ∗ credOf c (t2Recv s)
    ∗ credOf c (t3Recv s)
    ∗ dutyOf c (rsSend s 0)
    ∗ dutyOf (right c) (rsRecv s 0)
    ∗ owned (right c) (commSlot s 0)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ owned c (outQ (qc c) (qc_lt c) s))

def LaneSt1 (c : Dev nD) (s : Fin 8) : sProp 𝕄 :=
  iprop(posAt c (rsSend s 0) 0
    ∗ posAt c (rsSend s 1) 0
    ∗ posAt c (rsSend s 2) 0
    ∗ posAt c (rsRecv s 0) 0
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 0)
    ∗ credOf c (rsRecv s 1)
    ∗ credOf c (rsRecv s 2)
    ∗ credOf c (t1Recv s)
    ∗ credOf c (t2Recv s)
    ∗ credOf c (t3Recv s)
    ∗ credOf c (rsSend s 0)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ owned c (outQ (qc c) (qc_lt c) s))

def LaneSt2 (c : Dev nD) (s : Fin 8) : sProp 𝕄 :=
  iprop(posAt c (rsSend s 0) 1
    ∗ posAt c (rsSend s 1) 0
    ∗ posAt c (rsSend s 2) 0
    ∗ posAt c (rsRecv s 0) 0
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 0)
    ∗ credOf c (rsRecv s 1)
    ∗ credOf c (rsRecv s 2)
    ∗ credOf c (t1Recv s)
    ∗ credOf c (t2Recv s)
    ∗ credOf c (t3Recv s)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ owned c (outQ (qc c) (qc_lt c) s))

def LaneSt3 (c : Dev nD) (s : Fin 8) : sProp 𝕄 :=
  iprop(posAt c (rsSend s 0) 1
    ∗ posAt c (rsSend s 1) 0
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 0 (left c))
    ∗ owned c (outQ (qc c) (qc_lt c) s))

def LaneSt4 (c : Dev nD) (s : Fin 8) : sProp 𝕄 :=
  iprop(posAt c (rsSend s 0) 1
    ∗ posAt c (rsSend s 1) 0
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ dutyOf c (rsSend s 1)
    ∗ dutyOf (right c) (rsRecv s 1)
    ∗ owned (right c) (commSlot s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ owned c (outQ (qc c) (qc_lt c) s))

def LaneSt5 (c : Dev nD) (s : Fin 8) : sProp 𝕄 :=
  iprop(posAt c (rsSend s 0) 1
    ∗ posAt c (rsSend s 1) 0
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ credOf c (rsSend s 1)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ owned c (outQ (qc c) (qc_lt c) s))

def LaneSt6 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 0
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 1)
    ∗ credOf c (rsRecv s 2)
    ∗ credOf c (t1Recv s)
    ∗ credOf c (t2Recv s)
    ∗ credOf c (t3Recv s)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ owned c (outQ (qc c) (qc_lt c) s))

def LaneSt7 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 1 (left c))
    ∗ owned c (outQ (qc c) (qc_lt c) s))

def LaneSt8 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ dutyOf c (rsSend s 2)
    ∗ dutyOf (right c) (rsRecv s 2)
    ∗ owned (right c) (commSlot s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ owned c (outQ (qc c) (qc_lt c) s))

def LaneSt9 (c : Dev nD) (s : Fin 8) : sProp 𝕄 :=
  iprop(posAt c (rsSend s 0) 1
    ∗ posAt c (rsSend s 1) 1
    ∗ posAt c (rsSend s 2) 0
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ credOf c (rsSend s 2)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ owned c (outQ (qc c) (qc_lt c) s))

def LaneSt10 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 0
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (rsRecv s 2)
    ∗ credOf c (t1Recv s)
    ∗ credOf c (t2Recv s)
    ∗ credOf c (t3Recv s)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ owned c (outQ (qc c) (qc_lt c) s))

def LaneSt11 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ owned c (outQ (qc c) (qc_lt c) s))

def LaneSt12 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ dutyOf c (t1Send s)
    ∗ dutyOf (xn c) (t1Recv s)
    ∗ owned (xn c) (outQ (qc c) (qc_lt c) s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s))

def LaneSt13 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ credOf c (t1Send s)
    ∗ dutyOf c (t2Send s)
    ∗ dutyOf (yn c) (t2Recv s)
    ∗ owned (yn c) (outQ (qc c) (qc_lt c) s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare.right (redV m c s))

def LaneSt14 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 0
    ∗ posAt c (t2Send s) 0
    ∗ posAt c (t2Recv s) 0
    ∗ posAt c (t3Send s) 0
    ∗ posAt c (t3Recv s) 0
    ∗ credOf c (t1Recv s)
    ∗ credOf c (t2Recv s)
    ∗ credOf c (t3Recv s)
    ∗ credOf c (t1Send s)
    ∗ credOf c (t2Send s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c)))

def LaneSt15 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 1
    ∗ posAt c (t2Send s) 0
    ∗ posAt c (t2Recv s) 0
    ∗ posAt c (t3Send s) 0
    ∗ posAt c (t3Recv s) 0
    ∗ credOf c (t2Recv s)
    ∗ credOf c (t3Recv s)
    ∗ credOf c (t1Send s)
    ∗ credOf c (t2Send s)
    ∗ dutyOf c (t3Send s)
    ∗ dutyOf (yn c) (t3Recv s)
    ∗ owned (yn c) (outQ (qc (xn c)) (qc_lt (xn c)) s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc (xn c)) (qc_lt (xn c)) s) fullShare (redV m (xn c) s))

def LaneSt16 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 0
    ∗ posAt c (t1Recv s) 1
    ∗ posAt c (t2Send s) 0
    ∗ posAt c (t2Recv s) 0
    ∗ posAt c (t3Send s) 0
    ∗ posAt c (t3Recv s) 0
    ∗ credOf c (t2Recv s)
    ∗ credOf c (t3Recv s)
    ∗ credOf c (t1Send s)
    ∗ credOf c (t2Send s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c)))

def LaneSt17 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 0
    ∗ posAt c (t2Recv s) 0
    ∗ posAt c (t3Send s) 0
    ∗ posAt c (t3Recv s) 0
    ∗ credOf c (t2Recv s)
    ∗ credOf c (t3Recv s)
    ∗ credOf c (t2Send s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare.left (redV m c s))

def LaneSt18 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 0
    ∗ posAt c (t3Send s) 0
    ∗ posAt c (t3Recv s) 0
    ∗ credOf c (t2Recv s)
    ∗ credOf c (t3Recv s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s))

def LaneSt19 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 1
    ∗ posAt c (t3Send s) 0
    ∗ posAt c (t3Recv s) 0
    ∗ credOf c (t3Recv s)
    ∗ credOf c (t3Send s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (yn c)) (qc_lt (yn c)) s) fullShare (redV m (yn c) s))

def LaneSt20 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 1
    ∗ posAt c (t3Send s) 1
    ∗ posAt c (t3Recv s) 0
    ∗ credOf c (t3Recv s)
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (xn c)) (qc_lt (xn c)) s) fullShare (redV m (xn c) s)
    ∗ holds c (outQ (qc (yn c)) (qc_lt (yn c)) s) fullShare (redV m (yn c) s))

def LaneSt21 (c : Dev nD) (s : Fin 8) : sProp 𝕄 :=
  iprop(posAt c (rsSend s 0) 1
    ∗ posAt c (rsSend s 1) 1
    ∗ posAt c (rsSend s 2) 1
    ∗ posAt c (rsRecv s 0) 1
    ∗ posAt c (rsRecv s 1) 1
    ∗ posAt c (rsRecv s 2) 1
    ∗ posAt c (t1Send s) 1
    ∗ posAt c (t1Recv s) 1
    ∗ posAt c (t2Send s) 1
    ∗ posAt c (t2Recv s) 1
    ∗ posAt c (t3Send s) 1
    ∗ posAt c (t3Recv s) 1
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (xn c)) (qc_lt (xn c)) s) fullShare (redV m (xn c) s)
    ∗ holds c (outQ (qc (yn c)) (qc_lt (yn c)) s) fullShare (redV m (yn c) s)
    ∗ holds c (outQ (qc (xn (yn c))) (qc_lt (xn (yn c))) s) fullShare (redV m (xn (yn c)) s))

end Cert.Kernel.Sched

end
-- ==== Proof.Bits.Shared.lean ====
/- A device's outstanding payments, the set of cells it has waited on hidden. -/
import proofs.«901049_g7700000000001050_dist_rsdw_v7x_xyz2x2x4_z_m1024_d1024_f4096_f32_1_alg».proof.Proof.Bits.LaneSt

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def Owes (c : Dev nD) (O : CellTallies nD τ sig Unit) : sProp 𝕄 := iprop(∃ W : Waits sig Unit, owes (c : Thread nD τ) O W)

end Cert.Kernel.Sched

end
-- ==== Proof.Bits.BodyDefs.lean ====
/- The body's precondition and postcondition on one device. -/
import proofs.«901049_g7700000000001050_dist_rsdw_v7x_xyz2x2x4_z_m1024_d1024_f4096_f32_1_alg».proof.Proof.Bits.Dats
import proofs.«901049_g7700000000001050_dist_rsdw_v7x_xyz2x2x4_z_m1024_d1024_f4096_f32_1_alg».proof.Proof.Bits.Shared

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (outFinal m c))

end Cert.Kernel.Sched

end
-- ==== Proof.Bits.StepsSig.lean ====
/- The four entry signals, which hand the neighbours the blocks they will copy into, and the wait for the neighbours' four. -/
import proofs.«901049_g7700000000001050_dist_rsdw_v7x_xyz2x2x4_z_m1024_d1024_f4096_f32_1_alg».proof.Proof.Bits.State
import proofs.«901049_g7700000000001050_dist_rsdw_v7x_xyz2x2x4_z_m1024_d1024_f4096_f32_1_alg».proof.Proof.Bits.SchedTab
import Idealize.ShloMosaic.Lib.Rounds

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

section Sig

variable (c : Dev nD)

/-- A signal to neighbour `n'` by its duty `d` of round 0, paid with what entails the cell's payload. -/
theorem signal_bar (K : GSem nD τ sig → ℕ) (n' : Dev nD) (d : Fin 4) {R : sProp 𝕄}
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell n') () 1) (W : Waits sig Unit)
    (hR : R ⊢ iprop(invs m K ∗ dutyTok ER (barCell n') 0 d ∗ barPay (F := F) n' d ∗ owes (c : Thread nD τ) O₀ W)) :
    R ⊢ iprop((owes (c : Thread nD τ) O W -∗ WP c (k ⟨⟩) Q) -∗ WP c (.op ((.semSignal (n' : Thread nD τ) barS 1)) k) Q) := by
  iintro HR
  icases hR $$ HR with ⟨HI, Ht, Hp, HO⟩
  ihave HI' := (invs_at m K (mem_allCells_bar n')) $$ HI
  icases HI' with ⟨Hc, Hr⟩
  iapply (Rounds.wp_signal 𝒱₀ ER (Rd m) (c : Thread nD τ) none (dst := (n' : Thread nD τ)) (κ := K (barCell n'))
      (d := d) (by rw [duties_bar]; exact Finset.mem_univ _) (amount_bar m n' 0 d) () O hO (W := W))
  iframe Hc HO Ht
  isplitl [Hp]
  · rw [payload_bar]; iexact Hp
  iexact Hr

theorem signal_left (K : GSem nD τ sig → ℕ) (n : Dev nD) (hn : n = left c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (left c)) () 1)
    (W : Waits sig Unit) :
    iprop(invs m K ∗ dutyTok ER (barCell (left c)) 0 (0 : Fin 4)
        ∗ (bigSep (Finset.univ : Finset (Fin 8 × Fin 3)) fun sh => owned (F := F) c (commSlot sh.1 sh.2))
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  exact signal_bar m c K _ 0 O hO W (by rw [barPay_zero, right_left])

theorem signal_right (K : GSem nD τ sig → ℕ) (n : Dev nD) (hn : n = right c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (right c)) () 1)
    (W : Waits sig Unit) :
    iprop(invs m K ∗ dutyTok ER (barCell (right c)) 0 (1 : Fin 4)
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  refine signal_bar m c K _ 1 O hO W ?_
  rw [barPay_one]
  iintro ⟨HI, Ht, HO⟩
  iframe

theorem signal_xn (K : GSem nD τ sig → ℕ) (n : Dev nD) (hn : n = xn c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (xn c)) () 1)
    (W : Waits sig Unit) :
    iprop(invs m K ∗ dutyTok ER (barCell (xn c)) 0 (2 : Fin 4)
        ∗ (bigSep (Finset.univ : Finset (Fin 8)) fun s => owned (F := F) c (outQ (qc (xn c)) (qc_lt (xn c)) s))
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  exact signal_bar m c K _ 2 O hO W (by rw [barPay_two, xn_xn])

theorem signal_yn (K : GSem nD τ sig → ℕ) (n : Dev nD) (hn : n = yn c) (sem : Sem sig) (hsem : sem = barS) (a : ℕ) (ha : a = 1)
    {α : Type} {Q : α → sProp 𝕄} {k : PUnit → Prog (TpuEff nD τ sig (Elt F) Λ₀ .tc) α}
    {O₀ : CellTallies nD τ sig Unit} (O : CellTallies nD τ sig Unit) (hO : O₀ = O + tallyAt (barCell (yn c)) () 1)
    (W : Waits sig Unit) :
    iprop(invs m K ∗ dutyTok ER (barCell (yn c)) 0 (3 : Fin 4)
        ∗ (bigSep (Finset.univ : Finset (Fin 8)) fun s => owned (F := F) c (outQ (qc (yn c)) (qc_lt (yn c)) s))
        ∗ (bigSep (Finset.univ : Finset (Fin 8)) fun s => owned (F := F) c (outQ (qc (xn (yn c))) (qc_lt (xn (yn c))) s))
        ∗ owes (c : Thread nD τ) O₀ W)
      ⊢ iprop((owes (c : Thread nD τ) O W -∗ WP c (k ⟨⟩) Q)
          -∗ WP c (.op ((.semSignal (n : Thread nD τ) sem a)) k) Q) := by
  subst hn hsem ha
  refine signal_bar m c K _ 3 O hO W ?_
  rw [barPay_three, yn_yn]
  iintro ⟨HI, Ht, Hp, Hp', HO⟩
  iframe

theorem wait_bar (K : GSem nD τ sig → ℕ) (sem : Sem sig) (hsem : sem = barS) (a : ℕ) (ha : a = 4)
    {α : Type} {Q : α → sProp 𝕄} {k : PUnit → Prog (TpuEff nD τ sig (Elt F) Λ₀ .tc) α}
    {O : CellTallies nD τ sig Unit} {W : Waits sig Unit} :
    iprop(invs m K ∗ cred (tallyAt (barCell c) () 4) ∗ owes (c : Thread nD τ) O W
        ∗ MayWait (c : Thread nD τ) (.reg barS) () O ∗ atPos ER (barCell c) 0 ∅ 0)
      ⊢ iprop(((owes (c : Thread nD τ) O (insert (SemLoc.reg barS, ()) W)
              ∗ atPos ER (barCell c) 1 ∅ 0 ∗ reached ER (barCell c) 1
              ∗ (bigSep (Finset.univ : Finset (Fin 8 × Fin 3)) fun sh => owned (F := F) (right c) (commSlot sh.1 sh.2))
              ∗ (bigSep (Finset.univ : Finset (Fin 8)) fun s => owned (F := F) (xn c) (outQ (qc c) (qc_lt c) s))
              ∗ (bigSep (Finset.univ : Finset (Fin 8)) fun s => owned (F := F) (yn c) (outQ (qc c) (qc_lt c) s))
              ∗ (bigSep (Finset.univ : Finset (Fin 8)) fun s => owned (F := F) (yn c) (outQ (qc (xn c)) (qc_lt (xn c)) s)))
            -∗ WP c (k ⟨⟩) Q)
          -∗ WP c (.op ((.semWait sem a)) k) Q) := by
  subst hsem ha
  iintro ⟨HI, Hc, HO, Hm, Hat⟩ Hk
  ihave HI' := (invs_at m K (mem_allCells_bar c)) $$ HI
  icases HI' with ⟨Hg, -⟩
  iapply (Rounds.wp_wait_rest_token 𝒱₀ ER (Rd m) (c : Thread nD τ) none (κ := K (barCell c))
      (wpE_semWait_eq 𝒱₀ (c : Thread nD τ) none Set.univ) (Set.mem_univ _) () (O := O) (W := W) (R := 0) (m := 0) (T := ∅)
      (by rw [expect_bar])) $$ [Hg Hc HO Hm Hat]
  · iframe
  iintro ⟨HO, Hat, Hr, Hpay⟩
  ihave Hp := (Entails.of_eq (rest_bar_blocks m c)) $$ Hpay
  icases Hp with ⟨H0, -, H2, H3, H3'⟩
  iapply Hk
  iframe HO Hat Hr H0 H2 H3
  iexact H3'

end Sig

end Cert.Kernel.Sched

end
-- ==== Proof.Bits.StepsLocal.lean ====
/- The two copies of the arguments into scratch with their waits, and the loads of the operands of the four products. -/
import proofs.«901049_g7700000000001050_dist_rsdw_v7x_xyz2x2x4_z_m1024_d1024_f4096_f32_1_alg».proof.Proof.Bits.State
import Idealize.ShloMosaic.Lib.Transfers

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

theorem readAt_xcols (c : Dev nD) (j : Fin 4) {off : Fin 2 → ℕ} (hoff : off = ![0, 256 * j.val])
    (inb : ∀ a, off a + S1024x256.size a ≤ S1024x1024.size a) :
    (xM).view.readAt (Elt F) (Rect.unit (s := S1024x1024) off S1024x256.size inb).toLoadRect (xA m c) = xCols m c j := by
  subst hoff
  funext i
  rw [View.readAt_apply]
  show xA m c _ = xA m c _
  congr 1
  funext a
  match a with
  | ⟨0, _⟩ => apply Fin.ext; show 0 + 1 * (i 0).val = (i 0).val; omega
  | ⟨1, _⟩ => apply Fin.ext; show 256 * j.val + 1 * (i 1).val = 256 * j.val + (i 1).val; omega

omit [FloatOps F] in
theorem zero2 : (![0, 0] : Fin 2 → ℕ) = fun _ => 0 := funext fun a => by fin_cases a <;> rfl

theorem readAt_dyq {off : Fin 2 → ℕ} (hoff : off = ![0, 0]) (inb : ∀ a, off a + S1024x1024.size a ≤ S1024x1024.size a)
    (f : (cc0_scratch1 : Ref sig .tc).ty.Contents (Elt F)) :
    (dyqM).view.readAt (Elt F) (Rect.unit (s := S1024x1024) off S1024x1024.size inb).toLoadRect f = f :=
  Memref.readAt_unit_zero (Elt F) cc0_scratch1 (hoff.trans zero2) inb f

theorem read_dy_slice (c : Dev nD) {off : Fin 2 → ℕ} (hoff : off = ![0, 1024 * qc c])
    (inb : ∀ a, off a + S1024x1024.size a ≤ S1024x4096.size a) :
    ((Memref.whole main_arg1 : Memref sig .tc .hbm S1024x4096 .f32).slice (Rect.unit (s := S1024x4096) off S1024x1024.size inb) (fun _ => rfl)).view.read (Elt F)
        (m ((c : Thread nD τ).loc main_arg1)) = dyQ m c := by
  subst hoff
  funext i
  show dyA m c _ = dyA m c _
  congr 1
  funext a
  match a with
  | ⟨0, _⟩ => apply Fin.ext; show 0 + 1 * (i 0).val = (i 0).val; omega
  | ⟨1, _⟩ => apply Fin.ext; show 1024 * qc c + 1 * (i 1).val = 1024 * qc c + (i 1).val; omega

theorem off1_q (c : Dev nD) : k0_off1 c = ![0, 1024 * qc c] := by
  rw [Gen.k0_off1_eq]; revert c; decide

theorem off2_row (c : Dev nD) (r : Fin 4) : k0_off2 c (BitVec.ofNat 32 (1 + r.val)) = ![0, 256 * (rowOf (zc c) (1 + r.val)).val] := by
  rw [Mesh.off2_eq]; revert c r; decide
theorem off3_row (c : Dev nD) (r : Fin 4) : k0_off3 c (BitVec.ofNat 32 (1 + r.val)) = ![256 * (rowOf (zc c) (1 + r.val)).val, 0] := by
  rw [Mesh.off3_eq]; revert c r; decide

def XHeld (c : Dev nD) : sProp 𝕄 := iprop(((c : Thread nD τ).loc cc0_scratch0) ↦{fullShare} xA m c)

def DyqHeld (c : Dev nD) : sProp 𝕄 := iprop(((c : Thread nD τ).loc cc0_scratch1) ↦{fullShare} dyQ m c)

theorem xheld_load (c : Dev nD) (j : Fin 4) {α : Type} {Q : α → sProp 𝕄}
    {off : Fin 2 → ℕ} (hoff : off = ![0, 256 * j.val]) {inb : ∀ a, off a + S1024x256.size a ≤ S1024x1024.size a}
    {hl : (xM).view.LoadsAt (Rect.unit (s := S1024x1024) off S1024x256.size inb).toLoadRect}
    {k : Vec F S1024x256 .f32 → Prog (TpuEff nD τ sig (Elt F) Λ₀ .tc) α} :
    XHeld m c
      ⊢ iprop((XHeld m c -∗ WP c (k (xCols m c j)) Q)
          -∗ WP c (.op (.load xM (Rect.unit (s := S1024x1024) off S1024x256.size inb).toLoadRect hl) k) Q) := by
  unfold XHeld
  iintro H Hk
  iapply (wp_load 𝒱₀ (c : Thread nD τ) none Set.univ (m := xM) (hl := hl) (k := k) (Finset.subset_univ _)) $$ [H]
  · iexact H
  rw [readAt_xcols m c j hoff inb]
  iexact Hk

theorem dyqheld_load (c : Dev nD) {α : Type} {Q : α → sProp 𝕄}
    {off : Fin 2 → ℕ} (hoff : off = ![0, 0]) {inb : ∀ a, off a + S1024x1024.size a ≤ S1024x1024.size a}
    {hl : (dyqM).view.LoadsAt (Rect.unit (s := S1024x1024) off S1024x1024.size inb).toLoadRect}
    {k : Vec F S1024x1024 .f32 → Prog (TpuEff nD τ sig (Elt F) Λ₀ .tc) α} :
    DyqHeld m c
      ⊢ iprop((DyqHeld m c -∗ WP c (k (dyQ m c)) Q)
          -∗ WP c (.op (.load dyqM (Rect.unit (s := S1024x1024) off S1024x1024.size inb).toLoadRect hl) k) Q) := by
  unfold DyqHeld
  iintro H Hk
  iapply (wp_load 𝒱₀ (c : Thread nD τ) none Set.univ (m := dyqM) (hl := hl) (k := k) (Finset.subset_univ _)) $$ [H]
  · iexact H
  rw [readAt_dyq hoff inb]
  iexact Hk
theorem load_dead (c : Dev nD) {α : Type} {Q : α → sProp 𝕄}
    {off : Fin 2 → ℕ} {inb : ∀ a, off a + S256x1024.size a ≤ S1024x1024.size a}
    {hl : (partM).view.LoadsAt (Rect.unit (s := S1024x1024) off S256x1024.size inb).toLoadRect}
    {k : Vec F S256x1024 .f32 → Prog (TpuEff nD τ sig (Elt F) Λ₀ .tc) α} {q : PosShare TreeShare}
    {S : Finset (Idx ((partM).view.loc (c : Thread nD τ)))} {f : Buf (Elt F) ((partM).view.loc (c : Thread nD τ))}
    (hS : (partM).view.setOn (Rect.unit (s := S1024x1024) off S256x1024.size inb).toLoadRect.set ⊆ S) :
    iprop(((partM).view.loc (c : Thread nD τ)) ↦[S]{q} f)
      ⊢ iprop((((((partM).view.loc (c : Thread nD τ)) ↦[S]{q} f)) -∗ ∀ v, WP c (k v) Q)
          -∗ WP c (.op (.load partM (Rect.unit (s := S1024x1024) off S256x1024.size inb).toLoadRect hl) k) Q) := by
  iintro H Hk
  iapply (wp_load 𝒱₀ (c : Thread nD τ) none Set.univ (m := partM) (hl := hl) (k := k) hS) $$ [H]
  · iexact H
  iintro H
  iapply Hk $$ [H]
  iexact H

abbrev NX : ℕ := (xM).view.dmaCredit
abbrev NDY : ℕ := (dyqM).view.dmaCredit

theorem dyoff_inb (c : Dev nD) : ∀ a, (![0, 1024 * qc c] : Fin 2 → ℕ) a + S1024x1024.size a ≤ S1024x4096.size a := by
  intro a; have := qc_lt c
  match a with
  | ⟨0, _⟩ => show 0 + 1024 ≤ 1024; omega
  | ⟨1, _⟩ => show 1024 * qc c + 1024 ≤ 4096; omega

def dySrc (c : Dev nD) : Memref sig .tc .hbm S1024x1024 .f32 :=
  (Memref.whole main_arg1 : Memref sig .tc .hbm S1024x4096 .f32).slice (Rect.unit (s := S1024x4096) ![0, 1024 * qc c] S1024x1024.size (dyoff_inb c)) (fun _ => rfl)

def xLanded (c : Dev nD) (q : PosShare TreeShare) : sProp 𝕄 :=
  iprop((((c : Thread nD τ).loc cc0_scratch0) ↦{fullShare} xA m c) ∗ (((c : Thread nD τ).loc main_arg0) ↦{q} m ((c : Thread nD τ).loc main_arg0)))

def dyLanded (c : Dev nD) (q : PosShare TreeShare) : sProp 𝕄 :=
  iprop((((c : Thread nD τ).loc cc0_scratch1) ↦{fullShare} dyQ m c)
    ∗ (((c : Thread nD τ).loc main_arg1) ↦[(dySrc c).view.set]{q} m ((c : Thread nD τ).loc main_arg1)))

def dyRest (c : Dev nD) (q : PosShare TreeShare) : sProp 𝕄 :=
  iprop(((c : Thread nD τ).loc main_arg1) ↦[Finset.univ \ (dySrc c).view.set]{q} m ((c : Thread nD τ).loc main_arg1))

omit [FloatOps F] in
theorem set_whole_arg0 : ((Memref.whole main_arg0 : Memref sig .tc .hbm S1024x1024 .f32)).view.set = Finset.univ :=
  (Memref.isWhole_whole _).set_eq_univ

theorem copy_x (c : Dev nD) {α : Type} {Q : α → sProp 𝕄}
    (src : Memref sig .tc .hbm S1024x1024 .f32) (hsrc : src = Memref.whole main_arg0)
    (dst : Memref sig .tc .vmem S1024x1024 .f32) (hdst : dst = xM)
    (sem : DmaSem sig) (hsem : sem = cc0_scratch4.sem)
    {hs : src.view.WordExact} {hd : dst.view.WordExact} {ht : (DmaTarget.here dst : DmaTarget nD τ sig .tc .vmem S1024x1024 .f32).Typed .hbm (SemLoc.dma sem)}
    {k : PUnit → Prog (TpuEff nD τ sig (Elt F) Λ₀ .tc) α} {q : PosShare TreeShare} :
    iprop((((c : Thread nD τ).loc main_arg0) ↦{q} m ((c : Thread nD τ).loc main_arg0))
        ∗ (∃ f : Buf (Elt F) ((c : Thread nD τ).loc cc0_scratch0), ((c : Thread nD τ).loc cc0_scratch0) ↦{fullShare} f)
        ∗ semVal (dmaCell c cc0_scratch4.sem) 0)
      ⊢ iprop((Transfers.Flight EC (c : Thread nD τ) (.dma cc0_scratch4.sem) () NX (xLanded m c q) -∗ WP c (k ⟨⟩) Q)
          -∗ WP c (.op (.enqueueDma src (.here dst) (.dma sem) hs hd ht) k) Q) := by
  subst hsrc hdst hsem
  iintro ⟨Hs, ⟨%f, Hd⟩, Hv⟩ Hk
  have h := Transfers.wp_dmaLocal EC 𝒱₀ (c : Thread nD τ) none (defs := defs₀ (F := F)) (Q := Q)
    (src := (Memref.whole main_arg0 : Memref sig .tc .hbm S1024x1024 .f32)) (via := .same) (dst := xM) (sm := .dma cc0_scratch4.sem)
    (hsrc := hs) (hdst := hd) (hsem := ht) (k := k) (q := q) (fs := m ((c : Thread nD τ).loc main_arg0)) (Sd := Finset.univ) (fd := f)
    () NX rfl (View.dmaCredit_pos _ (by decide)) (Finset.subset_univ _)
  rw [set_whole_arg0] at h
  iapply h $$ [Hs Hd Hv]
  · iframe
  iintro Hf
  iapply Hk
  iapply (Transfers.Flight_mono EC (c : Thread nD τ) ?_) $$ Hf
  unfold xLanded
  rw [View.write_whole_univ]
  exact .rfl

theorem copy_dy (c : Dev nD) {α : Type} {Q : α → sProp 𝕄}
    {off : Fin 2 → ℕ} (hoff : off = ![0, 1024 * qc c]) {inb : ∀ a, off a + S1024x1024.size a ≤ S1024x4096.size a}
    (src : Memref sig .tc .hbm S1024x1024 .f32)
    (hsrc : src = (Memref.whole main_arg1 : Memref sig .tc .hbm S1024x4096 .f32).slice (Rect.unit (s := S1024x4096) off S1024x1024.size inb) (fun _ => rfl))
    (dst : Memref sig .tc .vmem S1024x1024 .f32) (hdst : dst = dyqM)
    (sem : DmaSem sig) (hsem : sem = cc0_scratch5.sem)
    {hs : src.view.WordExact} {hd : dst.view.WordExact} {ht : (DmaTarget.here dst : DmaTarget nD τ sig .tc .vmem S1024x1024 .f32).Typed .hbm (SemLoc.dma sem)}
    {k : PUnit → Prog (TpuEff nD τ sig (Elt F) Λ₀ .tc) α} {q : PosShare TreeShare} :
    iprop((((c : Thread nD τ).loc main_arg1) ↦{q} m ((c : Thread nD τ).loc main_arg1))
        ∗ (∃ f : Buf (Elt F) ((c : Thread nD τ).loc cc0_scratch1), ((c : Thread nD τ).loc cc0_scratch1) ↦{fullShare} f)
        ∗ semVal (dmaCell c cc0_scratch5.sem) 0)
      ⊢ iprop(((Transfers.Flight EC (c : Thread nD τ) (.dma cc0_scratch5.sem) () NDY (dyLanded m c q) ∗ dyRest m c q) -∗ WP c (k ⟨⟩) Q)
          -∗ WP c (.op (.enqueueDma src (.here dst) (.dma sem) hs hd ht) k) Q) := by
  subst hoff hsrc hdst hsem
  iintro ⟨Hs, ⟨%f, Hd⟩, Hv⟩ Hk
  ihave Hsplit := (pointsTo_split_subset (Finset.subset_univ (dySrc c).view.set)).1 $$ Hs
  icases Hsplit with ⟨Hs, Hrest⟩
  iapply (Transfers.wp_dmaLocal EC 𝒱₀ (c : Thread nD τ) none (defs := defs₀ (F := F)) (Q := Q)
    (src := dySrc c) (via := .same) (dst := dyqM) (sm := .dma cc0_scratch5.sem)
    (hsrc := hs) (hdst := hd) (hsem := ht) (k := k) (q := q) (fs := m ((c : Thread nD τ).loc main_arg1)) (Sd := Finset.univ) (fd := f)
    () NDY rfl (View.dmaCredit_pos _ (by decide)) (Finset.subset_univ _)) $$ [Hs Hd Hv]
  · isplitl [Hs]; · iexact Hs
    iframe
  iintro Hf
  iapply Hk
  isplitl [Hf]
  · iapply (Transfers.Flight_mono EC (c : Thread nD τ) ?_) $$ Hf
    unfold dyLanded
    rw [View.write_whole_univ]
    have hv : ReadAs.same.apply ((dySrc c).view.read (Elt F) (m ((c : Thread nD τ).loc main_arg1))) = dyQ m c :=
      read_dy_slice m c rfl (dyoff_inb c)
    rw [hv]
    exact .rfl
  · unfold dyRest; iexact Hrest

theorem wait_x (c : Dev nD) {α : Type} {Q : α → sProp 𝕄} (sem : DmaSem sig) (hsem : sem = cc0_scratch4.sem)
    {sp' : Space} {s' : Shape} {e' : EltTy} {srcw : Memref sig .tc sp' s' e'}
    (dstw : Memref sig .tc .vmem S1024x1024 .f32) (hdst : dstw = xM)
    {hs : srcw.view.WordExact} {hd : dstw.view.WordExact}
    {k : PUnit → Prog (TpuEff nD τ sig (Elt F) Λ₀ .tc) α} {q : PosShare TreeShare}
    {O : CellTallies nD τ sig Unit} {W : Waits sig Unit} :
    iprop(Transfers.Flight EC (c : Thread nD τ) (.dma cc0_scratch4.sem) () NX (xLanded m c q) ∗ owes (c : Thread nD τ) O W
        ∗ MayWait (c : Thread nD τ) (.dma cc0_scratch4.sem) () O)
      ⊢ iprop(((XHeld m c ∗ (((c : Thread nD τ).loc main_arg0) ↦{q} m ((c : Thread nD τ).loc main_arg0))
              ∗ semVal (dmaCell c cc0_scratch4.sem) 0 ∗ owes (c : Thread nD τ) O (insert (SemLoc.dma cc0_scratch4.sem, ()) W)) -∗ WP c (k ⟨⟩) Q)
          -∗ WP c (.op (.waitDma2 sem srcw dstw hs hd) k) Q) := by
  subst hdst hsem
  iintro ⟨Hf, HO, HM⟩ Hk
  iapply (Transfers.wp_waitLocalO EC 𝒱₀ (c : Thread nD τ) none (defs := defs₀ (F := F)) (Q := Q) (srcw := srcw) (dstw := xM) (hsrc := hs) (hdst := hd) (k := k)
    () (N := NX) rfl) $$ [Hf HO HM]
  · iframe
  iintro ⟨HD, Hv, HO⟩
  unfold xLanded
  unfold XHeld
  icases HD with ⟨Hx, Ha⟩
  iapply Hk
  iframe

theorem wait_dy (c : Dev nD) {α : Type} {Q : α → sProp 𝕄} (sem : DmaSem sig) (hsem : sem = cc0_scratch5.sem)
    {sp' : Space} {s' : Shape} {e' : EltTy} {srcw : Memref sig .tc sp' s' e'}
    (dstw : Memref sig .tc .vmem S1024x1024 .f32) (hdst : dstw = dyqM)
    {hs : srcw.view.WordExact} {hd : dstw.view.WordExact}
    {k : PUnit → Prog (TpuEff nD τ sig (Elt F) Λ₀ .tc) α} {q : PosShare TreeShare}
    {O : CellTallies nD τ sig Unit} {W : Waits sig Unit} :
    iprop(Transfers.Flight EC (c : Thread nD τ) (.dma cc0_scratch5.sem) () NDY (dyLanded m c q) ∗ dyRest m c q ∗ owes (c : Thread nD τ) O W
        ∗ MayWait (c : Thread nD τ) (.dma cc0_scratch5.sem) () O)
      ⊢ iprop(((DyqHeld m c ∗ (((c : Thread nD τ).loc main_arg1) ↦{q} m ((c : Thread nD τ).loc main_arg1))
              ∗ semVal (dmaCell c cc0_scratch5.sem) 0 ∗ owes (c : Thread nD τ) O (insert (SemLoc.dma cc0_scratch5.sem, ()) W)) -∗ WP c (k ⟨⟩) Q)
          -∗ WP c (.op (.waitDma2 sem srcw dstw hs hd) k) Q) := by
  subst hdst hsem
  iintro ⟨Hf, Hrest, HO, HM⟩ Hk
  iapply (Transfers.wp_waitLocalO EC 𝒱₀ (c : Thread nD τ) none (defs := defs₀ (F := F)) (Q := Q) (srcw := srcw) (dstw := dyqM) (hsrc := hs) (hdst := hd) (k := k)
    () (N := NDY) rfl) $$ [Hf HO HM]
  · iframe
  iintro ⟨HD, Hv, HO⟩
  unfold dyLanded
  unfold dyRest
  unfold DyqHeld
  icases HD with ⟨Hx, Ha⟩
  iapply Hk
  iframe Hx Hv HO
  iapply (pointsTo_split_subset (Finset.subset_univ (dySrc c).view.set)).2
  iframe

end Cert.Kernel.Sched

end
-- ==== Proof.Bits.StepsMem.lean ====
/- Blocks held by shares, and the local loads and stores on blocks. -/
import proofs.«901049_g7700000000001050_dist_rsdw_v7x_xyz2x2x4_z_m1024_d1024_f4096_f32_1_alg».proof.Proof.Bits.State
import Idealize.ShloMosaic.Rules.Step

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

theorem pointsTo_same {ℓ : Loc nD τ sig} {I : Finset (Idx ℓ)} {q₁ q₂ : PosShare TreeShare} {f g : Buf (Elt F) ℓ} :
    (iprop((ℓ ↦[I]{q₁} f) ∗ (ℓ ↦[I]{q₂} g)) : sProp 𝕄) ⊢ iprop((ℓ ↦[I]{q₁} f) ∗ (ℓ ↦[I]{q₂} f)) :=
  pure_elim _ Region.is_agree fun hag => by
    have e : (ℓ ↦[I]{q₂} g : sProp 𝕄) = (ℓ ↦[I]{q₂} f) :=
      Region.is_congr fun i hi => ((hag i (Finset.mem_inter.mpr ⟨hi, hi⟩)).1).symm
    rw [e]

theorem holds_halves (c : Dev nD) {sp : Space} (M : Memref sig .tc sp S256x128 .f32) (V : Vec F S256x128 .f32) :
    (holds c M fullShare V : sProp 𝕄) ⊣⊢ iprop(holds c M fullShare.left V ∗ holds c M fullShare.right V) := by
  unfold holds
  constructor
  · iintro ⟨%f, %hf, H⟩
    icases (Region.is_share (PosShare.mem_left_op_right fullShare)).1 $$ H with ⟨H1, H2⟩
    isplitl [H1] <;> iexists f <;> iframe <;> ipureintro <;> exact hf
  · iintro ⟨⟨%f1, %hf1, H1⟩, ⟨%f2, %hf2, H2⟩⟩
    iexists f1; isplitr
    · ipureintro; exact hf1
    · iapply (Region.is_share (PosShare.mem_left_op_right fullShare)).2
      iapply pointsTo_same (g := f2)
      iframe

theorem commSlot_read (s : Fin 8) (h : Fin 3) {inb : ∀ a, (![s.val, h.val, 0, 0] : Fin 4 → ℕ) a + S1x1x256x128.size a ≤ S8x3x256x128.size a}
    (g : (commSlot s h).view.ty.Contents (Elt F)) :
    (commSlot s h).view.read (Elt F) g
      = shapeCast S256x128 ((commM.access (Rect.unit (s := S8x3x256x128) ![s.val, h.val, 0, 0] S1x1x256x128.size inb)).read (Elt F) g)
          Facts₀.shapeCasts_S1x1x256x128_S256x128 := rfl

/-- At offsets `o`, a load of one comm slot from `P` continues with `P` at every value whose cast is `V`. -/
def CommLoads (c : Dev nD) (o : Fin 4 → ℕ) (P : sProp 𝕄) (V : Vec F S256x128 .f32) : Prop :=
  ∀ (off : Fin 4 → ℕ) (hoff : off = o) {inb : ∀ a, off a + S1x1x256x128.size a ≤ S8x3x256x128.size a}
    {hl : commM.view.LoadsAt (Rect.unit (s := S8x3x256x128) off S1x1x256x128.size inb).toLoadRect}
    {α : Type} {Q : α → sProp 𝕄} {k : Vec F S1x1x256x128 .f32 → Prog (TpuEff nD τ sig (Elt F) Λ₀ .tc) α},
    P ⊢ iprop((∀ v : Vec F S1x1x256x128 .f32, ⌜shapeCast S256x128 v Facts₀.shapeCasts_S1x1x256x128_S256x128 = V⌝ -∗ P -∗ wp frame (wpE (defs₀ (F := F)) 𝒱₀ (c : Thread nD τ) none) Set.univ (k v) Q)
      -∗ wp frame (wpE (defs₀ (F := F)) 𝒱₀ (c : Thread nD τ) none) Set.univ (.op (.load commM (Rect.unit (s := S8x3x256x128) off S1x1x256x128.size inb).toLoadRect hl) k) Q)

/-- At offsets `o`, a load of the `sz` block of `M` from `P` continues with `P` at any value. -/
def DeadLoads (c : Dev nD) {s₀ : Shape} (M : Memref sig .tc .vmem s₀ .f32) (sz o : Fin s₀.rank → ℕ) (P : sProp 𝕄) : Prop :=
  ∀ (off : Fin s₀.rank → ℕ) (hoff : off = o) {inb : ∀ a, off a + sz a ≤ s₀.size a}
    {hl : M.view.LoadsAt (Rect.unit (s := s₀) off sz inb).toLoadRect}
    {α : Type} {Q : α → sProp 𝕄} {k : Vec F ⟨s₀.rank, sz⟩ .f32 → Prog (TpuEff nD τ sig (Elt F) Λ₀ .tc) α},
    P ⊢ iprop((∀ v : Vec F ⟨s₀.rank, sz⟩ .f32, P -∗ wp frame (wpE (defs₀ (F := F)) 𝒱₀ (c : Thread nD τ) none) Set.univ (k v) Q)
      -∗ wp frame (wpE (defs₀ (F := F)) 𝒱₀ (c : Thread nD τ) none) Set.univ (.op (.load M (Rect.unit (s := s₀) off sz inb).toLoadRect hl) k) Q)

/-- At offsets `o`, an unmasked store of a `w` with `φ w` into the `sz` block of `M` takes `P` to `P'`. -/
def StoreSpec (c : Dev nD) {s₀ : Shape} (M : Memref sig .tc .vmem s₀ .f32) (sz o : Fin s₀.rank → ℕ) (P : sProp 𝕄)
    (φ : Vec F ⟨s₀.rank, sz⟩ .f32 → Prop) (P' : sProp 𝕄) : Prop :=
  ∀ (off : Fin s₀.rank → ℕ) (hoff : off = o) {inb : ∀ a, off a + sz a ≤ s₀.size a} (w : Vec F ⟨s₀.rank, sz⟩ .f32) (hw : φ w)
    {hx : (M.access (Rect.unit (s := s₀) off sz inb)).Stores Finset.univ}
    {hm : (Finset.univ : Finset (Rect.unit (s := s₀) off sz inb).shape.Idx) = Finset.univ ∨ ∀ a, (Rect.unit (s := s₀) off sz inb).stride a = 1}
    {α : Type} {Q : α → sProp 𝕄} {k : PUnit → Prog (TpuEff nD τ sig (Elt F) Λ₀ .tc) α},
    P ⊢ iprop((P' -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := s₀) off sz inb) w Finset.univ hx hm) k) Q)

theorem load_comm (c : Dev nD) (s : Fin 8) (h : Fin 3) (q : PosShare TreeShare) (V : Vec F S256x128 .f32) :
    CommLoads c ![s.val, h.val, 0, 0] (holds c (commSlot s h) q V) V := by
  intro off hoff inb hl α Q k
  subst hoff
  unfold holds
  iintro ⟨%f, %hf, H⟩ Hk
  have key : (((commSlot s h).view.loc (c : Thread nD τ) ↦[(commSlot s h).view.set]{q} f) : sProp 𝕄)
      ⊢ iprop((_ -∗ wp frame (wpE (defs₀ (F := F)) 𝒱₀ (c : Thread nD τ) none) Set.univ (k _) Q) -∗ _) :=
    wp_load_rect 𝒱₀ (c : Thread nD τ) none Set.univ (m := commM) (r := Rect.unit (s := S8x3x256x128) ![s.val, h.val, 0, 0] S1x1x256x128.size inb) (hl := hl)
      (View.set_reshape (v := commM.view.slice (Rect.unit (s := S8x3x256x128) ![s.val, h.val, 0, 0] S1x1x256x128.size inb)) (s' := S256x128) _).ge
  iapply key $$ H
  iintro H
  iapply Hk $$ [] [H]
  · ipureintro; exact hf
  · iexists f; isplitr
    · ipureintro; exact hf
    · iexact H

theorem store_comm (c : Dev nD) (s : Fin 8) (h : Fin 3) (V V' : Vec F S256x128 .f32) :
    StoreSpec c commM S1x1x256x128.size ![s.val, h.val, 0, 0] (holds c (commSlot s h) fullShare V)
      (fun w => shapeCast S256x128 w Facts₀.shapeCasts_S1x1x256x128_S256x128 = V') (holds c (commSlot s h) fullShare V') := by
  intro off hoff inb w hw hx hm α Q k
  subst hoff hw
  unfold holds
  iintro ⟨%f, %hf, H⟩ Hk
  have key : (((commSlot s h).view.loc (c : Thread nD τ) ↦[(commSlot s h).view.set]{fullShare} f) : sProp 𝕄)
      ⊢ iprop((_ -∗ wp frame (wpE (defs₀ (F := F)) 𝒱₀ (c : Thread nD τ) none) Set.univ (k ⟨⟩) Q) -∗ _) :=
    wp_store 𝒱₀ (c : Thread nD τ) none Set.univ (m := commM) (r := Rect.unit (s := S8x3x256x128) ![s.val, h.val, 0, 0] S1x1x256x128.size inb) (w := w) (hx := hx) (hm := hm)
      (View.set_reshape (v := commM.view.slice (Rect.unit (s := S8x3x256x128) ![s.val, h.val, 0, 0] S1x1x256x128.size inb)) (s' := S256x128) _).ge
  iapply key $$ H
  iintro H
  iapply Hk
  iexists ((commM.access (Rect.unit (s := S8x3x256x128) ![s.val, h.val, 0, 0] S1x1x256x128.size inb)).write (Elt F) f w Finset.univ)
  isplitr
  · ipureintro
    exact (commSlot_read s h (inb := inb) _).trans (congrArg (fun v => shapeCast S256x128 v Facts₀.shapeCasts_S1x1x256x128_S256x128)
      (View.read_write_univ (v := commM.access (Rect.unit (s := S8x3x256x128) ![s.val, h.val, 0, 0] S1x1x256x128.size inb)) (Val := Elt F) f w))
  · iexact H

theorem load_part (c : Dev nD) (j : Fin 4) (s : Fin 8) (off : Fin 2 → ℕ) (hoff : off = ![256 * j.val, 128 * s.val])
    {inb : ∀ a, off a + S256x128.size a ≤ S1024x1024.size a}
    {hl : partM.view.LoadsAt (Rect.unit (s := S1024x1024) off S256x128.size inb).toLoadRect}
    (S : Finset (Idx (partM.view.loc (c : Thread nD τ)))) (q : PosShare TreeShare)
    (f : Buf (Elt F) (partM.view.loc (c : Thread nD τ))) (V : Vec F S256x128 .f32)
    (hS : (partJS j s).view.set ⊆ S) (hV : (partJS j s).view.read (Elt F) f = V)
    {α : Type} {Q : α → sProp 𝕄} {k : Vec F S256x128 .f32 → Prog (TpuEff nD τ sig (Elt F) Λ₀ .tc) α} :
    ((partM.view.loc (c : Thread nD τ) ↦[S]{q} f) : sProp 𝕄)
      ⊢ iprop(((partM.view.loc (c : Thread nD τ) ↦[S]{q} f) -∗ wp frame (wpE (defs₀ (F := F)) 𝒱₀ (c : Thread nD τ) none) Set.univ (k V) Q)
          -∗ wp frame (wpE (defs₀ (F := F)) 𝒱₀ (c : Thread nD τ) none) Set.univ (.op (.load partM (Rect.unit (s := S1024x1024) off S256x128.size inb).toLoadRect hl) k) Q) := by
  subst hoff; subst hV
  exact wp_load_rect 𝒱₀ (c : Thread nD τ) none Set.univ (m := partM)
      (r := Rect.unit (s := S1024x1024) ![256 * j.val, 128 * s.val] S256x128.size inb) hS

theorem store_out (c : Dev nD) (Q' : ℕ) (hQ : Q' < 4) (s : Fin 8) (V : Vec F S256x128 .f32) :
    StoreSpec c outM S256x128.size ![0, 1024 * Q' + 128 * s.val] (owned c (outQ Q' hQ s)) (· = V) (holds c (outQ Q' hQ s) fullShare V) := by
  intro off hoff inb w hw hx hm α Q k
  subst hoff hw
  unfold holds owned
  iintro ⟨%f, H⟩ Hk
  have key : (((outQ Q' hQ s).view.loc (c : Thread nD τ) ↦[(outQ Q' hQ s).view.set]{fullShare} f) : sProp 𝕄)
      ⊢ iprop((_ -∗ wp frame (wpE (defs₀ (F := F)) 𝒱₀ (c : Thread nD τ) none) Set.univ (k ⟨⟩) Q) -∗ _) :=
    wp_store 𝒱₀ (c : Thread nD τ) none Set.univ (m := outM) (r := Rect.unit (s := S256x4096) ![0, 1024 * Q' + 128 * s.val] S256x128.size inb) (w := w) (hx := hx) (hm := hm) (Finset.Subset.refl _)
  iapply key $$ H
  iintro H
  iapply Hk
  iexists ((outQ Q' hQ s).view.write (Elt F) f w Finset.univ)
  isplitr
  · ipureintro; exact View.read_write_univ _ _
  · iexact H

theorem rows_inb (j : Fin 4) : ∀ a, (![256 * j.val, 0] : Fin 2 → ℕ) a + S256x1024.size a ≤ S1024x1024.size a := by
  intro a; have := j.isLt
  match a with
  | ⟨0, _⟩ => show 256 * j.val + 256 ≤ 1024; omega
  | ⟨1, _⟩ => show 0 + 1024 ≤ 1024; omega

abbrev rowsR (j : Fin 4) : Rect S1024x1024 := Rect.unit (s := S1024x1024) ![256 * j.val, 0] S256x1024.size (rows_inb j)

def colBlk (w : Vec F S256x1024 .f32) (s : Fin 8) : Vec F S256x128 .f32 := fun i =>
  w (ix2 ⟨(i 0).val, ValueIdx.idx2_lt0 i⟩ ⟨128 * s.val + (i 1).val, by have := ValueIdx.idx2_lt1 i; have := s.isLt; omega⟩)

theorem read_block_write_rows (j : Fin 4) (s : Fin 8) (f : partM.view.ty.Contents (Elt F))
    (w : Vec F S256x1024 .f32) :
    (partJS j s).view.read (Elt F) ((partM.access (rowsR j)).write (Elt F) f w Finset.univ) = colBlk w s := by
  funext x
  have e : (Rect.unit (s := S1024x1024) ![256 * j.val, 128 * s.val] S256x128.size (partOff_inb j s)).emb x
      = (rowsR j).emb (ix2 ⟨(x 0).val, ValueIdx.idx2_lt0 x⟩ ⟨128 * s.val + (x 1).val, by have := ValueIdx.idx2_lt1 x; have := s.isLt; omega⟩) := by
    funext a
    apply Fin.ext
    match a with
    | ⟨0, _⟩ => rfl
    | ⟨1, _⟩ => show 128 * s.val + 1 * (x 1).val = 0 + 1 * (128 * s.val + (x 1).val); omega
  generalize hg : (partM.access (rowsR j)).write (Elt F) f w Finset.univ = g
  show partM.view.read (Elt F) g ((Rect.unit (s := S1024x1024) ![256 * j.val, 128 * s.val] S256x128.size (partOff_inb j s)).emb x) = _
  rw [e, ← hg]
  exact View.read_slice_write_emb (v := partM.view) (rowsR j) f w (Finset.mem_univ _)

theorem read_block_write_rows_ne (j j' : Fin 4) (hj : j' ≠ j) (s : Fin 8) (f : partM.view.ty.Contents (Elt F))
    (w : Vec F S256x1024 .f32) :
    (partJS j' s).view.read (Elt F) ((partM.access (rowsR j)).write (Elt F) f w Finset.univ)
      = (partJS j' s).view.read (Elt F) f := by
  funext x
  have hx0 := ValueIdx.idx2_lt0 x
  have hn : (Rect.unit (s := S1024x1024) ![256 * j'.val, 128 * s.val] S256x128.size (partOff_inb j' s)).emb x ∉ (Finset.univ.map (rowsR j).emb) := by
    rw [Rect.map_emb_univ, Rect.mem_set_unit]
    intro hmem
    have h0 := hmem ⟨0, by decide⟩
    have h0' : 256 * j.val ≤ 256 * j'.val + 1 * (x 0).val ∧ 256 * j'.val + 1 * (x 0).val < 256 * j.val + 256 := h0
    exact hj (Fin.ext (by omega))
  generalize hg : (partM.access (rowsR j)).write (Elt F) f w Finset.univ = g
  show partM.view.read (Elt F) g ((Rect.unit (s := S1024x1024) ![256 * j'.val, 128 * s.val] S256x128.size (partOff_inb j' s)).emb x)
      = partM.view.read (Elt F) f ((Rect.unit (s := S1024x1024) ![256 * j'.val, 128 * s.val] S256x128.size (partOff_inb j' s)).emb x)
  rw [← hg]
  exact View.read_slice_write_of_not_mem (v := partM.view) (rowsR j) f w Finset.univ hn

theorem load_rows (c : Dev nD) (j : Fin 4) (off : Fin 2 → ℕ) (hoff : off = ![256 * j.val, 0])
    {inb : ∀ a, off a + S256x1024.size a ≤ S1024x1024.size a}
    {hl : partM.view.LoadsAt (Rect.unit (s := S1024x1024) off S256x1024.size inb).toLoadRect}
    (S : Finset (Idx (partM.view.loc (c : Thread nD τ)))) (q : PosShare TreeShare)
    (f : Buf (Elt F) (partM.view.loc (c : Thread nD τ)))
    (hS : (partM.access (rowsR j)).set ⊆ S)
    {α : Type} {Q : α → sProp 𝕄} {k : Vec F S256x1024 .f32 → Prog (TpuEff nD τ sig (Elt F) Λ₀ .tc) α} :
    ((partM.view.loc (c : Thread nD τ) ↦[S]{q} f) : sProp 𝕄)
      ⊢ iprop(((partM.view.loc (c : Thread nD τ) ↦[S]{q} f)
            -∗ wp frame (wpE (defs₀ (F := F)) 𝒱₀ (c : Thread nD τ) none) Set.univ (k ((partM.access (rowsR j)).read (Elt F) f)) Q)
          -∗ wp frame (wpE (defs₀ (F := F)) 𝒱₀ (c : Thread nD τ) none) Set.univ (.op (.load partM (Rect.unit (s := S1024x1024) off S256x1024.size inb).toLoadRect hl) k) Q) := by
  subst hoff
  exact wp_load_rect 𝒱₀ (c : Thread nD τ) none Set.univ (m := partM) (r := Rect.unit (s := S1024x1024) ![256 * j.val, 0] S256x1024.size inb) hS

theorem load_out_dead (c : Dev nD) (Q' : ℕ) (hQ : Q' < 4) (s : Fin 8) :
    DeadLoads (F := F) c outM S256x128.size ![0, 1024 * Q' + 128 * s.val] (owned c (outQ Q' hQ s)) := by
  intro off hoff inb hl α Q k
  subst hoff
  unfold owned
  iintro ⟨%f, H⟩ Hk
  have key : (((outQ Q' hQ s).view.loc (c : Thread nD τ) ↦[(outQ Q' hQ s).view.set]{fullShare} f) : sProp 𝕄)
      ⊢ iprop((_ -∗ wp frame (wpE (defs₀ (F := F)) 𝒱₀ (c : Thread nD τ) none) Set.univ (k _) Q) -∗ _) :=
    wp_load_rect 𝒱₀ (c : Thread nD τ) none Set.univ (m := outM) (r := Rect.unit (s := S256x4096) ![0, 1024 * Q' + 128 * s.val] S256x128.size inb) (hl := hl) (Finset.Subset.refl _)
  iapply key $$ H
  iintro H
  iapply Hk
  iexists f
  iexact H

theorem gemm_store' (c : Dev nD) (j : Fin 4) (off : Fin 2 → ℕ) (hoff : off = ![256 * j.val, 0])
    {inb : ∀ a, off a + S256x1024.size a ≤ S1024x1024.size a} (w : Vec F S256x1024 .f32)
    {hx : (partM.access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    (S : Finset (Idx (partM.view.loc (c : Thread nD τ))))
    (f : Buf (Elt F) (partM.view.loc (c : Thread nD τ)))
    (hS : (partM.access (rowsR j)).set ⊆ S)
    {α : Type} {Q : α → sProp 𝕄} {k : PUnit → Prog (TpuEff nD τ sig (Elt F) Λ₀ .tc) α} :
    ((partM.view.loc (c : Thread nD τ) ↦[S]{fullShare} f) : sProp 𝕄)
      ⊢ iprop(((∃ f' : Buf (Elt F) (partM.view.loc (c : Thread nD τ)),
              ⌜(∀ s : Fin 8, (partJS j s).view.read (Elt F) f' = colBlk w s)
                ∧ ∀ j' : Fin 4, j' ≠ j → ∀ s : Fin 8, (partJS j' s).view.read (Elt F) f' = (partJS j' s).view.read (Elt F) f⌝
              ∗ (partM.view.loc (c : Thread nD τ) ↦[S]{fullShare} f')) -∗ wp frame (wpE (defs₀ (F := F)) 𝒱₀ (c : Thread nD τ) none) Set.univ (k ⟨⟩) Q)
          -∗ wp frame (wpE (defs₀ (F := F)) 𝒱₀ (c : Thread nD τ) none) Set.univ (.op (.store partM (Rect.unit (s := S1024x1024) off S256x1024.size inb) w Finset.univ hx hm) k) Q) := by
  subst hoff
  iintro H Hk
  iapply (wp_store 𝒱₀ (c : Thread nD τ) none Set.univ (m := partM) (r := rowsR j) hS) $$ H
  iintro H
  iapply Hk
  iexists ((partM.access (rowsR j)).write (Elt F) f w Finset.univ)
  isplitr
  · ipureintro
    exact ⟨fun s => read_block_write_rows j s f w, fun j' hj s => read_block_write_rows_ne j j' hj s f w⟩
  · iexact H

theorem rowOf_val_step : ∀ (c : Dev nD) (r : Fin 2), (rowOf (zc c) (2 + r.val)).val = (c.val % 4 + 4 - (1 + r.val) - 1) % 4 := by decide
theorem rowOf_val_own : ∀ c : Dev nD, (rowOf (zc c) 4).val = c.val % 4 := by decide
/-- info: 'Cert.Kernel.Sched.store_comm' depends on axioms: [propext, Classical.choice, Quot.sound] -/
#guard_msgs in #print axioms store_comm

end Cert.Kernel.Sched

end
-- ==== Proof.Bits.PartSt.lean ====
/- The product buffer by row chunks and column blocks: the stores of the four row chunks and the loads of single blocks. -/
import proofs.«901049_g7700000000001050_dist_rsdw_v7x_xyz2x2x4_z_m1024_d1024_f4096_f32_1_alg».proof.Proof.Bits.StepsLocal
import proofs.«901049_g7700000000001050_dist_rsdw_v7x_xyz2x2x4_z_m1024_d1024_f4096_f32_1_alg».proof.Proof.Bits.StepsMem
import proofs.«901049_g7700000000001050_dist_rsdw_v7x_xyz2x2x4_z_m1024_d1024_f4096_f32_1_alg».proof.Proof.Bits.Shared

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev j₀ (c : Dev nD) : Fin 4 := rowOf (zc c) 1

def restSet (c : Dev nD) : Finset (Idx ((partM : Memref sig .tc .vmem S1024x1024 .f32).view.loc (c : Thread nD τ))) :=
  Finset.univ \ ((partM : Memref sig .tc .vmem S1024x1024 .f32).access (rowsR (j₀ c))).set

def PartFacts (c : Dev nD) (J : Finset (Fin 4)) (f : Buf (Elt F) ((partM : Memref sig .tc .vmem S1024x1024 .f32).view.loc (c : Thread nD τ))) : Prop :=
  ∀ j ∈ J, ∀ s : Fin 8, (partJS j s).view.read (Elt F) f = blockV m c j s

def PartWhole (c : Dev nD) (J : Finset (Fin 4)) : sProp 𝕄 :=
  iprop(∃ f : Buf (Elt F) ((partM : Memref sig .tc .vmem S1024x1024 .f32).view.loc (c : Thread nD τ)),
    ⌜PartFacts m c J f⌝ ∗ (((c : Thread nD τ).loc cc0_scratch2) ↦{fullShare} f))

def PartRest (c : Dev nD) (J : Finset (Fin 4)) : sProp 𝕄 :=
  iprop(∃ f : Buf (Elt F) ((partM : Memref sig .tc .vmem S1024x1024 .f32).view.loc (c : Thread nD τ)),
    ⌜PartFacts m c J f⌝ ∗ (((c : Thread nD τ).loc cc0_scratch2) ↦[restSet c]{fullShare} f))

namespace PartSt

section Geometry

abbrev blkR (j : Fin 4) (s : Fin 8) : Rect S1024x1024 := Rect.unit (s := S1024x1024) ![256 * j.val, 128 * s.val] S256x128.size (partOff_inb j s)

omit [FloatOps F] in
theorem rows_set (j : Fin 4) : ((partM : Memref sig .tc .vmem S1024x1024 .f32).access (rowsR j)).set = (rowsR j).set :=
  View.set_slice_whole cc0_scratch2 (rowsR j)
omit [FloatOps F] in
theorem block_set (j : Fin 4) (s : Fin 8) : (partJS j s).view.set = (blkR j s).set :=
  View.set_slice_whole cc0_scratch2 (blkR j s)

omit [FloatOps F] in
theorem mem_rowsR (j : Fin 4) (i : S1024x1024.Idx) : i ∈ (rowsR j).set ↔ 256 * j.val ≤ (i 0).val ∧ (i 0).val < 256 * j.val + 256 := by
  rw [Rect.mem_set_unit]
  exact Fin.forall_fin_two.trans (and_iff_left ⟨Nat.zero_le _, by show (i 1).val < 0 + 1024; have := ValueIdx.idx2_lt1 i; omega⟩)

omit [FloatOps F] in
theorem mem_blkR (j : Fin 4) (s : Fin 8) (i : S1024x1024.Idx) :
    i ∈ (blkR j s).set ↔ (256 * j.val ≤ (i 0).val ∧ (i 0).val < 256 * j.val + 256) ∧ (128 * s.val ≤ (i 1).val ∧ (i 1).val < 128 * s.val + 128) := by
  rw [Rect.mem_set_unit]
  exact Fin.forall_fin_two

omit [FloatOps F] in
theorem mem_rows (j : Fin 4) (i : S1024x1024.Idx) :
    i ∈ (((partM : Memref sig .tc .vmem S1024x1024 .f32).access (rowsR j)).set : Finset S1024x1024.Idx) ↔ 256 * j.val ≤ (i 0).val ∧ (i 0).val < 256 * j.val + 256 := by
  have e : (((partM : Memref sig .tc .vmem S1024x1024 .f32).access (rowsR j)).set : Finset S1024x1024.Idx) = (rowsR j).set := rows_set j
  rw [e]; exact mem_rowsR j i
omit [FloatOps F] in
theorem mem_block (j : Fin 4) (s : Fin 8) (i : S1024x1024.Idx) :
    i ∈ ((partJS j s).view.set : Finset S1024x1024.Idx)
      ↔ (256 * j.val ≤ (i 0).val ∧ (i 0).val < 256 * j.val + 256) ∧ (128 * s.val ≤ (i 1).val ∧ (i 1).val < 128 * s.val + 128) := by
  have e : ((partJS j s).view.set : Finset S1024x1024.Idx) = (blkR j s).set := block_set j s
  rw [e]; exact mem_blkR j s i

omit [FloatOps F] in
theorem rows_subset_rest (c : Dev nD) (j : Fin 4) (hj : j ≠ j₀ c) :
    ((partM : Memref sig .tc .vmem S1024x1024 .f32).access (rowsR j)).set ⊆ restSet c := by
  intro i hi
  unfold restSet
  refine Finset.mem_sdiff.mpr ⟨Finset.mem_univ _, fun hi' => ?_⟩
  have h1 := (mem_rows j i).mp hi
  have h2 := (mem_rows (j₀ c) i).mp hi'
  exact hj (Fin.ext (by omega))

omit [FloatOps F] in
theorem block_subset_rows (j : Fin 4) (s : Fin 8) :
    (partJS j s).view.set ⊆ ((partM : Memref sig .tc .vmem S1024x1024 .f32).access (rowsR j)).set := by
  intro i hi
  exact (mem_rows j i).mpr ((mem_block j s i).mp hi).1

omit [FloatOps F] in
theorem blocks_disjoint (j : Fin 4) (s s' : Fin 8) (h : s ≠ s') : Disjoint (partJS j s).view.set (partJS j s').view.set := by
  refine Finset.disjoint_left.mpr fun i hi hi' => ?_
  have h1 := (mem_block j s i).mp hi
  have h2 := (mem_block j s' i).mp hi'
  exact h (Fin.ext (by omega))

def blkSet (c : Dev nD) (j : Fin 4) (s : Fin 8) : Finset (Idx ((partM : Memref sig .tc .vmem S1024x1024 .f32).view.loc (c : Thread nD τ))) :=
  (partJS j s).view.set

omit [FloatOps F] in
theorem rows_eq_blocks (c : Dev nD) (j : Fin 4) :
    (((partM : Memref sig .tc .vmem S1024x1024 .f32).access (rowsR j)).set : Finset (Idx ((partM : Memref sig .tc .vmem S1024x1024 .f32).view.loc (c : Thread nD τ))))
      = (Finset.univ : Finset (Fin 8)).biUnion (blkSet c j) := by
  apply Finset.Subset.antisymm
  · intro i hi
    have h0 := (mem_rows j i).mp hi
    have h1 := ValueIdx.idx2_lt1 (n0 := 1024) (n1 := 1024) i
    refine Finset.mem_biUnion.mpr ⟨⟨(i 1).val / 128, by omega⟩, Finset.mem_univ _, ?_⟩
    unfold blkSet
    refine (mem_block j _ i).mpr ⟨h0, ?_⟩
    show 128 * ((i 1).val / 128) ≤ (i 1).val ∧ (i 1).val < 128 * ((i 1).val / 128) + 128
    omega
  · intro i hi
    obtain ⟨s, _, hs⟩ := Finset.mem_biUnion.mp hi
    exact block_subset_rows j s hs

end Geometry

end PartSt

open PartSt

section Rows

omit [FloatOps F] in
theorem row_ne_j₀ : ∀ (c : Dev nD) (r : Fin 4), r ≠ 0 → rowOf (zc c) (1 + r.val) ≠ j₀ c := by decide
omit [FloatOps F] in
theorem row_step_ne_j₀ : ∀ (c : Dev nD) (r : Fin 2), rowOf (zc c) (2 + r.val) ≠ j₀ c := by decide
omit [FloatOps F] in
theorem row_own_ne_j₀ : ∀ c : Dev nD, rowOf (zc c) 4 ≠ j₀ c := by decide

end Rows

section Steps

theorem part_whole_intro (c : Dev nD) :
    iprop(∃ f : Buf (Elt F) ((c : Thread nD τ).loc cc0_scratch2), ((c : Thread nD τ).loc cc0_scratch2) ↦{fullShare} f) ⊢ PartWhole m c ∅ := by
  unfold PartWhole
  iintro ⟨%f, H⟩
  iexists f
  isplitr
  · ipureintro; intro j hj; exact absurd hj (Finset.notMem_empty _)
  · iexact H

theorem part_dead_whole (c : Dev nD) (J : Finset (Fin 4)) {α : Type} {Q : α → sProp 𝕄}
    {off : Fin 2 → ℕ} {inb : ∀ a, off a + S256x1024.size a ≤ S1024x1024.size a}
    {hl : (partM : Memref sig .tc .vmem S1024x1024 .f32).view.LoadsAt (Rect.unit (s := S1024x1024) off S256x1024.size inb).toLoadRect}
    {k : Vec F S256x1024 .f32 → Prog (TpuEff nD τ sig (Elt F) Λ₀ .tc) α} :
    PartWhole m c J
      ⊢ iprop((PartWhole m c J -∗ ∀ v, WP c (k v) Q)
          -∗ WP c (.op (.load partM (Rect.unit (s := S1024x1024) off S256x1024.size inb).toLoadRect hl) k) Q) := by
  unfold PartWhole
  iintro ⟨%f, %hf, H⟩ Hk
  iapply (load_dead c (q := fullShare) (S := Finset.univ) (f := f) (Finset.subset_univ _)) $$ H
  iintro H
  iapply Hk
  iexists f
  isplitr
  · ipureintro; exact hf
  · iexact H

theorem part_dead_rest (c : Dev nD) (J : Finset (Fin 4)) (r : Fin 4) (hr : r ≠ 0) {α : Type} {Q : α → sProp 𝕄}
    {off : Fin 2 → ℕ} (hoff : off = ![256 * (rowOf (zc c) (1 + r.val)).val, 0]) {inb : ∀ a, off a + S256x1024.size a ≤ S1024x1024.size a}
    {hl : (partM : Memref sig .tc .vmem S1024x1024 .f32).view.LoadsAt (Rect.unit (s := S1024x1024) off S256x1024.size inb).toLoadRect}
    {k : Vec F S256x1024 .f32 → Prog (TpuEff nD τ sig (Elt F) Λ₀ .tc) α} :
    PartRest m c J
      ⊢ iprop((PartRest m c J -∗ ∀ v, WP c (k v) Q)
          -∗ WP c (.op (.load partM (Rect.unit (s := S1024x1024) off S256x1024.size inb).toLoadRect hl) k) Q) := by
  unfold PartRest
  iintro ⟨%f, %hf, H⟩ Hk
  iapply (load_rows c (rowOf (zc c) (1 + r.val)) off hoff (restSet c) fullShare f (rows_subset_rest c _ (row_ne_j₀ c r hr))) $$ H
  iintro H
  iapply Hk $$ [H]
  iexists f
  isplitr
  · ipureintro; exact hf
  · iexact H

theorem part_store_whole (c : Dev nD) {α : Type} {Q : α → sProp 𝕄}
    {off : Fin 2 → ℕ} (hoff : off = ![256 * (j₀ c).val, 0]) {inb : ∀ a, off a + S256x1024.size a ≤ S1024x1024.size a}
    (w : Vec F S256x1024 .f32) (hw : w = chunkV m c (j₀ c))
    {hx : ((partM : Memref sig .tc .vmem S1024x1024 .f32).access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {k : PUnit → Prog (TpuEff nD τ sig (Elt F) Λ₀ .tc) α} :
    PartWhole m c ∅
      ⊢ iprop((PartWhole m c {j₀ c} -∗ WP c (k ⟨⟩) Q)
          -∗ WP c (.op (.store partM (Rect.unit (s := S1024x1024) off S256x1024.size inb) w Finset.univ hx hm) k) Q) := by
  unfold PartWhole
  iintro ⟨%f, -, H⟩ Hk
  iapply (gemm_store' c (j₀ c) off hoff w Finset.univ f (Finset.subset_univ _)) $$ H
  iintro ⟨%f', %hf', H⟩
  iapply Hk
  iexists f'
  isplitr
  · ipureintro
    intro j hj s
    rw [Finset.mem_singleton] at hj
    subst hj
    rw [hf'.1 s, hw]
    rfl
  · iexact H

theorem part_store_rest (c : Dev nD) (J : Finset (Fin 4)) (r : Fin 4) (hr : r ≠ 0) {α : Type} {Q : α → sProp 𝕄}
    {off : Fin 2 → ℕ} (hoff : off = ![256 * (rowOf (zc c) (1 + r.val)).val, 0]) {inb : ∀ a, off a + S256x1024.size a ≤ S1024x1024.size a}
    (w : Vec F S256x1024 .f32) (hw : w = chunkV m c (rowOf (zc c) (1 + r.val)))
    {hx : ((partM : Memref sig .tc .vmem S1024x1024 .f32).access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {k : PUnit → Prog (TpuEff nD τ sig (Elt F) Λ₀ .tc) α} :
    PartRest m c J
      ⊢ iprop((PartRest m c (insert (rowOf (zc c) (1 + r.val)) J) -∗ WP c (k ⟨⟩) Q)
          -∗ WP c (.op (.store partM (Rect.unit (s := S1024x1024) off S256x1024.size inb) w Finset.univ hx hm) k) Q) := by
  unfold PartRest
  iintro ⟨%f, %hf, H⟩ Hk
  iapply (gemm_store' c (rowOf (zc c) (1 + r.val)) off hoff w (restSet c) f (rows_subset_rest c _ (row_ne_j₀ c r hr))) $$ H
  iintro ⟨%f', %hf', H⟩
  iapply Hk
  iexists f'
  isplitr
  · ipureintro
    intro j hj s
    by_cases hjj : j = rowOf (zc c) (1 + r.val)
    · subst hjj
      rw [hf'.1 s, hw]
      rfl
    · rw [hf'.2 j hjj s]
      exact hf j ((Finset.mem_insert.mp hj).resolve_left hjj) s
  · iexact H

theorem part_load (c : Dev nD) (J : Finset (Fin 4)) (j : Fin 4) (hj : j ∈ J) (hne : j ≠ j₀ c) (s : Fin 8) {α : Type} {Q : α → sProp 𝕄}
    {off : Fin 2 → ℕ} (hoff : off = ![256 * j.val, 128 * s.val]) {inb : ∀ a, off a + S256x128.size a ≤ S1024x1024.size a}
    {hl : (partM : Memref sig .tc .vmem S1024x1024 .f32).view.LoadsAt (Rect.unit (s := S1024x1024) off S256x128.size inb).toLoadRect}
    {k : Vec F S256x128 .f32 → Prog (TpuEff nD τ sig (Elt F) Λ₀ .tc) α} :
    PartRest m c J
      ⊢ iprop((PartRest m c J -∗ WP c (k (blockV m c j s)) Q)
          -∗ WP c (.op (.load partM (Rect.unit (s := S1024x1024) off S256x128.size inb).toLoadRect hl) k) Q) := by
  unfold PartRest
  iintro ⟨%f, %hf, H⟩ Hk
  iapply (load_part c j s off hoff (restSet c) fullShare f (blockV m c j s)
    ((block_subset_rows j s).trans (rows_subset_rest c j hne)) (hf j hj s)) $$ H
  iintro H
  iapply Hk
  iexists f
  isplitr
  · ipureintro; exact hf
  · iexact H

theorem part_rest_exit (c : Dev nD) (J : Finset (Fin 4)) :
    PartRest m c J ⊢ iprop(∃ f : Buf (Elt F) ((c : Thread nD τ).loc cc0_scratch2),
      ((c : Thread nD τ).loc cc0_scratch2) ↦[Finset.univ \ ((partM : Memref sig .tc .vmem S1024x1024 .f32).access (rowsR (j₀ c))).set]{fullShare} f) := by
  unfold PartRest restSet
  iintro ⟨%f, -, H⟩
  iexists f
  iexact H

theorem PartSt.holds_intro (c : Dev nD) {sp : Space} (M : Memref sig .tc sp S256x128 .f32) (q : PosShare TreeShare) (V : Vec F S256x128 .f32)
    (f : Buf (Elt F) (M.view.loc (c : Thread nD τ))) (hf : M.view.read (Elt F) f = V) :
    ((M.view.loc (c : Thread nD τ)) ↦[M.view.set]{q} f : sProp 𝕄) ⊢ holds c M q V := by
  unfold holds
  iintro H
  iexists f
  isplitr
  · ipureintro; exact hf
  · iexact H

theorem PartSt.rows_to_blocks (c : Dev nD) (j : Fin 4) (f : Buf (Elt F) ((partM : Memref sig .tc .vmem S1024x1024 .f32).view.loc (c : Thread nD τ))) (V : Fin 8 → Vec F S256x128 .f32)
    (hf : ∀ s : Fin 8, (partJS j s).view.read (Elt F) f = V s) :
    (((partM : Memref sig .tc .vmem S1024x1024 .f32).view.loc (c : Thread nD τ)) ↦[((partM : Memref sig .tc .vmem S1024x1024 .f32).access (rowsR j)).set]{fullShare} f : sProp 𝕄)
      ⊢ bigSep (Finset.univ : Finset (Fin 8)) fun s => holds c (partJS j s) fullShare (V s) := by
  rw [rows_eq_blocks c j, pointsTo_biUnion _ _ (fun s _ s' _ h => blocks_disjoint j s s' h)]
  exact bigSep_mono fun s _ => holds_intro c (partJS j s) fullShare (V s) f (hf s)

theorem part_split_lanes (c : Dev nD) :
    PartWhole m c {j₀ c}
      ⊢ iprop((bigSep (Finset.univ : Finset (Fin 8)) fun s => holds c (partJS (j₀ c) s) fullShare (acc m s 0 c)) ∗ PartRest m c ∅) := by
  unfold PartWhole PartRest
  iintro ⟨%f, %hf, H⟩
  ihave H2 := (pointsTo_split_subset (Finset.subset_univ ((partM : Memref sig .tc .vmem S1024x1024 .f32).access (rowsR (j₀ c))).set)).1 $$ H
  icases H2 with ⟨Hrows, Hrest⟩
  isplitl [Hrows]
  · iapply (rows_to_blocks c (j₀ c) f (fun s => acc m s 0 c) (fun s => hf (j₀ c) (Finset.mem_singleton_self _) s)) $$ Hrows
  · iexists f
    isplitr
    · ipureintro; intro j hj; exact absurd hj (Finset.notMem_empty _)
    · unfold restSet; iexact Hrest

end Steps

section Offsets

def partOffStep (s : Fin 8) : Dev nD → BitVec 32 → Fin 2 → ℕ :=
  match s with
  | ⟨0, _⟩ => k0_off12 | ⟨1, _⟩ => k0_off13 | ⟨2, _⟩ => k0_off14 | ⟨3, _⟩ => k0_off15
  | ⟨4, _⟩ => k0_off16 | ⟨5, _⟩ => k0_off17 | ⟨6, _⟩ => k0_off18 | ⟨7, _⟩ => k0_off19
  | ⟨n + 8, h⟩ => absurd h (by omega)

def partOffOwn (s : Fin 8) : Dev nD → Fin 2 → ℕ :=
  match s with
  | ⟨0, _⟩ => k0_off20 | ⟨1, _⟩ => k0_off23 | ⟨2, _⟩ => k0_off24 | ⟨3, _⟩ => k0_off25
  | ⟨4, _⟩ => k0_off26 | ⟨5, _⟩ => k0_off27 | ⟨6, _⟩ => k0_off28 | ⟨7, _⟩ => k0_off29
  | ⟨n + 8, h⟩ => absurd h (by omega)

omit [FloatOps F] in
theorem partoff_step (c : Dev nD) (s : Fin 8) (r : Fin 2) :
    partOffStep s c (BitVec.ofNat 32 (1 + r.val)) = ![256 * (rowOf (zc c) (2 + r.val)).val, 128 * s.val] := by
  rw [rowOf_val_step c r]
  match s with
  | ⟨0, _⟩ => exact Mesh.off12_eq c r
  | ⟨1, _⟩ => exact Mesh.off13_eq c r
  | ⟨2, _⟩ => exact Mesh.off14_eq c r
  | ⟨3, _⟩ => exact Mesh.off15_eq c r
  | ⟨4, _⟩ => exact Mesh.off16_eq c r
  | ⟨5, _⟩ => exact Mesh.off17_eq c r
  | ⟨6, _⟩ => exact Mesh.off18_eq c r
  | ⟨7, _⟩ => exact Mesh.off19_eq c r
  | ⟨n + 8, h⟩ => exact absurd h (by omega)

omit [FloatOps F] in
theorem partoff_own (c : Dev nD) (s : Fin 8) : partOffOwn s c = ![256 * (rowOf (zc c) 4).val, 128 * s.val] := by
  rw [rowOf_val_own c]
  match s with
  | ⟨0, _⟩ => exact Gen.k0_off20_eq c
  | ⟨1, _⟩ => exact Gen.k0_off23_eq c
  | ⟨2, _⟩ => exact Gen.k0_off24_eq c
  | ⟨3, _⟩ => exact Gen.k0_off25_eq c
  | ⟨4, _⟩ => exact Gen.k0_off26_eq c
  | ⟨5, _⟩ => exact Gen.k0_off27_eq c
  | ⟨6, _⟩ => exact Gen.k0_off28_eq c
  | ⟨7, _⟩ => exact Gen.k0_off29_eq c
  | ⟨n + 8, h⟩ => exact absurd h (by omega)

end Offsets

end Cert.Kernel.Sched

end
-- ==== Proof.Bits.Pieces.lean ====
/- A buffer cut into pairwise disjoint blocks that cover it, and the blocks joined back. -/
import proofs.«901049_g7700000000001050_dist_rsdw_v7x_xyz2x2x4_z_m1024_d1024_f4096_f32_1_alg».proof.Proof.Bits.StepsMem
import proofs.«901049_g7700000000001050_dist_rsdw_v7x_xyz2x2x4_z_m1024_d1024_f4096_f32_1_alg».proof.Proof.Bits.Dats

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

theorem ent_of {P R : sProp 𝕄} (h : P ⊢ R) : Idealize.SL.BI.Entails P R := h

theorem bigSep_insert' {ι : Type} [DecidableEq ι] {T : Finset ι} {i : ι} (hi : i ∉ T) (Φ : ι → sProp 𝕄) :
    bigSep (insert i T) Φ = iprop(Φ i ∗ bigSep T Φ) := bigSep_insert hi

theorem pointsTo_pieces {ι : Type} [DecidableEq ι] {ℓ : Loc nD τ sig} (A : ι → Finset (Idx ℓ)) (q : PosShare TreeShare) (f : Buf (Elt F) ℓ) :
    ∀ (T : Finset ι) (S : Finset (Idx ℓ)), (∀ i ∈ T, A i ⊆ S) → (∀ i ∈ T, ∀ j ∈ T, i ≠ j → Disjoint (A i) (A j)) →
      ((ℓ ↦[S]{q} f) : sProp 𝕄) ⊢ iprop(bigSep T (fun i => (ℓ ↦[A i]{q} f)) ∗ (ℓ ↦[S \ T.biUnion A]{q} f)) := by
  intro T
  induction T using Finset.induction_on with
  | empty =>
    intro S _ _
    rw [bigSep_empty, Finset.biUnion_empty, Finset.sdiff_empty]
    exact Idealize.SL.BI.emp_sep.2
  | insert i T hi ih =>
    intro S hS hd
    have hsub : A i ⊆ S \ T.biUnion A :=
      Finset.subset_sdiff.mpr ⟨hS i (Finset.mem_insert_self i T), (Finset.disjoint_biUnion_right _ _ _).mpr fun j hj =>
        hd i (Finset.mem_insert_self i T) j (Finset.mem_insert_of_mem hj) (fun e => hi (e ▸ hj))⟩
    have hrest : S \ (insert i T).biUnion A = (S \ T.biUnion A) \ A i := by
      rw [Finset.biUnion_insert, Finset.union_comm, ← Finset.sup_eq_union, ← sdiff_sdiff_left]
    rw [bigSep_insert' hi, hrest]
    iintro H
    icases (ih S (fun j hj => hS j (Finset.mem_insert_of_mem hj))
      (fun a ha b hb => hd a (Finset.mem_insert_of_mem ha) b (Finset.mem_insert_of_mem hb))) $$ H with ⟨HT, HR⟩
    icases (Region.is_split_subset hsub).1 $$ HR with ⟨Hi, HR'⟩
    isplitr [HR']
    · isplitl [Hi]
      · iexact Hi
      · iexact HT
    · iexact HR'

theorem pointsTo_cover {ι : Type} [DecidableEq ι] {ℓ : Loc nD τ sig} (A : ι → Finset (Idx ℓ)) (q : PosShare TreeShare) (f : Buf (Elt F) ℓ)
    (T : Finset ι) (S : Finset (Idx ℓ)) (hS : ∀ i ∈ T, A i ⊆ S) (hd : ∀ i ∈ T, ∀ j ∈ T, i ≠ j → Disjoint (A i) (A j)) :
    ((ℓ ↦[S]{q} f) : sProp 𝕄) ⊢ bigSep T (fun i => (ℓ ↦[A i]{q} f)) := by
  iintro H
  icases (pointsTo_pieces A q f T S hS hd) $$ H with ⟨HT, _⟩
  iexact HT

theorem pointsTo_piece_to {ℓ : Loc nD τ sig} {I : Finset (Idx ℓ)} {q : PosShare TreeShare} {g : Buf (Elt F) ℓ} :
    (iprop(∃ f : Buf (Elt F) ℓ, ⌜∀ x ∈ I, f x = g x⌝ ∗ (ℓ ↦[I]{q} f)) : sProp 𝕄) ⊢ (ℓ ↦[I]{q} g) := by
  iintro ⟨%f, %hf, H⟩
  have e : ((ℓ ↦[I]{q} f) : sProp 𝕄) = (ℓ ↦[I]{q} g) := Region.is_congr hf
  rw [← e]
  iexact H

theorem pointsTo_join_to {ι : Type} [DecidableEq ι] {ℓ : Loc nD τ sig} (A : ι → Finset (Idx ℓ)) (q : PosShare TreeShare) (g : Buf (Elt F) ℓ) :
    ∀ (T : Finset ι) (hT : T.Nonempty), (∀ i ∈ T, ∀ j ∈ T, i ≠ j → Disjoint (A i) (A j)) →
      (bigSep T (fun i => iprop(∃ f : Buf (Elt F) ℓ, ⌜∀ x ∈ A i, f x = g x⌝ ∗ (ℓ ↦[A i]{q} f))) : sProp 𝕄) ⊢ (ℓ ↦[T.biUnion A]{q} g) := by
  intro T hT
  induction hT using Finset.Nonempty.cons_induction with
  | singleton i =>
    intro _
    rw [bigSep_singleton, Finset.singleton_biUnion]
    exact pointsTo_piece_to
  | cons i T hi hT ih =>
    intro hd
    rw [Finset.cons_eq_insert, bigSep_insert' hi, Finset.biUnion_insert]
    have hdis : Disjoint (A i) (T.biUnion A) := (Finset.disjoint_biUnion_right _ _ _).mpr fun j hj =>
      hd i (by simp) j (by simp [hj]) (fun e => hi (e ▸ hj))
    iintro ⟨Hi, HT⟩
    iapply (Region.is_union hdis).2
    isplitl [Hi]
    · iapply pointsTo_piece_to
      iexact Hi
    · iapply (ih (fun a ha b hb => hd a (by simp [ha]) b (by simp [hb])))
      iexact HT

theorem pointsTo_join {ι : Type} [DecidableEq ι] {ℓ : Loc nD τ sig} (A : ι → Finset (Idx ℓ)) (q : PosShare TreeShare) :
    ∀ (T : Finset ι) (hT : T.Nonempty), (∀ i ∈ T, ∀ j ∈ T, i ≠ j → Disjoint (A i) (A j)) →
      (bigSep T (fun i => iprop(∃ f : Buf (Elt F) ℓ, (ℓ ↦[A i]{q} f))) : sProp 𝕄) ⊢ iprop(∃ f : Buf (Elt F) ℓ, (ℓ ↦[T.biUnion A]{q} f)) := by
  intro T hT
  induction hT using Finset.Nonempty.cons_induction with
  | singleton i =>
    intro _
    rw [bigSep_singleton, Finset.singleton_biUnion]
  | cons i T hi hT ih =>
    intro hd
    rw [Finset.cons_eq_insert, bigSep_insert' hi, Finset.biUnion_insert]
    have hdis : Disjoint (A i) (T.biUnion A) := (Finset.disjoint_biUnion_right _ _ _).mpr fun j hj =>
      hd i (by simp) j (by simp [hj]) (fun e => hi (e ▸ hj))
    iintro ⟨⟨%f, H⟩, HT⟩
    icases (ih (fun a ha b hb => hd a (by simp [ha]) b (by simp [hb]))) $$ HT with ⟨%g, HG⟩
    iexists ((T.biUnion A).piecewise g f)
    iapply (Region.is_join hdis)
    isplitl [H]
    · iexact H
    · iexact HG

theorem mem_partJS_set (j : Fin 4) (s : Fin 8) (x : S1024x1024.Idx) :
    x ∈ (partJS j s).view.set ↔ (256 * j.val ≤ (x 0).val ∧ (x 0).val < 256 * j.val + 256) ∧ (128 * s.val ≤ (x 1).val ∧ (x 1).val < 128 * s.val + 128) := by
  show x ∈ ((View.whole cc0_scratch2 : View sig .tc _ _ _).slice (Rect.unit (s := S1024x1024) ![256 * j.val, 128 * s.val] S256x128.size (partOff_inb j s))).set ↔ _
  rw [View.set_slice_whole, Rect.mem_set_unit]
  exact Fin.forall_fin_two

theorem mem_outQ_set (Q' : ℕ) (hQ : Q' < 4) (s : Fin 8) (x : S256x4096.Idx) :
    x ∈ (outQ Q' hQ s).view.set ↔ 1024 * Q' + 128 * s.val ≤ (x 1).val ∧ (x 1).val < 1024 * Q' + 128 * s.val + 128 := by
  show x ∈ ((View.whole cc0_stg0_0 : View sig .tc _ _ _).slice (Rect.unit (s := S256x4096) ![0, 1024 * Q' + 128 * s.val] S256x128.size (outOff_inb Q' hQ s))).set ↔ _
  rw [View.set_slice_whole, Rect.mem_set_unit]
  exact Fin.forall_fin_two.trans (and_iff_right ⟨Nat.zero_le _, by have := ValueIdx.idx2_lt0 x; show (x 0).val < 0 + 256; omega⟩)

theorem mem_commSlot_set (s : Fin 8) (h : Fin 3) (x : S8x3x256x128.Idx) :
    x ∈ (commSlot s h).view.set ↔ (x 0).val = s.val ∧ (x 1).val = h.val := by
  show x ∈ (((View.whole cc0_scratch3 : View sig .tc _ _ _).slice (Rect.unit (s := S8x3x256x128) ![s.val, h.val, 0, 0] S1x1x256x128.size (commSlot_inb s h))).reshape S256x128 Facts₀.squeezes_S1x1x256x128_S256x128.numel_eq).set ↔ _
  rw [View.set_reshape, View.set_slice_whole, Rect.mem_set_unit]
  constructor
  · intro hm
    have h0 : s.val ≤ (x 0).val ∧ (x 0).val < s.val + 1 := hm (0 : Fin 4)
    have h1 : h.val ≤ (x 1).val ∧ (x 1).val < h.val + 1 := hm (1 : Fin 4)
    omega
  · rintro ⟨h0, h1⟩ a
    match a with
    | ⟨0, _⟩ => show s.val ≤ (x 0).val ∧ (x 0).val < s.val + 1; omega
    | ⟨1, _⟩ => show h.val ≤ (x 1).val ∧ (x 1).val < h.val + 1; omega
    | ⟨2, _⟩ => exact ⟨Nat.zero_le _, by have : (x 2).val < 256 := (x 2).isLt; show (x 2).val < 0 + 256; omega⟩
    | ⟨3, _⟩ => exact ⟨Nat.zero_le _, by have : (x 3).val < 128 := (x 3).isLt; show (x 3).val < 0 + 128; omega⟩

def commSet (c : Dev nD) (sh : Fin 8 × Fin 3) : Finset (Idx ((c : Thread nD τ).loc cc0_scratch3)) := (commSlot sh.1 sh.2).view.set

theorem commSet_disj (c : Dev nD) : ∀ a ∈ (Finset.univ : Finset (Fin 8 × Fin 3)), ∀ b ∈ (Finset.univ : Finset (Fin 8 × Fin 3)), a ≠ b →
    Disjoint (commSet c a) (commSet c b) := by
  intro a _ b _ hab
  rw [Finset.disjoint_left]
  intro x hxa hxb
  have ha := (mem_commSlot_set a.1 a.2 x).mp hxa
  have hb := (mem_commSlot_set b.1 b.2 x).mp hxb
  exact hab (Prod.ext (Fin.ext (by omega)) (Fin.ext (by omega)))

theorem commSet_cover (c : Dev nD) : (Finset.univ : Finset (Fin 8 × Fin 3)).biUnion (commSet c) = Finset.univ := by
  ext x
  simp only [Finset.mem_biUnion, Finset.mem_univ, true_and, iff_true]
  exact ⟨(⟨(x 0).val, (x 0).isLt⟩, ⟨(x 1).val, (x 1).isLt⟩), (mem_commSlot_set _ _ x).mpr ⟨rfl, rfl⟩⟩

theorem comm_split (c : Dev nD) (f : Buf (Elt F) ((c : Thread nD τ).loc cc0_scratch3)) :
    ((((c : Thread nD τ).loc cc0_scratch3) ↦{fullShare} f) : sProp 𝕄)
      ⊢ bigSep (Finset.univ : Finset (Fin 8 × Fin 3)) fun sh => owned c (commSlot sh.1 sh.2) :=
  (pointsTo_cover (commSet c) fullShare f Finset.univ Finset.univ (fun _ _ => Finset.subset_univ _) (commSet_disj c)).trans
    (bigSep_mono fun sh _ => by
      unfold owned
      exact exists_intro (Φ := fun f' => iprop(((commSlot sh.1 sh.2).view.loc (c : Thread nD τ) ↦[(commSlot sh.1 sh.2).view.set]{fullShare} f'))) f)

theorem comm_join (c : Dev nD) :
    (bigSep (Finset.univ : Finset (Fin 8 × Fin 3)) (fun sh => owned c (commSlot sh.1 sh.2)) : sProp 𝕄)
      ⊢ iprop(∃ f : Buf (Elt F) ((c : Thread nD τ).loc cc0_scratch3), (((c : Thread nD τ).loc cc0_scratch3) ↦{fullShare} f)) := by
  have h := pointsTo_join (F := F) (commSet c) fullShare Finset.univ Finset.univ_nonempty (commSet_disj c)
  rw [commSet_cover] at h
  exact h

def outSet (c : Dev nD) (p : Fin 4 × Fin 8) : Finset (Idx ((c : Thread nD τ).loc cc0_stg0_0)) := (outQ p.1.val p.1.isLt p.2).view.set

theorem outSet_disj (c : Dev nD) : ∀ a ∈ (Finset.univ : Finset (Fin 4 × Fin 8)), ∀ b ∈ (Finset.univ : Finset (Fin 4 × Fin 8)), a ≠ b →
    Disjoint (outSet c a) (outSet c b) := by
  intro a _ b _ hab
  rw [Finset.disjoint_left]
  intro x hxa hxb
  have ha := (mem_outQ_set a.1.val a.1.isLt a.2 x).mp hxa
  have hb := (mem_outQ_set b.1.val b.1.isLt b.2 x).mp hxb
  have h1 := a.2.isLt; have h2 := b.2.isLt
  exact hab (Prod.ext (Fin.ext (by omega)) (Fin.ext (by omega)))

theorem outSet_cover (c : Dev nD) : (Finset.univ : Finset (Fin 4 × Fin 8)).biUnion (outSet c) = Finset.univ := by
  ext x
  simp only [Finset.mem_biUnion, Finset.mem_univ, true_and, iff_true]
  have hx : (x 1).val < 4096 := ValueIdx.idx2_lt1 x
  refine ⟨(⟨(x 1).val / 1024, by omega⟩, ⟨(x 1).val % 1024 / 128, by omega⟩), ?_⟩
  exact (mem_outQ_set ((x 1).val / 1024) (by omega) ⟨(x 1).val % 1024 / 128, by omega⟩ x).mpr
    (by show 1024 * ((x 1).val / 1024) + 128 * ((x 1).val % 1024 / 128) ≤ (x 1).val ∧ (x 1).val < 1024 * ((x 1).val / 1024) + 128 * ((x 1).val % 1024 / 128) + 128; omega)

theorem out_split (c : Dev nD) (f : Buf (Elt F) ((c : Thread nD τ).loc cc0_stg0_0)) :
    ((((c : Thread nD τ).loc cc0_stg0_0) ↦{fullShare} f) : sProp 𝕄)
      ⊢ bigSep (Finset.univ : Finset (Fin 4)) fun Q' => bigSep (Finset.univ : Finset (Fin 8)) fun s => owned c (outQ Q'.val Q'.isLt s) := by
  rw [← bigSep_univ_prod (fun p : Fin 4 × Fin 8 => owned c (outQ p.1.val p.1.isLt p.2))]
  exact (pointsTo_cover (outSet c) fullShare f Finset.univ Finset.univ (fun _ _ => Finset.subset_univ _) (outSet_disj c)).trans
    (bigSep_mono fun p _ => by
      unfold owned
      exact exists_intro (Φ := fun f' => iprop(((outQ p.1.val p.1.isLt p.2).view.loc (c : Thread nD τ) ↦[(outQ p.1.val p.1.isLt p.2).view.set]{fullShare} f'))) f)

theorem outAssemble_at (V : Fin 4 → Fin 8 → Vec F S256x128 .f32) (Q' : Fin 4) (s : Fin 8) (y : S256x128.Idx) (z : S256x4096.Idx)
    (h0 : (z 0).val = (y 0).val) (h1 : (z 1).val = 1024 * Q'.val + 128 * s.val + (y 1).val) : outAssemble V z = V Q' s y := by
  have hy0 := ValueIdx.idx2_lt0 y; have hy1 := ValueIdx.idx2_lt1 y; have hQ := Q'.isLt; have hs := s.isLt
  have key : ∀ (a : Fin 4) (b : Fin 8) (i : S256x128.Idx), a = Q' → b = s → i = y → V a b i = V Q' s y := by
    rintro _ _ _ rfl rfl rfl; rfl
  unfold outAssemble
  refine key _ _ _ (Fin.ext ?_) (Fin.ext ?_) (funext fun a => Fin.ext ?_)
  · show (z 1).val / 1024 = Q'.val; omega
  · show (z 1).val % 1024 / 128 = s.val; omega
  · match a with
    | ⟨0, _⟩ => exact h0
    | ⟨1, _⟩ => show (z 1).val % 128 = (y 1).val; omega

theorem out_join (c : Dev nD) (V : Fin 4 → Fin 8 → Vec F S256x128 .f32) :
    (bigSep (Finset.univ : Finset (Fin 4)) (fun Q' => bigSep (Finset.univ : Finset (Fin 8)) fun s => holds c (outQ Q'.val Q'.isLt s) fullShare (V Q' s)) : sProp 𝕄)
      ⊢ iprop(∃ f : Buf (Elt F) ((c : Thread nD τ).loc cc0_stg0_0), ⌜f = outAssemble V⌝ ∗ (((c : Thread nD τ).loc cc0_stg0_0) ↦{fullShare} f)) := by
  rw [← bigSep_univ_prod (fun p : Fin 4 × Fin 8 => holds c (outQ p.1.val p.1.isLt p.2) fullShare (V p.1 p.2))]
  have h := pointsTo_join_to (F := F) (outSet c) fullShare (outAssemble V) Finset.univ Finset.univ_nonempty (outSet_disj c)
  rw [outSet_cover] at h
  refine BIBase.Entails.trans (BIBase.Entails.trans (bigSep_mono fun p _ => ent_of ?_) h) ?_
  · unfold holds
    iintro ⟨%f, %hf, H⟩
    iexists f
    isplitr
    · ipureintro
      intro x hx
      obtain ⟨y, -, rfl⟩ := Finset.mem_map.mp (show x ∈ Finset.univ.map (outQ p.1.val p.1.isLt p.2).view.emb from hx)
      have hy : f ((outQ p.1.val p.1.isLt p.2).view.emb y) = V p.1 p.2 y := congrFun hf y
      refine hy.trans (Eq.symm ?_)
      exact outAssemble_at V p.1 p.2 y ((outQ p.1.val p.1.isLt p.2).view.emb y)
        (by show 0 + 1 * (y 0).val = (y 0).val; omega)
        (by show 1024 * p.1.val + 128 * p.2.val + 1 * (y 1).val = 1024 * p.1.val + 128 * p.2.val + (y 1).val; omega)
    · iexact H
  · iintro H
    iexists (outAssemble V)
    isplitr
    · ipureintro; rfl
    · iexact H

def partSet (c : Dev nD) (j : Fin 4) (s : Fin 8) : Finset (Idx ((c : Thread nD τ).loc cc0_scratch2)) := (partJS j s).view.set
def rowsSet (c : Dev nD) (j : Fin 4) : Finset (Idx ((c : Thread nD τ).loc cc0_scratch2)) :=
  ((partM : Memref sig .tc .vmem S1024x1024 .f32).access (rowsR j)).set

theorem mem_rowsSet (c : Dev nD) (j : Fin 4) (x : S1024x1024.Idx) :
    x ∈ rowsSet c j ↔ 256 * j.val ≤ (x 0).val ∧ (x 0).val < 256 * j.val + 256 := by
  show x ∈ ((View.whole cc0_scratch2 : View sig .tc _ _ _).slice (rowsR j)).set ↔ _
  rw [View.set_slice_whole, Rect.mem_set_unit]
  exact Fin.forall_fin_two.trans (and_iff_left ⟨Nat.zero_le _, by have := ValueIdx.idx2_lt1 x; show (x 1).val < 0 + 1024; omega⟩)

theorem partSet_disj (c : Dev nD) (j : Fin 4) : ∀ a ∈ (Finset.univ : Finset (Fin 8)), ∀ b ∈ (Finset.univ : Finset (Fin 8)), a ≠ b →
    Disjoint (partSet c j a) (partSet c j b) := by
  intro a _ b _ hab
  rw [Finset.disjoint_left]
  intro x hxa hxb
  have ha := (mem_partJS_set j a x).mp hxa
  have hb := (mem_partJS_set j b x).mp hxb
  exact hab (Fin.ext (by omega))

theorem partSet_cover (c : Dev nD) (j : Fin 4) : (Finset.univ : Finset (Fin 8)).biUnion (partSet c j) = rowsSet c j := by
  ext x
  rw [mem_rowsSet]
  simp only [Finset.mem_biUnion, Finset.mem_univ, true_and]
  have hx : (x 1).val < 1024 := ValueIdx.idx2_lt1 x
  constructor
  · rintro ⟨s, hs⟩
    exact ((mem_partJS_set j s x).mp hs).1
  · intro h0
    refine ⟨⟨(x 1).val / 128, by omega⟩, ?_⟩
    exact (mem_partJS_set j ⟨(x 1).val / 128, by omega⟩ x).mpr ⟨h0, by show 128 * ((x 1).val / 128) ≤ (x 1).val ∧ (x 1).val < 128 * ((x 1).val / 128) + 128; omega⟩

theorem part_join (c : Dev nD) (j : Fin 4) (S : Finset (Idx ((c : Thread nD τ).loc cc0_scratch2))) (hS : rowsSet c j ⊆ S) :
    (iprop(bigSep (Finset.univ : Finset (Fin 8)) (fun s => owned c (partJS j s))
        ∗ (∃ f : Buf (Elt F) ((c : Thread nD τ).loc cc0_scratch2), (((c : Thread nD τ).loc cc0_scratch2) ↦[S \ rowsSet c j]{fullShare} f))) : sProp 𝕄)
      ⊢ iprop(∃ f : Buf (Elt F) ((c : Thread nD τ).loc cc0_scratch2), (((c : Thread nD τ).loc cc0_scratch2) ↦[S]{fullShare} f)) := by
  have h : (bigSep (Finset.univ : Finset (Fin 8)) (fun s => owned c (partJS j s)) : sProp 𝕄)
      ⊢ iprop(∃ f : Buf (Elt F) ((c : Thread nD τ).loc cc0_scratch2), (((c : Thread nD τ).loc cc0_scratch2) ↦[rowsSet c j]{fullShare} f)) :=
    partSet_cover c j ▸ pointsTo_join (F := F) (partSet c j) fullShare Finset.univ Finset.univ_nonempty (partSet_disj c j)
  have hu : rowsSet c j ∪ (S \ rowsSet c j) = S := Finset.union_sdiff_of_subset hS
  have e : ∀ f' : Buf (Elt F) ((c : Thread nD τ).loc cc0_scratch2), ((((c : Thread nD τ).loc cc0_scratch2) ↦[S]{fullShare} f') : sProp 𝕄)
      = (((c : Thread nD τ).loc cc0_scratch2) ↦[rowsSet c j ∪ (S \ rowsSet c j)]{fullShare} f') := fun f' => by rw [hu]
  simp only [e]
  iintro ⟨HB, ⟨%g, HR⟩⟩
  icases h $$ HB with ⟨%f, HB'⟩
  iexists ((S \ rowsSet c j).piecewise g f)
  iapply (Region.is_join Finset.disjoint_sdiff)
  isplitl [HB']
  · iexact HB'
  · iexact HR

end Cert.Kernel.Sched

end
-- ==== Proof.Bits.StepsSend.lean ====
/- Holding a block at given contents, and the blocks named by the offsets the program computes: the source of a lane's first copy and the columns of the device's own and its x neighbour's quarter. -/
import proofs.«901049_g7700000000001050_dist_rsdw_v7x_xyz2x2x4_z_m1024_d1024_f4096_f32_1_alg».proof.Proof.Bits.State
import proofs.«901049_g7700000000001050_dist_rsdw_v7x_xyz2x2x4_z_m1024_d1024_f4096_f32_1_alg».proof.Proof.Bits.SchedTab

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

theorem holds_intro (c : Dev nD) {sp : Space} (M : Memref sig .tc sp S256x128 .f32) (q : PosShare TreeShare)
    (f : Buf (Elt F) (M.view.loc (c : Thread nD τ))) :
    (M.view.loc (c : Thread nD τ) ↦[M.view.set]{q} f : sProp 𝕄) ⊢ holds c M q (M.view.read (Elt F) f) := by
  unfold holds
  iintro H
  iexists f
  isplitr; · ipureintro; rfl
  iexact H

theorem partBlk_congr {off off' : Fin 2 → ℕ} (e : off = off') (h : ∀ a, off a + S256x128.size a ≤ S1024x1024.size a)
    (h' : ∀ a, off' a + S256x128.size a ≤ S1024x1024.size a) : partBlk off h = partBlk off' h' := by subst e; rfl
theorem outBlk_congr {off off' : Fin 2 → ℕ} (e : off = off') (h : ∀ a, off a + S256x128.size a ≤ S256x4096.size a)
    (h' : ∀ a, off' a + S256x128.size a ≤ S256x4096.size a) : outBlk off h = outBlk off' h' := by subst e; rfl

theorem rowOf_one_val (c : Dev nD) : (rowOf (zc c) 1).val = (c.val % 4 + 3) % 4 := by
  show (c.val % 4 + 4 - 1 % 4) % 4 = (c.val % 4 + 3) % 4
  omega

theorem src_rs0_eq (c : Dev nD) (s : Fin 8) (off : Fin 2 → ℕ) (h : ∀ a, off a + S256x128.size a ≤ S1024x1024.size a)
    (hoff : off = ![256 * ((c.val % 4 + 3) % 4), 128 * s.val]) :
    (partM).slice (Rect.unit (s := S1024x1024) off S256x128.size h) (fun _ => rfl) = partJS (rowOf (zc c) 1) s :=
  partBlk_congr (hoff.trans (by rw [rowOf_one_val])) h _

theorem own_col (c : Dev nD) (s : Fin 8) :
    1024 * (c.val / 8) + 2048 * ((c.val / 4) % 2) + 128 * s.val = 1024 * qc c + 128 * s.val := by
  unfold qc xc yc; omega
theorem xn_col (c : Dev nD) (s : Fin 8) :
    (2048 * ((c.val / 4) % 2) + 128 * s.val + 1024) - 1024 * (c.val / 8) = 1024 * qc (xn c) + 128 * s.val := by
  rw [qc_xn]; have := xc_lt c; unfold xc yc at *; omega

theorem out_own_eq (c : Dev nD) (s : Fin 8) (off : Fin 2 → ℕ) (h : ∀ a, off a + S256x128.size a ≤ S256x4096.size a)
    (hoff : off = ![0, 1024 * (c.val / 8) + 2048 * ((c.val / 4) % 2) + 128 * s.val]) :
    (outM).slice (Rect.unit (s := S256x4096) off S256x128.size h) (fun _ => rfl) = outQ (qc c) (qc_lt c) s :=
  outBlk_congr (hoff.trans (by rw [own_col])) h _

theorem out_xn_eq (c : Dev nD) (s : Fin 8) (off : Fin 2 → ℕ) (h : ∀ a, off a + S256x128.size a ≤ S256x4096.size a)
    (hoff : off = ![0, (2048 * ((c.val / 4) % 2) + 128 * s.val + 1024) - 1024 * (c.val / 8)]) :
    (outM).slice (Rect.unit (s := S256x4096) off S256x128.size h) (fun _ => rfl) = outQ (qc (xn c)) (qc_lt (xn c)) s :=
  outBlk_congr (hoff.trans (by rw [xn_col])) h _

end Cert.Kernel.Sched

end
-- ==== Proof.Bits.LaneSend.lean ====
/- A lane's six copies as transitions between its stages. -/
import proofs.«901049_g7700000000001050_dist_rsdw_v7x_xyz2x2x4_z_m1024_d1024_f4096_f32_1_alg».proof.Proof.Bits.StepsSend
import proofs.«901049_g7700000000001050_dist_rsdw_v7x_xyz2x2x4_z_m1024_d1024_f4096_f32_1_alg».proof.Proof.Bits.StepsWait
import proofs.«901049_g7700000000001050_dist_rsdw_v7x_xyz2x2x4_z_m1024_d1024_f4096_f32_1_alg».proof.Proof.Bits.StepsMem
import proofs.«901049_g7700000000001050_dist_rsdw_v7x_xyz2x2x4_z_m1024_d1024_f4096_f32_1_alg».proof.Proof.Bits.Shared

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- Taking `X` out of a product passes a conjunct that stands in front of it. -/
theorem sep_skip {A T T' X : sProp 𝕄} (h : T ⊢ iprop(X ∗ T')) : iprop(A ∗ T) ⊢ iprop(X ∗ A ∗ T') :=
  (sep_mono_right h).trans sep_left_comm.1

/-- Three conjuncts in front join what is taken out of the rest. -/
theorem sep_take3 {A B C T T' Y : sProp 𝕄} (h : T ⊢ iprop(Y ∗ T')) : iprop(A ∗ B ∗ C ∗ T) ⊢ iprop((Y ∗ A ∗ B ∗ C) ∗ T') := by
  iintro ⟨HA, HB, HC, HT⟩
  icases h $$ HT with ⟨HY, HT⟩
  iframe

/-- Putting `X` into a product, behind a conjunct that stays in front. -/
theorem sep_ins {A T T' X : sProp 𝕄} (h : iprop(X ∗ T) ⊢ T') : iprop(X ∗ A ∗ T) ⊢ iprop(A ∗ T') :=
  sep_left_comm.1.trans (sep_mono_right h)

/-- In lane state `P`, with the debts left after `J` steps, the copy of `SRC` into `DST` on `N` over the semaphores `SS`, `SR` may be issued;
    it leaves lane state `P'` and the debts left after `J + 1` steps. -/
def SendStep (K : GSem nD τ sig → ℕ) (c : Dev nD) (SRC DST : Memref sig .tc .vmem S256x128 .f32) (N : Dev nD) (SS SR : DmaSem sig)
    (J : ℕ) (P P' : sProp 𝕄) : Prop :=
  ∀ (src : Memref sig .tc .vmem S256x128 .f32) (hsrcE : src = SRC) (dst : Memref sig .tc .vmem S256x128 .f32) (hdstE : dst = DST)
    (n : Dev nD) (hn : n = N) (sS sR : DmaSem sig) (hsS : sS = SS) (hsR : sR = SR)
    {hsc : (dst : Memref sig (Dev.tc n : Thread nD τ).2.kind .vmem S256x128 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (j j' : ℕ) (hj : j = J) (hj' : j' = j + 1),
    iprop(invs m K ∗ P ∗ Owes c (owedAfter c j))
      ⊢ iprop(((P' ∗ Owes c (owedAfter c j')) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q)

/-- A copy step holds once `P` splits into the source block at contents `V`, the two duty tokens, the neighbour's destination and a rest `R`,
    and `P'` is `R` with the credit on `SS`: the block pays the sender's duty, the destination rewritten to `V` the receiver's. -/
theorem lane_send (K : GSem nD τ sig → ℕ) (c N : Dev nD) (SRC DST : Memref sig .tc .vmem S256x128 .f32) (SS SR : DmaSem sig)
    (q : PosShare TreeShare) (V : Vec F S256x128 .f32) (J : ℕ) {P P' R : sProp 𝕄}
    (hmS : SS ∈ copySems) (hmR : SR ∈ copySems) (hkS : kindOf SS ≠ .local_) (hkR : kindOf SR ≠ .local_)
    (hN : DST.view.amount (.dma SR) = NB)
    (hpayS : holds c SRC q V ⊢ dmaPay m c (kindOf SS)) (hpayR : holds N DST fullShare V ⊢ dmaPay m N (kindOf SR))
    (hO : owedAfter c J = owedAfter c (J + 1) + tallyAt (dmaCell N SR) () NB)
    (hP : P ⊢ iprop((holds c SRC q V ∗ dutyOf c SS ∗ dutyOf N SR ∗ owned N DST) ∗ R))
    (hP' : iprop(credOf c SS ∗ R) ⊢ P') :
    SendStep m K c SRC DST N SS SR J P P' := by
  intro src e₁ dst e₂ n e₃ sS sR e₄ e₅ hsc hsrc hdst hsem α Q k j j' e₆ e₇
  subst e₁ e₂ e₃ e₄ e₅ e₇ e₆
  haveI := invs_persistent m K
  unfold holds owned at hP
  unfold Owes
  iintro ⟨#HI, HP, ⟨%W, HO⟩⟩ Hk
  icases hP $$ HP with ⟨⟨⟨%fs, %hfs, Hsrc⟩, Ht₁, Ht₂, ⟨%fd, Hdst⟩⟩, HR⟩
  icases (invs_at m K (mem_allCells_dma c hmS)) $$ HI with ⟨#Hg₁, #Hr₁⟩
  icases (invs_at m K (mem_allCells_dma n hmR)) $$ HI with ⟨#Hg₂, #Hr₂⟩
  iapply (Rounds.wp_send_pointsTo 𝒱₀ ER (Rd m) (c : Thread nD τ) none (c' := (n : Thread nD τ)) (src := src) (dst := dst) (q := q) (fs := fs) (fd := fd)
      (κ₁ := K (dmaCell c sS)) (κ₂ := K (dmaCell n sR)) (r₁ := 0) (r₂ := 0) (d₁ := (0 : Fin 4)) (d₂ := (0 : Fin 4))
      (by rw [duties_dma m c sS hkS]; exact Finset.mem_singleton_self _) (by rw [duties_dma m n sR hkR]; exact Finset.mem_singleton_self _)
      () () NB hN rfl rfl _ hO (W := W)
      (by
        subst hfs
        exact (holds_intro c src q fs).trans hpayS)
      (by
        refine .trans ?_ hpayR
        refine (holds_intro n dst fullShare _).trans (Entails.of_eq ?_)
        rw [View.read_write_univ, hfs])) $$ [Hsrc Hdst HO Ht₁ Ht₂]
  · isplitr; · iexact Hg₁
    isplitr; · iexact Hg₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hcr, HO⟩
  iapply Hk
  isplitr [HO]
  · iapply hP'
    isplitl [Hcr]; · iexact Hcr
    iexact HR
  · iexists W; iexact HO

theorem lane_0 (K : GSem nD τ sig → ℕ) (c : Dev nD) (s : Fin 8) :
    SendStep m K c (partJS (rowOf (zc c) 1) s) (commSlot s 0) (right c) (rsSend s 0) (rsRecv s 0) (4 + s.val)
      (LaneSt0 m c s) (LaneSt1 c s) :=
  lane_send m K c _ _ _ _ _ fullShare (acc m s 0 c) _ (mem_copySems_rsSend s 0) (mem_copySems_rsRecv s 0)
    (by rw [kindOf_rsSend]; nofun) (by rw [kindOf_rsRecv]; nofun) rfl
    (.of_eq (by rw [kindOf_rsSend, dmaPay_rsS_zero])) (.of_eq (by rw [kindOf_rsRecv, dmaPay_rsR, left_right]; rfl))
    (owedAfter_rs c s 0)
    (by unfold LaneSt0; iterate 18 apply sep_skip
        apply sep_take3; iterate 15 apply sep_skip
        exact .rfl)
    (by unfold LaneSt1; iterate 18 apply sep_ins
        exact .rfl)

theorem lane_4 (K : GSem nD τ sig → ℕ) (c : Dev nD) (s : Fin 8) :
    SendStep m K c (commSlot s 0) (commSlot s 1) (right c) (rsSend s 1) (rsRecv s 1) (4 + 8 + s.val)
      (LaneSt4 m c s) (LaneSt5 m c s) :=
  lane_send m K c _ _ _ _ _ fullShare (acc m s 1 c) _ (mem_copySems_rsSend s 1) (mem_copySems_rsRecv s 1)
    (by rw [kindOf_rsSend]; nofun) (by rw [kindOf_rsRecv]; nofun) rfl
    (.of_eq (by rw [kindOf_rsSend]; exact (dmaPay_rsS_succ m c s 0 (by omega)).symm)) (.of_eq (by rw [kindOf_rsRecv, dmaPay_rsR, left_right] <;> rfl))
    (owedAfter_rs c s 1)
    (by unfold LaneSt4; iterate 17 apply sep_skip
        apply sep_take3; iterate 13 apply sep_skip
        exact .rfl)
    (by unfold LaneSt5; iterate 17 apply sep_ins
        exact .rfl)

theorem lane_8 (K : GSem nD τ sig → ℕ) (c : Dev nD) (s : Fin 8) :
    SendStep m K c (commSlot s 1) (commSlot s 2) (right c) (rsSend s 2) (rsRecv s 2) (4 + 16 + s.val)
      (LaneSt8 m c s) (LaneSt9 m c s) :=
  lane_send m K c _ _ _ _ _ fullShare (acc m s 2 c) _ (mem_copySems_rsSend s 2) (mem_copySems_rsRecv s 2)
    (by rw [kindOf_rsSend]; nofun) (by rw [kindOf_rsRecv]; nofun) rfl
    (.of_eq (by rw [kindOf_rsSend]; exact (dmaPay_rsS_succ m c s 1 (by omega)).symm)) (.of_eq (by rw [kindOf_rsRecv, dmaPay_rsR, left_right] <;> rfl))
    (owedAfter_rs c s 2)
    (by unfold LaneSt8; iterate 16 apply sep_skip
        apply sep_take3; iterate 11 apply sep_skip
        exact .rfl)
    (by unfold LaneSt9; iterate 16 apply sep_ins
        exact .rfl)

/-- The reduced block is the source of two copies: this one reads it at the left half of the share and leaves the right half. -/
theorem lane_12 (K : GSem nD τ sig → ℕ) (c : Dev nD) (s : Fin 8) :
    SendStep m K c (outQ (qc c) (qc_lt c) s) (outQ (qc c) (qc_lt c) s) (xn c) (t1Send s) (t1Recv s) (28 + 2 * s.val)
      (LaneSt12 m c s) (LaneSt13 m c s) :=
  lane_send m K c _ _ _ _ _ fullShare.left (redV m c s) _ (mem_copySems_t1Send s) (mem_copySems_t1Recv s)
    (by rw [kindOf_t1Send]; nofun) (by rw [kindOf_t1Recv]; nofun) rfl
    (.of_eq (by rw [kindOf_t1Send, dmaPay_t1S])) (.of_eq (by rw [kindOf_t1Recv, dmaPay_t1R, xn_xn]))
    (owedAfter_t1 c s)
    (by unfold LaneSt12
        refine .trans (by iterate 28 apply sep_mono_right
                          exact (holds_halves c _ _).1) ?_
        iterate 15 apply sep_skip
        apply sep_take3; iterate 10 apply sep_skip
        exact .rfl)
    (by unfold LaneSt13; iterate 15 apply sep_ins
        exact .rfl)

theorem lane_13 (K : GSem nD τ sig → ℕ) (c : Dev nD) (s : Fin 8) :
    SendStep m K c (outQ (qc c) (qc_lt c) s) (outQ (qc c) (qc_lt c) s) (yn c) (t2Send s) (t2Recv s) (29 + 2 * s.val)
      (LaneSt13 m c s) (LaneSt14 m c s) :=
  lane_send m K c _ _ _ _ _ fullShare.right (redV m c s) _ (mem_copySems_t2Send s) (mem_copySems_t2Recv s)
    (by rw [kindOf_t2Send]; nofun) (by rw [kindOf_t2Recv]; nofun) rfl
    (.of_eq (by rw [kindOf_t2Send, dmaPay_t2S])) (.of_eq (by rw [kindOf_t2Recv, dmaPay_t2R, yn_yn]))
    (owedAfter_t2 c s)
    (by unfold LaneSt13; iterate 16 apply sep_skip
        apply sep_take3; iterate 6 apply sep_skip
        exact sep_comm.1)
    (by unfold LaneSt14; iterate 16 apply sep_ins
        exact .rfl)

theorem lane_15 (K : GSem nD τ sig → ℕ) (c : Dev nD) (s : Fin 8) :
    SendStep m K c (outQ (qc (xn c)) (qc_lt (xn c)) s) (outQ (qc (xn c)) (qc_lt (xn c)) s) (yn c) (t3Send s) (t3Recv s) (44 + s.val)
      (LaneSt15 m c s) (LaneSt16 m c s) :=
  lane_send m K c _ _ _ _ _ fullShare (redV m (xn c) s) _ (mem_copySems_t3Send s) (mem_copySems_t3Recv s)
    (by rw [kindOf_t3Send]; nofun) (by rw [kindOf_t3Recv]; nofun) rfl
    (.of_eq (by rw [kindOf_t3Send, dmaPay_t3S])) (.of_eq (by rw [kindOf_t3Recv, dmaPay_t3R, yn_yn]))
    (owedAfter_t3 c s)
    (by unfold LaneSt15; iterate 16 apply sep_skip
        apply sep_take3; iterate 3 apply sep_skip
        exact sep_comm.1)
    (by unfold LaneSt16; iterate 16 apply sep_ins
        exact .rfl)

end Cert.Kernel.Sched

end
-- ==== Proof.Bits.LaneIO.lean ====
/- Entering the eight lanes from what the launch hands a device, and leaving them: the cells go back and the blocks are gathered by buffer. -/
import proofs.«901049_g7700000000001050_dist_rsdw_v7x_xyz2x2x4_z_m1024_d1024_f4096_f32_1_alg».proof.Proof.Bits.Shared
import proofs.«901049_g7700000000001050_dist_rsdw_v7x_xyz2x2x4_z_m1024_d1024_f4096_f32_1_alg».proof.Proof.Bits.SchedTab
import proofs.«901049_g7700000000001050_dist_rsdw_v7x_xyz2x2x4_z_m1024_d1024_f4096_f32_1_alg».proof.Proof.Bits.Dats
import Idealize.ShloMosaic.Lib.Pipeline.Kit

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

section Entry

variable (c : Dev nD)

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide)]; rfl

omit [FloatOps F] in
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

theorem lane_intro (s : Fin 8) :
    iprop(laneGhost c s
        ∗ (bigSep (Finset.univ : Finset (Fin 3)) fun h => owned (F := F) (right c) (commSlot s h))
        ∗ owned (xn c) (outQ (qc c) (qc_lt c) s)
        ∗ owned (yn c) (outQ (qc c) (qc_lt c) s)
        ∗ owned (yn c) (outQ (qc (xn c)) (qc_lt (xn c)) s)
        ∗ owned c (outQ (qc c) (qc_lt c) s)
        ∗ holds c (partJS (rowOf (zc c) 1) s) fullShare (acc m s 0 c))
      ⊢ LaneSt0 m c s := by
  rw [bigSep_three]
  unfold laneGhost LaneSt0
  iintro ⟨⟨⟨a0, a1, a2, a3, a4, a5, a6, a7, a8, a9, a10, a11⟩, ⟨c0, c1, c2, c3, c4, c5⟩, ⟨t0, t1, t2, t3, t4, t5⟩,
    ⟨n0, n1, n2, n3, n4, n5⟩⟩, ⟨o0, o1, o2⟩, x1, y1, y2, w, p⟩
  iframe

theorem lanes_intro :
    iprop((laneGhost c 0 ∗ laneGhost c 1 ∗ laneGhost c 2 ∗ laneGhost c 3 ∗ laneGhost c 4 ∗ laneGhost c 5 ∗ laneGhost c 6 ∗ laneGhost c 7)
        ∗ (bigSep (Finset.univ : Finset (Fin 8 × Fin 3)) fun sh => owned (F := F) (right c) (commSlot sh.1 sh.2))
        ∗ (bigSep (Finset.univ : Finset (Fin 8)) fun s => owned (F := F) (xn c) (outQ (qc c) (qc_lt c) s))
        ∗ (bigSep (Finset.univ : Finset (Fin 8)) fun s => owned (F := F) (yn c) (outQ (qc c) (qc_lt c) s))
        ∗ (bigSep (Finset.univ : Finset (Fin 8)) fun s => owned (F := F) (yn c) (outQ (qc (xn c)) (qc_lt (xn c)) s))
        ∗ (bigSep (Finset.univ : Finset (Fin 8)) fun s => owned (F := F) c (outQ (qc c) (qc_lt c) s))
        ∗ (bigSep (Finset.univ : Finset (Fin 8)) fun s => holds c (partJS (rowOf (zc c) 1) s) fullShare (acc m s 0 c)))
      ⊢ iprop(LaneSt0 m c 0 ∗ LaneSt0 m c 1 ∗ LaneSt0 m c 2 ∗ LaneSt0 m c 3 ∗ LaneSt0 m c 4 ∗ LaneSt0 m c 5 ∗ LaneSt0 m c 6 ∗ LaneSt0 m c 7) := by
  rw [← bigSep_eight (fun s => laneGhost (F := F) c s), ← bigSep_eight (fun s => LaneSt0 m c s), bigSep_univ_prod,
    ← bigSep_sep', ← bigSep_sep', ← bigSep_sep', ← bigSep_sep', ← bigSep_sep', ← bigSep_sep']
  exact bigSep_mono fun s _ => lane_intro m c s

end Entry

section Exit

variable (c : Dev nD)

omit [FloatOps F] in
theorem quarters_univ : ∀ c : Dev nD, (Finset.univ : Finset (Fin 4)) = [(⟨qc c, qc_lt c⟩ : Fin 4), ⟨qc (xn c), qc_lt (xn c)⟩, ⟨qc (yn c), qc_lt (yn c)⟩, ⟨qc (xn (yn c)), qc_lt (xn (yn c))⟩].toFinset := by decide
omit [FloatOps F] in
theorem quarters_nodup : ∀ c : Dev nD, [(⟨qc c, qc_lt c⟩ : Fin 4), ⟨qc (xn c), qc_lt (xn c)⟩, ⟨qc (yn c), qc_lt (yn c)⟩, ⟨qc (xn (yn c)), qc_lt (xn (yn c))⟩].Nodup := by decide

omit [FloatOps F] in
theorem quarters_split (Φ : Fin 4 → sProp 𝕄) :
    bigSep Finset.univ Φ
      = iprop(Φ ⟨qc c, qc_lt c⟩ ∗ Φ ⟨qc (xn c), qc_lt (xn c)⟩ ∗ Φ ⟨qc (yn c), qc_lt (yn c)⟩ ∗ Φ ⟨qc (xn (yn c)), qc_lt (xn (yn c))⟩) := by
  rw [bigSep_univ_eq_bigSepL _ (quarters_univ c) (quarters_nodup c)]; rfl

theorem out_quarters :
    (bigSep (Finset.univ : Finset (Fin 4)) fun Q => bigSep (Finset.univ : Finset (Fin 8)) fun s => owned (F := F) c (outQ Q.val Q.isLt s))
      = iprop((bigSep (Finset.univ : Finset (Fin 8)) fun s => owned (F := F) c (outQ (qc c) (qc_lt c) s))
        ∗ (bigSep (Finset.univ : Finset (Fin 8)) fun s => owned (F := F) c (outQ (qc (xn c)) (qc_lt (xn c)) s))
        ∗ (bigSep (Finset.univ : Finset (Fin 8)) fun s => owned (F := F) c (outQ (qc (yn c)) (qc_lt (yn c)) s))
        ∗ (bigSep (Finset.univ : Finset (Fin 8)) fun s => owned (F := F) c (outQ (qc (xn (yn c))) (qc_lt (xn (yn c))) s))) :=
  quarters_split c _

def laneSems (s : Fin 8) : sProp 𝕄 :=
  iprop(semVal (dmaCell c (rsSend s 0)) 0
    ∗ semVal (dmaCell c (rsSend s 1)) 0
    ∗ semVal (dmaCell c (rsSend s 2)) 0
    ∗ semVal (dmaCell c (rsRecv s 0)) 0
    ∗ semVal (dmaCell c (rsRecv s 1)) 0
    ∗ semVal (dmaCell c (rsRecv s 2)) 0
    ∗ semVal (dmaCell c (t1Send s)) 0
    ∗ semVal (dmaCell c (t1Recv s)) 0
    ∗ semVal (dmaCell c (t2Send s)) 0
    ∗ semVal (dmaCell c (t2Recv s)) 0
    ∗ semVal (dmaCell c (t3Send s)) 0
    ∗ semVal (dmaCell c (t3Recv s)) 0)

omit [FloatOps F] in
theorem copySems_lanes :
    (bigSepL copySems fun j => (semVal (dmaCell c j) 0 : sProp 𝕄)) = bigSep Finset.univ fun s => laneSems (F := F) c s := by
  rw [bigSep_univ_eq_bigSepL (List.finRange 8) (by decide) (List.nodup_finRange 8)]
  unfold copySems
  rw [bigSepL_flatMap]
  rfl

def LaneClosed (s : Fin 8) : sProp 𝕄 :=
  iprop(semVal (dmaCell c (rsSend s 0)) 0
    ∗ semVal (dmaCell c (rsSend s 1)) 0
    ∗ semVal (dmaCell c (rsSend s 2)) 0
    ∗ semVal (dmaCell c (rsRecv s 0)) 0
    ∗ semVal (dmaCell c (rsRecv s 1)) 0
    ∗ semVal (dmaCell c (rsRecv s 2)) 0
    ∗ semVal (dmaCell c (t1Send s)) 0
    ∗ semVal (dmaCell c (t1Recv s)) 0
    ∗ semVal (dmaCell c (t2Send s)) 0
    ∗ semVal (dmaCell c (t2Recv s)) 0
    ∗ semVal (dmaCell c (t3Send s)) 0
    ∗ semVal (dmaCell c (t3Recv s)) 0
    ∗ holds c (partJS (rowOf (zc c) 1) s) fullShare (acc m s 0 c)
    ∗ holds c (commSlot s 0) fullShare (acc m s 1 c)
    ∗ holds c (commSlot s 1) fullShare (acc m s 2 c)
    ∗ holds c (commSlot s 2) fullShare (acc m s 2 (left c))
    ∗ holds c (outQ (qc c) (qc_lt c) s) fullShare (redV m c s)
    ∗ holds c (outQ (qc (xn c)) (qc_lt (xn c)) s) fullShare (redV m (xn c) s)
    ∗ holds c (outQ (qc (yn c)) (qc_lt (yn c)) s) fullShare (redV m (yn c) s)
    ∗ holds c (outQ (qc (xn (yn c))) (qc_lt (xn (yn c))) s) fullShare (redV m (xn (yn c)) s))

theorem owned_of_holds {sp : Space} (M : Memref sig .tc sp S256x128 .f32) (V : Vec F S256x128 .f32) :
    (holds c M fullShare V : sProp 𝕄) ⊢ owned c M := by
  unfold holds owned
  iintro ⟨%f, -, H⟩
  iexists f
  iexact H

theorem lane_closed_split (s : Fin 8) :
    LaneClosed m c s
      ⊢ iprop(laneSems c s
        ∗ owned c (partJS (rowOf (zc c) 1) s)
        ∗ (bigSep (Finset.univ : Finset (Fin 3)) fun h => owned (F := F) c (commSlot s h))
        ∗ holds c (outQ (qc c) (qc_lt c) s) fullShare (redV m c s)
        ∗ holds c (outQ (qc (xn c)) (qc_lt (xn c)) s) fullShare (redV m (xn c) s)
        ∗ holds c (outQ (qc (yn c)) (qc_lt (yn c)) s) fullShare (redV m (yn c) s)
        ∗ holds c (outQ (qc (xn (yn c))) (qc_lt (xn (yn c))) s) fullShare (redV m (xn (yn c)) s)) := by
  rw [bigSep_three]
  unfold LaneClosed laneSems
  iintro ⟨v0, v1, v2, v3, v4, v5, v6, v7, v8, v9, v10, v11, p, k0, k1, k2, o0, o1, o2, o3⟩
  ihave p' := (owned_of_holds c _ _) $$ p
  ihave k0' := (owned_of_holds c _ _) $$ k0
  ihave k1' := (owned_of_holds c _ _) $$ k1
  ihave k2' := (owned_of_holds c _ _) $$ k2
  isplitl [v0 v1 v2 v3 v4 v5 v6 v7 v8 v9 v10 v11]
  · iframe
  iframe

theorem lanes_exit :
    iprop(LaneClosed m c 0 ∗ LaneClosed m c 1 ∗ LaneClosed m c 2 ∗ LaneClosed m c 3 ∗ LaneClosed m c 4 ∗ LaneClosed m c 5 ∗ LaneClosed m c 6 ∗ LaneClosed m c 7)
      ⊢ iprop((bigSepL copySems fun j => semVal (dmaCell c j) 0)
        ∗ (bigSep (Finset.univ : Finset (Fin 8)) fun s => owned (F := F) c (partJS (rowOf (zc c) 1) s))
        ∗ (bigSep (Finset.univ : Finset (Fin 8 × Fin 3)) fun sh => owned (F := F) c (commSlot sh.1 sh.2))
        ∗ (bigSep (Finset.univ : Finset (Fin 4)) fun Q => bigSep (Finset.univ : Finset (Fin 8)) fun s =>
            holds c (outQ Q.val Q.isLt s) fullShare (redV m (devQ c Q) s))) := by
  rw [← bigSep_eight (fun s => LaneClosed m c s)]
  refine (bigSep_mono fun s _ => lane_closed_split m c s).trans ?_
  rw [bigSep_sep', bigSep_sep', bigSep_sep', bigSep_sep', bigSep_sep', bigSep_sep', copySems_lanes, bigSep_univ_prod,
    quarters_split c]
  simp only [devQ_own, devQ_xn, devQ_yn, devQ_xn_yn]
  exact .refl _

end Exit

end Cert.Kernel.Sched

end
-- ==== Proof.Bits.LaneWait.lean ====
/- A lane's twelve waits as transitions between its stages, and the closing of a finished lane. -/
import proofs.«901049_g7700000000001050_dist_rsdw_v7x_xyz2x2x4_z_m1024_d1024_f4096_f32_1_alg».proof.Proof.Bits.StepsWait
import proofs.«901049_g7700000000001050_dist_rsdw_v7x_xyz2x2x4_z_m1024_d1024_f4096_f32_1_alg».proof.Proof.Bits.StepsMem
import proofs.«901049_g7700000000001050_dist_rsdw_v7x_xyz2x2x4_z_m1024_d1024_f4096_f32_1_alg».proof.Proof.Bits.LaneIO

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def LaneWaitSpec (c : Dev nD) (K : GSem nD τ sig → ℕ) (j : ℕ) (x : DmaSem sig) (A B : sProp 𝕄) : Prop :=
  ∀ (sem : DmaSem sig) (hsem : sem = x)
    {sp' : Space} {s' : Shape} {e' : EltTy} (src : Memref sig .tc sp' s' e') (dst : Memref sig .tc .vmem S256x128 .f32)
    {hs : src.view.WordExact} {hd : dst.view.WordExact}
    {α : Type} {Q : α → sProp 𝕄} {k : PUnit → Prog (TpuEff nD τ sig (Elt F) Λ₀ .tc) α},
    iprop(invs m K ∗ levAts L lv ∗ A ∗ Owes c (owedAfter c j))
      ⊢ iprop(((B ∗ Owes c (owedAfter c j)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hs hd) k) Q)

/-- A wait on cell `x` moves stage `A` to stage `B` when `A` holds the cell's credit and position 0 and `B` is the rest of `A` with position 1 and the payload. -/
theorem lane_wait (c : Dev nD) (K : GSem nD τ sig → ℕ) (j : ℕ) (x : DmaSem sig) (κ : Kind) (hx : x ∈ copySems) (hκ : kindOf x = κ)
    (hne : κ ≠ .local_) (hlv : lvKind κ < lvAt j) (P A B : sProp 𝕄) (hP : dmaPay m c κ = P)
    (hAB : A ⊢ iprop(credOf c x ∗ posAt c x 0 ∗ (posAt c x 1 ∗ P -∗ B)) := by
      iintro H
      repeat icases H with ⟨$, H⟩
      iframe H
      iintro ⟨$, H⟩
      iexact H) : LaneWaitSpec m c K j x A B := by
  subst hκ hP
  intro sem hsem _ _ _ src dst hs hd α Q k
  unfold Owes
  iintro ⟨HI, #Hlev, HA, ⟨%W, HO⟩⟩ Hk
  icases hAB $$ HA with ⟨Hc, Hp, HB⟩
  iapply (wait_dma m c x hx hne K sem hsem src dst (owedAfter c j) W) $$ [HI Hc HO Hp]
  · iframe HI Hc HO Hp
    iapply (mayWait_at c (.dma x) j hlv); iexact Hlev
  iintro ⟨HO, Hp, -, HP⟩
  iapply Hk
  isplitr [HO]
  · iapply HB; iframe
  · iexists _; iexact HO

theorem lane_1 (c : Dev nD) (s : Fin 8) (K : GSem nD τ sig → ℕ) (j : ℕ) :
    LaneWaitSpec m c K j (rsSend s 0) (LaneSt1 c s) (LaneSt2 m c s) := by
  unfold LaneSt1 LaneSt2
  exact lane_wait m c K j _ _ (mem_copySems_rsSend s 0) (kindOf_rsSend s 0) nofun (lvAt_pos j) _ _ _ (dmaPay_rsS_zero m c s)

theorem lane_2 (c : Dev nD) (s : Fin 8) (K : GSem nD τ sig → ℕ) (j : ℕ) (hj : j = 4 + 8 + s.val) :
    LaneWaitSpec m c K j (rsRecv s 0) (LaneSt2 m c s) (LaneSt3 m c s) := by
  unfold LaneSt2 LaneSt3
  exact lane_wait m c K j _ _ (mem_copySems_rsRecv s 0) (kindOf_rsRecv s 0) nofun (lvAt_gt (ℓ := 2 + s.val) (by omega)) _ _ _ (dmaPay_rsR m c s 0)

theorem lane_5 (c : Dev nD) (s : Fin 8) (K : GSem nD τ sig → ℕ) (j : ℕ) :
    LaneWaitSpec m c K j (rsSend s 1) (LaneSt5 m c s) (LaneSt6 m c s) := by
  unfold LaneSt5 LaneSt6
  exact lane_wait m c K j _ _ (mem_copySems_rsSend s 1) (kindOf_rsSend s 1) nofun (lvAt_pos j) _ _ _ (dmaPay_rsS_succ m c s 0 (by decide))

theorem lane_6 (c : Dev nD) (s : Fin 8) (K : GSem nD τ sig → ℕ) (j : ℕ) (hj : j = 4 + 16 + s.val) :
    LaneWaitSpec m c K j (rsRecv s 1) (LaneSt6 m c s) (LaneSt7 m c s) := by
  unfold LaneSt6 LaneSt7
  exact lane_wait m c K j _ _ (mem_copySems_rsRecv s 1) (kindOf_rsRecv s 1) nofun (lvAt_gt (ℓ := 10 + s.val) (by omega)) _ _ _ (dmaPay_rsR m c s 1)

theorem lane_9 (c : Dev nD) (s : Fin 8) (K : GSem nD τ sig → ℕ) (j : ℕ) :
    LaneWaitSpec m c K j (rsSend s 2) (LaneSt9 m c s) (LaneSt10 m c s) := by
  unfold LaneSt9 LaneSt10
  exact lane_wait m c K j _ _ (mem_copySems_rsSend s 2) (kindOf_rsSend s 2) nofun (lvAt_pos j) _ _ _ (dmaPay_rsS_succ m c s 1 (by decide))

theorem lane_10 (c : Dev nD) (s : Fin 8) (K : GSem nD τ sig → ℕ) (j : ℕ) (hj : j = 28 + 2 * s.val) :
    LaneWaitSpec m c K j (rsRecv s 2) (LaneSt10 m c s) (LaneSt11 m c s) := by
  unfold LaneSt10 LaneSt11
  exact lane_wait m c K j _ _ (mem_copySems_rsRecv s 2) (kindOf_rsRecv s 2) nofun (lvAt_gt (ℓ := 18 + s.val) (by omega)) _ _ _ (dmaPay_rsR m c s 2)

theorem lane_14 (c : Dev nD) (s : Fin 8) (K : GSem nD τ sig → ℕ) (j : ℕ) (hj : j = 44 + s.val) :
    LaneWaitSpec m c K j (t1Recv s) (LaneSt14 m c s) (LaneSt15 m c s) := by
  unfold LaneSt14 LaneSt15
  exact lane_wait m c K j _ _ (mem_copySems_t1Recv s) (kindOf_t1Recv s) nofun (lvAt_gt (ℓ := 26 + 2 * s.val) (by have := s.isLt; omega)) _ _ _ (dmaPay_t1R m c s)

theorem lane_16 (c : Dev nD) (s : Fin 8) (K : GSem nD τ sig → ℕ) (j : ℕ) :
    LaneWaitSpec m c K j (t1Send s) (LaneSt16 m c s) (LaneSt17 m c s) := by
  unfold LaneSt16 LaneSt17
  exact lane_wait m c K j _ _ (mem_copySems_t1Send s) (kindOf_t1Send s) nofun (lvAt_pos j) _ _ _ (dmaPay_t1S m c s)

theorem lane_17 (c : Dev nD) (s : Fin 8) (K : GSem nD τ sig → ℕ) (j : ℕ) :
    LaneWaitSpec m c K j (t2Send s) (LaneSt17 m c s) (LaneSt18 m c s) := by
  unfold LaneSt17 LaneSt18
  exact lane_wait m c K j _ _ (mem_copySems_t2Send s) (kindOf_t2Send s) nofun (lvAt_pos j) _ _ _ (dmaPay_t2S m c s) (by
    iintro H
    repeat icases H with ⟨$, H⟩
    iintro ⟨$, Hp⟩
    iapply (holds_halves c _ _).2
    iframe)

theorem lane_18 (c : Dev nD) (s : Fin 8) (K : GSem nD τ sig → ℕ) (j : ℕ) (hj : j = 52) :
    LaneWaitSpec m c K j (t2Recv s) (LaneSt18 m c s) (LaneSt19 m c s) := by
  unfold LaneSt18 LaneSt19
  exact lane_wait m c K j _ _ (mem_copySems_t2Recv s) (kindOf_t2Recv s) nofun (lvAt_gt (ℓ := 27 + 2 * s.val) (by have := s.isLt; omega)) _ _ _ (dmaPay_t2R m c s)

theorem lane_19 (c : Dev nD) (s : Fin 8) (K : GSem nD τ sig → ℕ) (j : ℕ) :
    LaneWaitSpec m c K j (t3Send s) (LaneSt19 m c s) (LaneSt20 m c s) := by
  unfold LaneSt19 LaneSt20
  exact lane_wait m c K j _ _ (mem_copySems_t3Send s) (kindOf_t3Send s) nofun (lvAt_pos j) _ _ _ (dmaPay_t3S m c s)

theorem lane_20 (c : Dev nD) (s : Fin 8) (K : GSem nD τ sig → ℕ) (j : ℕ) (hj : j = 52) :
    LaneWaitSpec m c K j (t3Recv s) (LaneSt20 m c s) (LaneSt21 m c s) := by
  unfold LaneSt20 LaneSt21
  exact lane_wait m c K j _ _ (mem_copySems_t3Recv s) (kindOf_t3Recv s) nofun (lvAt_gt (ℓ := 42 + s.val) (by have := s.isLt; omega)) _ _ _ (dmaPay_t3R m c s)

theorem lane_close (K : GSem nD τ sig → ℕ) (c : Dev nD) (s : Fin 8) :
    iprop(invs m K ∗ LaneSt21 m c s) ⊢ iprop(|={Set.univ}=> LaneClosed m c s) := by
  unfold LaneSt21 LaneClosed
  iintro ⟨#HI, H1, H2, H3, H4, H5, H6, H7, H8, H9, H10, H11, H12, HR⟩
  imod (close_dma m c _ (mem_copySems_rsSend s 0) K) $$ HI H1 with Z1
  imod (close_dma m c _ (mem_copySems_rsSend s 1) K) $$ HI H2 with Z2
  imod (close_dma m c _ (mem_copySems_rsSend s 2) K) $$ HI H3 with Z3
  imod (close_dma m c _ (mem_copySems_rsRecv s 0) K) $$ HI H4 with Z4
  imod (close_dma m c _ (mem_copySems_rsRecv s 1) K) $$ HI H5 with Z5
  imod (close_dma m c _ (mem_copySems_rsRecv s 2) K) $$ HI H6 with Z6
  imod (close_dma m c _ (mem_copySems_t1Send s) K) $$ HI H7 with Z7
  imod (close_dma m c _ (mem_copySems_t1Recv s) K) $$ HI H8 with Z8
  imod (close_dma m c _ (mem_copySems_t2Send s) K) $$ HI H9 with Z9
  imod (close_dma m c _ (mem_copySems_t2Recv s) K) $$ HI H10 with Z10
  imod (close_dma m c _ (mem_copySems_t3Send s) K) $$ HI H11 with Z11
  imod (close_dma m c _ (mem_copySems_t3Recv s) K) $$ HI H12 with Z12
  imodintro
  iframe

end Cert.Kernel.Sched

end
-- ==== Proof.Bits.LaneMem.lean ====
/- A lane's loads and stores as transitions between its stages; what is stored is the ring's next partial sum. -/
import proofs.«901049_g7700000000001050_dist_rsdw_v7x_xyz2x2x4_z_m1024_d1024_f4096_f32_1_alg».proof.Proof.Bits.StepsMem
import proofs.«901049_g7700000000001050_dist_rsdw_v7x_xyz2x2x4_z_m1024_d1024_f4096_f32_1_alg».proof.Proof.Bits.StepsSend
import proofs.«901049_g7700000000001050_dist_rsdw_v7x_xyz2x2x4_z_m1024_d1024_f4096_f32_1_alg».proof.Proof.Bits.Shared

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- A load that hands back part of a state hands back the state. -/
theorem load_under {R X P W' : sProp 𝕄} {β : Type} {φ : β → Prop} {W : β → sProp 𝕄} (e : R ⊣⊢ iprop(X ∗ P))
    (h : P ⊢ iprop((∀ v, ⌜φ v⌝ -∗ P -∗ W v) -∗ W')) : R ⊢ iprop((∀ v, ⌜φ v⌝ -∗ R -∗ W v) -∗ W') := by
  iintro HR Hk
  icases e.1 $$ HR with ⟨HX, HP⟩
  iapply h $$ HP
  iintro %v %hv HP
  iapply Hk $$ [] [HX HP]
  · ipureintro; exact hv
  · iapply e.2; iframe

theorem dead_under {X P W' : sProp 𝕄} {β : Type} {W : β → sProp 𝕄} (h : P ⊢ iprop((∀ v, P -∗ W v) -∗ W')) :
    iprop(X ∗ P) ⊢ iprop((∀ v, (X ∗ P) -∗ W v) -∗ W') := by
  iintro ⟨HX, HP⟩ Hk
  iapply h $$ HP
  iintro %v HP
  iapply Hk
  iframe

/-- A store that changes part of a state changes the state. -/
theorem store_under {R R' X P P' W W' : sProp 𝕄} (e : R ⊣⊢ iprop(X ∗ P)) (e' : R' ⊣⊢ iprop(X ∗ P'))
    (h : P ⊢ iprop((P' -∗ W) -∗ W')) : R ⊢ iprop((R' -∗ W) -∗ W') := by
  iintro HR Hk
  icases e.1 $$ HR with ⟨HX, HP⟩
  iapply h $$ HP
  iintro HP
  iapply Hk
  iapply e'.2; iframe

theorem CommLoads.dead {c : Dev nD} {o : Fin 4 → ℕ} {P : sProp 𝕄} {V : Vec F S256x128 .f32} (h : CommLoads c o P V) :
    DeadLoads c commM S1x1x256x128.size o P := fun off hoff _ _ _ _ _ => by
  iintro H Hk
  iapply (h off hoff) $$ H
  iintro %v %_ H
  iapply Hk $$ H

theorem lane_load_comm_3 (c : Dev nD) (s : Fin 8) : CommLoads c ![s.val, 0, 0, 0] (LaneSt3 m c s) (acc m s 0 (left c)) := by
  intro off hoff _ _ _ _ _
  unfold LaneSt3
  iterate 33 refine load_under .rfl ?_
  exact load_under sep_comm (load_comm c s 0 fullShare _ off hoff)

theorem lane_load_comm_dead_3 (c : Dev nD) (s : Fin 8) : DeadLoads c commM S1x1x256x128.size ![s.val, 0, 0, 0] (LaneSt3 m c s) :=
  (lane_load_comm_3 m c s).dead

theorem lane_3 (c : Dev nD) (s : Fin 8) : StoreSpec c commM S1x1x256x128.size ![s.val, 0, 0, 0] (LaneSt3 m c s)
    (fun w => shapeCast S256x128 w Facts₀.shapeCasts_S1x1x256x128_S256x128 = acc m s 1 c) (LaneSt4 m c s) := by
  intro off hoff _ w hw _ _ _ _ _
  unfold LaneSt3 LaneSt4
  iterate 33 refine store_under .rfl .rfl ?_
  exact store_under sep_comm sep_comm (store_comm c s 0 _ _ off hoff w hw)

theorem lane_load_comm_7 (c : Dev nD) (s : Fin 8) : CommLoads c ![s.val, 1, 0, 0] (LaneSt7 m c s) (acc m s 1 (left c)) := by
  intro off hoff _ _ _ _ _
  unfold LaneSt7
  iterate 30 refine load_under .rfl ?_
  exact load_under sep_comm (load_comm c s 1 fullShare _ off hoff)

theorem lane_load_comm_dead_7 (c : Dev nD) (s : Fin 8) : DeadLoads c commM S1x1x256x128.size ![s.val, 1, 0, 0] (LaneSt7 m c s) :=
  (lane_load_comm_7 m c s).dead

theorem lane_7 (c : Dev nD) (s : Fin 8) : StoreSpec c commM S1x1x256x128.size ![s.val, 1, 0, 0] (LaneSt7 m c s)
    (fun w => shapeCast S256x128 w Facts₀.shapeCasts_S1x1x256x128_S256x128 = acc m s 2 c) (LaneSt8 m c s) := by
  intro off hoff _ w hw _ _ _ _ _
  unfold LaneSt7 LaneSt8
  iterate 30 refine store_under .rfl .rfl ?_
  exact store_under sep_comm sep_comm (store_comm c s 1 _ _ off hoff w hw)

theorem lane_load_comm_11 (c : Dev nD) (s : Fin 8) : CommLoads c ![s.val, 2, 0, 0] (LaneSt11 m c s) (acc m s 2 (left c)) := by
  intro off hoff _ _ _ _ _
  unfold LaneSt11
  iterate 27 refine load_under .rfl ?_
  exact load_under sep_comm (load_comm c s 2 fullShare _ off hoff)

theorem lane_out_dead_11 (c : Dev nD) (s : Fin 8) : DeadLoads c outM S256x128.size ![0, 1024 * qc c + 128 * s.val] (LaneSt11 m c s) := by
  intro off hoff _ _ _ _ _
  unfold LaneSt11
  iterate 28 refine dead_under ?_
  exact load_out_dead c (qc c) (qc_lt c) s off hoff

theorem lane_11 (c : Dev nD) (s : Fin 8) : StoreSpec c outM S256x128.size ![0, 1024 * qc c + 128 * s.val] (LaneSt11 m c s)
    (· = redV m c s) (LaneSt12 m c s) := by
  intro off hoff _ w hw _ _ _ _ _
  unfold LaneSt11 LaneSt12
  iterate 28 refine store_under .rfl .rfl ?_
  exact store_out c (qc c) (qc_lt c) s _ off hoff w hw

theorem pay_comm (v : Vec F S1x1x256x128 .f32) (b : Vec F S256x128 .f32) (V : Vec F S256x128 .f32)
    (hv : shapeCast S256x128 v Facts₀.shapeCasts_S1x1x256x128_S256x128 = V) :
    shapeCast S256x128 (k0_pay7 v b) Facts₀.shapeCasts_S1x1x256x128_S256x128 = addf V b := by
  subst hv
  exact shapeCast_shapeCast _ _ _

theorem pay_out (v : Vec F S1x1x256x128 .f32) (b : Vec F S256x128 .f32) (V : Vec F S256x128 .f32)
    (hv : shapeCast S256x128 v Facts₀.shapeCasts_S1x1x256x128_S256x128 = V) :
    k0_pay25 v b = addf V b := by
  subst hv; rfl

theorem acc_succ (s : Fin 8) (h : ℕ) (c : Dev nD) :
    acc m s (h + 1) c = addf (acc m s h (left c)) (blockV m c (rowOf (zc c) (h + 2)) s) := rfl
theorem stored_comm (c : Dev nD) (s : Fin 8) (h : ℕ) (v : Vec F S1x1x256x128 .f32) (b : Vec F S256x128 .f32)
    (hv : shapeCast S256x128 v Facts₀.shapeCasts_S1x1x256x128_S256x128 = acc m s h (left c))
    (hb : b = blockV m c (rowOf (zc c) (h + 2)) s) :
    shapeCast S256x128 (k0_pay7 v b) Facts₀.shapeCasts_S1x1x256x128_S256x128 = acc m s (h + 1) c := by
  rw [pay_comm v b _ hv, hb, acc_succ]

theorem stored_out (c : Dev nD) (s : Fin 8) (v : Vec F S1x1x256x128 .f32) (b : Vec F S256x128 .f32)
    (hv : shapeCast S256x128 v Facts₀.shapeCasts_S1x1x256x128_S256x128 = acc m s 2 (left c))
    (hb : b = blockV m c (rowOf (zc c) 4) s) :
    k0_pay25 v b = redV m c s := by
  rw [pay_out v b _ hv, hb]; rfl

theorem off21_own (c : Dev nD) (s : Fin 8) : k0_off21 c (BitVec.ofNat 32 (128 * s.val)) = ![0, 1024 * qc c + 128 * s.val] := by
  rw [Gen.k0_off21_eq, own_col]

/-- info: 'Cert.Kernel.Sched.lane_3' depends on axioms: [propext, Classical.choice, Quot.sound] -/
#guard_msgs in #print axioms lane_3

/-- info: 'Cert.Kernel.Sched.lane_11' depends on axioms: [propext, Classical.choice, Quot.sound] -/
#guard_msgs in #print axioms lane_11

end Cert.Kernel.Sched

end
-- ==== Proof.Bits.BodyExit.lean ====
/- From the eight closed lanes to the body's postcondition. -/
import proofs.«901049_g7700000000001050_dist_rsdw_v7x_xyz2x2x4_z_m1024_d1024_f4096_f32_1_alg».proof.Proof.Bits.LaneIO
import proofs.«901049_g7700000000001050_dist_rsdw_v7x_xyz2x2x4_z_m1024_d1024_f4096_f32_1_alg».proof.Proof.Bits.BodyDefs
import proofs.«901049_g7700000000001050_dist_rsdw_v7x_xyz2x2x4_z_m1024_d1024_f4096_f32_1_alg».proof.Proof.Bits.StepsLocal
import proofs.«901049_g7700000000001050_dist_rsdw_v7x_xyz2x2x4_z_m1024_d1024_f4096_f32_1_alg».proof.Proof.Bits.StepsWait
import proofs.«901049_g7700000000001050_dist_rsdw_v7x_xyz2x2x4_z_m1024_d1024_f4096_f32_1_alg».proof.Proof.Bits.Pieces
import proofs.«901049_g7700000000001050_dist_rsdw_v7x_xyz2x2x4_z_m1024_d1024_f4096_f32_1_alg».proof.Proof.Bits.PartSt

set_option maxRecDepth 16384

noncomputable section

namespace Cert.Kernel.Sched

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

section BodyExit

variable (c : Dev nD)

theorem part_rest_join (J : Finset (Fin 4)) :
    iprop((bigSep (Finset.univ : Finset (Fin 8)) fun s => owned (F := F) c (partJS (rowOf (zc c) 1) s)) ∗ PartRest m c J)
      ⊢ iprop((∃ f : Buf (Elt F) ((c : Thread nD τ).loc cc0_scratch2), ((c : Thread nD τ).loc cc0_scratch2) ↦{fullShare} f)) := by
  iintro ⟨Hb, HR⟩
  ihave HR' := (part_rest_exit m c J) $$ HR
  iapply (part_join c (j₀ c) Finset.univ (Finset.subset_univ _))
  isplitl [Hb]; · iexact Hb
  iexact HR'

theorem body_exit (J : Finset (Fin 4)) :
    iprop((LaneClosed m c 0 ∗ LaneClosed m c 1 ∗ LaneClosed m c 2 ∗ LaneClosed m c 3 ∗ LaneClosed m c 4 ∗ LaneClosed m c 5 ∗ LaneClosed m c 6 ∗ LaneClosed m c 7) ∗ PartRest m c J
        ∗ XHeld m c ∗ DyqHeld m c ∗ (((c : Thread nD τ).loc main_arg0) ↦{fullShare} m ((c : Thread nD τ).loc main_arg0)) ∗ (((c : Thread nD τ).loc main_arg1) ↦{fullShare} m ((c : Thread nD τ).loc main_arg1))
        ∗ semVal (dmaCell c cc0_scratch4.sem) 0 ∗ semVal (dmaCell c cc0_scratch5.sem) 0 ∗ Owes c (owedAfter c 52))
      ⊢ bodyPost m ρ c := by
  unfold bodyPost Φ₁ bufs Dat.owesAt Pipeline.owesWithin Owes XHeld DyqHeld
  rw [show (dats m ρ 0 c).owed t0_0.succ = 0 from rfl, owedAfter_all]
  iintro ⟨HL, HR, Hx, Hd, Ha0, Ha1, Hs4, Hs5, ⟨%W, HO⟩⟩
  icases (lanes_exit m c) $$ HL with ⟨Hsems, Hp, Hk, Ho⟩
  ihave Hp := (part_rest_join m c J) $$ [Hp HR]
  · iframe
  ihave Hk := (comm_join c) $$ Hk
  ihave Hout := (out_join c fun Q s => redV m (devQ c Q) s) $$ Ho
  isplitl [Hx Hd Hp Hk Ha0 Ha1 Hs4 Hs5 Hsems]
  · isplitl [Hx Hd Hp Hk Ha0 Ha1]
    · isplitl [Hx]; · iexists _; iexact Hx
      isplitl [Hd]; · iexists _; iexact Hd
      iframe
    iframe
  isplitl [HO]
  · iexists W
    isplitr; · ipureintro; exact fun _ _ => Or.inl trivial
    iexact HO
  iexact Hout

end BodyExit

end Cert.Kernel.Sched

end
-- ==== Proof.Bits.Body.lean ====
/- The body on one device, effect by effect in program order: entry signals, the two local copies, the four products interleaved with the lanes' 21 stages, and the exit. -/
import proofs.«901049_g7700000000001050_dist_rsdw_v7x_xyz2x2x4_z_m1024_d1024_f4096_f32_1_alg».proof.Proof.Bits.BodyDefs
import proofs.«901049_g7700000000001050_dist_rsdw_v7x_xyz2x2x4_z_m1024_d1024_f4096_f32_1_alg».proof.Proof.Bits.StepsSig
import proofs.«901049_g7700000000001050_dist_rsdw_v7x_xyz2x2x4_z_m1024_d1024_f4096_f32_1_alg».proof.Proof.Bits.StepsLocal
import proofs.«901049_g7700000000001050_dist_rsdw_v7x_xyz2x2x4_z_m1024_d1024_f4096_f32_1_alg».proof.Proof.Bits.PartSt
import proofs.«901049_g7700000000001050_dist_rsdw_v7x_xyz2x2x4_z_m1024_d1024_f4096_f32_1_alg».proof.Proof.Bits.Pieces
import proofs.«901049_g7700000000001050_dist_rsdw_v7x_xyz2x2x4_z_m1024_d1024_f4096_f32_1_alg».proof.Proof.Bits.LaneSend
import proofs.«901049_g7700000000001050_dist_rsdw_v7x_xyz2x2x4_z_m1024_d1024_f4096_f32_1_alg».proof.Proof.Bits.LaneWait
import proofs.«901049_g7700000000001050_dist_rsdw_v7x_xyz2x2x4_z_m1024_d1024_f4096_f32_1_alg».proof.Proof.Bits.LaneMem
import proofs.«901049_g7700000000001050_dist_rsdw_v7x_xyz2x2x4_z_m1024_d1024_f4096_f32_1_alg».proof.Proof.Bits.LaneIO
import proofs.«901049_g7700000000001050_dist_rsdw_v7x_xyz2x2x4_z_m1024_d1024_f4096_f32_1_alg».proof.Proof.Bits.BodyExit
import proofs.«901049_g7700000000001050_dist_rsdw_v7x_xyz2x2x4_z_m1024_d1024_f4096_f32_1_alg».proof.Proof.Gen.Kernel.Skeleton
import Idealize.ShloMosaic.Lib.Tactic

set_option maxRecDepth 65536

noncomputable section

namespace Cert.Kernel.Sched

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem box_dup (P : sProp 𝕄) : iprop(□ P) ⊢ iprop(□ P ∗ □ P) := (intuitionistically_sep_idem (P := P)).2

theorem boxed {K : GSem nD τ sig → ℕ} {R G : sProp 𝕄} (h : iprop(invs m K ∗ R) ⊢ G) : iprop(□ invs m K ∗ R) ⊢ G :=
  (sep_mono_left intuitionistically_elim).trans h

theorem boxed' {K : GSem nD τ sig → ℕ} {R P G' G : sProp 𝕄} (h : iprop(invs m K ∗ R) ⊢ iprop((P -∗ G') -∗ G)) :
    iprop(□ invs m K ∗ R) ⊢ iprop(((□ invs m K ∗ P) -∗ G') -∗ G) := by
  iintro ⟨#HI, HR⟩ Hk
  iapply h $$ [HR]
  · isplitr; · iexact HI
    iexact HR
  iintro HP
  iapply Hk
  isplitr; · iexact HI
  iexact HP

omit [FloatOps F] in
theorem owes_intro (c : Dev nD) (O : CellTallies nD τ sig Unit) (W : Waits sig Unit) :
    (owes (c : Thread nD τ) O W : sProp 𝕄) ⊢ Owes c O := by
  unfold Owes; iintro H; iexists W; iexact H

def OwnBlocks (c : Dev nD) : sProp 𝕄 := bigSep (Finset.univ : Finset (Fin 8)) fun s => owned c (outQ (qc c) (qc_lt c) s)
def XnBlocks (c : Dev nD) : sProp 𝕄 := bigSep (Finset.univ : Finset (Fin 8)) fun s => owned c (outQ (qc (xn c)) (qc_lt (xn c)) s)
def YnBlocks (c : Dev nD) : sProp 𝕄 :=
  iprop((bigSep (Finset.univ : Finset (Fin 8)) fun s => owned c (outQ (qc (yn c)) (qc_lt (yn c)) s))
    ∗ bigSep (Finset.univ : Finset (Fin 8)) fun s => owned c (outQ (qc (xn (yn c))) (qc_lt (xn (yn c))) s))
omit [FloatOps F] in
theorem ownBlocks_eq (c : Dev nD) : OwnBlocks (F := F) c = bigSep (Finset.univ : Finset (Fin 8)) fun s => owned c (outQ (qc c) (qc_lt c) s) := rfl
omit [FloatOps F] in
theorem xnBlocks_eq (c : Dev nD) : XnBlocks (F := F) c = bigSep (Finset.univ : Finset (Fin 8)) fun s => owned c (outQ (qc (xn c)) (qc_lt (xn c)) s) := rfl
omit [FloatOps F] in
theorem ynBlocks_eq (c : Dev nD) : YnBlocks (F := F) c =
    iprop((bigSep (Finset.univ : Finset (Fin 8)) fun s => owned c (outQ (qc (yn c)) (qc_lt (yn c)) s))
      ∗ bigSep (Finset.univ : Finset (Fin 8)) fun s => owned c (outQ (qc (xn (yn c))) (qc_lt (xn (yn c))) s)) := rfl

abbrev Jfull (c : Dev nD) : Finset (Fin 4) :=
  insert (rowOf (zc c) (1 + (3 : Fin 4).val)) (insert (rowOf (zc c) (1 + (2 : Fin 4).val)) (insert (rowOf (zc c) (1 + (1 : Fin 4).val)) ∅))
theorem memJ_step : ∀ (c : Dev nD) (r : Fin 2), rowOf (zc c) (2 + r.val) ∈ Jfull c := by decide
theorem memJ_own : ∀ c : Dev nD, rowOf (zc c) 4 ∈ Jfull c := by decide
theorem mayWait_local4 (c : Dev nD) : (levAts L lv : sProp 𝕄) ⊢ MayWait (c : Thread nD τ) (.dma cc0_scratch4.sem) () (owedAfter c 4) :=
  mayWait_at c (.dma cc0_scratch4.sem) 4 (by show lvKind (kindOf (cc0_scratch4.sem)) < lvAt 4; decide)
theorem mayWait_local5 (c : Dev nD) : (levAts L lv : sProp 𝕄) ⊢ MayWait (c : Thread nD τ) (.dma cc0_scratch5.sem) () (owedAfter c 4) :=
  mayWait_at c (.dma cc0_scratch5.sem) 4 (by show lvKind (kindOf (cc0_scratch5.sem)) < lvAt 4; decide)

set_option maxHeartbeats 40000000 in
theorem sound_body (c : Dev nD) :
    bodyPre m ρ c ⊢ wp frame (wpE (defs₀ (F := F)) 𝒱₀ c none) Set.univ (bodyAt0 (F := F) t0_0) (fun _ => bodyPost m ρ c) := by
  unfold bodyPre Φ₀ start bufs barGhost
  unfold Dat.owesAt Pipeline.owesWithin
  rw [show (dats m ρ 0 c).owed t0_0.castSucc = owedAfter c 0 from rfl]
  unfold bodyAt0
  simp only [cc0_body_eq_skeleton]
  unfold cc0_body_skel
  simp only [k0_part67_eq_skeleton, k0_part61_eq_skeleton, k0_part62_eq_skeleton, k0_part63_eq_skeleton, k0_part64_eq_skeleton, k0_part65_eq_skeleton, k0_part66_eq_skeleton]
  unfold k0_part67_skel k0_part61_skel k0_part62_skel k0_part63_skel k0_part64_skel k0_part65_skel k0_part66_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel
  simp only [semSignalWord, semWaitWord, Prog.lift, Prog.bind_op, Prog.bind_ret, Prog.pure_eq_ret, wp_deviceId]
  iintro ⟨HΦ, Ho, Hst⟩
  icases HΦ with ⟨Hstart, Hbufs⟩
  icases Hstart with ⟨HKI, Hbar, Hlanes, Hrest⟩
  icases HKI with ⟨%K, HI⟩
  icases Hbar with ⟨HatB, HcB, HtL, HtR, HtX, HtY⟩
  icases Hlanes with ⟨HG0, HG1, HG2, HG3, HG4, HG5, HG6, HG7⟩
  icases Hrest with ⟨#Hlev, Hz4, Hz5⟩
  icases Hbufs with ⟨⟨%fx, Hx⟩, ⟨%fq, Hq⟩, ⟨%fp, Hp⟩, ⟨%fc, Hc⟩, Ha0, Ha1⟩
  icases Hst with ⟨%d0, %g0, %hg0, Hout⟩
  icases Ho with ⟨%W, %hW, HO⟩
  ihave Hcs := (comm_split c fc) $$ Hc
  ihave Hos := (out_split c g0) $$ Hout
  ihave Hos' := (Entails.of_eq (out_quarters c)) $$ Hos
  icases Hos' with ⟨Hown, HoX, HoYD⟩
  ihave Hown := (Entails.of_eq (ownBlocks_eq c).symm) $$ Hown
  ihave HoYD := (Entails.of_eq (ynBlocks_eq c).symm) $$ HoYD
  ihave HoX := (Entails.of_eq (xnBlocks_eq c).symm) $$ HoX
  iapply (boxed' m (signal_left m c K _ (dev1_eq c) _ rfl _ rfl (owedAfter c 1) (owedAfter_bar_left c) W)) $$ [HI HtL Hcs HO]
  · iframe
  iintro ⟨HI, HO⟩
  iapply (boxed' m (signal_right m c K _ (dev2_eq c) _ rfl _ rfl (owedAfter c 2) (owedAfter_bar_right c) W)) $$ [HI HtR HO]
  · iframe
  iintro ⟨HI, HO⟩
  ihave HoX := (Entails.of_eq (xnBlocks_eq c)) $$ HoX
  iapply (boxed' m (signal_xn m c K _ (dev3_eq c) _ rfl _ rfl (owedAfter c 3) (owedAfter_bar_xn c) W)) $$ [HI HtX HoX HO]
  · iframe
  iintro ⟨HI, HO⟩
  ihave HoYD := (Entails.of_eq (ynBlocks_eq c)) $$ HoYD
  icases HoYD with ⟨HoY, HoD⟩
  iapply (boxed' m (signal_yn m c K _ (dev4_eq c) _ rfl _ rfl (owedAfter c 4) (owedAfter_bar_yn c) W)) $$ [HI HtY HoY HoD HO]
  · iframe
  iintro ⟨HI, HO⟩
  iapply (copy_x m c _ rfl _ rfl _ rfl) $$ [Ha0 Hx Hz4]
  · isplitl [Ha0]; · iexact Ha0
    isplitl [Hx]; · iexists fx; iexact Hx
    iexact Hz4
  iintro HFx
  iapply (copy_dy m c (off1_q c) _ rfl _ rfl _ rfl) $$ [Ha1 Hq Hz5]
  · isplitl [Ha1]; · iexact Ha1
    isplitl [Hq]; · iexists fq; iexact Hq
    iexact Hz5
  iintro ⟨HFq, HdyR⟩
  iapply (wait_x m c _ rfl _ rfl) $$ [HFx HO]
  · iframe HFx HO
    iapply (mayWait_local4 c); iexact Hlev
  iintro ⟨HX, Ha0, Hz4, HO⟩
  iapply (wait_dy m c _ rfl _ rfl) $$ [HFq HdyR HO]
  · iframe HFq HdyR HO
    iapply (mayWait_local5 c); iexact Hlev
  iintro ⟨HQ, Ha1, Hz5, HO⟩
  iapply (xheld_load m c (rowOf (zc c) (1 + 0)) (off2_row c 0)) $$ HX; iintro HX
  iapply (dyqheld_load m c rfl) $$ HQ; iintro HQ
  ihave HP := (part_whole_intro m c) $$ [Hp]
  · iexists fp; iexact Hp
  iapply (part_dead_whole m c ∅) $$ HP; iintro HP %vdead0
  iapply (part_store_whole m c (off3_row c 0) _ rfl) $$ HP; iintro HP
  iapply (boxed' m (wait_bar m c K _ rfl _ rfl)) $$ [HI HcB HO HatB]
  · iframe HI HcB HO
    isplitr; · iapply (mayWait_bar c); iexact Hlev
    iexact HatB
  iintro ⟨HI, HO, HatB, -, HpR, HpX, HpY, HpYx⟩
  ihave Hsp := (part_split_lanes m c) $$ HP
  icases Hsp with ⟨Hblk, HP⟩
  ihave Hown := (Entails.of_eq (ownBlocks_eq c)) $$ Hown
  ihave HLs := (lanes_intro m c) $$ [HG0 HG1 HG2 HG3 HG4 HG5 HG6 HG7 HpR HpX HpY HpYx Hown Hblk]
  · isplitl [HG0 HG1 HG2 HG3 HG4 HG5 HG6 HG7]
    · iframe
    iframe
  icases HLs with ⟨HL0, HL1, HL2, HL3, HL4, HL5, HL6, HL7⟩
  ihave HO := (owes_intro c _ _) $$ HO
  iapply (boxed' m (lane_0 m K c 0 _ (src_rs0_eq c 0 _ _ (Mesh.off4_eq c)) _ rfl _ (Mesh.dev5_eq c) _ _ rfl rfl 4 5 rfl rfl)) $$ [HI HL0 HO]
  · iframe
  iintro ⟨HI, HL0, HO⟩
  iapply (boxed' m (lane_0 m K c 1 _ (src_rs0_eq c 1 _ _ (Mesh.off5_eq c)) _ rfl _ (Mesh.dev6_eq c) _ _ rfl rfl 5 6 rfl rfl)) $$ [HI HL1 HO]
  · iframe
  iintro ⟨HI, HL1, HO⟩
  iapply (boxed' m (lane_0 m K c 2 _ (src_rs0_eq c 2 _ _ (Mesh.off6_eq c)) _ rfl _ (Mesh.dev7_eq c) _ _ rfl rfl 6 7 rfl rfl)) $$ [HI HL2 HO]
  · iframe
  iintro ⟨HI, HL2, HO⟩
  iapply (boxed' m (lane_0 m K c 3 _ (src_rs0_eq c 3 _ _ (Mesh.off7_eq c)) _ rfl _ (Mesh.dev8_eq c) _ _ rfl rfl 7 8 rfl rfl)) $$ [HI HL3 HO]
  · iframe
  iintro ⟨HI, HL3, HO⟩
  iapply (boxed' m (lane_0 m K c 4 _ (src_rs0_eq c 4 _ _ (Mesh.off8_eq c)) _ rfl _ (Mesh.dev9_eq c) _ _ rfl rfl 8 9 rfl rfl)) $$ [HI HL4 HO]
  · iframe
  iintro ⟨HI, HL4, HO⟩
  iapply (boxed' m (lane_0 m K c 5 _ (src_rs0_eq c 5 _ _ (Mesh.off9_eq c)) _ rfl _ (Mesh.dev10_eq c) _ _ rfl rfl 9 10 rfl rfl)) $$ [HI HL5 HO]
  · iframe
  iintro ⟨HI, HL5, HO⟩
  iapply (boxed' m (lane_0 m K c 6 _ (src_rs0_eq c 6 _ _ (Mesh.off10_eq c)) _ rfl _ (Mesh.dev11_eq c) _ _ rfl rfl 10 11 rfl rfl)) $$ [HI HL6 HO]
  · iframe
  iintro ⟨HI, HL6, HO⟩
  iapply (boxed' m (lane_0 m K c 7 _ (src_rs0_eq c 7 _ _ (Mesh.off11_eq c)) _ rfl _ (Mesh.dev12_eq c) _ _ rfl rfl 11 12 rfl rfl)) $$ [HI HL7 HO]
  · iframe
  iintro ⟨HI, HL7, HO⟩
  iapply (xheld_load m c (rowOf (zc c) (1 + 1)) (off2_row c 1)) $$ HX; iintro HX
  iapply (dyqheld_load m c rfl) $$ HQ; iintro HQ
  iapply (part_dead_rest m c _ 1 (by decide) (off3_row c 1)) $$ HP; iintro HP %vdead1
  iapply (part_store_rest m c _ 1 (by decide) (off3_row c 1) _ rfl) $$ HP; iintro HP
  iapply (xheld_load m c (rowOf (zc c) (1 + 2)) (off2_row c 2)) $$ HX; iintro HX
  iapply (dyqheld_load m c rfl) $$ HQ; iintro HQ
  iapply (part_dead_rest m c _ 2 (by decide) (off3_row c 2)) $$ HP; iintro HP %vdead2
  iapply (part_store_rest m c _ 2 (by decide) (off3_row c 2) _ rfl) $$ HP; iintro HP
  iapply (xheld_load m c (rowOf (zc c) (1 + 3)) (off2_row c 3)) $$ HX; iintro HX
  iapply (dyqheld_load m c rfl) $$ HQ; iintro HQ
  iapply (part_dead_rest m c _ 3 (by decide) (off3_row c 3)) $$ HP; iintro HP %vdead3
  iapply (part_store_rest m c _ 3 (by decide) (off3_row c 3) _ rfl) $$ HP; iintro HP
  iapply (boxed' m (lane_1 m c 0 K 12 _ rfl _ _)) $$ [HI HL0 HO]
  · iframe HI Hlev ∗
  iintro ⟨HI, HL0, HO⟩
  iapply (boxed' m (lane_2 m c 0 K 12 (by decide) _ rfl _ _)) $$ [HI HL0 HO]
  · iframe HI Hlev ∗
  iintro ⟨HI, HL0, HO⟩
  iapply (lane_load_comm_3 m c 0 _ rfl) $$ HL0; iintro %vc0_0 %hvc0_0 HL0
  iapply (part_load m c _ _ (memJ_step c 0) (row_step_ne_j₀ c 0) 0 (partoff_step c 0 0)) $$ HP; iintro HP
  iapply (lane_load_comm_dead_3 m c 0 _ rfl) $$ HL0; iintro %vd0_0 HL0
  iapply (lane_3 m c 0 _ rfl _ (stored_comm m c 0 0 _ _ hvc0_0 rfl)) $$ HL0; iintro HL0
  iapply (boxed' m (lane_4 m K c 0 _ rfl _ rfl _ (Mesh.dev13_eq c) _ _ rfl rfl 12 13 rfl rfl)) $$ [HI HL0 HO]
  · iframe
  iintro ⟨HI, HL0, HO⟩
  iapply (boxed' m (lane_1 m c 1 K 13 _ rfl _ _)) $$ [HI HL1 HO]
  · iframe HI Hlev ∗
  iintro ⟨HI, HL1, HO⟩
  iapply (boxed' m (lane_2 m c 1 K 13 (by decide) _ rfl _ _)) $$ [HI HL1 HO]
  · iframe HI Hlev ∗
  iintro ⟨HI, HL1, HO⟩
  iapply (lane_load_comm_3 m c 1 _ rfl) $$ HL1; iintro %vc1_0 %hvc1_0 HL1
  iapply (part_load m c _ _ (memJ_step c 0) (row_step_ne_j₀ c 0) 1 (partoff_step c 1 0)) $$ HP; iintro HP
  iapply (lane_load_comm_dead_3 m c 1 _ rfl) $$ HL1; iintro %vd1_0 HL1
  iapply (lane_3 m c 1 _ rfl _ (stored_comm m c 1 0 _ _ hvc1_0 rfl)) $$ HL1; iintro HL1
  iapply (boxed' m (lane_4 m K c 1 _ rfl _ rfl _ (Mesh.dev14_eq c) _ _ rfl rfl 13 14 rfl rfl)) $$ [HI HL1 HO]
  · iframe
  iintro ⟨HI, HL1, HO⟩
  iapply (boxed' m (lane_1 m c 2 K 14 _ rfl _ _)) $$ [HI HL2 HO]
  · iframe HI Hlev ∗
  iintro ⟨HI, HL2, HO⟩
  iapply (boxed' m (lane_2 m c 2 K 14 (by decide) _ rfl _ _)) $$ [HI HL2 HO]
  · iframe HI Hlev ∗
  iintro ⟨HI, HL2, HO⟩
  iapply (lane_load_comm_3 m c 2 _ rfl) $$ HL2; iintro %vc2_0 %hvc2_0 HL2
  iapply (part_load m c _ _ (memJ_step c 0) (row_step_ne_j₀ c 0) 2 (partoff_step c 2 0)) $$ HP; iintro HP
  iapply (lane_load_comm_dead_3 m c 2 _ rfl) $$ HL2; iintro %vd2_0 HL2
  iapply (lane_3 m c 2 _ rfl _ (stored_comm m c 2 0 _ _ hvc2_0 rfl)) $$ HL2; iintro HL2
  iapply (boxed' m (lane_4 m K c 2 _ rfl _ rfl _ (Mesh.dev15_eq c) _ _ rfl rfl 14 15 rfl rfl)) $$ [HI HL2 HO]
  · iframe
  iintro ⟨HI, HL2, HO⟩
  iapply (boxed' m (lane_1 m c 3 K 15 _ rfl _ _)) $$ [HI HL3 HO]
  · iframe HI Hlev ∗
  iintro ⟨HI, HL3, HO⟩
  iapply (boxed' m (lane_2 m c 3 K 15 (by decide) _ rfl _ _)) $$ [HI HL3 HO]
  · iframe HI Hlev ∗
  iintro ⟨HI, HL3, HO⟩
  iapply (lane_load_comm_3 m c 3 _ rfl) $$ HL3; iintro %vc3_0 %hvc3_0 HL3
  iapply (part_load m c _ _ (memJ_step c 0) (row_step_ne_j₀ c 0) 3 (partoff_step c 3 0)) $$ HP; iintro HP
  iapply (lane_load_comm_dead_3 m c 3 _ rfl) $$ HL3; iintro %vd3_0 HL3
  iapply (lane_3 m c 3 _ rfl _ (stored_comm m c 3 0 _ _ hvc3_0 rfl)) $$ HL3; iintro HL3
  iapply (boxed' m (lane_4 m K c 3 _ rfl _ rfl _ (Mesh.dev16_eq c) _ _ rfl rfl 15 16 rfl rfl)) $$ [HI HL3 HO]
  · iframe
  iintro ⟨HI, HL3, HO⟩
  iapply (boxed' m (lane_1 m c 4 K 16 _ rfl _ _)) $$ [HI HL4 HO]
  · iframe HI Hlev ∗
  iintro ⟨HI, HL4, HO⟩
  iapply (boxed' m (lane_2 m c 4 K 16 (by decide) _ rfl _ _)) $$ [HI HL4 HO]
  · iframe HI Hlev ∗
  iintro ⟨HI, HL4, HO⟩
  iapply (lane_load_comm_3 m c 4 _ rfl) $$ HL4; iintro %vc4_0 %hvc4_0 HL4
  iapply (part_load m c _ _ (memJ_step c 0) (row_step_ne_j₀ c 0) 4 (partoff_step c 4 0)) $$ HP; iintro HP
  iapply (lane_load_comm_dead_3 m c 4 _ rfl) $$ HL4; iintro %vd4_0 HL4
  iapply (lane_3 m c 4 _ rfl _ (stored_comm m c 4 0 _ _ hvc4_0 rfl)) $$ HL4; iintro HL4
  iapply (boxed' m (lane_4 m K c 4 _ rfl _ rfl _ (Mesh.dev17_eq c) _ _ rfl rfl 16 17 rfl rfl)) $$ [HI HL4 HO]
  · iframe
  iintro ⟨HI, HL4, HO⟩
  iapply (boxed' m (lane_1 m c 5 K 17 _ rfl _ _)) $$ [HI HL5 HO]
  · iframe HI Hlev ∗
  iintro ⟨HI, HL5, HO⟩
  iapply (boxed' m (lane_2 m c 5 K 17 (by decide) _ rfl _ _)) $$ [HI HL5 HO]
  · iframe HI Hlev ∗
  iintro ⟨HI, HL5, HO⟩
  iapply (lane_load_comm_3 m c 5 _ rfl) $$ HL5; iintro %vc5_0 %hvc5_0 HL5
  iapply (part_load m c _ _ (memJ_step c 0) (row_step_ne_j₀ c 0) 5 (partoff_step c 5 0)) $$ HP; iintro HP
  iapply (lane_load_comm_dead_3 m c 5 _ rfl) $$ HL5; iintro %vd5_0 HL5
  iapply (lane_3 m c 5 _ rfl _ (stored_comm m c 5 0 _ _ hvc5_0 rfl)) $$ HL5; iintro HL5
  iapply (boxed' m (lane_4 m K c 5 _ rfl _ rfl _ (Mesh.dev18_eq c) _ _ rfl rfl 17 18 rfl rfl)) $$ [HI HL5 HO]
  · iframe
  iintro ⟨HI, HL5, HO⟩
  iapply (boxed' m (lane_1 m c 6 K 18 _ rfl _ _)) $$ [HI HL6 HO]
  · iframe HI Hlev ∗
  iintro ⟨HI, HL6, HO⟩
  iapply (boxed' m (lane_2 m c 6 K 18 (by decide) _ rfl _ _)) $$ [HI HL6 HO]
  · iframe HI Hlev ∗
  iintro ⟨HI, HL6, HO⟩
  iapply (lane_load_comm_3 m c 6 _ rfl) $$ HL6; iintro %vc6_0 %hvc6_0 HL6
  iapply (part_load m c _ _ (memJ_step c 0) (row_step_ne_j₀ c 0) 6 (partoff_step c 6 0)) $$ HP; iintro HP
  iapply (lane_load_comm_dead_3 m c 6 _ rfl) $$ HL6; iintro %vd6_0 HL6
  iapply (lane_3 m c 6 _ rfl _ (stored_comm m c 6 0 _ _ hvc6_0 rfl)) $$ HL6; iintro HL6
  iapply (boxed' m (lane_4 m K c 6 _ rfl _ rfl _ (Mesh.dev19_eq c) _ _ rfl rfl 18 19 rfl rfl)) $$ [HI HL6 HO]
  · iframe
  iintro ⟨HI, HL6, HO⟩
  iapply (boxed' m (lane_1 m c 7 K 19 _ rfl _ _)) $$ [HI HL7 HO]
  · iframe HI Hlev ∗
  iintro ⟨HI, HL7, HO⟩
  iapply (boxed' m (lane_2 m c 7 K 19 (by decide) _ rfl _ _)) $$ [HI HL7 HO]
  · iframe HI Hlev ∗
  iintro ⟨HI, HL7, HO⟩
  iapply (lane_load_comm_3 m c 7 _ rfl) $$ HL7; iintro %vc7_0 %hvc7_0 HL7
  iapply (part_load m c _ _ (memJ_step c 0) (row_step_ne_j₀ c 0) 7 (partoff_step c 7 0)) $$ HP; iintro HP
  iapply (lane_load_comm_dead_3 m c 7 _ rfl) $$ HL7; iintro %vd7_0 HL7
  iapply (lane_3 m c 7 _ rfl _ (stored_comm m c 7 0 _ _ hvc7_0 rfl)) $$ HL7; iintro HL7
  iapply (boxed' m (lane_4 m K c 7 _ rfl _ rfl _ (Mesh.dev20_eq c) _ _ rfl rfl 19 20 rfl rfl)) $$ [HI HL7 HO]
  · iframe
  iintro ⟨HI, HL7, HO⟩
  iapply (boxed' m (lane_5 m c 0 K 20 _ rfl _ _)) $$ [HI HL0 HO]
  · iframe HI Hlev ∗
  iintro ⟨HI, HL0, HO⟩
  iapply (boxed' m (lane_6 m c 0 K 20 (by decide) _ rfl _ _)) $$ [HI HL0 HO]
  · iframe HI Hlev ∗
  iintro ⟨HI, HL0, HO⟩
  iapply (lane_load_comm_7 m c 0 _ rfl) $$ HL0; iintro %vc0_1 %hvc0_1 HL0
  iapply (part_load m c _ _ (memJ_step c 1) (row_step_ne_j₀ c 1) 0 (partoff_step c 0 1)) $$ HP; iintro HP
  iapply (lane_load_comm_dead_7 m c 0 _ rfl) $$ HL0; iintro %vd0_1 HL0
  iapply (lane_7 m c 0 _ rfl _ (stored_comm m c 0 1 _ _ hvc0_1 rfl)) $$ HL0; iintro HL0
  iapply (boxed' m (lane_8 m K c 0 _ rfl _ rfl _ (Mesh.dev21_eq c) _ _ rfl rfl 20 21 rfl rfl)) $$ [HI HL0 HO]
  · iframe
  iintro ⟨HI, HL0, HO⟩
  iapply (boxed' m (lane_5 m c 1 K 21 _ rfl _ _)) $$ [HI HL1 HO]
  · iframe HI Hlev ∗
  iintro ⟨HI, HL1, HO⟩
  iapply (boxed' m (lane_6 m c 1 K 21 (by decide) _ rfl _ _)) $$ [HI HL1 HO]
  · iframe HI Hlev ∗
  iintro ⟨HI, HL1, HO⟩
  iapply (lane_load_comm_7 m c 1 _ rfl) $$ HL1; iintro %vc1_1 %hvc1_1 HL1
  iapply (part_load m c _ _ (memJ_step c 1) (row_step_ne_j₀ c 1) 1 (partoff_step c 1 1)) $$ HP; iintro HP
  iapply (lane_load_comm_dead_7 m c 1 _ rfl) $$ HL1; iintro %vd1_1 HL1
  iapply (lane_7 m c 1 _ rfl _ (stored_comm m c 1 1 _ _ hvc1_1 rfl)) $$ HL1; iintro HL1
  iapply (boxed' m (lane_8 m K c 1 _ rfl _ rfl _ (Mesh.dev22_eq c) _ _ rfl rfl 21 22 rfl rfl)) $$ [HI HL1 HO]
  · iframe
  iintro ⟨HI, HL1, HO⟩
  iapply (boxed' m (lane_5 m c 2 K 22 _ rfl _ _)) $$ [HI HL2 HO]
  · iframe HI Hlev ∗
  iintro ⟨HI, HL2, HO⟩
  iapply (boxed' m (lane_6 m c 2 K 22 (by decide) _ rfl _ _)) $$ [HI HL2 HO]
  · iframe HI Hlev ∗
  iintro ⟨HI, HL2, HO⟩
  iapply (lane_load_comm_7 m c 2 _ rfl) $$ HL2; iintro %vc2_1 %hvc2_1 HL2
  iapply (part_load m c _ _ (memJ_step c 1) (row_step_ne_j₀ c 1) 2 (partoff_step c 2 1)) $$ HP; iintro HP
  iapply (lane_load_comm_dead_7 m c 2 _ rfl) $$ HL2; iintro %vd2_1 HL2
  iapply (lane_7 m c 2 _ rfl _ (stored_comm m c 2 1 _ _ hvc2_1 rfl)) $$ HL2; iintro HL2
  iapply (boxed' m (lane_8 m K c 2 _ rfl _ rfl _ (Mesh.dev23_eq c) _ _ rfl rfl 22 23 rfl rfl)) $$ [HI HL2 HO]
  · iframe
  iintro ⟨HI, HL2, HO⟩
  iapply (boxed' m (lane_5 m c 3 K 23 _ rfl _ _)) $$ [HI HL3 HO]
  · iframe HI Hlev ∗
  iintro ⟨HI, HL3, HO⟩
  iapply (boxed' m (lane_6 m c 3 K 23 (by decide) _ rfl _ _)) $$ [HI HL3 HO]
  · iframe HI Hlev ∗
  iintro ⟨HI, HL3, HO⟩
  iapply (lane_load_comm_7 m c 3 _ rfl) $$ HL3; iintro %vc3_1 %hvc3_1 HL3
  iapply (part_load m c _ _ (memJ_step c 1) (row_step_ne_j₀ c 1) 3 (partoff_step c 3 1)) $$ HP; iintro HP
  iapply (lane_load_comm_dead_7 m c 3 _ rfl) $$ HL3; iintro %vd3_1 HL3
  iapply (lane_7 m c 3 _ rfl _ (stored_comm m c 3 1 _ _ hvc3_1 rfl)) $$ HL3; iintro HL3
  iapply (boxed' m (lane_8 m K c 3 _ rfl _ rfl _ (Mesh.dev24_eq c) _ _ rfl rfl 23 24 rfl rfl)) $$ [HI HL3 HO]
  · iframe
  iintro ⟨HI, HL3, HO⟩
  iapply (boxed' m (lane_5 m c 4 K 24 _ rfl _ _)) $$ [HI HL4 HO]
  · iframe HI Hlev ∗
  iintro ⟨HI, HL4, HO⟩
  iapply (boxed' m (lane_6 m c 4 K 24 (by decide) _ rfl _ _)) $$ [HI HL4 HO]
  · iframe HI Hlev ∗
  iintro ⟨HI, HL4, HO⟩
  iapply (lane_load_comm_7 m c 4 _ rfl) $$ HL4; iintro %vc4_1 %hvc4_1 HL4
  iapply (part_load m c _ _ (memJ_step c 1) (row_step_ne_j₀ c 1) 4 (partoff_step c 4 1)) $$ HP; iintro HP
  iapply (lane_load_comm_dead_7 m c 4 _ rfl) $$ HL4; iintro %vd4_1 HL4
  iapply (lane_7 m c 4 _ rfl _ (stored_comm m c 4 1 _ _ hvc4_1 rfl)) $$ HL4; iintro HL4
  iapply (boxed' m (lane_8 m K c 4 _ rfl _ rfl _ (Mesh.dev25_eq c) _ _ rfl rfl 24 25 rfl rfl)) $$ [HI HL4 HO]
  · iframe
  iintro ⟨HI, HL4, HO⟩
  iapply (boxed' m (lane_5 m c 5 K 25 _ rfl _ _)) $$ [HI HL5 HO]
  · iframe HI Hlev ∗
  iintro ⟨HI, HL5, HO⟩
  iapply (boxed' m (lane_6 m c 5 K 25 (by decide) _ rfl _ _)) $$ [HI HL5 HO]
  · iframe HI Hlev ∗
  iintro ⟨HI, HL5, HO⟩
  iapply (lane_load_comm_7 m c 5 _ rfl) $$ HL5; iintro %vc5_1 %hvc5_1 HL5
  iapply (part_load m c _ _ (memJ_step c 1) (row_step_ne_j₀ c 1) 5 (partoff_step c 5 1)) $$ HP; iintro HP
  iapply (lane_load_comm_dead_7 m c 5 _ rfl) $$ HL5; iintro %vd5_1 HL5
  iapply (lane_7 m c 5 _ rfl _ (stored_comm m c 5 1 _ _ hvc5_1 rfl)) $$ HL5; iintro HL5
  iapply (boxed' m (lane_8 m K c 5 _ rfl _ rfl _ (Mesh.dev26_eq c) _ _ rfl rfl 25 26 rfl rfl)) $$ [HI HL5 HO]
  · iframe
  iintro ⟨HI, HL5, HO⟩
  iapply (boxed' m (lane_5 m c 6 K 26 _ rfl _ _)) $$ [HI HL6 HO]
  · iframe HI Hlev ∗
  iintro ⟨HI, HL6, HO⟩
  iapply (boxed' m (lane_6 m c 6 K 26 (by decide) _ rfl _ _)) $$ [HI HL6 HO]
  · iframe HI Hlev ∗
  iintro ⟨HI, HL6, HO⟩
  iapply (lane_load_comm_7 m c 6 _ rfl) $$ HL6; iintro %vc6_1 %hvc6_1 HL6
  iapply (part_load m c _ _ (memJ_step c 1) (row_step_ne_j₀ c 1) 6 (partoff_step c 6 1)) $$ HP; iintro HP
  iapply (lane_load_comm_dead_7 m c 6 _ rfl) $$ HL6; iintro %vd6_1 HL6
  iapply (lane_7 m c 6 _ rfl _ (stored_comm m c 6 1 _ _ hvc6_1 rfl)) $$ HL6; iintro HL6
  iapply (boxed' m (lane_8 m K c 6 _ rfl _ rfl _ (Mesh.dev27_eq c) _ _ rfl rfl 26 27 rfl rfl)) $$ [HI HL6 HO]
  · iframe
  iintro ⟨HI, HL6, HO⟩
  iapply (boxed' m (lane_5 m c 7 K 27 _ rfl _ _)) $$ [HI HL7 HO]
  · iframe HI Hlev ∗
  iintro ⟨HI, HL7, HO⟩
  iapply (boxed' m (lane_6 m c 7 K 27 (by decide) _ rfl _ _)) $$ [HI HL7 HO]
  · iframe HI Hlev ∗
  iintro ⟨HI, HL7, HO⟩
  iapply (lane_load_comm_7 m c 7 _ rfl) $$ HL7; iintro %vc7_1 %hvc7_1 HL7
  iapply (part_load m c _ _ (memJ_step c 1) (row_step_ne_j₀ c 1) 7 (partoff_step c 7 1)) $$ HP; iintro HP
  iapply (lane_load_comm_dead_7 m c 7 _ rfl) $$ HL7; iintro %vd7_1 HL7
  iapply (lane_7 m c 7 _ rfl _ (stored_comm m c 7 1 _ _ hvc7_1 rfl)) $$ HL7; iintro HL7
  iapply (boxed' m (lane_8 m K c 7 _ rfl _ rfl _ (Mesh.dev28_eq c) _ _ rfl rfl 27 28 rfl rfl)) $$ [HI HL7 HO]
  · iframe
  iintro ⟨HI, HL7, HO⟩
  iapply (boxed' m (lane_9 m c 0 K 28 _ rfl _ _)) $$ [HI HL0 HO]
  · iframe HI Hlev ∗
  iintro ⟨HI, HL0, HO⟩
  iapply (boxed' m (lane_10 m c 0 K 28 (by decide) _ rfl _ _)) $$ [HI HL0 HO]
  · iframe HI Hlev ∗
  iintro ⟨HI, HL0, HO⟩
  iapply (lane_load_comm_11 m c 0 _ rfl) $$ HL0; iintro %vc0_2 %hvc0_2 HL0
  iapply (part_load m c _ _ (memJ_own c) (row_own_ne_j₀ c) 0 (partoff_own c 0)) $$ HP; iintro HP
  iapply (lane_out_dead_11 m c 0 _ (off21_own c 0)) $$ HL0; iintro %vo0 HL0
  iapply (lane_11 m c 0 _ (off21_own c 0) _ (stored_out m c 0 _ _ hvc0_2 rfl)) $$ HL0; iintro HL0
  iapply (boxed' m (lane_12 m K c 0 _ (out_own_eq c 0 _ _ (Gen.k0_off22_eq c 0)) _ (out_own_eq c 0 _ _ (Gen.k0_off22_eq c 0)) _ (Mesh.dev29_eq c) _ _ rfl rfl 28 29 rfl rfl)) $$ [HI HL0 HO]
  · iframe
  iintro ⟨HI, HL0, HO⟩
  iapply (boxed' m (lane_13 m K c 0 _ (out_own_eq c 0 _ _ (Gen.k0_off22_eq c 0)) _ (out_own_eq c 0 _ _ (Gen.k0_off22_eq c 0)) _ (Mesh.dev30_eq c) _ _ rfl rfl 29 30 rfl rfl)) $$ [HI HL0 HO]
  · iframe
  iintro ⟨HI, HL0, HO⟩
  iapply (boxed' m (lane_9 m c 1 K 30 _ rfl _ _)) $$ [HI HL1 HO]
  · iframe HI Hlev ∗
  iintro ⟨HI, HL1, HO⟩
  iapply (boxed' m (lane_10 m c 1 K 30 (by decide) _ rfl _ _)) $$ [HI HL1 HO]
  · iframe HI Hlev ∗
  iintro ⟨HI, HL1, HO⟩
  iapply (lane_load_comm_11 m c 1 _ rfl) $$ HL1; iintro %vc1_2 %hvc1_2 HL1
  iapply (part_load m c _ _ (memJ_own c) (row_own_ne_j₀ c) 1 (partoff_own c 1)) $$ HP; iintro HP
  iapply (lane_out_dead_11 m c 1 _ (off21_own c 1)) $$ HL1; iintro %vo1 HL1
  iapply (lane_11 m c 1 _ (off21_own c 1) _ (stored_out m c 1 _ _ hvc1_2 rfl)) $$ HL1; iintro HL1
  iapply (boxed' m (lane_12 m K c 1 _ (out_own_eq c 1 _ _ (Gen.k0_off22_eq c 1)) _ (out_own_eq c 1 _ _ (Gen.k0_off22_eq c 1)) _ (Mesh.dev31_eq c) _ _ rfl rfl 30 31 rfl rfl)) $$ [HI HL1 HO]
  · iframe
  iintro ⟨HI, HL1, HO⟩
  iapply (boxed' m (lane_13 m K c 1 _ (out_own_eq c 1 _ _ (Gen.k0_off22_eq c 1)) _ (out_own_eq c 1 _ _ (Gen.k0_off22_eq c 1)) _ (Mesh.dev32_eq c) _ _ rfl rfl 31 32 rfl rfl)) $$ [HI HL1 HO]
  · iframe
  iintro ⟨HI, HL1, HO⟩
  iapply (boxed' m (lane_9 m c 2 K 32 _ rfl _ _)) $$ [HI HL2 HO]
  · iframe HI Hlev ∗
  iintro ⟨HI, HL2, HO⟩
  iapply (boxed' m (lane_10 m c 2 K 32 (by decide) _ rfl _ _)) $$ [HI HL2 HO]
  · iframe HI Hlev ∗
  iintro ⟨HI, HL2, HO⟩
  iapply (lane_load_comm_11 m c 2 _ rfl) $$ HL2; iintro %vc2_2 %hvc2_2 HL2
  iapply (part_load m c _ _ (memJ_own c) (row_own_ne_j₀ c) 2 (partoff_own c 2)) $$ HP; iintro HP
  iapply (lane_out_dead_11 m c 2 _ (off21_own c 2)) $$ HL2; iintro %vo2 HL2
  iapply (lane_11 m c 2 _ (off21_own c 2) _ (stored_out m c 2 _ _ hvc2_2 rfl)) $$ HL2; iintro HL2
  iapply (boxed' m (lane_12 m K c 2 _ (out_own_eq c 2 _ _ (Gen.k0_off22_eq c 2)) _ (out_own_eq c 2 _ _ (Gen.k0_off22_eq c 2)) _ (Mesh.dev33_eq c) _ _ rfl rfl 32 33 rfl rfl)) $$ [HI HL2 HO]
  · iframe
  iintro ⟨HI, HL2, HO⟩
  iapply (boxed' m (lane_13 m K c 2 _ (out_own_eq c 2 _ _ (Gen.k0_off22_eq c 2)) _ (out_own_eq c 2 _ _ (Gen.k0_off22_eq c 2)) _ (Mesh.dev34_eq c) _ _ rfl rfl 33 34 rfl rfl)) $$ [HI HL2 HO]
  · iframe
  iintro ⟨HI, HL2, HO⟩
  iapply (boxed' m (lane_9 m c 3 K 34 _ rfl _ _)) $$ [HI HL3 HO]
  · iframe HI Hlev ∗
  iintro ⟨HI, HL3, HO⟩
  iapply (boxed' m (lane_10 m c 3 K 34 (by decide) _ rfl _ _)) $$ [HI HL3 HO]
  · iframe HI Hlev ∗
  iintro ⟨HI, HL3, HO⟩
  iapply (lane_load_comm_11 m c 3 _ rfl) $$ HL3; iintro %vc3_2 %hvc3_2 HL3
  iapply (part_load m c _ _ (memJ_own c) (row_own_ne_j₀ c) 3 (partoff_own c 3)) $$ HP; iintro HP
  iapply (lane_out_dead_11 m c 3 _ (off21_own c 3)) $$ HL3; iintro %vo3 HL3
  iapply (lane_11 m c 3 _ (off21_own c 3) _ (stored_out m c 3 _ _ hvc3_2 rfl)) $$ HL3; iintro HL3
  iapply (boxed' m (lane_12 m K c 3 _ (out_own_eq c 3 _ _ (Gen.k0_off22_eq c 3)) _ (out_own_eq c 3 _ _ (Gen.k0_off22_eq c 3)) _ (Mesh.dev35_eq c) _ _ rfl rfl 34 35 rfl rfl)) $$ [HI HL3 HO]
  · iframe
  iintro ⟨HI, HL3, HO⟩
  iapply (boxed' m (lane_13 m K c 3 _ (out_own_eq c 3 _ _ (Gen.k0_off22_eq c 3)) _ (out_own_eq c 3 _ _ (Gen.k0_off22_eq c 3)) _ (Mesh.dev36_eq c) _ _ rfl rfl 35 36 rfl rfl)) $$ [HI HL3 HO]
  · iframe
  iintro ⟨HI, HL3, HO⟩
  iapply (boxed' m (lane_9 m c 4 K 36 _ rfl _ _)) $$ [HI HL4 HO]
  · iframe HI Hlev ∗
  iintro ⟨HI, HL4, HO⟩
  iapply (boxed' m (lane_10 m c 4 K 36 (by decide) _ rfl _ _)) $$ [HI HL4 HO]
  · iframe HI Hlev ∗
  iintro ⟨HI, HL4, HO⟩
  iapply (lane_load_comm_11 m c 4 _ rfl) $$ HL4; iintro %vc4_2 %hvc4_2 HL4
  iapply (part_load m c _ _ (memJ_own c) (row_own_ne_j₀ c) 4 (partoff_own c 4)) $$ HP; iintro HP
  iapply (lane_out_dead_11 m c 4 _ (off21_own c 4)) $$ HL4; iintro %vo4 HL4
  iapply (lane_11 m c 4 _ (off21_own c 4) _ (stored_out m c 4 _ _ hvc4_2 rfl)) $$ HL4; iintro HL4
  iapply (boxed' m (lane_12 m K c 4 _ (out_own_eq c 4 _ _ (Gen.k0_off22_eq c 4)) _ (out_own_eq c 4 _ _ (Gen.k0_off22_eq c 4)) _ (Mesh.dev37_eq c) _ _ rfl rfl 36 37 rfl rfl)) $$ [HI HL4 HO]
  · iframe
  iintro ⟨HI, HL4, HO⟩
  iapply (boxed' m (lane_13 m K c 4 _ (out_own_eq c 4 _ _ (Gen.k0_off22_eq c 4)) _ (out_own_eq c 4 _ _ (Gen.k0_off22_eq c 4)) _ (Mesh.dev38_eq c) _ _ rfl rfl 37 38 rfl rfl)) $$ [HI HL4 HO]
  · iframe
  iintro ⟨HI, HL4, HO⟩
  iapply (boxed' m (lane_9 m c 5 K 38 _ rfl _ _)) $$ [HI HL5 HO]
  · iframe HI Hlev ∗
  iintro ⟨HI, HL5, HO⟩
  iapply (boxed' m (lane_10 m c 5 K 38 (by decide) _ rfl _ _)) $$ [HI HL5 HO]
  · iframe HI Hlev ∗
  iintro ⟨HI, HL5, HO⟩
  iapply (lane_load_comm_11 m c 5 _ rfl) $$ HL5; iintro %vc5_2 %hvc5_2 HL5
  iapply (part_load m c _ _ (memJ_own c) (row_own_ne_j₀ c) 5 (partoff_own c 5)) $$ HP; iintro HP
  iapply (lane_out_dead_11 m c 5 _ (off21_own c 5)) $$ HL5; iintro %vo5 HL5
  iapply (lane_11 m c 5 _ (off21_own c 5) _ (stored_out m c 5 _ _ hvc5_2 rfl)) $$ HL5; iintro HL5
  iapply (boxed' m (lane_12 m K c 5 _ (out_own_eq c 5 _ _ (Gen.k0_off22_eq c 5)) _ (out_own_eq c 5 _ _ (Gen.k0_off22_eq c 5)) _ (Mesh.dev39_eq c) _ _ rfl rfl 38 39 rfl rfl)) $$ [HI HL5 HO]
  · iframe
  iintro ⟨HI, HL5, HO⟩
  iapply (boxed' m (lane_13 m K c 5 _ (out_own_eq c 5 _ _ (Gen.k0_off22_eq c 5)) _ (out_own_eq c 5 _ _ (Gen.k0_off22_eq c 5)) _ (Mesh.dev40_eq c) _ _ rfl rfl 39 40 rfl rfl)) $$ [HI HL5 HO]
  · iframe
  iintro ⟨HI, HL5, HO⟩
  iapply (boxed' m (lane_9 m c 6 K 40 _ rfl _ _)) $$ [HI HL6 HO]
  · iframe HI Hlev ∗
  iintro ⟨HI, HL6, HO⟩
  iapply (boxed' m (lane_10 m c 6 K 40 (by decide) _ rfl _ _)) $$ [HI HL6 HO]
  · iframe HI Hlev ∗
  iintro ⟨HI, HL6, HO⟩
  iapply (lane_load_comm_11 m c 6 _ rfl) $$ HL6; iintro %vc6_2 %hvc6_2 HL6
  iapply (part_load m c _ _ (memJ_own c) (row_own_ne_j₀ c) 6 (partoff_own c 6)) $$ HP; iintro HP
  iapply (lane_out_dead_11 m c 6 _ (off21_own c 6)) $$ HL6; iintro %vo6 HL6
  iapply (lane_11 m c 6 _ (off21_own c 6) _ (stored_out m c 6 _ _ hvc6_2 rfl)) $$ HL6; iintro HL6
  iapply (boxed' m (lane_12 m K c 6 _ (out_own_eq c 6 _ _ (Gen.k0_off22_eq c 6)) _ (out_own_eq c 6 _ _ (Gen.k0_off22_eq c 6)) _ (Mesh.dev41_eq c) _ _ rfl rfl 40 41 rfl rfl)) $$ [HI HL6 HO]
  · iframe
  iintro ⟨HI, HL6, HO⟩
  iapply (boxed' m (lane_13 m K c 6 _ (out_own_eq c 6 _ _ (Gen.k0_off22_eq c 6)) _ (out_own_eq c 6 _ _ (Gen.k0_off22_eq c 6)) _ (Mesh.dev42_eq c) _ _ rfl rfl 41 42 rfl rfl)) $$ [HI HL6 HO]
  · iframe
  iintro ⟨HI, HL6, HO⟩
  iapply (boxed' m (lane_9 m c 7 K 42 _ rfl _ _)) $$ [HI HL7 HO]
  · iframe HI Hlev ∗
  iintro ⟨HI, HL7, HO⟩
  iapply (boxed' m (lane_10 m c 7 K 42 (by decide) _ rfl _ _)) $$ [HI HL7 HO]
  · iframe HI Hlev ∗
  iintro ⟨HI, HL7, HO⟩
  iapply (lane_load_comm_11 m c 7 _ rfl) $$ HL7; iintro %vc7_2 %hvc7_2 HL7
  iapply (part_load m c _ _ (memJ_own c) (row_own_ne_j₀ c) 7 (partoff_own c 7)) $$ HP; iintro HP
  iapply (lane_out_dead_11 m c 7 _ (off21_own c 7)) $$ HL7; iintro %vo7 HL7
  iapply (lane_11 m c 7 _ (off21_own c 7) _ (stored_out m c 7 _ _ hvc7_2 rfl)) $$ HL7; iintro HL7
  iapply (boxed' m (lane_12 m K c 7 _ (out_own_eq c 7 _ _ (Gen.k0_off22_eq c 7)) _ (out_own_eq c 7 _ _ (Gen.k0_off22_eq c 7)) _ (Mesh.dev43_eq c) _ _ rfl rfl 42 43 rfl rfl)) $$ [HI HL7 HO]
  · iframe
  iintro ⟨HI, HL7, HO⟩
  iapply (boxed' m (lane_13 m K c 7 _ (out_own_eq c 7 _ _ (Gen.k0_off22_eq c 7)) _ (out_own_eq c 7 _ _ (Gen.k0_off22_eq c 7)) _ (Mesh.dev44_eq c) _ _ rfl rfl 43 44 rfl rfl)) $$ [HI HL7 HO]
  · iframe
  iintro ⟨HI, HL7, HO⟩
  iapply (boxed' m (lane_14 m c 0 K 44 (by decide) _ rfl _ _)) $$ [HI HL0 HO]
  · iframe HI Hlev ∗
  iintro ⟨HI, HL0, HO⟩
  iapply (boxed' m (lane_15 m K c 0 _ (out_xn_eq c 0 _ _ (Gen.k0_off30_eq c 0)) _ (out_xn_eq c 0 _ _ (Gen.k0_off30_eq c 0)) _ (Mesh.dev45_eq c) _ _ rfl rfl 44 45 rfl rfl)) $$ [HI HL0 HO]
  · iframe
  iintro ⟨HI, HL0, HO⟩
  iapply (boxed' m (lane_14 m c 1 K 45 (by decide) _ rfl _ _)) $$ [HI HL1 HO]
  · iframe HI Hlev ∗
  iintro ⟨HI, HL1, HO⟩
  iapply (boxed' m (lane_15 m K c 1 _ (out_xn_eq c 1 _ _ (Gen.k0_off30_eq c 1)) _ (out_xn_eq c 1 _ _ (Gen.k0_off30_eq c 1)) _ (Mesh.dev46_eq c) _ _ rfl rfl 45 46 rfl rfl)) $$ [HI HL1 HO]
  · iframe
  iintro ⟨HI, HL1, HO⟩
  iapply (boxed' m (lane_14 m c 2 K 46 (by decide) _ rfl _ _)) $$ [HI HL2 HO]
  · iframe HI Hlev ∗
  iintro ⟨HI, HL2, HO⟩
  iapply (boxed' m (lane_15 m K c 2 _ (out_xn_eq c 2 _ _ (Gen.k0_off30_eq c 2)) _ (out_xn_eq c 2 _ _ (Gen.k0_off30_eq c 2)) _ (Mesh.dev47_eq c) _ _ rfl rfl 46 47 rfl rfl)) $$ [HI HL2 HO]
  · iframe
  iintro ⟨HI, HL2, HO⟩
  iapply (boxed' m (lane_14 m c 3 K 47 (by decide) _ rfl _ _)) $$ [HI HL3 HO]
  · iframe HI Hlev ∗
  iintro ⟨HI, HL3, HO⟩
  iapply (boxed' m (lane_15 m K c 3 _ (out_xn_eq c 3 _ _ (Gen.k0_off30_eq c 3)) _ (out_xn_eq c 3 _ _ (Gen.k0_off30_eq c 3)) _ (Mesh.dev48_eq c) _ _ rfl rfl 47 48 rfl rfl)) $$ [HI HL3 HO]
  · iframe
  iintro ⟨HI, HL3, HO⟩
  iapply (boxed' m (lane_14 m c 4 K 48 (by decide) _ rfl _ _)) $$ [HI HL4 HO]
  · iframe HI Hlev ∗
  iintro ⟨HI, HL4, HO⟩
  iapply (boxed' m (lane_15 m K c 4 _ (out_xn_eq c 4 _ _ (Gen.k0_off30_eq c 4)) _ (out_xn_eq c 4 _ _ (Gen.k0_off30_eq c 4)) _ (Mesh.dev49_eq c) _ _ rfl rfl 48 49 rfl rfl)) $$ [HI HL4 HO]
  · iframe
  iintro ⟨HI, HL4, HO⟩
  iapply (boxed' m (lane_14 m c 5 K 49 (by decide) _ rfl _ _)) $$ [HI HL5 HO]
  · iframe HI Hlev ∗
  iintro ⟨HI, HL5, HO⟩
  iapply (boxed' m (lane_15 m K c 5 _ (out_xn_eq c 5 _ _ (Gen.k0_off30_eq c 5)) _ (out_xn_eq c 5 _ _ (Gen.k0_off30_eq c 5)) _ (Mesh.dev50_eq c) _ _ rfl rfl 49 50 rfl rfl)) $$ [HI HL5 HO]
  · iframe
  iintro ⟨HI, HL5, HO⟩
  iapply (boxed' m (lane_14 m c 6 K 50 (by decide) _ rfl _ _)) $$ [HI HL6 HO]
  · iframe HI Hlev ∗
  iintro ⟨HI, HL6, HO⟩
  iapply (boxed' m (lane_15 m K c 6 _ (out_xn_eq c 6 _ _ (Gen.k0_off30_eq c 6)) _ (out_xn_eq c 6 _ _ (Gen.k0_off30_eq c 6)) _ (Mesh.dev51_eq c) _ _ rfl rfl 50 51 rfl rfl)) $$ [HI HL6 HO]
  · iframe
  iintro ⟨HI, HL6, HO⟩
  iapply (boxed' m (lane_14 m c 7 K 51 (by decide) _ rfl _ _)) $$ [HI HL7 HO]
  · iframe HI Hlev ∗
  iintro ⟨HI, HL7, HO⟩
  iapply (boxed' m (lane_15 m K c 7 _ (out_xn_eq c 7 _ _ (Gen.k0_off30_eq c 7)) _ (out_xn_eq c 7 _ _ (Gen.k0_off30_eq c 7)) _ (Mesh.dev52_eq c) _ _ rfl rfl 51 52 rfl rfl)) $$ [HI HL7 HO]
  · iframe
  iintro ⟨HI, HL7, HO⟩
  iapply (boxed' m (lane_16 m c 0 K 52 _ rfl _ _)) $$ [HI HL0 HO]
  · iframe HI Hlev ∗
  iintro ⟨HI, HL0, HO⟩
  iapply (boxed' m (lane_17 m c 0 K 52 _ rfl _ _)) $$ [HI HL0 HO]
  · iframe HI Hlev ∗
  iintro ⟨HI, HL0, HO⟩
  iapply (boxed' m (lane_18 m c 0 K 52 (by decide) _ rfl _ _)) $$ [HI HL0 HO]
  · iframe HI Hlev ∗
  iintro ⟨HI, HL0, HO⟩
  iapply (boxed' m (lane_19 m c 0 K 52 _ rfl _ _)) $$ [HI HL0 HO]
  · iframe HI Hlev ∗
  iintro ⟨HI, HL0, HO⟩
  iapply (boxed' m (lane_20 m c 0 K 52 (by decide) _ rfl _ _)) $$ [HI HL0 HO]
  · iframe HI Hlev ∗
  iintro ⟨HI, HL0, HO⟩
  iapply (boxed' m (lane_16 m c 1 K 52 _ rfl _ _)) $$ [HI HL1 HO]
  · iframe HI Hlev ∗
  iintro ⟨HI, HL1, HO⟩
  iapply (boxed' m (lane_17 m c 1 K 52 _ rfl _ _)) $$ [HI HL1 HO]
  · iframe HI Hlev ∗
  iintro ⟨HI, HL1, HO⟩
  iapply (boxed' m (lane_18 m c 1 K 52 (by decide) _ rfl _ _)) $$ [HI HL1 HO]
  · iframe HI Hlev ∗
  iintro ⟨HI, HL1, HO⟩
  iapply (boxed' m (lane_19 m c 1 K 52 _ rfl _ _)) $$ [HI HL1 HO]
  · iframe HI Hlev ∗
  iintro ⟨HI, HL1, HO⟩
  iapply (boxed' m (lane_20 m c 1 K 52 (by decide) _ rfl _ _)) $$ [HI HL1 HO]
  · iframe HI Hlev ∗
  iintro ⟨HI, HL1, HO⟩
  iapply (boxed' m (lane_16 m c 2 K 52 _ rfl _ _)) $$ [HI HL2 HO]
  · iframe HI Hlev ∗
  iintro ⟨HI, HL2, HO⟩
  iapply (boxed' m (lane_17 m c 2 K 52 _ rfl _ _)) $$ [HI HL2 HO]
  · iframe HI Hlev ∗
  iintro ⟨HI, HL2, HO⟩
  iapply (boxed' m (lane_18 m c 2 K 52 (by decide) _ rfl _ _)) $$ [HI HL2 HO]
  · iframe HI Hlev ∗
  iintro ⟨HI, HL2, HO⟩
  iapply (boxed' m (lane_19 m c 2 K 52 _ rfl _ _)) $$ [HI HL2 HO]
  · iframe HI Hlev ∗
  iintro ⟨HI, HL2, HO⟩
  iapply (boxed' m (lane_20 m c 2 K 52 (by decide) _ rfl _ _)) $$ [HI HL2 HO]
  · iframe HI Hlev ∗
  iintro ⟨HI, HL2, HO⟩
  iapply (boxed' m (lane_16 m c 3 K 52 _ rfl _ _)) $$ [HI HL3 HO]
  · iframe HI Hlev ∗
  iintro ⟨HI, HL3, HO⟩
  iapply (boxed' m (lane_17 m c 3 K 52 _ rfl _ _)) $$ [HI HL3 HO]
  · iframe HI Hlev ∗
  iintro ⟨HI, HL3, HO⟩
  iapply (boxed' m (lane_18 m c 3 K 52 (by decide) _ rfl _ _)) $$ [HI HL3 HO]
  · iframe HI Hlev ∗
  iintro ⟨HI, HL3, HO⟩
  iapply (boxed' m (lane_19 m c 3 K 52 _ rfl _ _)) $$ [HI HL3 HO]
  · iframe HI Hlev ∗
  iintro ⟨HI, HL3, HO⟩
  iapply (boxed' m (lane_20 m c 3 K 52 (by decide) _ rfl _ _)) $$ [HI HL3 HO]
  · iframe HI Hlev ∗
  iintro ⟨HI, HL3, HO⟩
  iapply (boxed' m (lane_16 m c 4 K 52 _ rfl _ _)) $$ [HI HL4 HO]
  · iframe HI Hlev ∗
  iintro ⟨HI, HL4, HO⟩
  iapply (boxed' m (lane_17 m c 4 K 52 _ rfl _ _)) $$ [HI HL4 HO]
  · iframe HI Hlev ∗
  iintro ⟨HI, HL4, HO⟩
  iapply (boxed' m (lane_18 m c 4 K 52 (by decide) _ rfl _ _)) $$ [HI HL4 HO]
  · iframe HI Hlev ∗
  iintro ⟨HI, HL4, HO⟩
  iapply (boxed' m (lane_19 m c 4 K 52 _ rfl _ _)) $$ [HI HL4 HO]
  · iframe HI Hlev ∗
  iintro ⟨HI, HL4, HO⟩
  iapply (boxed' m (lane_20 m c 4 K 52 (by decide) _ rfl _ _)) $$ [HI HL4 HO]
  · iframe HI Hlev ∗
  iintro ⟨HI, HL4, HO⟩
  iapply (boxed' m (lane_16 m c 5 K 52 _ rfl _ _)) $$ [HI HL5 HO]
  · iframe HI Hlev ∗
  iintro ⟨HI, HL5, HO⟩
  iapply (boxed' m (lane_17 m c 5 K 52 _ rfl _ _)) $$ [HI HL5 HO]
  · iframe HI Hlev ∗
  iintro ⟨HI, HL5, HO⟩
  iapply (boxed' m (lane_18 m c 5 K 52 (by decide) _ rfl _ _)) $$ [HI HL5 HO]
  · iframe HI Hlev ∗
  iintro ⟨HI, HL5, HO⟩
  iapply (boxed' m (lane_19 m c 5 K 52 _ rfl _ _)) $$ [HI HL5 HO]
  · iframe HI Hlev ∗
  iintro ⟨HI, HL5, HO⟩
  iapply (boxed' m (lane_20 m c 5 K 52 (by decide) _ rfl _ _)) $$ [HI HL5 HO]
  · iframe HI Hlev ∗
  iintro ⟨HI, HL5, HO⟩
  iapply (boxed' m (lane_16 m c 6 K 52 _ rfl _ _)) $$ [HI HL6 HO]
  · iframe HI Hlev ∗
  iintro ⟨HI, HL6, HO⟩
  iapply (boxed' m (lane_17 m c 6 K 52 _ rfl _ _)) $$ [HI HL6 HO]
  · iframe HI Hlev ∗
  iintro ⟨HI, HL6, HO⟩
  iapply (boxed' m (lane_18 m c 6 K 52 (by decide) _ rfl _ _)) $$ [HI HL6 HO]
  · iframe HI Hlev ∗
  iintro ⟨HI, HL6, HO⟩
  iapply (boxed' m (lane_19 m c 6 K 52 _ rfl _ _)) $$ [HI HL6 HO]
  · iframe HI Hlev ∗
  iintro ⟨HI, HL6, HO⟩
  iapply (boxed' m (lane_20 m c 6 K 52 (by decide) _ rfl _ _)) $$ [HI HL6 HO]
  · iframe HI Hlev ∗
  iintro ⟨HI, HL6, HO⟩
  iapply (boxed' m (lane_16 m c 7 K 52 _ rfl _ _)) $$ [HI HL7 HO]
  · iframe HI Hlev ∗
  iintro ⟨HI, HL7, HO⟩
  iapply (boxed' m (lane_17 m c 7 K 52 _ rfl _ _)) $$ [HI HL7 HO]
  · iframe HI Hlev ∗
  iintro ⟨HI, HL7, HO⟩
  iapply (boxed' m (lane_18 m c 7 K 52 (by decide) _ rfl _ _)) $$ [HI HL7 HO]
  · iframe HI Hlev ∗
  iintro ⟨HI, HL7, HO⟩
  iapply (boxed' m (lane_19 m c 7 K 52 _ rfl _ _)) $$ [HI HL7 HO]
  · iframe HI Hlev ∗
  iintro ⟨HI, HL7, HO⟩
  iapply (boxed' m (lane_20 m c 7 K 52 (by decide) _ rfl _ _)) $$ [HI HL7 HO]
  · iframe HI Hlev ∗
  iintro ⟨HI, HL7, HO⟩
  ihave HI2 := (box_dup (invs m K)) $$ HI
  icases HI2 with ⟨HI, HIc⟩
  imod (boxed m (lane_close m K c 0)) $$ [HIc HL0] with HL0
  · iframe
  ihave HI2 := (box_dup (invs m K)) $$ HI
  icases HI2 with ⟨HI, HIc⟩
  imod (boxed m (lane_close m K c 1)) $$ [HIc HL1] with HL1
  · iframe
  ihave HI2 := (box_dup (invs m K)) $$ HI
  icases HI2 with ⟨HI, HIc⟩
  imod (boxed m (lane_close m K c 2)) $$ [HIc HL2] with HL2
  · iframe
  ihave HI2 := (box_dup (invs m K)) $$ HI
  icases HI2 with ⟨HI, HIc⟩
  imod (boxed m (lane_close m K c 3)) $$ [HIc HL3] with HL3
  · iframe
  ihave HI2 := (box_dup (invs m K)) $$ HI
  icases HI2 with ⟨HI, HIc⟩
  imod (boxed m (lane_close m K c 4)) $$ [HIc HL4] with HL4
  · iframe
  ihave HI2 := (box_dup (invs m K)) $$ HI
  icases HI2 with ⟨HI, HIc⟩
  imod (boxed m (lane_close m K c 5)) $$ [HIc HL5] with HL5
  · iframe
  ihave HI2 := (box_dup (invs m K)) $$ HI
  icases HI2 with ⟨HI, HIc⟩
  imod (boxed m (lane_close m K c 6)) $$ [HIc HL6] with HL6
  · iframe
  ihave HI2 := (box_dup (invs m K)) $$ HI
  icases HI2 with ⟨HI, HIc⟩
  imod (boxed m (lane_close m K c 7)) $$ [HIc HL7] with HL7
  · iframe
  rw [wp_ret]; imodintro
  iapply (body_exit m ρ c _)
  isplitl [HL0 HL1 HL2 HL3 HL4 HL5 HL6 HL7]
  · iframe
  iframe

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-- info: 'Cert.Kernel.Sched.body_obligation' depends on axioms: [propext, Classical.choice, Quot.sound] -/
#guard_msgs in #print axioms body_obligation

end Cert.Kernel.Sched

end
-- ==== Proof.lean ====
/- The certificate: the five claims of Proof/Final.lean, given the body's obligation on every device for the idealized program and for the program as printed. -/
import proofs.«901049_g7700000000001050_dist_rsdw_v7x_xyz2x2x4_z_m1024_d1024_f4096_f32_1_alg».proof.Defs
import proofs.«901049_g7700000000001050_dist_rsdw_v7x_xyz2x2x4_z_m1024_d1024_f4096_f32_1_alg».proof.Proof.Final
import proofs.«901049_g7700000000001050_dist_rsdw_v7x_xyz2x2x4_z_m1024_d1024_f4096_f32_1_alg».proof.Proof.Body
import proofs.«901049_g7700000000001050_dist_rsdw_v7x_xyz2x2x4_z_m1024_d1024_f4096_f32_1_alg».proof.Proof.Bits.Body

noncomputable section

namespace Cert.Proof

open Idealize.ShloMosaic Idealize.SL.Sem

theorem claim : Cert.Claim :=
  Cert.Proof.Final.claim_of (fun m ρ c => Cert.KernelIdeal.Sched.body_obligation m ρ c) (fun m ρ c => Cert.Kernel.Sched.body_obligation m ρ c)

end Cert.Proof

end
